-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v222)) (v1 : (c : Dev Cert.KernelIdeal.nD) → Buf (Elt Ideal) ((c.tc : Thread Cert.KernelIdeal.nD Cert.KernelIdeal.τ).loc Cert.KernelIdeal.main_v225)) (v2 : (c : Dev Cert.KernelIdeal.nD) → Buf (Elt Ideal) ((c.tc : Thread Cert.KernelIdeal.nD Cert.KernelIdeal.τ).loc Cert.KernelIdeal.main_v236)) (v3 : (c : Dev Cert.KernelIdeal.nD) → Buf (Elt Ideal) ((c.tc : Thread Cert.KernelIdeal.nD Cert.KernelIdeal.τ).loc Cert.KernelIdeal.main_v243)) (v4 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v222) = v0 c
          ∧ r.2.mem ((c.tc : Thread Cert.KernelIdeal.nD Cert.KernelIdeal.τ).loc Cert.KernelIdeal.main_v225) = v1 c
          ∧ r.2.mem ((c.tc : Thread Cert.KernelIdeal.nD Cert.KernelIdeal.τ).loc Cert.KernelIdeal.main_v236) = v2 c
          ∧ r.2.mem ((c.tc : Thread Cert.KernelIdeal.nD Cert.KernelIdeal.τ).loc Cert.KernelIdeal.main_v243) = v3 c
          ∧ r.2.mem ((c.tc : Thread Cert.KernelIdeal.nD Cert.KernelIdeal.τ).loc Cert.KernelIdeal.main_v246) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_v296) = v2 c
          ∧ r.2.mem ((c.tc : Thread Cert.ReferenceIdeal.nD Cert.ReferenceIdeal.τ).loc Cert.ReferenceIdeal.main_v305) = v3 c
          ∧ r.2.mem ((c.tc : Thread Cert.ReferenceIdeal.nD Cert.ReferenceIdeal.τ).loc Cert.ReferenceIdeal.main_v315) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part7 {F : FTy → Type} [FloatOps F] (main_v118 : IVec S_ 1) (main_v119 : FVec F S40 .f32) : IVec S_ 1 :=
  let main_cst_46 : FVec F S_ .f32 := constant S_ .f32 0x7F800000#32
  let main_v120 : FVec F S40 .f32 := broadcastInDim S40 ![] bcast_S_S40 main_cst_46
  let main_v121 : IVec S40 1 := cmpf .olt main_v119 main_v120
  let main_c_47 : IVec S_ 1 := constantI S_ 1 1#1
  let main_v122 : IVec S_ 1 := (fun x v => Host.reduce IntOp.andi x v reducesTo_S40_S_d0 h_S_) main_v121 main_c_47
  let main_v123 : IVec S_ 1 := andi main_v118 main_v122
  main_v123

def fn_part6 {F : FTy → Type} [FloatOps F] (main_arg23 : FVec F S128x64 .f32) (main_arg24 : FVec F S64 .f32) (main_arg25 : FVec F S64x40 .f32) (main_arg26 : FVec F S40 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x40 .f32 := Host.absf main_arg25
  let main_cst_44 : FVec F S_ .f32 := constant S_ .f32 0x7F800000#32
  let main_v115 : FVec F S64x40 .f32 := broadcastInDim S64x40 ![] bcast_S_S64x40 main_cst_44
  let main_v116 : IVec S64x40 1 := cmpf .olt main_v114 main_v115
  let main_c_45 : IVec S_ 1 := constantI S_ 1 1#1
  let main_v117 : IVec S_ 1 := (fun x v => Host.reduce IntOp.andi x v reducesTo_S64x40_S_d0_1 h_S_) main_v116 main_c_45
  let main_v118 : IVec S_ 1 := andi main_v113 main_v117
  let main_v119 : FVec F S40 .f32 := Host.absf main_arg26
  fn_part7 (F := F) main_v118 main_v119

def fn_part5 {F : FTy → Type} [FloatOps F] (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x256 .f32) (main_arg1 : IVec S2x1000000 32) (main_arg2 : IVec S2x1000000 32) (main_arg3 : FVec F S256x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1000000 : Shape := ⟨2, ![1, 1000000]⟩
abbrev S1000000 : Shape := ⟨1, ![1000000]⟩
abbrev S100000x128 : Shape := ⟨2, ![100000, 128]⟩
abbrev S2000x256 : Shape := ⟨2, ![2000, 256]⟩
abbrev S2000x128 : Shape := ⟨2, ![2000, 128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S1x128 : Shape := ⟨2, ![1, 128]⟩
abbrev S1x64 : Shape := ⟨2, ![1, 64]⟩
abbrev S1x40 : Shape := ⟨2, ![1, 40]⟩
abbrev S100000x40 : Shape := ⟨2, ![100000, 40]⟩
abbrev S2000x40 : Shape := ⟨2, ![2000, 40]⟩
abbrev S2000x64 : Shape := ⟨2, ![2000, 64]⟩

abbrev nBuf : Space → Nat
  | .hbm => 348
  | .vmem => 98
  | .smem => 0
  | _ => 0

abbrev hbmTy0_0 (i : Nat) : BufTy := match i % 128 with
  | 0 => ⟨S100000x256, .f32⟩
  | 1 => ⟨S2x1000000, .i32⟩
  | 2 => ⟨S2x1000000, .i32⟩
  | 3 => ⟨S256x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x64, .f32⟩
  | 24 => ⟨S64, .f32⟩
  | 25 => ⟨S64x40, .f32⟩
  | 26 => ⟨S40, .f32⟩
  | 27 => ⟨S1x1000000, .i32⟩
  | 28 => ⟨S1000000, .i32⟩
  | 29 => ⟨S1x1000000, .i32⟩
  | 30 => ⟨S1000000, .i32⟩
  | 31 => ⟨S1x1000000, .i32⟩
  | 32 => ⟨S1000000, .i32⟩
  | 33 => ⟨S1x1000000, .i32⟩
  | 34 => ⟨S1000000, .i32⟩
  | 35 => ⟨S100000x128, .f32⟩
  | 36 => ⟨S_, .f32⟩
  | 37 => ⟨S1000000, .f32⟩
  | 38 => ⟨S_, .f32⟩
  | 39 => ⟨S100000, .f32⟩
  | 40 => ⟨S1000000x1, .i32⟩
  | 41 => ⟨S100000, .f32⟩
  | 42 => ⟨S_, .f32⟩
  | 43 => ⟨S100000, .f32⟩
  | 44 => ⟨S100000, .i1⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000, .f32⟩
  | 68 => ⟨S1000000, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x128, .f32⟩
  | 78 => ⟨S1000000x1, .f32⟩
  | 79 => ⟨S1000000x128, .f32⟩
  | 80 => ⟨S1000000x128, .f32⟩
  | 81 => ⟨S_, .f32⟩
  | 82 => ⟨S100000x128, .f32⟩
  | 83 => ⟨S1000000x1, .i32⟩
  | 84 => ⟨S100000x128, .f32⟩
  | 85 => ⟨S1x128, .f32⟩
  | 86 => ⟨S100000x128, .f32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S100000x128, .f32⟩
  | 106 => ⟨S_, .f32⟩
  | 107 => ⟨S1000000, .f32⟩
  | 108 => ⟨S_, .f32⟩
  | 109 => ⟨S100000, .f32⟩
  | 110 => ⟨S1000000x1, .i32⟩
  | 111 => ⟨S100000, .f32⟩
  | 112 => ⟨S_, .f32⟩
  | 113 => ⟨S100000, .f32⟩
  | 114 => ⟨S100000, .i1⟩
  | 115 => ⟨S100000, .f32⟩
  | 116 => ⟨S_, .f32⟩
  | 117 => ⟨S_, .f32⟩
  | 118 => ⟨S100000, .f32⟩
  | 119 => ⟨S100000, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x256, .f32⟩

abbrev hbmTy0_1 (i : Nat) : BufTy := match i % 128 with
  | 0 => ⟨S1000000, .f32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000, .f32⟩
  | 10 => ⟨S1000000, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x128, .f32⟩
  | 20 => ⟨S1000000x1, .f32⟩
  | 21 => ⟨S1000000x128, .f32⟩
  | 22 => ⟨S1000000x128, .f32⟩
  | 23 => ⟨S_, .f32⟩
  | 24 => ⟨S100000x128, .f32⟩
  | 25 => ⟨S1000000x1, .i32⟩
  | 26 => ⟨S100000x128, .f32⟩
  | 27 => ⟨S1x128, .f32⟩
  | 28 => ⟨S100000x128, .f32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S100000x128, .f32⟩
  | 47 => ⟨S100000x128, .f32⟩
  | 48 => ⟨S_, .f32⟩
  | 49 => ⟨S1000000, .f32⟩
  | 50 => ⟨S_, .f32⟩
  | 51 => ⟨S100000, .f32⟩
  | 52 => ⟨S1000000x1, .i32⟩
  | 53 => ⟨S100000, .f32⟩
  | 54 => ⟨S_, .f32⟩
  | 55 => ⟨S100000, .f32⟩
  | 56 => ⟨S100000, .i1⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000, .f32⟩
  | 80 => ⟨S1000000, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S1000000x1, .f32⟩
  | 91 => ⟨S1000000x128, .f32⟩
  | 92 => ⟨S1000000x128, .f32⟩
  | 93 => ⟨S_, .f32⟩
  | 94 => ⟨S100000x128, .f32⟩
  | 95 => ⟨S1000000x1, .i32⟩
  | 96 => ⟨S100000x128, .f32⟩
  | 97 => ⟨S1x128, .f32⟩
  | 98 => ⟨S100000x128, .f32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S100000x128, .f32⟩
  | 117 => ⟨S100000x128, .f32⟩
  | 118 => ⟨S_, .f32⟩
  | 119 => ⟨S1000000, .f32⟩
  | 120 => ⟨S_, .f32⟩
  | 121 => ⟨S100000, .f32⟩
  | 122 => ⟨S1000000x1, .i32⟩
  | 123 => ⟨S100000, .f32⟩
  | 124 => ⟨S_, .f32⟩
  | 125 => ⟨S100000, .f32⟩
  | 126 => ⟨S100000, .i1⟩
  | 127 => ⟨S100000, .f32⟩
  | _ => ⟨S100000x256, .f32⟩

abbrev hbmTy0_2 (i : Nat) : BufTy := match i % 128 with
  | 0 => ⟨S_, .f32⟩
  | 1 => ⟨S_, .f32⟩
  | 2 => ⟨S100000, .f32⟩
  | 3 => ⟨S100000, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000, .f32⟩
  | 22 => ⟨S1000000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x128, .f32⟩
  | 32 => ⟨S1000000x1, .f32⟩
  | 33 => ⟨S1000000x128, .f32⟩
  | 34 => ⟨S1000000x128, .f32⟩
  | 35 => ⟨S_, .f32⟩
  | 36 => ⟨S100000x128, .f32⟩
  | 37 => ⟨S1000000x1, .i32⟩
  | 38 => ⟨S100000x128, .f32⟩
  | 39 => ⟨S1x128, .f32⟩
  | 40 => ⟨S100000x128, .f32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S100000x128, .f32⟩
  | 48 => ⟨S100000x128, .f32⟩
  | 49 => ⟨S100000x128, .f32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S100000x128, .f32⟩
  | 59 => ⟨S1x128, .f32⟩
  | 60 => ⟨S1x128, .f32⟩
  | 61 => ⟨S100000x128, .f32⟩
  | 62 => ⟨S1x128, .f32⟩
  | 63 => ⟨S1x128, .f32⟩
  | 64 => ⟨S100000x128, .f32⟩
  | 65 => ⟨S_, .f32⟩
  | 66 => ⟨S128, .f32⟩
  | 67 => ⟨S1x128, .f32⟩
  | 68 => ⟨S_, .f32⟩
  | 69 => ⟨S128, .f32⟩
  | 70 => ⟨S1x128, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x64, .f32⟩
  | 90 => ⟨S1x40, .f32⟩
  | 91 => ⟨S100000x40, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x256, .f32⟩
  | .local _ .vmem, ⟨37, _⟩ => ⟨S2000x256, .f32⟩
  | .local _ .vmem, ⟨38, _⟩ => ⟨S256x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S128x128, .f32⟩
  | .local _ .vmem, ⟨83, _⟩ => ⟨S1x128, .f32⟩
  | .local _ .vmem, ⟨84, _⟩ => ⟨S128x128, .f32⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S128x64, .f32⟩
  | .local _ .vmem, ⟨93, _⟩ => ⟨S1x64, .f32⟩
  | .local _ .vmem, ⟨94, _⟩ => ⟨S64x40, .f32⟩
  | .local _ .vmem, ⟨95, _⟩ => ⟨S1x40, .f32⟩
  | .local _ .vmem, ⟨96, _⟩ => ⟨S2000x40, .f32⟩
  | .local _ .vmem, ⟨97, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_call0_v0 : Ref sig .tc := ⟨.hbm, 47, rfl⟩
abbrev main_call0_v1 : Ref sig .tc := ⟨.hbm, 48, rfl⟩
abbrev main_v16 : Ref sig .tc := ⟨.hbm, 49, rfl⟩
abbrev main_c : Ref sig .tc := ⟨.hbm, 50, rfl⟩
abbrev main_v17 : Ref sig .tc := ⟨.hbm, 51, rfl⟩
abbrev main_v18 : Ref sig .tc := ⟨.hbm, 52, rfl⟩
abbrev main_c_3 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_4 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_6 : Ref sig .tc := ⟨.hbm, 69, rfl⟩
abbrev main_v32 : Ref sig .tc := ⟨.hbm, 70, rfl⟩
abbrev main_v33 : Ref sig .tc := ⟨.hbm, 71, rfl⟩
abbrev main_c_7 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_cst_10 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_11 : Ref sig .tc := ⟨.hbm, 96, rfl⟩
abbrev main_v54 : Ref sig .tc := ⟨.hbm, 97, rfl⟩
abbrev main_v55 : Ref sig .tc := ⟨.hbm, 98, rfl⟩
abbrev main_cst_12 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_13 : Ref sig .tc := ⟨.hbm, 106, rfl⟩
abbrev main_v62 : Ref sig .tc := ⟨.hbm, 107, rfl⟩
abbrev main_cst_14 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_15 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_16 : Ref sig .tc := ⟨.hbm, 116, rfl⟩
abbrev main_call1_v0 : Ref sig .tc := ⟨.hbm, 117, rfl⟩
abbrev main_call1_v1 : Ref sig .tc := ⟨.hbm, 118, rfl⟩
abbrev main_v69 : Ref sig .tc := ⟨.hbm, 119, rfl⟩
abbrev main_c_17 : Ref sig .tc := ⟨.hbm, 120, rfl⟩
abbrev main_v70 : Ref sig .tc := ⟨.hbm, 121, rfl⟩
abbrev main_v71 : Ref sig .tc := ⟨.hbm, 122, rfl⟩
abbrev main_c_18 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_19 : Ref sig .tc := ⟨.hbm, 129, rfl⟩
abbrev main_v77 : Ref sig .tc := ⟨.hbm, 130, rfl⟩
abbrev main_v78 : Ref sig .tc := ⟨.hbm, 131, rfl⟩
abbrev main_c_20 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_21 : Ref sig .tc := ⟨.hbm, 139, rfl⟩
abbrev main_v85 : Ref sig .tc := ⟨.hbm, 140, rfl⟩
abbrev main_v86 : Ref sig .tc := ⟨.hbm, 141, rfl⟩
abbrev main_c_22 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_23 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_24 : Ref sig .tc := ⟨.hbm, 157, rfl⟩
abbrev main_v100 : Ref sig .tc := ⟨.hbm, 158, rfl⟩
abbrev main_v101 : Ref sig .tc := ⟨.hbm, 159, rfl⟩
abbrev main_cst_25 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_26 : Ref sig .tc := ⟨.hbm, 166, rfl⟩
abbrev main_v107 : Ref sig .tc := ⟨.hbm, 167, rfl⟩
abbrev main_v108 : Ref sig .tc := ⟨.hbm, 168, rfl⟩
abbrev main_cst_27 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_28 : Ref sig .tc := ⟨.hbm, 176, rfl⟩
abbrev main_v115 : Ref sig .tc := ⟨.hbm, 177, rfl⟩
abbrev main_cst_29 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_30 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_31 : Ref sig .tc := ⟨.hbm, 186, rfl⟩
abbrev main_call2_v0 : Ref sig .tc := ⟨.hbm, 187, rfl⟩
abbrev main_call2_v1 : Ref sig .tc := ⟨.hbm, 188, rfl⟩
abbrev main_v122 : Ref sig .tc := ⟨.hbm, 189, rfl⟩
abbrev main_c_32 : Ref sig .tc := ⟨.hbm, 190, rfl⟩
abbrev main_v123 : Ref sig .tc := ⟨.hbm, 191, rfl⟩
abbrev main_v124 : Ref sig .tc := ⟨.hbm, 192, rfl⟩
abbrev main_c_33 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_34 : Ref sig .tc := ⟨.hbm, 199, rfl⟩
abbrev main_v130 : Ref sig .tc := ⟨.hbm, 200, rfl⟩
abbrev main_v131 : Ref sig .tc := ⟨.hbm, 201, rfl⟩
abbrev main_c_35 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_c_36 : Ref sig .tc := ⟨.hbm, 209, rfl⟩
abbrev main_v138 : Ref sig .tc := ⟨.hbm, 210, rfl⟩
abbrev main_v139 : Ref sig .tc := ⟨.hbm, 211, rfl⟩
abbrev main_c_37 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_38 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_cst_39 : Ref sig .tc := ⟨.hbm, 227, rfl⟩
abbrev main_v153 : Ref sig .tc := ⟨.hbm, 228, rfl⟩
abbrev main_v154 : Ref sig .tc := ⟨.hbm, 229, rfl⟩
abbrev main_cst_40 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_41 : Ref sig .tc := ⟨.hbm, 236, rfl⟩
abbrev main_v160 : Ref sig .tc := ⟨.hbm, 237, rfl⟩
abbrev main_v161 : Ref sig .tc := ⟨.hbm, 238, rfl⟩
abbrev main_cst_42 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_43 : Ref sig .tc := ⟨.hbm, 246, rfl⟩
abbrev main_v168 : Ref sig .tc := ⟨.hbm, 247, rfl⟩
abbrev main_cst_44 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_cst_45 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_cst_46 : Ref sig .tc := ⟨.hbm, 256, rfl⟩
abbrev main_call3_v0 : Ref sig .tc := ⟨.hbm, 257, rfl⟩
abbrev main_call3_v1 : Ref sig .tc := ⟨.hbm, 258, rfl⟩
abbrev main_v175 : Ref sig .tc := ⟨.hbm, 259, rfl⟩
abbrev main_c_47 : Ref sig .tc := ⟨.hbm, 260, rfl⟩
abbrev main_v176 : Ref sig .tc := ⟨.hbm, 261, rfl⟩
abbrev main_v177 : Ref sig .tc := ⟨.hbm, 262, rfl⟩
abbrev main_c_48 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_c_49 : Ref sig .tc := ⟨.hbm, 269, rfl⟩
abbrev main_v183 : Ref sig .tc := ⟨.hbm, 270, rfl⟩
abbrev main_v184 : Ref sig .tc := ⟨.hbm, 271, rfl⟩
abbrev main_c_50 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_c_51 : Ref sig .tc := ⟨.hbm, 279, rfl⟩
abbrev main_v191 : Ref sig .tc := ⟨.hbm, 280, rfl⟩
abbrev main_v192 : Ref sig .tc := ⟨.hbm, 281, rfl⟩
abbrev main_c_52 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_cst_53 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_cst_54 : Ref sig .tc := ⟨.hbm, 297, rfl⟩
abbrev main_v206 : Ref sig .tc := ⟨.hbm, 298, rfl⟩
abbrev main_v207 : Ref sig .tc := ⟨.hbm, 299, rfl⟩
abbrev main_cst_55 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_cst_56 : Ref sig .tc := ⟨.hbm, 306, rfl⟩
abbrev main_v213 : Ref sig .tc := ⟨.hbm, 307, rfl⟩
abbrev main_v214 : Ref sig .tc := ⟨.hbm, 308, rfl⟩
abbrev main_cst_57 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_cst_58 : Ref sig .tc := ⟨.hbm, 321, rfl⟩
abbrev main_v226 : Ref sig .tc := ⟨.hbm, 322, rfl⟩
abbrev main_v227 : Ref sig .tc := ⟨.hbm, 323, rfl⟩
abbrev main_cst_59 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_call4_cst : Ref sig .tc := ⟨.hbm, 330, rfl⟩
abbrev main_call4_v0 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_call5_cst : Ref sig .tc := ⟨.hbm, 339, rfl⟩
abbrev main_call5_v0 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg3_0 : Ref sig .tc := ⟨.vmem, 50, rfl⟩
abbrev cc8_stg4_0 : Ref sig .tc := ⟨.vmem, 51, rfl⟩
abbrev cc8_stg5_0 : Ref sig .tc := ⟨.vmem, 52, rfl⟩
abbrev cc8_stg5_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg2_0 : Ref sig .tc := ⟨.vmem, 62, rfl⟩
abbrev cc10_stg2_1 : Ref sig .tc := ⟨.vmem, 63, rfl⟩
abbrev cc11_stg0_0 : Ref sig .tc := ⟨.vmem, 64, rfl⟩
abbrev cc11_stg0_1 : Ref sig .tc := ⟨.vmem, 65, rfl⟩
abbrev cc11_stg1_0 : Ref sig .tc := ⟨.vmem, 66, rfl⟩
abbrev cc11_stg2_0 : Ref sig .tc := ⟨.vmem, 67, rfl⟩
abbrev cc11_stg3_0 : Ref sig .tc := ⟨.vmem, 68, rfl⟩
abbrev cc11_stg4_0 : Ref sig .tc := ⟨.vmem, 69, rfl⟩
abbrev cc11_stg5_0 : Ref sig .tc := ⟨.vmem, 70, rfl⟩
abbrev cc11_stg5_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg3_0 : Ref sig .tc := ⟨.vmem, 76, rfl⟩
abbrev cc12_stg4_0 : Ref sig .tc := ⟨.vmem, 77, rfl⟩
abbrev cc12_stg5_0 : Ref sig .tc := ⟨.vmem, 78, rfl⟩
abbrev cc12_stg5_1 : Ref sig .tc := ⟨.vmem, 79, rfl⟩
abbrev cc13_stg0_0 : Ref sig .tc := ⟨.vmem, 80, rfl⟩
abbrev cc13_stg0_1 : Ref sig .tc := ⟨.vmem, 81, rfl⟩
abbrev cc13_stg1_0 : Ref sig .tc := ⟨.vmem, 82, rfl⟩
abbrev cc13_stg2_0 : Ref sig .tc := ⟨.vmem, 83, rfl⟩
abbrev cc13_stg3_0 : Ref sig .tc := ⟨.vmem, 84, rfl⟩
abbrev cc13_stg4_0 : Ref sig .tc := ⟨.vmem, 85, rfl⟩
abbrev cc13_stg5_0 : Ref sig .tc := ⟨.vmem, 86, rfl⟩
abbrev cc13_stg5_1 : Ref sig .tc := ⟨.vmem, 87, rfl⟩
abbrev cc14_stg0_0 : Ref sig .tc := ⟨.vmem, 88, rfl⟩
abbrev cc14_stg0_1 : Ref sig .tc := ⟨.vmem, 89, rfl⟩
abbrev cc14_stg1_0 : Ref sig .tc := ⟨.vmem, 90, rfl⟩
abbrev cc14_stg1_1 : Ref sig .tc := ⟨.vmem, 91, rfl⟩
abbrev cc14_stg2_0 : Ref sig .tc := ⟨.vmem, 92, rfl⟩
abbrev cc14_stg3_0 : Ref sig .tc := ⟨.vmem, 93, rfl⟩
abbrev cc14_stg4_0 : Ref sig .tc := ⟨.vmem, 94, rfl⟩
abbrev cc14_stg5_0 : Ref sig .tc := ⟨.vmem, 95, rfl⟩
abbrev cc14_stg6_0 : Ref sig .tc := ⟨.vmem, 96, rfl⟩
abbrev cc14_stg6_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem5_0 : DmaSem sig := 52
abbrev cc8_sem5_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem2_0 : DmaSem sig := 67
abbrev cc11_sem3_0 : DmaSem sig := 68
abbrev cc11_sem4_0 : DmaSem sig := 69
abbrev cc11_sem5_0 : DmaSem sig := 70
abbrev cc11_sem5_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem3_0 : DmaSem sig := 76
abbrev cc12_sem4_0 : DmaSem sig := 77
abbrev cc12_sem5_0 : DmaSem sig := 78
abbrev cc12_sem5_1 : DmaSem sig := 79
abbrev cc13_sem0_0 : DmaSem sig := 80
abbrev cc13_sem0_1 : DmaSem sig := 81
abbrev cc13_sem1_0 : DmaSem sig := 82
abbrev cc13_sem2_0 : DmaSem sig := 83
abbrev cc13_sem3_0 : DmaSem sig := 84
abbrev cc13_sem4_0 : DmaSem sig := 85
abbrev cc13_sem5_0 : DmaSem sig := 86
abbrev cc13_sem5_1 : DmaSem sig := 87
abbrev cc14_sem0_0 : DmaSem sig := 88
abbrev cc14_sem0_1 : DmaSem sig := 89
abbrev cc14_sem1_0 : DmaSem sig := 90
abbrev cc14_sem1_1 : DmaSem sig := 91
abbrev cc14_sem2_0 : DmaSem sig := 92
abbrev cc14_sem3_0 : DmaSem sig := 93
abbrev cc14_sem4_0 : DmaSem sig := 94
abbrev cc14_sem5_0 : DmaSem sig := 95
abbrev cc14_sem6_0 : DmaSem sig := 96
abbrev cc14_sem6_1 : DmaSem sig := 97

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S2000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S64x40 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x40 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S2000x40 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  shapeCasts_S64_S1x64 : S64.ShapeCasts S1x64
  shapeCasts_S40_S1x40 : S40.ShapeCasts S1x40
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  dot_S2000x256_S256x128_S2000x128_1_0_0_1_n_n_wf : DotDims.WF S2000x256 S256x128 S2000x128 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x128_S2000x128_1_0_0_1_n_n_wf : DotDims.WF S2000x128 S128x128 S2000x128 [1] [0] [0] [1] [] []
  dot_S1x128_S128x128_S1x128_1_0_0_1_n_n_wf : DotDims.WF S1x128 S128x128 S1x128 [1] [0] [0] [1] [] []
  dot_S2000x128_S128x64_S2000x64_1_0_0_1_n_n_wf : DotDims.WF S2000x128 S128x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S100000x128.size a
  hwx7_2 : ∀ i : grid7.Coords, EltTy.bits .f32 = 32 ∨ (Rect.block (s := S100000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S100000x128.size a
  hwx8_5 : ∀ i : grid8.Coords, EltTy.bits .f32 = 32 ∨ (Rect.block (s := S100000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S100000x128.size a
  hwx9_2 : ∀ i : grid9.Coords, EltTy.bits .f32 = 32 ∨ (Rect.block (s := S100000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S100000x128.size a
  hwx10_2 : ∀ i : grid10.Coords, EltTy.bits .f32 = 32 ∨ (Rect.block (s := S100000x128) S2000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S100000x128.size a
  hwx11_0 : ∀ i : grid11.Coords, EltTy.bits .f32 = 32 ∨ (Rect.block (s := S100000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S100000x128.size a
  hwx11_5 : ∀ i : grid11.Coords, EltTy.bits .f32 = 32 ∨ (Rect.block (s := S100000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S100000x128.size a
  hwx12_0 : ∀ i : grid12.Coords, EltTy.bits .f32 = 32 ∨ (Rect.block (s := S100000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x128.size a ≤ S128x128.size a
  hwx12_3 : ∀ i : grid12.Coords, EltTy.bits .f32 = 32 ∨ (Rect.block (s := S128x128) S128x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x128.size a ≤ S100000x128.size a
  hwx12_5 : ∀ i : grid12.Coords, EltTy.bits .f32 = 32 ∨ (Rect.block (s := S100000x128) S2000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S100000x128.size a
  hwx13_0 : ∀ i : grid13.Coords, EltTy.bits .f32 = 32 ∨ (Rect.block (s := S100000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x128.size a ≤ S100000x128.size a
  hwx13_5 : ∀ i : grid13.Coords, EltTy.bits .f32 = 32 ∨ (Rect.block (s := S100000x128) S2000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S100000x128.size a
  hwx14_0 : ∀ i : grid14.Coords, EltTy.bits .f32 = 32 ∨ (Rect.block (s := S100000x128) S2000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x128.size a ≤ S100000x128.size a
  hwx14_1 : ∀ i : grid14.Coords, EltTy.bits .f32 = 32 ∨ (Rect.block (s := S100000x128) S2000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x64.size a ≤ S128x64.size a
  hwx14_2 : ∀ i : grid14.Coords, EltTy.bits .f32 = 32 ∨ (Rect.block (s := S128x64) S128x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S64x40.size a ≤ S64x40.size a
  hwx14_4 : ∀ i : grid14.Coords, EltTy.bits .f32 = 32 ∨ (Rect.block (s := S64x40) S64x40.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x40.size a ≤ S1x40.size a
  hwx14_5 : ∀ i : grid14.Coords, EltTy.bits .f32 = 32 ∨ (Rect.block (s := S1x40) S1x40.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S2000x40.size a ≤ S100000x40.size a
  hwx14_6 : ∀ i : grid14.Coords, EltTy.bits .f32 = 32 ∨ (Rect.block (s := S100000x40) S2000x40.size (cc14_transform_6 i) (hinb14_6 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v97) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v114) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v150) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v152) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v152) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v156) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v163) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v164) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v165) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v166) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v166) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v167) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v203) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v204) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v205) S2000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v205) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v209) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v216) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v217) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v218) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v219) S2000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v113) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v220) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg21) S128x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v221) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v222) S2000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v219) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg19) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v223) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg21) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v224) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v225) S2000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v222) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v225) S2000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_arg23) S128x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v244) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_arg25) S64x40.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v245) S1x40.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v246) S2000x40.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1000000 : Shape := ⟨2, ![1, 1000000]⟩
abbrev S1000000 : Shape := ⟨1, ![1000000]⟩
abbrev S100000x128 : Shape := ⟨2, ![100000, 128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S1x128 : Shape := ⟨2, ![1, 128]⟩
abbrev S100000x64 : Shape := ⟨2, ![100000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 431
  | .vmem => 0
  | .smem => 0
  | _ => 0

abbrev hbmTy0_0 (i : Nat) : BufTy := match i % 128 with
  | 0 => ⟨S100000x256, .f32⟩
  | 1 => ⟨S2x1000000, .i32⟩
  | 2 => ⟨S2x1000000, .i32⟩
  | 3 => ⟨S256x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x64, .f32⟩
  | 24 => ⟨S64, .f32⟩
  | 25 => ⟨S64x40, .f32⟩
  | 26 => ⟨S40, .f32⟩
  | 27 => ⟨S1x1000000, .i32⟩
  | 28 => ⟨S1000000, .i32⟩
  | 29 => ⟨S1x1000000, .i32⟩
  | 30 => ⟨S1000000, .i32⟩
  | 31 => ⟨S100000x128, .f32⟩
  | 32 => ⟨S_, .f32⟩
  | 33 => ⟨S1000000, .f32⟩
  | 34 => ⟨S_, .f32⟩
  | 35 => ⟨S100000, .f32⟩
  | 36 => ⟨S1000000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .f32⟩
  | 64 => ⟨S1000000, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x128, .f32⟩
  | 74 => ⟨S1000000x1, .f32⟩
  | 75 => ⟨S1000000x128, .f32⟩
  | 76 => ⟨S1000000x128, .f32⟩
  | 77 => ⟨S_, .f32⟩
  | 78 => ⟨S100000x128, .f32⟩
  | 79 => ⟨S1000000x1, .i32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S1000000, .f32⟩
  | 120 => ⟨S_, .f32⟩
  | 121 => ⟨S100000, .f32⟩
  | 122 => ⟨S1000000x1, .i32⟩
  | 123 => ⟨S100000, .f32⟩
  | 124 => ⟨S_, .f32⟩
  | 125 => ⟨S100000, .f32⟩
  | 126 => ⟨S100000, .i1⟩
  | 127 => ⟨S100000, .f32⟩
  | _ => ⟨S100000x256, .f32⟩

abbrev hbmTy0_1 (i : Nat) : BufTy := match i % 128 with
  | 0 => ⟨S_, .f32⟩
  | 1 => ⟨S_, .f32⟩
  | 2 => ⟨S100000, .f32⟩
  | 3 => ⟨S100000, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000, .f32⟩
  | 22 => ⟨S1000000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x128, .f32⟩
  | 32 => ⟨S1000000x1, .f32⟩
  | 33 => ⟨S1000000x128, .f32⟩
  | 34 => ⟨S1000000x128, .f32⟩
  | 35 => ⟨S_, .f32⟩
  | 36 => ⟨S100000x128, .f32⟩
  | 37 => ⟨S1000000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S1x1000000, .i32⟩
  | 73 => ⟨S1000000, .i32⟩
  | 74 => ⟨S1x1000000, .i32⟩
  | 75 => ⟨S1000000, .i32⟩
  | 76 => ⟨S100000x128, .f32⟩
  | 77 => ⟨S_, .f32⟩
  | 78 => ⟨S1000000, .f32⟩
  | 79 => ⟨S_, .f32⟩
  | 80 => ⟨S100000, .f32⟩
  | 81 => ⟨S1000000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000, .f32⟩
  | 109 => ⟨S1000000, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x128, .f32⟩
  | 119 => ⟨S1000000x1, .f32⟩
  | 120 => ⟨S1000000x128, .f32⟩
  | 121 => ⟨S1000000x128, .f32⟩
  | 122 => ⟨S_, .f32⟩
  | 123 => ⟨S100000x128, .f32⟩
  | 124 => ⟨S1000000x1, .i32⟩
  | 125 => ⟨S100000x128, .f32⟩
  | 126 => ⟨S1x128, .f32⟩
  | 127 => ⟨S100000x128, .f32⟩
  | _ => ⟨S100000x256, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S100000x128, .f32⟩
  | 35 => ⟨S_, .f32⟩
  | 36 => ⟨S1000000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000, .f32⟩
  | 67 => ⟨S1000000, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x128, .f32⟩
  | 77 => ⟨S1000000x1, .f32⟩
  | 78 => ⟨S1000000x128, .f32⟩
  | 79 => ⟨S1000000x128, .f32⟩
  | 80 => ⟨S_, .f32⟩
  | 81 => ⟨S100000x128, .f32⟩
  | 82 => ⟨S1000000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x256, .f32⟩

abbrev hbmTy0_3 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S1x128, .f32⟩
  | 14 => ⟨S1x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S_, .f32⟩
  | 24 => ⟨S128, .f32⟩
  | 25 => ⟨S1x128, .f32⟩
  | 26 => ⟨S1x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S100000x128, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x40, .f32⟩
  | 44 => ⟨S1x40, .f32⟩
  | 45 => ⟨S100000x40, .f32⟩
  | 46 => ⟨S100000x40, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v12 : Ref sig .tc := ⟨.hbm, 45, rfl⟩
abbrev main_c : Ref sig .tc := ⟨.hbm, 46, rfl⟩
abbrev main_v13 : Ref sig .tc := ⟨.hbm, 47, rfl⟩
abbrev main_v14 : Ref sig .tc := ⟨.hbm, 48, rfl⟩
abbrev main_c_3 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call1_cst : Ref sig .tc := ⟨.hbm, 84, rfl⟩
abbrev main_call1_v0 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_cst_10 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_cst_12 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_13 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_cst_15 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_16 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_17 : Ref sig .tc := ⟨.hbm, 128, rfl⟩
abbrev main_call2_v0 : Ref sig .tc := ⟨.hbm, 129, rfl⟩
abbrev main_call2_v1 : Ref sig .tc := ⟨.hbm, 130, rfl⟩
abbrev main_v78 : Ref sig .tc := ⟨.hbm, 131, rfl⟩
abbrev main_c_18 : Ref sig .tc := ⟨.hbm, 132, rfl⟩
abbrev main_v79 : Ref sig .tc := ⟨.hbm, 133, rfl⟩
abbrev main_v80 : Ref sig .tc := ⟨.hbm, 134, rfl⟩
abbrev main_c_19 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_c_20 : Ref sig .tc := ⟨.hbm, 141, rfl⟩
abbrev main_v86 : Ref sig .tc := ⟨.hbm, 142, rfl⟩
abbrev main_v87 : Ref sig .tc := ⟨.hbm, 143, rfl⟩
abbrev main_c_21 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_c_22 : Ref sig .tc := ⟨.hbm, 151, rfl⟩
abbrev main_v94 : Ref sig .tc := ⟨.hbm, 152, rfl⟩
abbrev main_v95 : Ref sig .tc := ⟨.hbm, 153, rfl⟩
abbrev main_c_23 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_24 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_25 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_27 : Ref sig .tc := ⟨.hbm, 179, rfl⟩
abbrev main_v117 : Ref sig .tc := ⟨.hbm, 180, rfl⟩
abbrev main_cst_28 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_29 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_cst_30 : Ref sig .tc := ⟨.hbm, 205, rfl⟩
abbrev main_v140 : Ref sig .tc := ⟨.hbm, 206, rfl⟩
abbrev main_cst_31 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_32 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_33 : Ref sig .tc := ⟨.hbm, 215, rfl⟩
abbrev main_call3_v0 : Ref sig .tc := ⟨.hbm, 216, rfl⟩
abbrev main_call3_v1 : Ref sig .tc := ⟨.hbm, 217, rfl⟩
abbrev main_v147 : Ref sig .tc := ⟨.hbm, 218, rfl⟩
abbrev main_c_34 : Ref sig .tc := ⟨.hbm, 219, rfl⟩
abbrev main_v148 : Ref sig .tc := ⟨.hbm, 220, rfl⟩
abbrev main_v149 : Ref sig .tc := ⟨.hbm, 221, rfl⟩
abbrev main_c_35 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_c_36 : Ref sig .tc := ⟨.hbm, 228, rfl⟩
abbrev main_v155 : Ref sig .tc := ⟨.hbm, 229, rfl⟩
abbrev main_v156 : Ref sig .tc := ⟨.hbm, 230, rfl⟩
abbrev main_c_37 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_c_38 : Ref sig .tc := ⟨.hbm, 238, rfl⟩
abbrev main_v163 : Ref sig .tc := ⟨.hbm, 239, rfl⟩
abbrev main_v164 : Ref sig .tc := ⟨.hbm, 240, rfl⟩
abbrev main_c_39 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_40 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_call4_cst : Ref sig .tc := ⟨.hbm, 257, rfl⟩
abbrev main_call4_v0 : Ref sig .tc := ⟨.hbm, 258, rfl⟩
abbrev main_v179 : Ref sig .tc := ⟨.hbm, 259, rfl⟩
abbrev main_cst_41 : Ref sig .tc := ⟨.hbm, 260, rfl⟩
abbrev main_v180 : Ref sig .tc := ⟨.hbm, 261, rfl⟩
abbrev main_cst_42 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_43 : Ref sig .tc := ⟨.hbm, 269, rfl⟩
abbrev main_v187 : Ref sig .tc := ⟨.hbm, 270, rfl⟩
abbrev main_cst_44 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_cst_45 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_cst_46 : Ref sig .tc := ⟨.hbm, 291, rfl⟩
abbrev main_v206 : Ref sig .tc := ⟨.hbm, 292, rfl⟩
abbrev main_cst_47 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_cst_48 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_49 : Ref sig .tc := ⟨.hbm, 301, rfl⟩
abbrev main_call5_v0 : Ref sig .tc := ⟨.hbm, 302, rfl⟩
abbrev main_call5_v1 : Ref sig .tc := ⟨.hbm, 303, rfl⟩
abbrev main_v213 : Ref sig .tc := ⟨.hbm, 304, rfl⟩
abbrev main_c_50 : Ref sig .tc := ⟨.hbm, 305, rfl⟩
abbrev main_v214 : Ref sig .tc := ⟨.hbm, 306, rfl⟩
abbrev main_v215 : Ref sig .tc := ⟨.hbm, 307, rfl⟩
abbrev main_c_51 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_c_52 : Ref sig .tc := ⟨.hbm, 314, rfl⟩
abbrev main_v221 : Ref sig .tc := ⟨.hbm, 315, rfl⟩
abbrev main_v222 : Ref sig .tc := ⟨.hbm, 316, rfl⟩
abbrev main_c_53 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_c_54 : Ref sig .tc := ⟨.hbm, 324, rfl⟩
abbrev main_v229 : Ref sig .tc := ⟨.hbm, 325, rfl⟩
abbrev main_v230 : Ref sig .tc := ⟨.hbm, 326, rfl⟩
abbrev main_c_55 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_cst_56 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_cst_57 : Ref sig .tc := ⟨.hbm, 343, rfl⟩
abbrev main_v245 : Ref sig .tc := ⟨.hbm, 344, rfl⟩
abbrev main_cst_58 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_cst_59 : Ref sig .tc := ⟨.hbm, 352, rfl⟩
abbrev main_v252 : Ref sig .tc := ⟨.hbm, 353, rfl⟩
abbrev main_cst_60 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_cst_61 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_call6_cst : Ref sig .tc := ⟨.hbm, 377, rfl⟩
abbrev main_call6_v0 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_call7_cst : Ref sig .tc := ⟨.hbm, 388, rfl⟩
abbrev main_call7_v0 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_cst_62 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_call8_cst : Ref sig .tc := ⟨.hbm, 401, rfl⟩
abbrev main_call8_v0 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_cst_63 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_call9_cst : Ref sig .tc := ⟨.hbm, 413, rfl⟩
abbrev main_call9_v0 : Ref sig .tc := ⟨.hbm, 414, rfl⟩
abbrev main_v302 : Ref sig .tc := ⟨.hbm, 415, rfl⟩
abbrev main_v303 : Ref sig .tc := ⟨.hbm, 416, rfl⟩
abbrev main_v304 : Ref sig .tc := ⟨.hbm, 417, rfl⟩
abbrev main_v305 : Ref sig .tc := ⟨.hbm, 418, rfl⟩
abbrev main_v306 : Ref sig .tc := ⟨.hbm, 419, rfl⟩
abbrev main_v307 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_call10_cst : Ref sig .tc := ⟨.hbm, 424, rfl⟩
abbrev main_call10_v0 : Ref sig .tc := ⟨.hbm, 425, rfl⟩
abbrev main_v311 : Ref sig .tc := ⟨.hbm, 426, rfl⟩
abbrev main_v312 : Ref sig .tc := ⟨.hbm, 427, rfl⟩
abbrev main_v313 : Ref sig .tc := ⟨.hbm, 428, rfl⟩
abbrev main_v314 : Ref sig .tc := ⟨.hbm, 429, rfl⟩
abbrev main_v315 : Ref sig .tc := ⟨.hbm, 430, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S100000x128_S128x64_S100000x64_1_0_0_1_n_n_wf : DotDims.WF S100000x128 S128x64 S100000x64 [1] [0] [0] [1] [] []
  dot_S100000x64_S64x40_S100000x40_1_0_0_1_n_n_wf : DotDims.WF S100000x64 S64x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KPassK.lean ====
import proofs.«125188_j57878979281252_1_alg».proof.Proof.FrameKa
import Idealize.ShloMosaic.Lib.StableHlo.Run

set_option maxRecDepth 16384

noncomputable section

namespace Cert.Kernel.KPass

open Cert.Kernel Cert.Kernel.Gen Cert.Kernel.GenP
open Idealize.ShloMosaic Idealize.ShloMosaic.TcCoe Idealize.SL.Sem

variable {F : FTy → Type} [FloatOps F]
variable (m : (ℓ : Loc nD τ sig) → Buf (Elt F) ℓ) (ρ : Dev nD → PrngReg)

-- An operation whose one result is a listed reference writes only listed references.
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

macro "writes_sub" : tactic =>
  `(tactic| (simp only [List.Forall]; repeat' apply And.intro
             all_goals exact sub_of_mem (by decide)))

-- The references each stretch of host operations writes, in order.
abbrev hostOps0_W : List (Ref sig .tc) := [main_v0, main_v1, main_v2, main_v3, main_v4, main_v5, main_v6, main_v7]
abbrev hostOps1_W : List (Ref sig .tc) := [main_cst, main_v9, main_cst_0, main_v10, main_v11, main_v12, main_cst_1, main_v13, main_v14, main_v15, main_cst_2]
abbrev hostOps1_1_W : List (Ref sig .tc) := [main_call0_v0, main_call0_v1, main_v16]
abbrev hostOps1_2_W : List (Ref sig .tc) := [main_c, main_v17, main_v18, main_c_3, main_v19, main_v20, main_v21, main_v22, main_v23, main_c_4, main_v24, main_v25, main_c_5, main_v26, main_v27, main_v28, main_v29, main_v30, main_v31, main_c_6, main_v32, main_v33, main_c_7, main_v34, main_v35, main_v36, main_v37, main_v38, main_v39, main_v40, main_v41, main_cst_8, main_v42, main_v43, main_v44, main_v45]
abbrev hostOps2_W : List (Ref sig .tc) := [main_cst_9, main_v47, main_v48, main_cst_10, main_v49, main_v50, main_v51, main_v52, main_v53, main_cst_11, main_v54, main_v55, main_cst_12, main_v56, main_v57, main_v58, main_v59]
abbrev hostOps4_W : List (Ref sig .tc) := [main_cst_13, main_v62, main_cst_14, main_v63, main_v64, main_v65, main_cst_15, main_v66, main_v67, main_v68, main_cst_16]
abbrev hostOps4_1_W : List (Ref sig .tc) := [main_call1_v0, main_call1_v1, main_v69]
abbrev hostOps4_2_W : List (Ref sig .tc) := [main_c_17, main_v70, main_v71, main_c_18, main_v72, main_v73, main_v74, main_v75, main_v76, main_c_19, main_v77, main_v78, main_c_20, main_v79, main_v80, main_v81, main_v82, main_v83, main_v84, main_c_21, main_v85, main_v86, main_c_22, main_v87, main_v88, main_v89, main_v90, main_v91, main_v92, main_v93, main_v94, main_cst_23, main_v95, main_v96, main_v97, main_v98]
abbrev hostOps5_W : List (Ref sig .tc) := [main_cst_24, main_v100, main_v101, main_cst_25, main_v102, main_v103, main_v104, main_v105, main_v106, main_cst_26, main_v107, main_v108, main_cst_27, main_v109, main_v110, main_v111, main_v112]
abbrev hostOps7_W : List (Ref sig .tc) := [main_cst_28, main_v115, main_cst_29, main_v116, main_v117, main_v118, main_cst_30, main_v119, main_v120, main_v121, main_cst_31]
abbrev hostOps7_1_W : List (Ref sig .tc) := [main_call2_v0, main_call2_v1, main_v122]
abbrev hostOps7_2_W : List (Ref sig .tc) := [main_c_32, main_v123, main_v124, main_c_33, main_v125, main_v126, main_v127, main_v128, main_v129, main_c_34, main_v130, main_v131, main_c_35, main_v132, main_v133, main_v134, main_v135, main_v136, main_v137, main_c_36, main_v138, main_v139, main_c_37, main_v140, main_v141, main_v142, main_v143, main_v144, main_v145, main_v146, main_v147, main_cst_38, main_v148, main_v149, main_v150, main_v151]
abbrev hostOps8_W : List (Ref sig .tc) := [main_cst_39, main_v153, main_v154, main_cst_40, main_v155, main_v156, main_v157, main_v158, main_v159, main_cst_41, main_v160, main_v161, main_cst_42, main_v162, main_v163, main_v164, main_v165]
abbrev hostOps10_W : List (Ref sig .tc) := [main_cst_43, main_v168, main_cst_44, main_v169, main_v170, main_v171, main_cst_45, main_v172, main_v173, main_v174, main_cst_46]
abbrev hostOps10_1_W : List (Ref sig .tc) := [main_call3_v0, main_call3_v1, main_v175]
abbrev hostOps10_2_W : List (Ref sig .tc) := [main_c_47, main_v176, main_v177, main_c_48, main_v178, main_v179, main_v180, main_v181, main_v182, main_c_49, main_v183, main_v184, main_c_50, main_v185, main_v186, main_v187, main_v188, main_v189, main_v190, main_c_51, main_v191, main_v192, main_c_52, main_v193, main_v194, main_v195, main_v196, main_v197, main_v198, main_v199, main_v200, main_cst_53, main_v201, main_v202, main_v203, main_v204]
abbrev hostOps11_W : List (Ref sig .tc) := [main_cst_54, main_v206, main_v207, main_cst_55, main_v208, main_v209, main_v210, main_v211, main_v212, main_cst_56, main_v213, main_v214, main_cst_57, main_v215, main_v216, main_v217, main_v218]
abbrev hostOps12_W : List (Ref sig .tc) := [main_v220, main_v221]
abbrev hostOps13_W : List (Ref sig .tc) := [main_v223, main_v224]
abbrev hostOps14_W : List (Ref sig .tc) := [main_cst_58, main_v226, main_v227, main_cst_59, main_v228, main_v229, main_v230, main_v231, main_v232]
abbrev hostOps14_1_W : List (Ref sig .tc) := [main_call4_cst, main_call4_v0, main_v233]
abbrev hostOps14_2_W : List (Ref sig .tc) := [main_v234, main_v235, main_v236, main_v237, main_v238, main_v239]
abbrev hostOps14_3_W : List (Ref sig .tc) := [main_call5_cst, main_call5_v0, main_v240]
abbrev hostOps14_4_W : List (Ref sig .tc) := [main_v241, main_v242, main_v243, main_v244, main_v245]

-- Across a stretch a reference it does not write keeps its contents; across a region so does every reference that
-- is no output window's array (an input window's array is only read).
theorem step1 (c : Dev nD) (b : Ref sig .tc) (h : b ∉ hostOps0_W) :
    W1 m ρ c (Proc.devRef .tc b) = W0 m ρ c (Proc.devRef .tc b) :=
  StableHlo.after_of_writes_sub hostOps0 _ (by writes_sub) h
theorem step2 (c : Dev nD) (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩
theorem step3 (c : Dev nD) (b : Ref sig .tc) (h : b ∉ hostOps1_W) :
    W3 m ρ c (Proc.devRef .tc b) = W2 m ρ c (Proc.devRef .tc b) :=
  StableHlo.after_of_writes_sub hostOps1 _ (by writes_sub) h
theorem step4 (c : Dev nD) (b : Ref sig .tc) (h : b ∉ hostOps1_1_W) :
    W4 m ρ c (Proc.devRef .tc b) = W3 m ρ c (Proc.devRef .tc b) :=
  StableHlo.after_of_writes_sub hostOps1_1 _ (by writes_sub) h
theorem step5 (c : Dev nD) (b : Ref sig .tc) (h : b ∉ hostOps1_2_W) :
    W5 m ρ c (Proc.devRef .tc b) = W4 m ρ c (Proc.devRef .tc b) :=
  StableHlo.after_of_writes_sub hostOps1_2 _ (by writes_sub) h
theorem step6 (c : Dev nD) (b : Ref sig .tc) (h : ∀ w, Pipeline.arrRef spec1 w = b → (cfg1.win w).isOut = false) :
    W6 m ρ c (Proc.devRef .tc b) = W5 m ρ c (Proc.devRef .tc b) := by
  by_cases hb : ∃ w, Pipeline.arrRef spec1 w = b
  · obtain ⟨w, rfl⟩ := hb
    exact (W6_arr m ρ c w).trans (((dat1 (V5 m ρ) c).arrAt_in w (h w rfl) _).trans (A_eq1 (V5 m ρ) c w))
  · exact W6_of_ne m ρ c b fun w e => hb ⟨w, e⟩
theorem step7 (c : Dev nD) (b : Ref sig .tc) (h : b ∉ hostOps2_W) :
    W7 m ρ c (Proc.devRef .tc b) = W6 m ρ c (Proc.devRef .tc b) :=
  StableHlo.after_of_writes_sub hostOps2 _ (by writes_sub) h
theorem step8 (c : Dev nD) (b : Ref sig .tc) (h : ∀ w, Pipeline.arrRef spec2 w = b → (cfg2.win w).isOut = false) :
    W8 m ρ c (Proc.devRef .tc b) = W7 m ρ c (Proc.devRef .tc b) := by
  by_cases hb : ∃ w, Pipeline.arrRef spec2 w = b
  · obtain ⟨w, rfl⟩ := hb
    exact (W8_arr m ρ c w).trans (((dat2 (V7 m ρ) c).arrAt_in w (h w rfl) _).trans (A_eq2 (V7 m ρ) c w))
  · exact W8_of_ne m ρ c b fun w e => hb ⟨w, e⟩
theorem step9 (c : Dev nD) (b : Ref sig .tc) (h : ∀ w, Pipeline.arrRef spec3 w = b → (cfg3.win w).isOut = false) :
    W9 m ρ c (Proc.devRef .tc b) = W8 m ρ c (Proc.devRef .tc b) := by
  by_cases hb : ∃ w, Pipeline.arrRef spec3 w = b
  · obtain ⟨w, rfl⟩ := hb
    exact (W9_arr m ρ c w).trans (((dat3 (V8 m ρ) c).arrAt_in w (h w rfl) _).trans (A_eq3 (V8 m ρ) c w))
  · exact W9_of_ne m ρ c b fun w e => hb ⟨w, e⟩
theorem step10 (c : Dev nD) (b : Ref sig .tc) (h : b ∉ hostOps4_W) :
    W10 m ρ c (Proc.devRef .tc b) = W9 m ρ c (Proc.devRef .tc b) :=
  StableHlo.after_of_writes_sub hostOps4 _ (by writes_sub) h
theorem step11 (c : Dev nD) (b : Ref sig .tc) (h : b ∉ hostOps4_1_W) :
    W11 m ρ c (Proc.devRef .tc b) = W10 m ρ c (Proc.devRef .tc b) :=
  StableHlo.after_of_writes_sub hostOps4_1 _ (by writes_sub) h
theorem step12 (c : Dev nD) (b : Ref sig .tc) (h : b ∉ hostOps4_2_W) :
    W12 m ρ c (Proc.devRef .tc b) = W11 m ρ c (Proc.devRef .tc b) :=
  StableHlo.after_of_writes_sub hostOps4_2 _ (by writes_sub) h
theorem step13 (c : Dev nD) (b : Ref sig .tc) (h : ∀ w, Pipeline.arrRef spec4 w = b → (cfg4.win w).isOut = false) :
    W13 m ρ c (Proc.devRef .tc b) = W12 m ρ c (Proc.devRef .tc b) := by
  by_cases hb : ∃ w, Pipeline.arrRef spec4 w = b
  · obtain ⟨w, rfl⟩ := hb
    exact (W13_arr m ρ c w).trans (((dat4 (V12 m ρ) c).arrAt_in w (h w rfl) _).trans (A_eq4 (V12 m ρ) c w))
  · exact W13_of_ne m ρ c b fun w e => hb ⟨w, e⟩
theorem step14 (c : Dev nD) (b : Ref sig .tc) (h : b ∉ hostOps5_W) :
    W14 m ρ c (Proc.devRef .tc b) = W13 m ρ c (Proc.devRef .tc b) :=
  StableHlo.after_of_writes_sub hostOps5 _ (by writes_sub) h
theorem step15 (c : Dev nD) (b : Ref sig .tc) (h : ∀ w, Pipeline.arrRef spec5 w = b → (cfg5.win w).isOut = false) :
    W15 m ρ c (Proc.devRef .tc b) = W14 m ρ c (Proc.devRef .tc b) := by
  by_cases hb : ∃ w, Pipeline.arrRef spec5 w = b
  · obtain ⟨w, rfl⟩ := hb
    exact (W15_arr m ρ c w).trans (((dat5 (V14 m ρ) c).arrAt_in w (h w rfl) _).trans (A_eq5 (V14 m ρ) c w))
  · exact W15_of_ne m ρ c b fun w e => hb ⟨w, e⟩
theorem step16 (c : Dev nD) (b : Ref sig .tc) (h : ∀ w, Pipeline.arrRef spec6 w = b → (cfg6.win w).isOut = false) :
    W16 m ρ c (Proc.devRef .tc b) = W15 m ρ c (Proc.devRef .tc b) := by
  by_cases hb : ∃ w, Pipeline.arrRef spec6 w = b
  · obtain ⟨w, rfl⟩ := hb
    exact (W16_arr m ρ c w).trans (((dat6 (V15 m ρ) c).arrAt_in w (h w rfl) _).trans (A_eq6 (V15 m ρ) c w))
  · exact W16_of_ne m ρ c b fun w e => hb ⟨w, e⟩
theorem step17 (c : Dev nD) (b : Ref sig .tc) (h : b ∉ hostOps7_W) :
    W17 m ρ c (Proc.devRef .tc b) = W16 m ρ c (Proc.devRef .tc b) :=
  StableHlo.after_of_writes_sub hostOps7 _ (by writes_sub) h
theorem step18 (c : Dev nD) (b : Ref sig .tc) (h : b ∉ hostOps7_1_W) :
    W18 m ρ c (Proc.devRef .tc b) = W17 m ρ c (Proc.devRef .tc b) :=
  StableHlo.after_of_writes_sub hostOps7_1 _ (by writes_sub) h
theorem step19 (c : Dev nD) (b : Ref sig .tc) (h : b ∉ hostOps7_2_W) :
    W19 m ρ c (Proc.devRef .tc b) = W18 m ρ c (Proc.devRef .tc b) :=
  StableHlo.after_of_writes_sub hostOps7_2 _ (by writes_sub) h
theorem step20 (c : Dev nD) (b : Ref sig .tc) (h : ∀ w, Pipeline.arrRef spec7 w = b → (cfg7.win w).isOut = false) :
    W20 m ρ c (Proc.devRef .tc b) = W19 m ρ c (Proc.devRef .tc b) := by
  by_cases hb : ∃ w, Pipeline.arrRef spec7 w = b
  · obtain ⟨w, rfl⟩ := hb
    exact (W20_arr m ρ c w).trans (((dat7 (V19 m ρ) c).arrAt_in w (h w rfl) _).trans (A_eq7 (V19 m ρ) c w))
  · exact W20_of_ne m ρ c b fun w e => hb ⟨w, e⟩
theorem step21 (c : Dev nD) (b : Ref sig .tc) (h : b ∉ hostOps8_W) :
    W21 m ρ c (Proc.devRef .tc b) = W20 m ρ c (Proc.devRef .tc b) :=
  StableHlo.after_of_writes_sub hostOps8 _ (by writes_sub) h
theorem step22 (c : Dev nD) (b : Ref sig .tc) (h : ∀ w, Pipeline.arrRef spec8 w = b → (cfg8.win w).isOut = false) :
    W22 m ρ c (Proc.devRef .tc b) = W21 m ρ c (Proc.devRef .tc b) := by
  by_cases hb : ∃ w, Pipeline.arrRef spec8 w = b
  · obtain ⟨w, rfl⟩ := hb
    exact (W22_arr m ρ c w).trans (((dat8 (V21 m ρ) c).arrAt_in w (h w rfl) _).trans (A_eq8 (V21 m ρ) c w))
  · exact W22_of_ne m ρ c b fun w e => hb ⟨w, e⟩
theorem step23 (c : Dev nD) (b : Ref sig .tc) (h : ∀ w, Pipeline.arrRef spec9 w = b → (cfg9.win w).isOut = false) :
    W23 m ρ c (Proc.devRef .tc b) = W22 m ρ c (Proc.devRef .tc b) := by
  by_cases hb : ∃ w, Pipeline.arrRef spec9 w = b
  · obtain ⟨w, rfl⟩ := hb
    exact (W23_arr m ρ c w).trans (((dat9 (V22 m ρ) c).arrAt_in w (h w rfl) _).trans (A_eq9 (V22 m ρ) c w))
  · exact W23_of_ne m ρ c b fun w e => hb ⟨w, e⟩
theorem step24 (c : Dev nD) (b : Ref sig .tc) (h : b ∉ hostOps10_W) :
    W24 m ρ c (Proc.devRef .tc b) = W23 m ρ c (Proc.devRef .tc b) :=
  StableHlo.after_of_writes_sub hostOps10 _ (by writes_sub) h
theorem step25 (c : Dev nD) (b : Ref sig .tc) (h : b ∉ hostOps10_1_W) :
    W25 m ρ c (Proc.devRef .tc b) = W24 m ρ c (Proc.devRef .tc b) :=
  StableHlo.after_of_writes_sub hostOps10_1 _ (by writes_sub) h
theorem step26 (c : Dev nD) (b : Ref sig .tc) (h : b ∉ hostOps10_2_W) :
    W26 m ρ c (Proc.devRef .tc b) = W25 m ρ c (Proc.devRef .tc b) :=
  StableHlo.after_of_writes_sub hostOps10_2 _ (by writes_sub) h
theorem step27 (c : Dev nD) (b : Ref sig .tc) (h : ∀ w, Pipeline.arrRef spec10 w = b → (cfg10.win w).isOut = false) :
    W27 m ρ c (Proc.devRef .tc b) = W26 m ρ c (Proc.devRef .tc b) := by
  by_cases hb : ∃ w, Pipeline.arrRef spec10 w = b
  · obtain ⟨w, rfl⟩ := hb
    exact (W27_arr m ρ c w).trans (((dat10 (V26 m ρ) c).arrAt_in w (h w rfl) _).trans (A_eq10 (V26 m ρ) c w))
  · exact W27_of_ne m ρ c b fun w e => hb ⟨w, e⟩
theorem step28 (c : Dev nD) (b : Ref sig .tc) (h : b ∉ hostOps11_W) :
    W28 m ρ c (Proc.devRef .tc b) = W27 m ρ c (Proc.devRef .tc b) :=
  StableHlo.after_of_writes_sub hostOps11 _ (by writes_sub) h
theorem step29 (c : Dev nD) (b : Ref sig .tc) (h : ∀ w, Pipeline.arrRef spec11 w = b → (cfg11.win w).isOut = false) :
    W29 m ρ c (Proc.devRef .tc b) = W28 m ρ c (Proc.devRef .tc b) := by
  by_cases hb : ∃ w, Pipeline.arrRef spec11 w = b
  · obtain ⟨w, rfl⟩ := hb
    exact (W29_arr m ρ c w).trans (((dat11 (V28 m ρ) c).arrAt_in w (h w rfl) _).trans (A_eq11 (V28 m ρ) c w))
  · exact W29_of_ne m ρ c b fun w e => hb ⟨w, e⟩
theorem step30 (c : Dev nD) (b : Ref sig .tc) (h : b ∉ hostOps12_W) :
    W30 m ρ c (Proc.devRef .tc b) = W29 m ρ c (Proc.devRef .tc b) :=
  StableHlo.after_of_writes_sub hostOps12 _ (by writes_sub) h
theorem step31 (c : Dev nD) (b : Ref sig .tc) (h : ∀ w, Pipeline.arrRef spec12 w = b → (cfg12.win w).isOut = false) :
    W31 m ρ c (Proc.devRef .tc b) = W30 m ρ c (Proc.devRef .tc b) := by
  by_cases hb : ∃ w, Pipeline.arrRef spec12 w = b
  · obtain ⟨w, rfl⟩ := hb
    exact (W31_arr m ρ c w).trans (((dat12 (V30 m ρ) c).arrAt_in w (h w rfl) _).trans (A_eq12 (V30 m ρ) c w))
  · exact W31_of_ne m ρ c b fun w e => hb ⟨w, e⟩
theorem step32 (c : Dev nD) (b : Ref sig .tc) (h : b ∉ hostOps13_W) :
    W32 m ρ c (Proc.devRef .tc b) = W31 m ρ c (Proc.devRef .tc b) :=
  StableHlo.after_of_writes_sub hostOps13 _ (by writes_sub) h
theorem step33 (c : Dev nD) (b : Ref sig .tc) (h : ∀ w, Pipeline.arrRef spec13 w = b → (cfg13.win w).isOut = false) :
    W33 m ρ c (Proc.devRef .tc b) = W32 m ρ c (Proc.devRef .tc b) := by
  by_cases hb : ∃ w, Pipeline.arrRef spec13 w = b
  · obtain ⟨w, rfl⟩ := hb
    exact (W33_arr m ρ c w).trans (((dat13 (V32 m ρ) c).arrAt_in w (h w rfl) _).trans (A_eq13 (V32 m ρ) c w))
  · exact W33_of_ne m ρ c b fun w e => hb ⟨w, e⟩
theorem step34 (c : Dev nD) (b : Ref sig .tc) (h : b ∉ hostOps14_W) :
    W34 m ρ c (Proc.devRef .tc b) = W33 m ρ c (Proc.devRef .tc b) :=
  StableHlo.after_of_writes_sub hostOps14 _ (by writes_sub) h
theorem step35 (c : Dev nD) (b : Ref sig .tc) (h : b ∉ hostOps14_1_W) :
    W35 m ρ c (Proc.devRef .tc b) = W34 m ρ c (Proc.devRef .tc b) :=
  StableHlo.after_of_writes_sub hostOps14_1 _ (by writes_sub) h
theorem step36 (c : Dev nD) (b : Ref sig .tc) (h : b ∉ hostOps14_2_W) :
    W36 m ρ c (Proc.devRef .tc b) = W35 m ρ c (Proc.devRef .tc b) :=
  StableHlo.after_of_writes_sub hostOps14_2 _ (by writes_sub) h
theorem step37 (c : Dev nD) (b : Ref sig .tc) (h : b ∉ hostOps14_3_W) :
    W37 m ρ c (Proc.devRef .tc b) = W36 m ρ c (Proc.devRef .tc b) :=
  StableHlo.after_of_writes_sub hostOps14_3 _ (by writes_sub) h
theorem step38 (c : Dev nD) (b : Ref sig .tc) (h : b ∉ hostOps14_4_W) :
    W38 m ρ c (Proc.devRef .tc b) = W37 m ρ c (Proc.devRef .tc b) :=
  StableHlo.after_of_writes_sub hostOps14_4 _ (by writes_sub) h
theorem step39 (c : Dev nD) (b : Ref sig .tc) (h : ∀ w, Pipeline.arrRef spec14 w = b → (cfg14.win w).isOut = false) :
    W39 m ρ c (Proc.devRef .tc b) = W38 m ρ c (Proc.devRef .tc b) := by
  by_cases hb : ∃ w, Pipeline.arrRef spec14 w = b
  · obtain ⟨w, rfl⟩ := hb
    exact (W39_arr m ρ c w).trans (((dat14 (V38 m ρ) c).arrAt_in w (h w rfl) _).trans (A_eq14 (V38 m ρ) c w))
  · exact W39_of_ne m ρ c b fun w e => hb ⟨w, e⟩

-- Walk a buffer's contents back across every boundary whose segment does not write it.
macro "kpass" : tactic =>
  `(tactic| repeat (first
      | (rw [step39]; rotate_left; focus decide)
      | (rw [step38]; rotate_left; focus decide)
      | (rw [step37]; rotate_left; focus decide)
      | (rw [step36]; rotate_left; focus decide)
      | (rw [step35]; rotate_left; focus decide)
      | (rw [step34]; rotate_left; focus decide)
      | (rw [step33]; rotate_left; focus decide)
      | (rw [step32]; rotate_left; focus decide)
      | (rw [step31]; rotate_left; focus decide)
      | (rw [step30]; rotate_left; focus decide)
      | (rw [step29]; rotate_left; focus decide)
      | (rw [step28]; rotate_left; focus decide)
      | (rw [step27]; rotate_left; focus decide)
      | (rw [step26]; rotate_left; focus decide)
      | (rw [step25]; rotate_left; focus decide)
      | (rw [step24]; rotate_left; focus decide)
      | (rw [step23]; rotate_left; focus decide)
      | (rw [step22]; rotate_left; focus decide)
      | (rw [step21]; rotate_left; focus decide)
      | (rw [step20]; rotate_left; focus decide)
      | (rw [step19]; rotate_left; focus decide)
      | (rw [step18]; rotate_left; focus decide)
      | (rw [step17]; rotate_left; focus decide)
      | (rw [step16]; rotate_left; focus decide)
      | (rw [step15]; rotate_left; focus decide)
      | (rw [step14]; rotate_left; focus decide)
      | (rw [step13]; rotate_left; focus decide)
      | (rw [step12]; rotate_left; focus decide)
      | (rw [step11]; rotate_left; focus decide)
      | (rw [step10]; rotate_left; focus decide)
      | (rw [step9]; rotate_left; focus decide)
      | (rw [step8]; rotate_left; focus decide)
      | (rw [step7]; rotate_left; focus decide)
      | (rw [step6]; rotate_left; focus decide)
      | (rw [step5]; rotate_left; focus decide)
      | (rw [step4]; rotate_left; focus decide)
      | (rw [step3]; rotate_left; focus decide)
      | (rw [step2]; rotate_left; focus decide)
      | (rw [step1]; rotate_left; focus decide)))

end Cert.Kernel.KPass

namespace Cert.Kernel.GenP

open Cert.Kernel Cert.Kernel.Gen Cert.Kernel.KPass
open Idealize.ShloMosaic Idealize.ShloMosaic.TcCoe Idealize.SL.Sem

variable {F : FTy → Type} [FloatOps F]
variable (m : (ℓ : Loc nD τ sig) → Buf (Elt F) ℓ) (ρ : Dev nD → PrngReg)

-- No segment writes an argument array: it ends as launched.
theorem W39_main_arg0 (c : Dev nD) : W39 m ρ c (Proc.devRef .tc main_arg0) = m ((c : Thread nD τ).loc main_arg0) := by
  kpass <;> rfl
theorem W39_main_arg1 (c : Dev nD) : W39 m ρ c (Proc.devRef .tc main_arg1) = m ((c : Thread nD τ).loc main_arg1) := by
  kpass <;> rfl
theorem W39_main_arg2 (c : Dev nD) : W39 m ρ c (Proc.devRef .tc main_arg2) = m ((c : Thread nD τ).loc main_arg2) := by
  kpass <;> rfl
theorem W39_main_arg3 (c : Dev nD) : W39 m ρ c (Proc.devRef .tc main_arg3) = m ((c : Thread nD τ).loc main_arg3) := by
  kpass <;> rfl
theorem W39_main_arg4 (c : Dev nD) : W39 m ρ c (Proc.devRef .tc main_arg4) = m ((c : Thread nD τ).loc main_arg4) := by
  kpass <;> rfl
theorem W39_main_arg5 (c : Dev nD) : W39 m ρ c (Proc.devRef .tc main_arg5) = m ((c : Thread nD τ).loc main_arg5) := by
  kpass <;> rfl
theorem W39_main_arg6 (c : Dev nD) : W39 m ρ c (Proc.devRef .tc main_arg6) = m ((c : Thread nD τ).loc main_arg6) := by
  kpass <;> rfl
theorem W39_main_arg7 (c : Dev nD) : W39 m ρ c (Proc.devRef .tc main_arg7) = m ((c : Thread nD τ).loc main_arg7) := by
  kpass <;> rfl
theorem W39_main_arg8 (c : Dev nD) : W39 m ρ c (Proc.devRef .tc main_arg8) = m ((c : Thread nD τ).loc main_arg8) := by
  kpass <;> rfl
theorem W39_main_arg9 (c : Dev nD) : W39 m ρ c (Proc.devRef .tc main_arg9) = m ((c : Thread nD τ).loc main_arg9) := by
  kpass <;> rfl
theorem W39_main_arg10 (c : Dev nD) : W39 m ρ c (Proc.devRef .tc main_arg10) = m ((c : Thread nD τ).loc main_arg10) := by
  kpass <;> rfl
theorem W39_main_arg11 (c : Dev nD) : W39 m ρ c (Proc.devRef .tc main_arg11) = m ((c : Thread nD τ).loc main_arg11) := by
  kpass <;> rfl
theorem W39_main_arg12 (c : Dev nD) : W39 m ρ c (Proc.devRef .tc main_arg12) = m ((c : Thread nD τ).loc main_arg12) := by
  kpass <;> rfl
theorem W39_main_arg13 (c : Dev nD) : W39 m ρ c (Proc.devRef .tc main_arg13) = m ((c : Thread nD τ).loc main_arg13) := by
  kpass <;> rfl
theorem W39_main_arg14 (c : Dev nD) : W39 m ρ c (Proc.devRef .tc main_arg14) = m ((c : Thread nD τ).loc main_arg14) := by
  kpass <;> rfl
theorem W39_main_arg15 (c : Dev nD) : W39 m ρ c (Proc.devRef .tc main_arg15) = m ((c : Thread nD τ).loc main_arg15) := by
  kpass <;> rfl
theorem W39_main_arg16 (c : Dev nD) : W39 m ρ c (Proc.devRef .tc main_arg16) = m ((c : Thread nD τ).loc main_arg16) := by
  kpass <;> rfl
theorem W39_main_arg17 (c : Dev nD) : W39 m ρ c (Proc.devRef .tc main_arg17) = m ((c : Thread nD τ).loc main_arg17) := by
  kpass <;> rfl
theorem W39_main_arg18 (c : Dev nD) : W39 m ρ c (Proc.devRef .tc main_arg18) = m ((c : Thread nD τ).loc main_arg18) := by
  kpass <;> rfl
theorem W39_main_arg19 (c : Dev nD) : W39 m ρ c (Proc.devRef .tc main_arg19) = m ((c : Thread nD τ).loc main_arg19) := by
  kpass <;> rfl
theorem W39_main_arg20 (c : Dev nD) : W39 m ρ c (Proc.devRef .tc main_arg20) = m ((c : Thread nD τ).loc main_arg20) := by
  kpass <;> rfl
theorem W39_main_arg21 (c : Dev nD) : W39 m ρ c (Proc.devRef .tc main_arg21) = m ((c : Thread nD τ).loc main_arg21) := by
  kpass <;> rfl
theorem W39_main_arg22 (c : Dev nD) : W39 m ρ c (Proc.devRef .tc main_arg22) = m ((c : Thread nD τ).loc main_arg22) := by
  kpass <;> rfl
theorem W39_main_arg23 (c : Dev nD) : W39 m ρ c (Proc.devRef .tc main_arg23) = m ((c : Thread nD τ).loc main_arg23) := by
  kpass <;> rfl
theorem W39_main_arg24 (c : Dev nD) : W39 m ρ c (Proc.devRef .tc main_arg24) = m ((c : Thread nD τ).loc main_arg24) := by
  kpass <;> rfl
theorem W39_main_arg25 (c : Dev nD) : W39 m ρ c (Proc.devRef .tc main_arg25) = m ((c : Thread nD τ).loc main_arg25) := by
  kpass <;> rfl
theorem W39_main_arg26 (c : Dev nD) : W39 m ρ c (Proc.devRef .tc main_arg26) = m ((c : Thread nD τ).loc main_arg26) := by
  kpass <;> rfl

end Cert.Kernel.GenP

end
-- ==== Proof.KPass.lean ====
import proofs.«125188_j57878979281252_1_alg».proof.Proof.FrameKIa
import Idealize.ShloMosaic.Lib.StableHlo.Run

set_option maxRecDepth 16384

noncomputable section

namespace Cert.KernelIdeal.KPass

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

-- An operation whose one result is a listed reference writes only listed references.
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

macro "writes_sub" : tactic =>
  `(tactic| (simp only [List.Forall]; repeat' apply And.intro
             all_goals exact sub_of_mem (by decide)))

-- The references each stretch of host operations writes, in order.
abbrev hostOps0_W : List (Ref sig .tc) := [main_v0, main_v1, main_v2, main_v3, main_v4, main_v5, main_v6, main_v7]
abbrev hostOps1_W : List (Ref sig .tc) := [main_cst, main_v9, main_cst_0, main_v10, main_v11, main_v12, main_cst_1, main_v13, main_v14, main_v15, main_cst_2]
abbrev hostOps1_1_W : List (Ref sig .tc) := [main_call0_v0, main_call0_v1, main_v16]
abbrev hostOps1_2_W : List (Ref sig .tc) := [main_c, main_v17, main_v18, main_c_3, main_v19, main_v20, main_v21, main_v22, main_v23, main_c_4, main_v24, main_v25, main_c_5, main_v26, main_v27, main_v28, main_v29, main_v30, main_v31, main_c_6, main_v32, main_v33, main_c_7, main_v34, main_v35, main_v36, main_v37, main_v38, main_v39, main_v40, main_v41, main_cst_8, main_v42, main_v43, main_v44, main_v45]
abbrev hostOps2_W : List (Ref sig .tc) := [main_cst_9, main_v47, main_v48, main_cst_10, main_v49, main_v50, main_v51, main_v52, main_v53, main_cst_11, main_v54, main_v55, main_cst_12, main_v56, main_v57, main_v58, main_v59]
abbrev hostOps4_W : List (Ref sig .tc) := [main_cst_13, main_v62, main_cst_14, main_v63, main_v64, main_v65, main_cst_15, main_v66, main_v67, main_v68, main_cst_16]
abbrev hostOps4_1_W : List (Ref sig .tc) := [main_call1_v0, main_call1_v1, main_v69]
abbrev hostOps4_2_W : List (Ref sig .tc) := [main_c_17, main_v70, main_v71, main_c_18, main_v72, main_v73, main_v74, main_v75, main_v76, main_c_19, main_v77, main_v78, main_c_20, main_v79, main_v80, main_v81, main_v82, main_v83, main_v84, main_c_21, main_v85, main_v86, main_c_22, main_v87, main_v88, main_v89, main_v90, main_v91, main_v92, main_v93, main_v94, main_cst_23, main_v95, main_v96, main_v97, main_v98]
abbrev hostOps5_W : List (Ref sig .tc) := [main_cst_24, main_v100, main_v101, main_cst_25, main_v102, main_v103, main_v104, main_v105, main_v106, main_cst_26, main_v107, main_v108, main_cst_27, main_v109, main_v110, main_v111, main_v112]
abbrev hostOps7_W : List (Ref sig .tc) := [main_cst_28, main_v115, main_cst_29, main_v116, main_v117, main_v118, main_cst_30, main_v119, main_v120, main_v121, main_cst_31]
abbrev hostOps7_1_W : List (Ref sig .tc) := [main_call2_v0, main_call2_v1, main_v122]
abbrev hostOps7_2_W : List (Ref sig .tc) := [main_c_32, main_v123, main_v124, main_c_33, main_v125, main_v126, main_v127, main_v128, main_v129, main_c_34, main_v130, main_v131, main_c_35, main_v132, main_v133, main_v134, main_v135, main_v136, main_v137, main_c_36, main_v138, main_v139, main_c_37, main_v140, main_v141, main_v142, main_v143, main_v144, main_v145, main_v146, main_v147, main_cst_38, main_v148, main_v149, main_v150, main_v151]
abbrev hostOps8_W : List (Ref sig .tc) := [main_cst_39, main_v153, main_v154, main_cst_40, main_v155, main_v156, main_v157, main_v158, main_v159, main_cst_41, main_v160, main_v161, main_cst_42, main_v162, main_v163, main_v164, main_v165]
abbrev hostOps10_W : List (Ref sig .tc) := [main_cst_43, main_v168, main_cst_44, main_v169, main_v170, main_v171, main_cst_45, main_v172, main_v173, main_v174, main_cst_46]
abbrev hostOps10_1_W : List (Ref sig .tc) := [main_call3_v0, main_call3_v1, main_v175]
abbrev hostOps10_2_W : List (Ref sig .tc) := [main_c_47, main_v176, main_v177, main_c_48, main_v178, main_v179, main_v180, main_v181, main_v182, main_c_49, main_v183, main_v184, main_c_50, main_v185, main_v186, main_v187, main_v188, main_v189, main_v190, main_c_51, main_v191, main_v192, main_c_52, main_v193, main_v194, main_v195, main_v196, main_v197, main_v198, main_v199, main_v200, main_cst_53, main_v201, main_v202, main_v203, main_v204]
abbrev hostOps11_W : List (Ref sig .tc) := [main_cst_54, main_v206, main_v207, main_cst_55, main_v208, main_v209, main_v210, main_v211, main_v212, main_cst_56, main_v213, main_v214, main_cst_57, main_v215, main_v216, main_v217, main_v218]
abbrev hostOps12_W : List (Ref sig .tc) := [main_v220, main_v221]
abbrev hostOps13_W : List (Ref sig .tc) := [main_v223, main_v224]
abbrev hostOps14_W : List (Ref sig .tc) := [main_cst_58, main_v226, main_v227, main_cst_59, main_v228, main_v229, main_v230, main_v231, main_v232]
abbrev hostOps14_1_W : List (Ref sig .tc) := [main_call4_cst, main_call4_v0, main_v233]
abbrev hostOps14_2_W : List (Ref sig .tc) := [main_v234, main_v235, main_v236, main_v237, main_v238, main_v239]
abbrev hostOps14_3_W : List (Ref sig .tc) := [main_call5_cst, main_call5_v0, main_v240]
abbrev hostOps14_4_W : List (Ref sig .tc) := [main_v241, main_v242, main_v243, main_v244, main_v245]

-- Across a stretch a reference it does not write keeps its contents; across a region so does every reference that
-- is no output window's array (an input window's array is only read).
theorem step1 (c : Dev nD) (b : Ref sig .tc) (h : b ∉ hostOps0_W) :
    W1 m ρ c (Proc.devRef .tc b) = W0 m ρ c (Proc.devRef .tc b) :=
  StableHlo.after_of_writes_sub hostOps0 _ (by writes_sub) h
theorem step2 (c : Dev nD) (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩
theorem step3 (c : Dev nD) (b : Ref sig .tc) (h : b ∉ hostOps1_W) :
    W3 m ρ c (Proc.devRef .tc b) = W2 m ρ c (Proc.devRef .tc b) :=
  StableHlo.after_of_writes_sub hostOps1 _ (by writes_sub) h
theorem step4 (c : Dev nD) (b : Ref sig .tc) (h : b ∉ hostOps1_1_W) :
    W4 m ρ c (Proc.devRef .tc b) = W3 m ρ c (Proc.devRef .tc b) :=
  StableHlo.after_of_writes_sub hostOps1_1 _ (by writes_sub) h
theorem step5 (c : Dev nD) (b : Ref sig .tc) (h : b ∉ hostOps1_2_W) :
    W5 m ρ c (Proc.devRef .tc b) = W4 m ρ c (Proc.devRef .tc b) :=
  StableHlo.after_of_writes_sub hostOps1_2 _ (by writes_sub) h
theorem step6 (c : Dev nD) (b : Ref sig .tc) (h : ∀ w, Pipeline.arrRef spec1 w = b → (cfg1.win w).isOut = false) :
    W6 m ρ c (Proc.devRef .tc b) = W5 m ρ c (Proc.devRef .tc b) := by
  by_cases hb : ∃ w, Pipeline.arrRef spec1 w = b
  · obtain ⟨w, rfl⟩ := hb
    exact (W6_arr m ρ c w).trans (((dat1 (V5 m ρ) c).arrAt_in w (h w rfl) _).trans (A_eq1 (V5 m ρ) c w))
  · exact W6_of_ne m ρ c b fun w e => hb ⟨w, e⟩
theorem step7 (c : Dev nD) (b : Ref sig .tc) (h : b ∉ hostOps2_W) :
    W7 m ρ c (Proc.devRef .tc b) = W6 m ρ c (Proc.devRef .tc b) :=
  StableHlo.after_of_writes_sub hostOps2 _ (by writes_sub) h
theorem step8 (c : Dev nD) (b : Ref sig .tc) (h : ∀ w, Pipeline.arrRef spec2 w = b → (cfg2.win w).isOut = false) :
    W8 m ρ c (Proc.devRef .tc b) = W7 m ρ c (Proc.devRef .tc b) := by
  by_cases hb : ∃ w, Pipeline.arrRef spec2 w = b
  · obtain ⟨w, rfl⟩ := hb
    exact (W8_arr m ρ c w).trans (((dat2 (V7 m ρ) c).arrAt_in w (h w rfl) _).trans (A_eq2 (V7 m ρ) c w))
  · exact W8_of_ne m ρ c b fun w e => hb ⟨w, e⟩
theorem step9 (c : Dev nD) (b : Ref sig .tc) (h : ∀ w, Pipeline.arrRef spec3 w = b → (cfg3.win w).isOut = false) :
    W9 m ρ c (Proc.devRef .tc b) = W8 m ρ c (Proc.devRef .tc b) := by
  by_cases hb : ∃ w, Pipeline.arrRef spec3 w = b
  · obtain ⟨w, rfl⟩ := hb
    exact (W9_arr m ρ c w).trans (((dat3 (V8 m ρ) c).arrAt_in w (h w rfl) _).trans (A_eq3 (V8 m ρ) c w))
  · exact W9_of_ne m ρ c b fun w e => hb ⟨w, e⟩
theorem step10 (c : Dev nD) (b : Ref sig .tc) (h : b ∉ hostOps4_W) :
    W10 m ρ c (Proc.devRef .tc b) = W9 m ρ c (Proc.devRef .tc b) :=
  StableHlo.after_of_writes_sub hostOps4 _ (by writes_sub) h
theorem step11 (c : Dev nD) (b : Ref sig .tc) (h : b ∉ hostOps4_1_W) :
    W11 m ρ c (Proc.devRef .tc b) = W10 m ρ c (Proc.devRef .tc b) :=
  StableHlo.after_of_writes_sub hostOps4_1 _ (by writes_sub) h
theorem step12 (c : Dev nD) (b : Ref sig .tc) (h : b ∉ hostOps4_2_W) :
    W12 m ρ c (Proc.devRef .tc b) = W11 m ρ c (Proc.devRef .tc b) :=
  StableHlo.after_of_writes_sub hostOps4_2 _ (by writes_sub) h
theorem step13 (c : Dev nD) (b : Ref sig .tc) (h : ∀ w, Pipeline.arrRef spec4 w = b → (cfg4.win w).isOut = false) :
    W13 m ρ c (Proc.devRef .tc b) = W12 m ρ c (Proc.devRef .tc b) := by
  by_cases hb : ∃ w, Pipeline.arrRef spec4 w = b
  · obtain ⟨w, rfl⟩ := hb
    exact (W13_arr m ρ c w).trans (((dat4 (V12 m ρ) c).arrAt_in w (h w rfl) _).trans (A_eq4 (V12 m ρ) c w))
  · exact W13_of_ne m ρ c b fun w e => hb ⟨w, e⟩
theorem step14 (c : Dev nD) (b : Ref sig .tc) (h : b ∉ hostOps5_W) :
    W14 m ρ c (Proc.devRef .tc b) = W13 m ρ c (Proc.devRef .tc b) :=
  StableHlo.after_of_writes_sub hostOps5 _ (by writes_sub) h
theorem step15 (c : Dev nD) (b : Ref sig .tc) (h : ∀ w, Pipeline.arrRef spec5 w = b → (cfg5.win w).isOut = false) :
    W15 m ρ c (Proc.devRef .tc b) = W14 m ρ c (Proc.devRef .tc b) := by
  by_cases hb : ∃ w, Pipeline.arrRef spec5 w = b
  · obtain ⟨w, rfl⟩ := hb
    exact (W15_arr m ρ c w).trans (((dat5 (V14 m ρ) c).arrAt_in w (h w rfl) _).trans (A_eq5 (V14 m ρ) c w))
  · exact W15_of_ne m ρ c b fun w e => hb ⟨w, e⟩
theorem step16 (c : Dev nD) (b : Ref sig .tc) (h : ∀ w, Pipeline.arrRef spec6 w = b → (cfg6.win w).isOut = false) :
    W16 m ρ c (Proc.devRef .tc b) = W15 m ρ c (Proc.devRef .tc b) := by
  by_cases hb : ∃ w, Pipeline.arrRef spec6 w = b
  · obtain ⟨w, rfl⟩ := hb
    exact (W16_arr m ρ c w).trans (((dat6 (V15 m ρ) c).arrAt_in w (h w rfl) _).trans (A_eq6 (V15 m ρ) c w))
  · exact W16_of_ne m ρ c b fun w e => hb ⟨w, e⟩
theorem step17 (c : Dev nD) (b : Ref sig .tc) (h : b ∉ hostOps7_W) :
    W17 m ρ c (Proc.devRef .tc b) = W16 m ρ c (Proc.devRef .tc b) :=
  StableHlo.after_of_writes_sub hostOps7 _ (by writes_sub) h
theorem step18 (c : Dev nD) (b : Ref sig .tc) (h : b ∉ hostOps7_1_W) :
    W18 m ρ c (Proc.devRef .tc b) = W17 m ρ c (Proc.devRef .tc b) :=
  StableHlo.after_of_writes_sub hostOps7_1 _ (by writes_sub) h
theorem step19 (c : Dev nD) (b : Ref sig .tc) (h : b ∉ hostOps7_2_W) :
    W19 m ρ c (Proc.devRef .tc b) = W18 m ρ c (Proc.devRef .tc b) :=
  StableHlo.after_of_writes_sub hostOps7_2 _ (by writes_sub) h
theorem step20 (c : Dev nD) (b : Ref sig .tc) (h : ∀ w, Pipeline.arrRef spec7 w = b → (cfg7.win w).isOut = false) :
    W20 m ρ c (Proc.devRef .tc b) = W19 m ρ c (Proc.devRef .tc b) := by
  by_cases hb : ∃ w, Pipeline.arrRef spec7 w = b
  · obtain ⟨w, rfl⟩ := hb
    exact (W20_arr m ρ c w).trans (((dat7 (V19 m ρ) c).arrAt_in w (h w rfl) _).trans (A_eq7 (V19 m ρ) c w))
  · exact W20_of_ne m ρ c b fun w e => hb ⟨w, e⟩
theorem step21 (c : Dev nD) (b : Ref sig .tc) (h : b ∉ hostOps8_W) :
    W21 m ρ c (Proc.devRef .tc b) = W20 m ρ c (Proc.devRef .tc b) :=
  StableHlo.after_of_writes_sub hostOps8 _ (by writes_sub) h
theorem step22 (c : Dev nD) (b : Ref sig .tc) (h : ∀ w, Pipeline.arrRef spec8 w = b → (cfg8.win w).isOut = false) :
    W22 m ρ c (Proc.devRef .tc b) = W21 m ρ c (Proc.devRef .tc b) := by
  by_cases hb : ∃ w, Pipeline.arrRef spec8 w = b
  · obtain ⟨w, rfl⟩ := hb
    exact (W22_arr m ρ c w).trans (((dat8 (V21 m ρ) c).arrAt_in w (h w rfl) _).trans (A_eq8 (V21 m ρ) c w))
  · exact W22_of_ne m ρ c b fun w e => hb ⟨w, e⟩
theorem step23 (c : Dev nD) (b : Ref sig .tc) (h : ∀ w, Pipeline.arrRef spec9 w = b → (cfg9.win w).isOut = false) :
    W23 m ρ c (Proc.devRef .tc b) = W22 m ρ c (Proc.devRef .tc b) := by
  by_cases hb : ∃ w, Pipeline.arrRef spec9 w = b
  · obtain ⟨w, rfl⟩ := hb
    exact (W23_arr m ρ c w).trans (((dat9 (V22 m ρ) c).arrAt_in w (h w rfl) _).trans (A_eq9 (V22 m ρ) c w))
  · exact W23_of_ne m ρ c b fun w e => hb ⟨w, e⟩
theorem step24 (c : Dev nD) (b : Ref sig .tc) (h : b ∉ hostOps10_W) :
    W24 m ρ c (Proc.devRef .tc b) = W23 m ρ c (Proc.devRef .tc b) :=
  StableHlo.after_of_writes_sub hostOps10 _ (by writes_sub) h
theorem step25 (c : Dev nD) (b : Ref sig .tc) (h : b ∉ hostOps10_1_W) :
    W25 m ρ c (Proc.devRef .tc b) = W24 m ρ c (Proc.devRef .tc b) :=
  StableHlo.after_of_writes_sub hostOps10_1 _ (by writes_sub) h
theorem step26 (c : Dev nD) (b : Ref sig .tc) (h : b ∉ hostOps10_2_W) :
    W26 m ρ c (Proc.devRef .tc b) = W25 m ρ c (Proc.devRef .tc b) :=
  StableHlo.after_of_writes_sub hostOps10_2 _ (by writes_sub) h
theorem step27 (c : Dev nD) (b : Ref sig .tc) (h : ∀ w, Pipeline.arrRef spec10 w = b → (cfg10.win w).isOut = false) :
    W27 m ρ c (Proc.devRef .tc b) = W26 m ρ c (Proc.devRef .tc b) := by
  by_cases hb : ∃ w, Pipeline.arrRef spec10 w = b
  · obtain ⟨w, rfl⟩ := hb
    exact (W27_arr m ρ c w).trans (((dat10 (V26 m ρ) c).arrAt_in w (h w rfl) _).trans (A_eq10 (V26 m ρ) c w))
  · exact W27_of_ne m ρ c b fun w e => hb ⟨w, e⟩
theorem step28 (c : Dev nD) (b : Ref sig .tc) (h : b ∉ hostOps11_W) :
    W28 m ρ c (Proc.devRef .tc b) = W27 m ρ c (Proc.devRef .tc b) :=
  StableHlo.after_of_writes_sub hostOps11 _ (by writes_sub) h
theorem step29 (c : Dev nD) (b : Ref sig .tc) (h : ∀ w, Pipeline.arrRef spec11 w = b → (cfg11.win w).isOut = false) :
    W29 m ρ c (Proc.devRef .tc b) = W28 m ρ c (Proc.devRef .tc b) := by
  by_cases hb : ∃ w, Pipeline.arrRef spec11 w = b
  · obtain ⟨w, rfl⟩ := hb
    exact (W29_arr m ρ c w).trans (((dat11 (V28 m ρ) c).arrAt_in w (h w rfl) _).trans (A_eq11 (V28 m ρ) c w))
  · exact W29_of_ne m ρ c b fun w e => hb ⟨w, e⟩
theorem step30 (c : Dev nD) (b : Ref sig .tc) (h : b ∉ hostOps12_W) :
    W30 m ρ c (Proc.devRef .tc b) = W29 m ρ c (Proc.devRef .tc b) :=
  StableHlo.after_of_writes_sub hostOps12 _ (by writes_sub) h
theorem step31 (c : Dev nD) (b : Ref sig .tc) (h : ∀ w, Pipeline.arrRef spec12 w = b → (cfg12.win w).isOut = false) :
    W31 m ρ c (Proc.devRef .tc b) = W30 m ρ c (Proc.devRef .tc b) := by
  by_cases hb : ∃ w, Pipeline.arrRef spec12 w = b
  · obtain ⟨w, rfl⟩ := hb
    exact (W31_arr m ρ c w).trans (((dat12 (V30 m ρ) c).arrAt_in w (h w rfl) _).trans (A_eq12 (V30 m ρ) c w))
  · exact W31_of_ne m ρ c b fun w e => hb ⟨w, e⟩
theorem step32 (c : Dev nD) (b : Ref sig .tc) (h : b ∉ hostOps13_W) :
    W32 m ρ c (Proc.devRef .tc b) = W31 m ρ c (Proc.devRef .tc b) :=
  StableHlo.after_of_writes_sub hostOps13 _ (by writes_sub) h
theorem step33 (c : Dev nD) (b : Ref sig .tc) (h : ∀ w, Pipeline.arrRef spec13 w = b → (cfg13.win w).isOut = false) :
    W33 m ρ c (Proc.devRef .tc b) = W32 m ρ c (Proc.devRef .tc b) := by
  by_cases hb : ∃ w, Pipeline.arrRef spec13 w = b
  · obtain ⟨w, rfl⟩ := hb
    exact (W33_arr m ρ c w).trans (((dat13 (V32 m ρ) c).arrAt_in w (h w rfl) _).trans (A_eq13 (V32 m ρ) c w))
  · exact W33_of_ne m ρ c b fun w e => hb ⟨w, e⟩
theorem step34 (c : Dev nD) (b : Ref sig .tc) (h : b ∉ hostOps14_W) :
    W34 m ρ c (Proc.devRef .tc b) = W33 m ρ c (Proc.devRef .tc b) :=
  StableHlo.after_of_writes_sub hostOps14 _ (by writes_sub) h
theorem step35 (c : Dev nD) (b : Ref sig .tc) (h : b ∉ hostOps14_1_W) :
    W35 m ρ c (Proc.devRef .tc b) = W34 m ρ c (Proc.devRef .tc b) :=
  StableHlo.after_of_writes_sub hostOps14_1 _ (by writes_sub) h
theorem step36 (c : Dev nD) (b : Ref sig .tc) (h : b ∉ hostOps14_2_W) :
    W36 m ρ c (Proc.devRef .tc b) = W35 m ρ c (Proc.devRef .tc b) :=
  StableHlo.after_of_writes_sub hostOps14_2 _ (by writes_sub) h
theorem step37 (c : Dev nD) (b : Ref sig .tc) (h : b ∉ hostOps14_3_W) :
    W37 m ρ c (Proc.devRef .tc b) = W36 m ρ c (Proc.devRef .tc b) :=
  StableHlo.after_of_writes_sub hostOps14_3 _ (by writes_sub) h
theorem step38 (c : Dev nD) (b : Ref sig .tc) (h : b ∉ hostOps14_4_W) :
    W38 m ρ c (Proc.devRef .tc b) = W37 m ρ c (Proc.devRef .tc b) :=
  StableHlo.after_of_writes_sub hostOps14_4 _ (by writes_sub) h
theorem step39 (c : Dev nD) (b : Ref sig .tc) (h : ∀ w, Pipeline.arrRef spec14 w = b → (cfg14.win w).isOut = false) :
    W39 m ρ c (Proc.devRef .tc b) = W38 m ρ c (Proc.devRef .tc b) := by
  by_cases hb : ∃ w, Pipeline.arrRef spec14 w = b
  · obtain ⟨w, rfl⟩ := hb
    exact (W39_arr m ρ c w).trans (((dat14 (V38 m ρ) c).arrAt_in w (h w rfl) _).trans (A_eq14 (V38 m ρ) c w))
  · exact W39_of_ne m ρ c b fun w e => hb ⟨w, e⟩

-- Walk a buffer's contents back across every boundary whose segment does not write it.
macro "kpass" : tactic =>
  `(tactic| repeat (first
      | (rw [step39]; rotate_left; focus decide)
      | (rw [step38]; rotate_left; focus decide)
      | (rw [step37]; rotate_left; focus decide)
      | (rw [step36]; rotate_left; focus decide)
      | (rw [step35]; rotate_left; focus decide)
      | (rw [step34]; rotate_left; focus decide)
      | (rw [step33]; rotate_left; focus decide)
      | (rw [step32]; rotate_left; focus decide)
      | (rw [step31]; rotate_left; focus decide)
      | (rw [step30]; rotate_left; focus decide)
      | (rw [step29]; rotate_left; focus decide)
      | (rw [step28]; rotate_left; focus decide)
      | (rw [step27]; rotate_left; focus decide)
      | (rw [step26]; rotate_left; focus decide)
      | (rw [step25]; rotate_left; focus decide)
      | (rw [step24]; rotate_left; focus decide)
      | (rw [step23]; rotate_left; focus decide)
      | (rw [step22]; rotate_left; focus decide)
      | (rw [step21]; rotate_left; focus decide)
      | (rw [step20]; rotate_left; focus decide)
      | (rw [step19]; rotate_left; focus decide)
      | (rw [step18]; rotate_left; focus decide)
      | (rw [step17]; rotate_left; focus decide)
      | (rw [step16]; rotate_left; focus decide)
      | (rw [step15]; rotate_left; focus decide)
      | (rw [step14]; rotate_left; focus decide)
      | (rw [step13]; rotate_left; focus decide)
      | (rw [step12]; rotate_left; focus decide)
      | (rw [step11]; rotate_left; focus decide)
      | (rw [step10]; rotate_left; focus decide)
      | (rw [step9]; rotate_left; focus decide)
      | (rw [step8]; rotate_left; focus decide)
      | (rw [step7]; rotate_left; focus decide)
      | (rw [step6]; rotate_left; focus decide)
      | (rw [step5]; rotate_left; focus decide)
      | (rw [step4]; rotate_left; focus decide)
      | (rw [step3]; rotate_left; focus decide)
      | (rw [step2]; rotate_left; focus decide)
      | (rw [step1]; rotate_left; focus decide)))

end Cert.KernelIdeal.KPass

namespace Cert.KernelIdeal.GenP

open Cert.KernelIdeal Cert.KernelIdeal.Gen Cert.KernelIdeal.KPass
open Idealize.ShloMosaic Idealize.ShloMosaic.TcCoe Idealize.SL.Sem

variable {F : FTy → Type} [FloatOps F]
variable (m : (ℓ : Loc nD τ sig) → Buf (Elt F) ℓ) (ρ : Dev nD → PrngReg)

-- No segment writes an argument array: it ends as launched.
theorem W39_main_arg0 (c : Dev nD) : W39 m ρ c (Proc.devRef .tc main_arg0) = m ((c : Thread nD τ).loc main_arg0) := by
  kpass <;> rfl
theorem W39_main_arg1 (c : Dev nD) : W39 m ρ c (Proc.devRef .tc main_arg1) = m ((c : Thread nD τ).loc main_arg1) := by
  kpass <;> rfl
theorem W39_main_arg2 (c : Dev nD) : W39 m ρ c (Proc.devRef .tc main_arg2) = m ((c : Thread nD τ).loc main_arg2) := by
  kpass <;> rfl
theorem W39_main_arg3 (c : Dev nD) : W39 m ρ c (Proc.devRef .tc main_arg3) = m ((c : Thread nD τ).loc main_arg3) := by
  kpass <;> rfl
theorem W39_main_arg4 (c : Dev nD) : W39 m ρ c (Proc.devRef .tc main_arg4) = m ((c : Thread nD τ).loc main_arg4) := by
  kpass <;> rfl
theorem W39_main_arg5 (c : Dev nD) : W39 m ρ c (Proc.devRef .tc main_arg5) = m ((c : Thread nD τ).loc main_arg5) := by
  kpass <;> rfl
theorem W39_main_arg6 (c : Dev nD) : W39 m ρ c (Proc.devRef .tc main_arg6) = m ((c : Thread nD τ).loc main_arg6) := by
  kpass <;> rfl
theorem W39_main_arg7 (c : Dev nD) : W39 m ρ c (Proc.devRef .tc main_arg7) = m ((c : Thread nD τ).loc main_arg7) := by
  kpass <;> rfl
theorem W39_main_arg8 (c : Dev nD) : W39 m ρ c (Proc.devRef .tc main_arg8) = m ((c : Thread nD τ).loc main_arg8) := by
  kpass <;> rfl
theorem W39_main_arg9 (c : Dev nD) : W39 m ρ c (Proc.devRef .tc main_arg9) = m ((c : Thread nD τ).loc main_arg9) := by
  kpass <;> rfl
theorem W39_main_arg10 (c : Dev nD) : W39 m ρ c (Proc.devRef .tc main_arg10) = m ((c : Thread nD τ).loc main_arg10) := by
  kpass <;> rfl
theorem W39_main_arg11 (c : Dev nD) : W39 m ρ c (Proc.devRef .tc main_arg11) = m ((c : Thread nD τ).loc main_arg11) := by
  kpass <;> rfl
theorem W39_main_arg12 (c : Dev nD) : W39 m ρ c (Proc.devRef .tc main_arg12) = m ((c : Thread nD τ).loc main_arg12) := by
  kpass <;> rfl
theorem W39_main_arg13 (c : Dev nD) : W39 m ρ c (Proc.devRef .tc main_arg13) = m ((c : Thread nD τ).loc main_arg13) := by
  kpass <;> rfl
theorem W39_main_arg14 (c : Dev nD) : W39 m ρ c (Proc.devRef .tc main_arg14) = m ((c : Thread nD τ).loc main_arg14) := by
  kpass <;> rfl
theorem W39_main_arg15 (c : Dev nD) : W39 m ρ c (Proc.devRef .tc main_arg15) = m ((c : Thread nD τ).loc main_arg15) := by
  kpass <;> rfl
theorem W39_main_arg16 (c : Dev nD) : W39 m ρ c (Proc.devRef .tc main_arg16) = m ((c : Thread nD τ).loc main_arg16) := by
  kpass <;> rfl
theorem W39_main_arg17 (c : Dev nD) : W39 m ρ c (Proc.devRef .tc main_arg17) = m ((c : Thread nD τ).loc main_arg17) := by
  kpass <;> rfl
theorem W39_main_arg18 (c : Dev nD) : W39 m ρ c (Proc.devRef .tc main_arg18) = m ((c : Thread nD τ).loc main_arg18) := by
  kpass <;> rfl
theorem W39_main_arg19 (c : Dev nD) : W39 m ρ c (Proc.devRef .tc main_arg19) = m ((c : Thread nD τ).loc main_arg19) := by
  kpass <;> rfl
theorem W39_main_arg20 (c : Dev nD) : W39 m ρ c (Proc.devRef .tc main_arg20) = m ((c : Thread nD τ).loc main_arg20) := by
  kpass <;> rfl
theorem W39_main_arg21 (c : Dev nD) : W39 m ρ c (Proc.devRef .tc main_arg21) = m ((c : Thread nD τ).loc main_arg21) := by
  kpass <;> rfl
theorem W39_main_arg22 (c : Dev nD) : W39 m ρ c (Proc.devRef .tc main_arg22) = m ((c : Thread nD τ).loc main_arg22) := by
  kpass <;> rfl
theorem W39_main_arg23 (c : Dev nD) : W39 m ρ c (Proc.devRef .tc main_arg23) = m ((c : Thread nD τ).loc main_arg23) := by
  kpass <;> rfl
theorem W39_main_arg24 (c : Dev nD) : W39 m ρ c (Proc.devRef .tc main_arg24) = m ((c : Thread nD τ).loc main_arg24) := by
  kpass <;> rfl
theorem W39_main_arg25 (c : Dev nD) : W39 m ρ c (Proc.devRef .tc main_arg25) = m ((c : Thread nD τ).loc main_arg25) := by
  kpass <;> rfl
theorem W39_main_arg26 (c : Dev nD) : W39 m ρ c (Proc.devRef .tc main_arg26) = m ((c : Thread nD τ).loc main_arg26) := by
  kpass <;> rfl

end Cert.KernelIdeal.GenP

end
-- ==== Proof.Spec.lean ====
-- The network as whole-array functions over the extended reals: aggregation along the edges scaled by deg^(-1/2) at both ends,
-- bias rows, max(·, 0), the column mean and variance, g·(y − μ)·(v + ε)^(-1/2) + β, the perceptron, the pooled row, the classifier.
import proofs.«125188_j57878979281252_1_alg».proof.ReferenceIdeal
import Idealize.ShloMosaic.PureOps.Ideal

noncomputable section

namespace Cert.Spec

open Idealize.ShloMosaic Idealize.ShloMosaic.TcCoe Idealize.SL.Sem Cert.ReferenceIdeal

variable [Cert.ReferenceIdeal.Facts₀]
open Cert.ReferenceIdeal.Facts₀

abbrev FA (s : Shape) := FVec Ideal s .f32
abbrev IA (s : Shape) := IVec s 32

def src (e : IA S2x1000000) : IA S1000000 :=
  shapeCast S1000000 (extractStridedSlice S1x1000000 ![0, 0] e slices_S2x1000000_S1x1000000_0_0) shapeCasts_S1x1000000_S1000000

def dst (e : IA S2x1000000) : IA S1000000 :=
  shapeCast S1000000 (extractStridedSlice S1x1000000 ![1, 0] e slices_S2x1000000_S1x1000000_1_0) shapeCasts_S1x1000000_S1000000

def wrap (v : IA S1000000) : IA S1000000 :=
  select (cmpi .slt v (broadcastInDim S1000000 ![] bcast_S_S1000000 (constantI S_ 32 0#32)))
    (addi v (broadcastInDim S1000000 ![] bcast_S_S1000000 (constantI S_ 32 100000#32))) v

def col (v : IA S1000000) : IA S1000000x1 := broadcastInDim S1000000x1 ![0] bcast_S1000000_S1000000x1_0 v

def deg (d : IA S1000000) : FA S100000 :=
  Host.scatterAdd scatter_S100000_S1000000x1_S1000000_n_0_0_1
    (broadcastInDim S100000 ![] bcast_S_S100000 (constant (F := Ideal) S_ .f32 0x00000000#32)) (col d)
    (broadcastInDim S1000000 ![] bcast_S_S1000000 (constant (F := Ideal) S_ .f32 0x3F800000#32))

def dinv (d : IA S1000000) : FA S100000 :=
  select (cmpf .ogt (deg d) (broadcastInDim S100000 ![] bcast_S_S100000 (constant (F := Ideal) S_ .f32 0x00000000#32)))
    (Host.rsqrt (deg d))
    (broadcastInDim S100000 ![] bcast_S_S100000 (id (constant (F := Ideal) S_ .f32 0x00000000#32)))

def norm (s d : IA S1000000) : FA S1000000 :=
  mulf (Host.gather gather_S100000_S1000000x1_S1000000_n_0_n_n_0_1_1 (dinv d) (col (wrap s)))
    (Host.gather gather_S100000_S1000000x1_S1000000_n_0_n_n_0_1_1 (dinv d) (col (wrap d)))

def agg (h : FA S100000x128) (s d : IA S1000000) : FA S100000x128 :=
  Host.scatterAdd scatter_S100000x128_S1000000x1_S1000000x128_1_0_0_1
    (broadcastInDim S100000x128 ![] bcast_S_S100000x128 (constant (F := Ideal) S_ .f32 0x00000000#32)) (col d)
    (mulf (Host.gather gather_S100000x128_S1000000x1_S1000000x128_1_0_n_n_0_1_1128 h (col (wrap s)))
      (broadcastInDim S1000000x128 ![0, 1] bcast_S1000000x1_S1000000x128_0_1
        (broadcastInDim S1000000x1 ![0] bcast_S1000000_S1000000x1_0 (norm s d))))

def proj256 (x : FA S100000x256) (w : FA S256x128) : FA S100000x128 :=
  Host.dotGeneral dot_S100000x256_S256x128_S100000x128_1_0_0_1_n_n none x w

def proj128 (x : FA S100000x128) (w : FA S128x128) : FA S100000x128 :=
  Host.dotGeneral dot_S100000x128_S128x128_S100000x128_1_0_0_1_n_n none x w

def row1 (v : FA S128) : FA S1x128 := broadcastInDim S1x128 ![1] bcast_S128_S1x128_1 v

def rows128 (v : FA S128) : FA S100000x128 := broadcastInDim S100000x128 ![0, 1] bcast_S1x128_S100000x128_0_1 (row1 v)

def addRow (x : FA S100000x128) (b : FA S128) : FA S100000x128 := addf x (rows128 b)

def relu128 (x : FA S100000x128) : FA S100000x128 :=
  maximumf x (broadcastInDim S100000x128 ![] bcast_S_S100000x128 (constant (F := Ideal) S_ .f32 0x00000000#32))

def colsum (y : FA S100000x128) : FA S128 :=
  Host.reduceAdd y (constant (F := Ideal) S_ .f32 0x00000000#32) reducesTo_S100000x128_S128_d0 h_S_

def n128 : FA S128 := broadcastInDim S128 ![] bcast_S_S128 (constant (F := Ideal) S_ .f32 0x47C35000#32)

def eps128 : FA S128 := broadcastInDim S128 ![] bcast_S_S128 (constant (F := Ideal) S_ .f32 0x3727C5AC#32)

def mean (y : FA S100000x128) : FA S128 := Host.divf (colsum y) n128

def center (y : FA S100000x128) (mu : FA S128) : FA S100000x128 := subf y (rows128 mu)

def varAbout (y : FA S100000x128) (mu : FA S128) : FA S128 := Host.divf (colsum (mulf (center y mu) (center y mu))) n128

def bnWith (y : FA S100000x128) (mu v g bt : FA S128) : FA S100000x128 :=
  addf (mulf (mulf (rows128 g) (center y mu)) (rows128 (Host.rsqrt (addf v eps128)))) (rows128 bt)

def bn (y : FA S100000x128) (g bt : FA S128) : FA S100000x128 := bnWith y (mean y) (varAbout y (mean y)) g bt

def layer1 (x : FA S100000x256) (e : IA S2x1000000) (W1 : FA S256x128) (b1 : FA S128) : FA S100000x128 :=
  relu128 (addRow (agg (proj256 x W1) (src e) (dst e)) b1)

def layer2 (h : FA S100000x128) (e : IA S2x1000000) (W2 : FA S128x128) (b2 : FA S128) : FA S100000x128 :=
  addRow (agg (proj128 h W2) (src e) (dst e)) b2

def encoder (x : FA S100000x256) (e : IA S2x1000000) (W1 : FA S256x128) (b1 : FA S128) (W2 : FA S128x128) (b2 g1 bt1 g2 bt2 : FA S128) :
    FA S100000x128 :=
  bn (layer2 (bn (layer1 x e W1 b1) g1 bt1) e W2 b2) g2 bt2

def mlp (h : FA S100000x128) (W1 : FA S128x128) (b1 : FA S128) (W2 : FA S128x128) (b2 : FA S128) : FA S100000x128 :=
  addRow (proj128 (relu128 (addRow (proj128 h W1) b1)) W2) b2

def dot1 (a : FA S1x128) (w : FA S128x128) : FA S1x128 := Host.dotGeneral dot_S1x128_S128x128_S1x128_1_0_0_1_n_n none a w
def relu1 (x : FA S1x128) : FA S1x128 :=
  maximumf x (broadcastInDim S1x128 ![] bcast_S_S1x128 (constant (F := Ideal) S_ .f32 0x00000000#32))

def pooled (z : FA S100000x128) (W1 : FA S128x128) (b1 : FA S128) (W2 : FA S128x128) (b2 : FA S128) : FA S1x128 :=
  addf (dot1 (relu1 (addf (dot1 (row1 (colsum z)) W1) (row1 b1))) W2) (row1 b2)

def rows64 (v : FA S64) : FA S100000x64 :=
  broadcastInDim S100000x64 ![0, 1] bcast_S1x64_S100000x64_0_1 (broadcastInDim S1x64 ![1] bcast_S64_S1x64_1 v)
def rows40 (v : FA S40) : FA S100000x40 :=
  broadcastInDim S100000x40 ![0, 1] bcast_S1x40_S100000x40_0_1 (broadcastInDim S1x40 ![1] bcast_S40_S1x40_1 v)
def relu64 (x : FA S100000x64) : FA S100000x64 :=
  maximumf x (broadcastInDim S100000x64 ![] bcast_S_S100000x64 (constant (F := Ideal) S_ .f32 0x00000000#32))
def nodePred (zl zg : FA S100000x128) (W1 : FA S128x64) (b1 : FA S64) (W2 : FA S64x40) (b2 : FA S40) : FA S100000x40 :=
  addf (Host.dotGeneral dot_S100000x64_S64x40_S100000x40_1_0_0_1_n_n none
      (relu64 (addf (Host.dotGeneral dot_S100000x128_S128x64_S100000x64_1_0_0_1_n_n none (addf zl zg) W1) (rows64 b1))) W2)
    (rows40 b2)

end Cert.Spec

end
-- ==== Proof.SpecLemmas.lean ====
-- A row of quotients is the quotient laid out as a row: entry (0, j) of either is s(j) / N.
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.IdealHost

noncomputable section

namespace Cert.Spec

open Idealize.ShloMosaic Idealize.ShloMosaic.TcCoe Idealize.SL.Sem Cert.ReferenceIdeal Cert.ReferenceIdeal.Facts₀
open Idealize.ShloMosaic.ValueIdx

def n1x128 : FA S1x128 := broadcastInDim S1x128 ![] bcast_S_S1x128 (constant (F := Ideal) S_ .f32 0x47C35000#32)

theorem divf_row1 (s : FA S128) : Host.divf (row1 s) n1x128 = row1 (Host.divf s n128) := by
  funext i
  obtain ⟨p, q, rfl⟩ : ∃ (p : Fin 1) (q : Fin 128), i = ix2 p q := ⟨i 0, i 1, eq_ix2 i⟩

  have hrow : ∀ u : FA S128, row1 u (ix2 p q) = u (ix1 q) := fun u => by
    unfold row1
    refine broadcastInDim_apply ![1] bcast_S128_S1x128_1 u (ix2 p q) (ix1 q) ?_
    intro a
    match a with
    | ⟨0, _⟩ => rfl
  show FloatOps.hostDivf (row1 s (ix2 p q)) (n1x128 (ix2 p q)) = row1 (Host.divf s n128) (ix2 p q)
  rw [hrow s, hrow (Host.divf s n128)]
  show _ = FloatOps.hostDivf (s (ix1 q)) (n128 (ix1 q))
  unfold n1x128 n128
  rw [broadcastInDim_scalar_apply, broadcastInDim_scalar_apply]

end Cert.Spec

end
-- ==== Proof.KVals.lean ====
-- The argument arrays at launch (a0 … a26) and the network's values of them.
import proofs.«125188_j57878979281252_1_alg».proof.KernelIdeal
import proofs.«125188_j57878979281252_1_alg».proof.Proof.Gen.ReferenceIdeal
import proofs.«125188_j57878979281252_1_alg».proof.Proof.Spec

noncomputable section

namespace Cert.KernelIdeal.KVals

open Cert.KernelIdeal Idealize.ShloMosaic Idealize.ShloMosaic.TcCoe Idealize.SL.Sem

variable (m : (ℓ : Loc nD τ sig) → Buf (Elt Ideal) ℓ) (c : Dev nD)

abbrev a0 : FVec Ideal S100000x256 .f32 := m ((c : Thread nD τ).loc main_arg0)

abbrev a1 : IVec S2x1000000 32 := m ((c : Thread nD τ).loc main_arg1)

abbrev a2 : IVec S2x1000000 32 := m ((c : Thread nD τ).loc main_arg2)

abbrev a3 : FVec Ideal S256x128 .f32 := m ((c : Thread nD τ).loc main_arg3)

abbrev a4 : FVec Ideal S128 .f32 := m ((c : Thread nD τ).loc main_arg4)

abbrev a5 : FVec Ideal S128x128 .f32 := m ((c : Thread nD τ).loc main_arg5)

abbrev a6 : FVec Ideal S128 .f32 := m ((c : Thread nD τ).loc main_arg6)

abbrev a7 : FVec Ideal S128 .f32 := m ((c : Thread nD τ).loc main_arg7)

abbrev a8 : FVec Ideal S128 .f32 := m ((c : Thread nD τ).loc main_arg8)

abbrev a9 : FVec Ideal S128 .f32 := m ((c : Thread nD τ).loc main_arg9)

abbrev a10 : FVec Ideal S128 .f32 := m ((c : Thread nD τ).loc main_arg10)

abbrev a11 : FVec Ideal S256x128 .f32 := m ((c : Thread nD τ).loc main_arg11)

abbrev a12 : FVec Ideal S128 .f32 := m ((c : Thread nD τ).loc main_arg12)

abbrev a13 : FVec Ideal S128x128 .f32 := m ((c : Thread nD τ).loc main_arg13)

abbrev a14 : FVec Ideal S128 .f32 := m ((c : Thread nD τ).loc main_arg14)

abbrev a15 : FVec Ideal S128 .f32 := m ((c : Thread nD τ).loc main_arg15)

abbrev a16 : FVec Ideal S128 .f32 := m ((c : Thread nD τ).loc main_arg16)

abbrev a17 : FVec Ideal S128 .f32 := m ((c : Thread nD τ).loc main_arg17)

abbrev a18 : FVec Ideal S128 .f32 := m ((c : Thread nD τ).loc main_arg18)

abbrev a19 : FVec Ideal S128x128 .f32 := m ((c : Thread nD τ).loc main_arg19)

abbrev a20 : FVec Ideal S128 .f32 := m ((c : Thread nD τ).loc main_arg20)

abbrev a21 : FVec Ideal S128x128 .f32 := m ((c : Thread nD τ).loc main_arg21)

abbrev a22 : FVec Ideal S128 .f32 := m ((c : Thread nD τ).loc main_arg22)

abbrev a23 : FVec Ideal S128x64 .f32 := m ((c : Thread nD τ).loc main_arg23)

abbrev a24 : FVec Ideal S64 .f32 := m ((c : Thread nD τ).loc main_arg24)

abbrev a25 : FVec Ideal S64x40 .f32 := m ((c : Thread nD τ).loc main_arg25)

abbrev a26 : FVec Ideal S40 .f32 := m ((c : Thread nD τ).loc main_arg26)

def encL : FVec Ideal S100000x128 .f32 := Cert.Spec.encoder (a0 m c) (a1 m c) (a3 m c) (a4 m c) (a5 m c) (a6 m c) (a7 m c) (a8 m c) (a9 m c) (a10 m c)

def encG : FVec Ideal S100000x128 .f32 := Cert.Spec.encoder (a0 m c) (a2 m c) (a11 m c) (a12 m c) (a13 m c) (a14 m c) (a15 m c) (a16 m c) (a17 m c) (a18 m c)

def zL : FVec Ideal S100000x128 .f32 := Cert.Spec.mlp (encL m c) (a19 m c) (a20 m c) (a21 m c) (a22 m c)
def zG : FVec Ideal S100000x128 .f32 := Cert.Spec.mlp (encG m c) (a19 m c) (a20 m c) (a21 m c) (a22 m c)

def gL : FVec Ideal S1x128 .f32 := Cert.Spec.pooled (zL m c) (a19 m c) (a20 m c) (a21 m c) (a22 m c)
def gG : FVec Ideal S1x128 .f32 := Cert.Spec.pooled (zG m c) (a19 m c) (a20 m c) (a21 m c) (a22 m c)

def np : FVec Ideal S100000x40 .f32 := Cert.Spec.nodePred (zL m c) (zG m c) (a23 m c) (a24 m c) (a25 m c) (a26 m c)

end Cert.KernelIdeal.KVals

end
-- ==== Proof.Reg12Rows.lean ====
-- Taking rows 2000·b … 2000·b + 1999 commutes with a product by a [128, 128] matrix, with adding a 128-vector to every row and with
-- max(·, 0); so a row block of the perceptron of h is the perceptron of the row block of h.
import proofs.«125188_j57878979281252_1_alg».proof.Proof.Gen.KernelIdeal.Skeleton
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.KernelIdeal.Reg12Rows

open Cert.KernelIdeal Cert.KernelIdeal.Facts₀
open Idealize.ShloMosaic Idealize.ShloMosaic.TcCoe Idealize.SL.Sem
open Idealize.ShloMosaic.ValueIdx

def rowsBlk (b : Fin 50) (x : FVec Ideal S100000x128 .f32) : FVec Ideal S2000x128 .f32 :=
  fun j => x (ix2 (⟨b.val * 2000 + (j 0).val, by have h0 : (j 0).val < 2000 := (j 0).isLt; have hb := b.isLt; omega⟩ : Fin 100000) (j 1 : Fin 128))

abbrev rowOf (b : Fin 50) (p : Fin 2000) : Fin 100000 := ⟨b.val * 2000 + p.val, by have := b.isLt; have := p.isLt; omega⟩

theorem rowsBlk_apply (b : Fin 50) (x : FVec Ideal S100000x128 .f32) (p : Fin 2000) (q : Fin 128) :
    rowsBlk b x (ix2 p q) = x (ix2 (rowOf b p) q) := rfl

theorem rows128_apply (v : FVec Ideal S128 .f32) (r : Fin 100000) (q : Fin 128) :
    Cert.Spec.rows128 v (ix2 r q) = v (ix1 q) := by
  unfold Cert.Spec.rows128 Cert.Spec.row1
  rw [broadcastInDim_oneRow_apply]
  refine broadcastInDim_apply _ _ v (ix2 (0 : Fin 1) q) (ix1 q) fun a => ?_
  match a with
  | ⟨0, _⟩ => rfl

theorem addRow_apply (x : FVec Ideal S100000x128 .f32) (v : FVec Ideal S128 .f32) (r : Fin 100000) (q : Fin 128) :
    Cert.Spec.addRow x v (ix2 r q) = x (ix2 r q) + v (ix1 q) := by
  unfold Cert.Spec.addRow
  rw [addf_apply, rows128_apply]

theorem relu128_apply (x : FVec Ideal S100000x128 .f32) (r : Fin 100000) (q : Fin 128) :
    Cert.Spec.relu128 x (ix2 r q) = max (x (ix2 r q)) 0 := by
  unfold Cert.Spec.relu128
  rw [maximumf_apply, broadcastInDim_scalar_apply, constant_apply, Ideal.ofBits_zero_f32]

theorem lhs_big_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_big_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_big_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_big_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

theorem proj128_apply (x : FVec Ideal S100000x128 .f32) (w : FVec Ideal S128x128 .f32) (r : Fin 100000) (q : Fin 128) :
    Cert.Spec.proj128 x w (ix2 r q) = ∑ k : Fin 128, x (ix2 r k) * w (ix2 k q) := by
  unfold Cert.Spec.proj128
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact lhs_big_0 _ _
    | ⟨1, _⟩ => exact (lhs_big_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rhs_big_0 _ _).trans hk
    | ⟨1, _⟩ => exact rhs_big_1 _ _)
  rw [el, er]

theorem lhs_blk_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blk_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blk_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blk_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem matmulBlk_apply (x : FVec Ideal S2000x128 .f32) (w : FVec Ideal S128x128 .f32) (p : Fin 2000) (q : Fin 128) :
    matmul dot_S2000x128_S128x128_S2000x128_1_0_0_1_n_n none (truncf .bf16 x bitsLt_bf16_f32) (truncf .bf16 w bitsLt_bf16_f32)
        (constant (F := Ideal) S2000x128 .f32 0x00000000#32) (ix2 p q)
      = ∑ k : Fin 128, x (ix2 p k) * w (ix2 k q) := by
  rw [matmul_zero_eq_dotGeneral]
  simp only [Host.dotGeneral]
  rw [Ideal.dotGeneral_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

theorem biasBlk_apply (v : FVec Ideal S128 .f32) (p : Fin 2000) (q : Fin 128) :
    broadcastTo S2000x128 (shapeCast S1x128 (shapeCast S1x128 v Facts₀.shapeCasts_S128_S1x128) shapeCasts_S1x128_S1x128) broadcasts_S1x128_S2000x128 (ix2 p q)
      = v (ix1 q) := by
  rw [broadcastTo_1b_ab_apply, shapeCast_self, shapeCast_a_1a_apply]

def mlpBlk (x : FVec Ideal S2000x128 .f32) (W1 : FVec Ideal S128x128 .f32) (r1 : FVec Ideal S1x128 .f32)
    (W2 : FVec Ideal S128x128 .f32) (r2 : FVec Ideal S1x128 .f32) : FVec Ideal S2000x128 .f32 :=
  addf (matmul dot_S2000x128_S128x128_S2000x128_1_0_0_1_n_n none
      (truncf .bf16 (maximumf (addf (matmul dot_S2000x128_S128x128_S2000x128_1_0_0_1_n_n none
            (truncf .bf16 (shapeCast S2000x128 x shapeCasts_S2000x128_S2000x128) bitsLt_bf16_f32) (truncf .bf16 W1 bitsLt_bf16_f32)
            (constant (F := Ideal) S2000x128 .f32 0x00000000#32))
          (broadcastTo S2000x128 (shapeCast S1x128 r1 shapeCasts_S1x128_S1x128) broadcasts_S1x128_S2000x128))
        (broadcast S2000x128 (Scalar.ofBits (F := Ideal) .f32 0x00000000#32))) bitsLt_bf16_f32)
      (truncf .bf16 W2 bitsLt_bf16_f32) (constant (F := Ideal) S2000x128 .f32 0x00000000#32))
    (broadcastTo S2000x128 (shapeCast S1x128 r2 shapeCasts_S1x128_S1x128) broadcasts_S1x128_S2000x128)

theorem mlpBlk_rows_apply (b : Fin 50) (h : FVec Ideal S100000x128 .f32) (W1 W2 : FVec Ideal S128x128 .f32) (b1 b2 : FVec Ideal S128 .f32)
    (p : Fin 2000) (q : Fin 128) :
    mlpBlk (rowsBlk b h) W1 (shapeCast S1x128 b1 Facts₀.shapeCasts_S128_S1x128) W2 (shapeCast S1x128 b2 Facts₀.shapeCasts_S128_S1x128) (ix2 p q)
      = rowsBlk b (Cert.Spec.mlp h W1 b1 W2 b2) (ix2 p q) := by
  rw [rowsBlk_apply]
  unfold Cert.Spec.mlp mlpBlk
  rw [addRow_apply, proj128_apply, addf_apply, matmulBlk_apply, biasBlk_apply]
  refine congrArg (· + b2 (ix1 q)) (Finset.sum_congr rfl fun k _ => ?_)
  rw [relu128_apply, addRow_apply, proj128_apply, maximumf_apply, addf_apply, matmulBlk_apply, biasBlk_apply, shapeCast_self,
    broadcast_apply]
  show max _ (Ideal.ofBits .f32 0x00000000#32) * _ = _
  rw [Ideal.ofBits_zero_f32]
  rfl

theorem mlpBlk_rows (b : Fin 50) (h : FVec Ideal S100000x128 .f32) (W1 W2 : FVec Ideal S128x128 .f32) (b1 b2 : FVec Ideal S128 .f32) :
    mlpBlk (rowsBlk b h) W1 (shapeCast S1x128 b1 Facts₀.shapeCasts_S128_S1x128) W2 (shapeCast S1x128 b2 Facts₀.shapeCasts_S128_S1x128)
      = rowsBlk b (Cert.Spec.mlp h W1 b1 W2 b2) := by
  funext j
  have hj : j = ix2 (j 0 : Fin 2000) (j 1 : Fin 128) := eq_ix2 j
  rw [hj]
  exact mlpBlk_rows_apply b h W1 W2 b1 b2 _ _

end Cert.KernelIdeal.Reg12Rows

end
-- ==== Proof.Reg12.lean ====
-- Region 12 leaves the perceptron of h: grid point t writes back the perceptron of row block t, and the 50 row blocks cover the array.
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.Reg12Rows
import Idealize.ShloMosaic.Lib.Pipeline.Value

set_option maxRecDepth 16384

noncomputable section

namespace Cert.KernelIdeal.Reg12

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx Cert.KernelIdeal.Reg12Rows

variable (V : (c : Dev nD) → (b : Ref sig .tc) → Buf (Elt Ideal) ((c : Thread nD τ).loc b))

theorem zeroOffsets : (![0, 0] : Fin 2 → Nat) = fun _ => 0 := funext fun a => by fin_cases a <;> rfl

theorem blockIndices : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

def blockOf (t : Fin cfg12.N) : Fin 50 := ⟨t.val, lt_of_lt_of_eq t.isLt N_12⟩

theorem featBlock (c : Dev nD) (t : Fin cfg12.N) (h : FVec Ideal S100000x128 .f32) (hh : V c main_v113 = h) :
    (iblk12 V c 0 t : Vec Ideal S2000x128 .f32) = rowsBlk (blockOf t) h := by
  obtain ⟨e0, e1, -⟩ := blockIndices t
  subst hh
  funext j
  show V c main_v113 (((cfg12.win 0).blk t).view.emb j) = V c main_v113 (ix2 (rowOf (blockOf t) (j 0)) (j 1))
  refine congrArg (V c main_v113) (funext fun a => Fin.ext ?_)
  match a with
  | ⟨0, _⟩ => show win12_0.index t (0 : Fin 2) * 2000 + 1 * (j 0).val = t.val * 2000 + (j 0).val; rw [e0]; omega
  | ⟨1, _⟩ => show win12_0.index t (1 : Fin 2) * 128 + 1 * (j 1).val = (j 1).val; rw [e1]; omega

theorem mat1Block (c : Dev nD) (t : Fin cfg12.N) (W : FVec Ideal S128x128 .f32) (hW : V c main_arg19 = W) :
    (iblk12 V c 1 t : Vec Ideal S128x128 .f32) = W := by
  obtain ⟨-, -, e0, e1, -⟩ := blockIndices t
  subst hW
  funext j
  show V c main_arg19 (((cfg12.win 1).blk t).view.emb j) = V c main_arg19 j
  refine congrArg (V c main_arg19) (funext fun a => Fin.ext ?_)
  match a with
  | ⟨0, _⟩ => show win12_1.index t (0 : Fin 2) * 128 + 1 * (j 0).val = (j 0).val; rw [e0]; omega
  | ⟨1, _⟩ => show win12_1.index t (1 : Fin 2) * 128 + 1 * (j 1).val = (j 1).val; rw [e1]; omega

theorem bias1Block (c : Dev nD) (t : Fin cfg12.N) (r : FVec Ideal S1x128 .f32) (hr : V c main_v220 = r) :
    (iblk12 V c 2 t : Vec Ideal S1x128 .f32) = r := by
  obtain ⟨-, -, -, -, e0, e1, -⟩ := blockIndices t
  subst hr
  funext j
  show V c main_v220 (((cfg12.win 2).blk t).view.emb j) = V c main_v220 j
  refine congrArg (V c main_v220) (funext fun a => Fin.ext ?_)
  match a with
  | ⟨0, _⟩ => show win12_2.index t (0 : Fin 2) * 1 + 1 * (j 0).val = (j 0).val; rw [e0]; omega
  | ⟨1, _⟩ => show win12_2.index t (1 : Fin 2) * 128 + 1 * (j 1).val = (j 1).val; rw [e1]; omega

theorem mat2Block (c : Dev nD) (t : Fin cfg12.N) (W : FVec Ideal S128x128 .f32) (hW : V c main_arg21 = W) :
    (iblk12 V c 3 t : Vec Ideal S128x128 .f32) = W := by
  obtain ⟨-, -, -, -, -, -, e0, e1, -⟩ := blockIndices t
  subst hW
  funext j
  show V c main_arg21 (((cfg12.win 3).blk t).view.emb j) = V c main_arg21 j
  refine congrArg (V c main_arg21) (funext fun a => Fin.ext ?_)
  match a with
  | ⟨0, _⟩ => show win12_3.index t (0 : Fin 2) * 128 + 1 * (j 0).val = (j 0).val; rw [e0]; omega
  | ⟨1, _⟩ => show win12_3.index t (1 : Fin 2) * 128 + 1 * (j 1).val = (j 1).val; rw [e1]; omega

theorem bias2Block (c : Dev nD) (t : Fin cfg12.N) (r : FVec Ideal S1x128 .f32) (hr : V c main_v221 = r) :
    (iblk12 V c 4 t : Vec Ideal S1x128 .f32) = r := by
  obtain ⟨-, -, -, -, -, -, -, -, e0, e1, -⟩ := blockIndices t
  subst hr
  funext j
  show V c main_v221 (((cfg12.win 4).blk t).view.emb j) = V c main_v221 j
  refine congrArg (V c main_v221) (funext fun a => Fin.ext ?_)
  match a with
  | ⟨0, _⟩ => show win12_4.index t (0 : Fin 2) * 1 + 1 * (j 0).val = (j 0).val; rw [e0]; omega
  | ⟨1, _⟩ => show win12_4.index t (1 : Fin 2) * 128 + 1 * (j 1).val = (j 1).val; rw [e1]; omega

theorem resultBlock (t : Fin cfg12.N) (G : FVec Ideal S100000x128 .f32) :
    (cfg12.win 5).cut (grid12.coords t) (rowsBlk (blockOf t) G) = ((cfg12.win 5).blk t).view.read (Elt Ideal) G := by
  obtain ⟨-, -, -, -, -, -, -, -, -, -, e0, e1⟩ := blockIndices t
  funext j
  show G (ix2 (rowOf (blockOf t) ⟨(j 0).val, _⟩) ⟨(j 1).val, _⟩) = G (((cfg12.win 5).blk t).view.emb j)
  refine congrArg G (funext fun a => Fin.ext ?_)
  match a with
  | ⟨0, _⟩ => show t.val * 2000 + (j 0).val = win12_5.index t (0 : Fin 2) * 2000 + 1 * (j 0).val; rw [e0]; omega
  | ⟨1, _⟩ => show (j 1).val = win12_5.index t (1 : Fin 2) * 128 + 1 * (j 1).val; rw [e1]; omega

theorem payload_eq (x : Vec Ideal S2000x128 .f32) (W1 : Vec Ideal S128x128 .f32) (r1 : Vec Ideal S1x128 .f32)
    (W2 : Vec Ideal S128x128 .f32) (r2 : Vec Ideal S1x128 .f32) : k12_pay1 (F := Ideal) x W1 r1 W2 r2 = mlpBlk x W1 r1 W2 r2 := rfl

theorem flushed (c : Dev nD) (h : FVec Ideal S100000x128 .f32) (W1 W2 : FVec Ideal S128x128 .f32) (b1 b2 : FVec Ideal S128 .f32)
    (hh : V c main_v113 = h) (hW1 : V c main_arg19 = W1) (hb1 : V c main_v220 = shapeCast S1x128 b1 Facts₀.shapeCasts_S128_S1x128)
    (hW2 : V c main_arg21 = W2) (hb2 : V c main_v221 = shapeCast S1x128 b2 Facts₀.shapeCasts_S128_S1x128) (t : Fin cfg12.N) :
    (dat12 (F := Ideal) V c).flushed 5 t = ((cfg12.win 5).blk t).view.read (Elt Ideal) (Cert.Spec.mlp h W1 b1 W2 b2) := by
  show (cfg12.win 5).cut (grid12.coords t) ((dat12 V c).after 5 t) = _
  rw [after12_5]
  unfold out12_5
  rw [View.canon_unit_zero zeroOffsets]
  simp only [View.ld_unit_zero (S := S2000x128) zeroOffsets, View.ld_unit_zero (S := S128x128) zeroOffsets, View.ld_unit_zero (S := S1x128) zeroOffsets]
  rw [featBlock V c t h hh, mat1Block V c t W1 hW1, bias1Block V c t _ hb1, mat2Block V c t W2 hW2, bias2Block V c t _ hb2,
    payload_eq, mlpBlk_rows]
  exact resultBlock t _

theorem mem_block (t : Fin cfg12.N) (i : S100000x128.Idx) :
    i ∈ ((cfg12.win 5).blk t).view.set ↔ ∀ a : Fin 2, win12_5.index t a * S2000x128.size a ≤ (i a).val ∧ (i a).val < win12_5.index t a * S2000x128.size a + S2000x128.size a := by
  show i ∈ ((View.whole main_v222).slice (win12_5.rect t)).set ↔ _
  rw [View.set_slice_whole, Rect.mem_set_unit]
  exact Iff.rfl

theorem cover (i : S100000x128.Idx) : ∃ t : Fin cfg12.N, (cfg12.win 5).flush t = true ∧ i ∈ ((cfg12.win 5).blk t).view.set := by
  have h0 : (i 0).val < 100000 := (i 0).isLt
  have h1 : (i 1).val < 128 := (i 1).isLt
  have hN : cfg12.N = 50 := N_12
  have hlt : (i 0).val / 2000 < cfg12.N := by rw [hN]; omega
  obtain ⟨-, -, -, -, -, -, -, -, -, -, e0, e1⟩ := blockIndices ⟨(i 0).val / 2000, hlt⟩
  refine ⟨⟨(i 0).val / 2000, hlt⟩, flush12_5 _, ?_⟩
  rw [mem_block]
  intro a
  match a with
  | ⟨0, _⟩ =>
    show win12_5.index ⟨(i 0).val / 2000, hlt⟩ (0 : Fin 2) * 2000 ≤ (i 0).val ∧ (i 0).val < win12_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win12_5.index ⟨(i 0).val / 2000, hlt⟩ (1 : Fin 2) * 128 ≤ (i 1).val ∧ (i 1).val < win12_5.index ⟨(i 0).val / 2000, hlt⟩ (1 : Fin 2) * 128 + 128
    rw [e1]; omega

theorem value (c : Dev nD) (h : FVec Ideal S100000x128 .f32) (W1 W2 : FVec Ideal S128x128 .f32) (b1 b2 : FVec Ideal S128 .f32)
    (hh : V c main_v113 = h) (hW1 : V c main_arg19 = W1) (hb1 : V c main_v220 = shapeCast S1x128 b1 Facts₀.shapeCasts_S128_S1x128)
    (hW2 : V c main_arg21 = W2) (hb2 : V c main_v221 = shapeCast S1x128 b2 Facts₀.shapeCasts_S128_S1x128) :
    (dat12 (F := Ideal) V c).arrAt 5 cfg12.N = Cert.Spec.mlp h W1 b1 W2 b2 := by
  exact (dat12 (F := Ideal) V c).arrAt_eq_of_cover 5 (Cert.Spec.mlp h W1 b1 W2 b2)
    (fun t _ => flushed V c h W1 W2 b1 b2 hh hW1 hb1 hW2 hb2 t) cover

end Cert.KernelIdeal.Reg12

end
-- ==== Proof.Reg13.lean ====
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.Reg12Rows
import Idealize.ShloMosaic.Lib.Pipeline.Value

set_option maxRecDepth 16384

noncomputable section

namespace Cert.KernelIdeal.Reg13

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx Cert.KernelIdeal.Reg12Rows

-- the buffer contents the region is entered from: any
variable (V : (c : Dev nD) → (b : Ref sig .tc) → Buf (Elt Ideal) ((c : Thread nD τ).loc b))

/-! ## The windows' blocks at a grid point

The grid has 50 points. At point t the row-blocked windows (the node features and the result) sit at block (t, 0): rows
2000·t … 2000·t + 1999; the two matrices and the two bias rows are whole, at block (0, 0). -/

theorem zeroOffsets : (![0, 0] : Fin 2 → Nat) = fun _ => 0 := funext fun a => by fin_cases a <;> rfl

/-- The index maps, decided over the 50 points. -/
theorem blockIndices : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- A grid point as a block number. -/
def blockOf (t : Fin cfg13.N) : Fin 50 := ⟨t.val, lt_of_lt_of_eq t.isLt N_13⟩

/-- The node features' block at point t is rows 2000·t … of the array. -/
theorem featBlock (c : Dev nD) (t : Fin cfg13.N) (h : FVec Ideal S100000x128 .f32) (hh : V c main_v219 = h) :
    (iblk13 V c 0 t : Vec Ideal S2000x128 .f32) = rowsBlk (blockOf t) h := by
  obtain ⟨e0, e1, -⟩ := blockIndices t
  subst hh
  funext j
  show V c main_v219 (((cfg13.win 0).blk t).view.emb j) = V c main_v219 (ix2 (rowOf (blockOf t) (j 0)) (j 1))
  refine congrArg (V c main_v219) (funext fun a => Fin.ext ?_)
  match a with
  | ⟨0, _⟩ => show win13_0.index t (0 : Fin 2) * 2000 + 1 * (j 0).val = t.val * 2000 + (j 0).val; rw [e0]; omega
  | ⟨1, _⟩ => show win13_0.index t (1 : Fin 2) * 128 + 1 * (j 1).val = (j 1).val; rw [e1]; omega

/-- The first matrix's block is the matrix. -/
theorem mat1Block (c : Dev nD) (t : Fin cfg13.N) (W : FVec Ideal S128x128 .f32) (hW : V c main_arg19 = W) :
    (iblk13 V c 1 t : Vec Ideal S128x128 .f32) = W := by
  obtain ⟨-, -, e0, e1, -⟩ := blockIndices t
  subst hW
  funext j
  show V c main_arg19 (((cfg13.win 1).blk t).view.emb j) = V c main_arg19 j
  refine congrArg (V c main_arg19) (funext fun a => Fin.ext ?_)
  match a with
  | ⟨0, _⟩ => show win13_1.index t (0 : Fin 2) * 128 + 1 * (j 0).val = (j 0).val; rw [e0]; omega
  | ⟨1, _⟩ => show win13_1.index t (1 : Fin 2) * 128 + 1 * (j 1).val = (j 1).val; rw [e1]; omega

/-- The first bias row's block is the row. -/
theorem bias1Block (c : Dev nD) (t : Fin cfg13.N) (r : FVec Ideal S1x128 .f32) (hr : V c main_v223 = r) :
    (iblk13 V c 2 t : Vec Ideal S1x128 .f32) = r := by
  obtain ⟨-, -, -, -, e0, e1, -⟩ := blockIndices t
  subst hr
  funext j
  show V c main_v223 (((cfg13.win 2).blk t).view.emb j) = V c main_v223 j
  refine congrArg (V c main_v223) (funext fun a => Fin.ext ?_)
  match a with
  | ⟨0, _⟩ => show win13_2.index t (0 : Fin 2) * 1 + 1 * (j 0).val = (j 0).val; rw [e0]; omega
  | ⟨1, _⟩ => show win13_2.index t (1 : Fin 2) * 128 + 1 * (j 1).val = (j 1).val; rw [e1]; omega

/-- The second matrix's block is the matrix. -/
theorem mat2Block (c : Dev nD) (t : Fin cfg13.N) (W : FVec Ideal S128x128 .f32) (hW : V c main_arg21 = W) :
    (iblk13 V c 3 t : Vec Ideal S128x128 .f32) = W := by
  obtain ⟨-, -, -, -, -, -, e0, e1, -⟩ := blockIndices t
  subst hW
  funext j
  show V c main_arg21 (((cfg13.win 3).blk t).view.emb j) = V c main_arg21 j
  refine congrArg (V c main_arg21) (funext fun a => Fin.ext ?_)
  match a with
  | ⟨0, _⟩ => show win13_3.index t (0 : Fin 2) * 128 + 1 * (j 0).val = (j 0).val; rw [e0]; omega
  | ⟨1, _⟩ => show win13_3.index t (1 : Fin 2) * 128 + 1 * (j 1).val = (j 1).val; rw [e1]; omega

/-- The second bias row's block is the row. -/
theorem bias2Block (c : Dev nD) (t : Fin cfg13.N) (r : FVec Ideal S1x128 .f32) (hr : V c main_v224 = r) :
    (iblk13 V c 4 t : Vec Ideal S1x128 .f32) = r := by
  obtain ⟨-, -, -, -, -, -, -, -, e0, e1, -⟩ := blockIndices t
  subst hr
  funext j
  show V c main_v224 (((cfg13.win 4).blk t).view.emb j) = V c main_v224 j
  refine congrArg (V c main_v224) (funext fun a => Fin.ext ?_)
  match a with
  | ⟨0, _⟩ => show win13_4.index t (0 : Fin 2) * 1 + 1 * (j 0).val = (j 0).val; rw [e0]; omega
  | ⟨1, _⟩ => show win13_4.index t (1 : Fin 2) * 128 + 1 * (j 1).val = (j 1).val; rw [e1]; omega

/-- Rows 2000·t … of an array are what the result window's block at point t reads of it. -/
theorem resultBlock (t : Fin cfg13.N) (G : FVec Ideal S100000x128 .f32) :
    (cfg13.win 5).cut (grid13.coords t) (rowsBlk (blockOf t) G) = ((cfg13.win 5).blk t).view.read (Elt Ideal) G := by
  obtain ⟨-, -, -, -, -, -, -, -, -, -, e0, e1⟩ := blockIndices t
  funext j
  show G (ix2 (rowOf (blockOf t) ⟨(j 0).val, _⟩) ⟨(j 1).val, _⟩) = G (((cfg13.win 5).blk t).view.emb j)
  refine congrArg G (funext fun a => Fin.ext ?_)
  match a with
  | ⟨0, _⟩ => show t.val * 2000 + (j 0).val = win13_5.index t (0 : Fin 2) * 2000 + 1 * (j 0).val; rw [e0]; omega
  | ⟨1, _⟩ => show (j 1).val = win13_5.index t (1 : Fin 2) * 128 + 1 * (j 1).val; rw [e1]; omega

/-- The body's stored value is the block computation of its loaded blocks. -/
theorem payload_eq (x : Vec Ideal S2000x128 .f32) (W1 : Vec Ideal S128x128 .f32) (r1 : Vec Ideal S1x128 .f32)
    (W2 : Vec Ideal S128x128 .f32) (r2 : Vec Ideal S1x128 .f32) : k13_pay1 (F := Ideal) x W1 r1 W2 r2 = mlpBlk x W1 r1 W2 r2 := rfl

/-! ## What a point writes back, the cover, the array -/

/-- Point t writes back rows 2000·t … of relu(h·W1 + b1)·W2 + b2. -/
theorem flushed (c : Dev nD) (h : FVec Ideal S100000x128 .f32) (W1 W2 : FVec Ideal S128x128 .f32) (b1 b2 : FVec Ideal S128 .f32)
    (hh : V c main_v219 = h) (hW1 : V c main_arg19 = W1) (hb1 : V c main_v223 = shapeCast S1x128 b1 Facts₀.shapeCasts_S128_S1x128)
    (hW2 : V c main_arg21 = W2) (hb2 : V c main_v224 = shapeCast S1x128 b2 Facts₀.shapeCasts_S128_S1x128) (t : Fin cfg13.N) :
    (dat13 (F := Ideal) V c).flushed 5 t = ((cfg13.win 5).blk t).view.read (Elt Ideal) (Cert.Spec.mlp h W1 b1 W2 b2) := by
  show (cfg13.win 5).cut (grid13.coords t) ((dat13 V c).after 5 t) = _
  rw [after13_5]
  unfold out13_5
  rw [View.canon_unit_zero zeroOffsets]
  simp only [View.ld_unit_zero (S := S2000x128) zeroOffsets, View.ld_unit_zero (S := S128x128) zeroOffsets, View.ld_unit_zero (S := S1x128) zeroOffsets]
  rw [featBlock V c t h hh, mat1Block V c t W1 hW1, bias1Block V c t _ hb1, mat2Block V c t W2 hW2, bias2Block V c t _ hb2,
    payload_eq, mlpBlk_rows]
  exact resultBlock t _

/-- An index of the array is in point t's block iff each coordinate is in the block's range on its axis. -/
theorem mem_block (t : Fin cfg13.N) (i : S100000x128.Idx) :
    i ∈ ((cfg13.win 5).blk t).view.set ↔ ∀ a : Fin 2, win13_5.index t a * S2000x128.size a ≤ (i a).val ∧ (i a).val < win13_5.index t a * S2000x128.size a + S2000x128.size a := by
  show i ∈ ((View.whole main_v225).slice (win13_5.rect t)).set ↔ _
  rw [View.set_slice_whole, Rect.mem_set_unit]
  exact Iff.rfl

/-- Row r lies in the block of point r / 2000. -/
theorem cover (i : S100000x128.Idx) : ∃ t : Fin cfg13.N, (cfg13.win 5).flush t = true ∧ i ∈ ((cfg13.win 5).blk t).view.set := by
  have h0 : (i 0).val < 100000 := (i 0).isLt
  have h1 : (i 1).val < 128 := (i 1).isLt
  have hN : cfg13.N = 50 := N_13
  have hlt : (i 0).val / 2000 < cfg13.N := by rw [hN]; omega
  obtain ⟨-, -, -, -, -, -, -, -, -, -, e0, e1⟩ := blockIndices ⟨(i 0).val / 2000, hlt⟩
  refine ⟨⟨(i 0).val / 2000, hlt⟩, flush13_5 _, ?_⟩
  rw [mem_block]
  intro a
  match a with
  | ⟨0, _⟩ =>
    show win13_5.index ⟨(i 0).val / 2000, hlt⟩ (0 : Fin 2) * 2000 ≤ (i 0).val ∧ (i 0).val < win13_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win13_5.index ⟨(i 0).val / 2000, hlt⟩ (1 : Fin 2) * 128 ≤ (i 1).val ∧ (i 1).val < win13_5.index ⟨(i 0).val / 2000, hlt⟩ (1 : Fin 2) * 128 + 128
    rw [e1]; omega

theorem value (c : Dev nD) (h : FVec Ideal S100000x128 .f32) (W1 W2 : FVec Ideal S128x128 .f32) (b1 b2 : FVec Ideal S128 .f32)
    (hh : V c main_v219 = h) (hW1 : V c main_arg19 = W1) (hb1 : V c main_v223 = shapeCast S1x128 b1 Facts₀.shapeCasts_S128_S1x128)
    (hW2 : V c main_arg21 = W2) (hb2 : V c main_v224 = shapeCast S1x128 b2 Facts₀.shapeCasts_S128_S1x128) :
    (dat13 (F := Ideal) V c).arrAt 5 cfg13.N = Cert.Spec.mlp h W1 b1 W2 b2 := by
  exact (dat13 (F := Ideal) V c).arrAt_eq_of_cover 5 (Cert.Spec.mlp h W1 b1 W2 b2)
    (fun t _ => flushed V c h W1 W2 b1 b2 hh hW1 hb1 hW2 hb2 t) cover

end Cert.KernelIdeal.Reg13

end
-- ==== Proof.LibPlainDot.lean ====
-- Entry (r, c) of a rows × contraction by contraction × columns product is Σ_k x(r, k)·w(k, c), whether accumulated from zero or
-- taken whole; hence a block of rows of a product is the product of that block of rows.
import Idealize.ShloMosaic.PureOps.Ideal.Laws
import Idealize.ShloMosaic.Lib.ValueIdx
import Idealize.ShloMosaic.Lib.KernelVsHost

noncomputable section

namespace Cert.PlainDot

open Idealize.ShloMosaic Idealize.ShloMosaic.ValueIdx
open scoped BigOperators

variable {M K N : Nat}

structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

section Axes
variable (lwf : DotDims.WF (⟨2, ![M, K]⟩ : Shape) ⟨2, ![K, N]⟩ ⟨2, ![M, N]⟩ [1] [0] [0] [1] [] [])

abbrev rec0 : DotDims ⟨2, ![M, K]⟩ ⟨2, ![K, N]⟩ ⟨2, ![M, N]⟩ := ⟨[1], [0], [0], [1], [], [], lwf⟩

theorem lhs_axis0 (i : (⟨2, ![M, N]⟩ : Shape).Idx) (q : (rec0 lwf).contr.Idx) :
    ((rec0 lwf).lhsIdx i q 0).val = (i 0).val := by
  unfold DotDims.lhsIdx
  rw [dif_neg (show ¬(0 : Fin 2) ∈ ([] : List (Fin 2)) by decide), dif_pos (show (0 : Fin 2) ∈ ([0] : List (Fin 2)) by decide)]
  rfl

theorem lhs_axis1 (i : (⟨2, ![M, N]⟩ : Shape).Idx) (q : (rec0 lwf).contr.Idx) :
    ((rec0 lwf).lhsIdx i q 1).val = (q ⟨0, Nat.one_pos⟩).val :=
  (rec0 lwf).lhsIdx_val_of_single rfl i q

theorem rhs_axis0 (i : (⟨2, ![M, N]⟩ : Shape).Idx) (q : (rec0 lwf).contr.Idx) :
    ((rec0 lwf).rhsIdx i q 0).val = (q ⟨0, Nat.one_pos⟩).val :=
  (rec0 lwf).rhsIdx_val_of_single rfl i q

theorem rhs_axis1 (i : (⟨2, ![M, N]⟩ : Shape).Idx) (q : (rec0 lwf).contr.Idx) :
    ((rec0 lwf).rhsIdx i q 1).val = (i 1).val := by
  unfold DotDims.rhsIdx
  rw [dif_neg (show ¬(1 : Fin 2) ∈ ([] : List (Fin 2)) by decide), dif_pos (show (1 : Fin 2) ∈ ([1] : List (Fin 2)) by decide)]
  rfl

theorem sum_rec0 {φ₁ φ₂ : FTy} (x : FVec Ideal ⟨2, ![M, K]⟩ φ₁) (w : FVec Ideal ⟨2, ![K, N]⟩ φ₂)
    (i : (⟨2, ![M, N]⟩ : Shape).Idx) :
    ∑ q : (rec0 lwf).contr.Idx, x ((rec0 lwf).lhsIdx i q) * w ((rec0 lwf).rhsIdx i q)
      = ∑ k : Fin K, x (ix2 (i 0) k) * w (ix2 k (i 1)) := by
  rw [← Equiv.sum_comp (contrEquiv1 (rec0 lwf) K rfl rfl).symm]
  refine Finset.sum_congr rfl fun k _ => ?_
  have hk := contrEquiv1_symm_val (rec0 lwf) K rfl rfl k
  have el : (rec0 lwf).lhsIdx i ((contrEquiv1 (rec0 lwf) K rfl rfl).symm k) = ix2 (i 0) k := funext fun a => Fin.ext (by
    match a with
    | ⟨0, _⟩ => exact lhs_axis0 lwf _ _
    | ⟨1, _⟩ => exact (lhs_axis1 lwf _ _).trans hk)
  have er : (rec0 lwf).rhsIdx i ((contrEquiv1 (rec0 lwf) K rfl rfl).symm k) = ix2 k (i 1) := funext fun a => Fin.ext (by
    match a with
    | ⟨0, _⟩ => exact (rhs_axis0 lwf _ _).trans hk
    | ⟨1, _⟩ => exact rhs_axis1 lwf _ _)
  rw [el, er]
  rfl

end Axes

variable {D : DotDims ⟨2, ![M, K]⟩ ⟨2, ![K, N]⟩ ⟨2, ![M, N]⟩}

theorem host_apply (hD : IsPlain D) {φ₁ φ₂ : FTy} (prec : Option ContractPrecision)
    (x : FVec Ideal ⟨2, ![M, K]⟩ φ₁) (w : FVec Ideal ⟨2, ![K, N]⟩ φ₂) (i : (⟨2, ![M, N]⟩ : Shape).Idx) :
    Host.dotGeneral D prec x w i = ∑ k : Fin K, x (ix2 (i 0) k) * w (ix2 k (i 1)) := by
  obtain ⟨lc, rc, ln, rn, lb, rb, wf⟩ := D
  obtain ⟨h1, h2, h3, h4, h5, h6⟩ := hD
  dsimp only at h1 h2 h3 h4 h5 h6
  subst h1 h2 h3 h4 h5 h6
  simp only [Host.dotGeneral]
  rw [Ideal.dotGeneral_apply]
  exact sum_rec0 wf x w i

theorem host_apply_ix (hD : IsPlain D) {φ₁ φ₂ : FTy} (prec : Option ContractPrecision)
    (x : FVec Ideal ⟨2, ![M, K]⟩ φ₁) (w : FVec Ideal ⟨2, ![K, N]⟩ φ₂) (r : Fin M) (c : Fin N) :
    Host.dotGeneral D prec x w (ix2 r c) = ∑ k : Fin K, x (ix2 r k) * w (ix2 k c) :=
  host_apply hD prec x w (ix2 r c)

theorem matmul_zero_apply (hD : IsPlain D) {φ₁ φ₂ : FTy} (prec : Option ContractPrecision)
    (x : FVec Ideal ⟨2, ![M, K]⟩ φ₁) (w : FVec Ideal ⟨2, ![K, N]⟩ φ₂) (i : (⟨2, ![M, N]⟩ : Shape).Idx) :
    matmul D prec x w (constant ⟨2, ![M, N]⟩ .f32 0x00000000#32) i = ∑ k : Fin K, x (ix2 (i 0) k) * w (ix2 k (i 1)) := by
  rw [matmul_zero_eq_dotGeneral]
  exact host_apply hD prec x w i

theorem host_rows {m : Nat} {DB : DotDims ⟨2, ![m, K]⟩ ⟨2, ![K, N]⟩ ⟨2, ![m, N]⟩} (hB : IsPlain DB) (hD : IsPlain D)
    {φ₁ φ₂ φ₁' φ₂' : FTy} (prec prec' : Option ContractPrecision)
    (xb : FVec Ideal ⟨2, ![m, K]⟩ φ₁') (wb : FVec Ideal ⟨2, ![K, N]⟩ φ₂')
    (x : FVec Ideal ⟨2, ![M, K]⟩ φ₁) (w : FVec Ideal ⟨2, ![K, N]⟩ φ₂)
    (p : Fin m) (r : Fin M) (c : Fin N)
    (hx : ∀ k : Fin K, xb (ix2 p k) = x (ix2 r k)) (hw : ∀ k : Fin K, wb (ix2 k c) = w (ix2 k c)) :
    Host.dotGeneral DB prec' xb wb (ix2 p c) = Host.dotGeneral D prec x w (ix2 r c) := by
  rw [host_apply hB, host_apply hD]
  refine Finset.sum_congr rfl fun k _ => ?_
  show xb (ix2 p k) * wb (ix2 k c) = x (ix2 r k) * w (ix2 k c)
  rw [hx k, hw k]

end Cert.PlainDot

end
-- ==== Proof.Reg14Pay.lean ====
-- Row R of the classifier depends on row R of the two embeddings alone: with x, y those rows, entry c is
-- Σ_k max(Σ_k' (x k' + y k')·W1(k', k) + b1 k, 0)·W2(k, c) + b2 c, for a block of rows as for all of them.
import proofs.«125188_j57878979281252_1_alg».proof.Proof.Gen.KernelIdeal.Skeleton
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«125188_j57878979281252_1_alg».proof.Proof.LibPlainDot

noncomputable section

namespace Cert.KernelIdeal.Reg14

open Cert.KernelIdeal Cert.KernelIdeal.Gen
open Idealize.ShloMosaic Idealize.ShloMosaic.ValueIdx Idealize.ShloMosaic.TcCoe Idealize.SL.Sem
open Cert.PlainDot
open scoped BigOperators

def hidRow (x y : Fin 128 → EReal) (W1 : FVec Ideal S128x64 .f32) (b1 : FVec Ideal S64 .f32) (k : Fin 64) : EReal :=
  max ((∑ k' : Fin 128, (x k' + y k') * W1 (ix2 k' k)) + b1 (ix1 k)) 0

def outRow (x y : Fin 128 → EReal) (W1 : FVec Ideal S128x64 .f32) (b1 : FVec Ideal S64 .f32)
    (W2 : FVec Ideal S64x40 .f32) (b2 : FVec Ideal S40 .f32) (c : Fin 40) : EReal :=
  (∑ k : Fin 64, hidRow x y W1 b1 k * W2 (ix2 k c)) + b2 (ix1 c)

theorem plain_k1 : IsPlain dot_S2000x128_S128x64_S2000x64_1_0_0_1_n_n := ⟨rfl, rfl, rfl, rfl, rfl, rfl⟩
theorem plain_k2 : IsPlain dot_S2000x64_S64x40_S2000x40_1_0_0_1_n_n := ⟨rfl, rfl, rfl, rfl, rfl, rfl⟩
theorem plain_r1 : IsPlain Cert.ReferenceIdeal.dot_S100000x128_S128x64_S100000x64_1_0_0_1_n_n := ⟨rfl, rfl, rfl, rfl, rfl, rfl⟩
theorem plain_r2 : IsPlain Cert.ReferenceIdeal.dot_S100000x64_S64x40_S100000x40_1_0_0_1_n_n := ⟨rfl, rfl, rfl, rfl, rfl, rfl⟩

theorem broadcastInDim_vec_oneRow_apply {α : Type} {n : Nat} (h : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] h x (ix2 u c) = x (ix1 c) := by
  refine broadcastInDim_apply ![1] h x (ix2 u c) (ix1 c) ?_
  intro a
  match a with
  | ⟨0, _⟩ =>
    show c.val = if n = 1 then 0 else c.val
    split
    · have := c.isLt; omega
    · rfl

theorem matmul_zero_apply_ix {M K N : Nat} {D : DotDims ⟨2, ![M, K]⟩ ⟨2, ![K, N]⟩ ⟨2, ![M, N]⟩} (hD : IsPlain D) {φ₁ φ₂ : FTy}
    (prec : Option ContractPrecision) (x : FVec Ideal ⟨2, ![M, K]⟩ φ₁) (w : FVec Ideal ⟨2, ![K, N]⟩ φ₂) (r : Fin M) (c : Fin N) :
    matmul D prec x w (constant ⟨2, ![M, N]⟩ .f32 0x00000000#32) (ix2 r c) = ∑ k : Fin K, x (ix2 r k) * w (ix2 k c) :=
  matmul_zero_apply hD prec x w (ix2 r c)

theorem pay_apply (x0 x1 : Vec Ideal S2000x128 .f32) (W1 : Vec Ideal S128x64 .f32) (b1 : FVec Ideal S64 .f32)
    (W2 : Vec Ideal S64x40 .f32) (b2 : FVec Ideal S40 .f32) (r : Fin 2000) (c : Fin 40) :
    k14_pay1 (F := Ideal) x0 x1 W1 (shapeCast S1x64 b1 Facts₀.shapeCasts_S64_S1x64) W2 (shapeCast S1x40 b2 Facts₀.shapeCasts_S40_S1x40) (ix2 r c)
      = outRow (fun k => x0 (ix2 r k)) (fun k => x1 (ix2 r k)) W1 b1 W2 b2 c := by
  unfold k14_pay1
  simp only [shapeCast_self]
  rw [addf_apply, matmul_zero_apply_ix plain_k2, broadcastTo_1b_ab_apply, shapeCast_a_1a_apply]
  unfold outRow
  refine congrArg (· + b2 (ix1 c)) (Finset.sum_congr rfl fun k _ => congrArg (· * W2 (ix2 k c)) ?_)
  rw [truncf_apply, maximumf_apply, addf_apply, matmul_zero_apply_ix plain_k1, broadcastTo_1b_ab_apply, shapeCast_a_1a_apply,
    broadcast_apply]
  show max _ (Ideal.ofBits .f32 0x00000000#32) = _
  rw [Ideal.ofBits_zero_f32]
  rfl

theorem spec_apply (zl zg : FVec Ideal S100000x128 .f32) (W1 : FVec Ideal S128x64 .f32) (b1 : FVec Ideal S64 .f32)
    (W2 : FVec Ideal S64x40 .f32) (b2 : FVec Ideal S40 .f32) (R : Fin 100000) (c : Fin 40) :
    Cert.Spec.nodePred zl zg W1 b1 W2 b2 (ix2 R c)
      = outRow (fun k => zl (ix2 R k)) (fun k => zg (ix2 R k)) W1 b1 W2 b2 c := by
  unfold Cert.Spec.nodePred Cert.Spec.rows40
  rw [addf_apply, host_apply_ix plain_r2, broadcastInDim_oneRow_apply, broadcastInDim_vec_oneRow_apply]
  unfold outRow
  refine congrArg (· + b2 (ix1 c)) (Finset.sum_congr rfl fun k _ => congrArg (· * W2 (ix2 k c)) ?_)
  unfold Cert.Spec.relu64 Cert.Spec.rows64
  rw [maximumf_apply, addf_apply, host_apply_ix plain_r1, broadcastInDim_oneRow_apply, broadcastInDim_vec_oneRow_apply,
    broadcastInDim_scalar_apply, constant_apply, Ideal.ofBits_zero_f32]
  rfl

end Cert.KernelIdeal.Reg14

end
-- ==== Proof.Reg14.lean ====
-- Region 14 leaves the classifier of zl + zg: grid point t writes back its row block t, and the 50 row blocks cover the array.
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.Reg14Pay
import Idealize.ShloMosaic.Lib.Pipeline.Value
import Idealize.ShloMosaic.Lib.ValueIdx

set_option maxRecDepth 16384

noncomputable section

namespace Cert.KernelIdeal.Reg14

open Cert.KernelIdeal Cert.KernelIdeal.Gen Cert.KernelIdeal.GenP Cert.KernelIdeal.Facts₀
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem grid_size : cfg14.N = 50 := N_14

theorem idx_facts : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = t.val ∧ win14_6.index t (1 : Fin 2) = 0 :=
  (by decide +kernel : ∀ t : Fin grid14.N, _)

def rowAt (t : Fin cfg14.N) (r : Fin 2000) : Fin 100000 :=
  ⟨t.val * 2000 + r.val, by have h : t.val < 50 := Nat.lt_of_lt_of_eq t.isLt grid_size; have := r.isLt; omega⟩

theorem blk0_apply (c : Dev nD) (t : Fin cfg14.N) (r : Fin 2000) (k : Fin 128) :
    (iblk14 V c 0 t : Vec Ideal S2000x128 .f32) (ix2 r k) = (V c main_v222 : S100000x128.Idx → Elt Ideal .f32) (ix2 (rowAt t r) k) := by
  obtain ⟨e0, e1, -⟩ := idx_facts t
  unfold iblk14
  rw [View.read_apply]
  show V c main_v222 _ = V c main_v222 _
  congr 1
  funext a
  apply Fin.ext
  match a with
  | ⟨0, _⟩ => show win14_0.index t (0 : Fin 2) * 2000 + 1 * r.val = t.val * 2000 + r.val; rw [e0]; omega
  | ⟨1, _⟩ => show win14_0.index t (1 : Fin 2) * 128 + 1 * k.val = k.val; rw [e1]; omega

theorem blk1_apply (c : Dev nD) (t : Fin cfg14.N) (r : Fin 2000) (k : Fin 128) :
    (iblk14 V c 1 t : Vec Ideal S2000x128 .f32) (ix2 r k) = (V c main_v225 : S100000x128.Idx → Elt Ideal .f32) (ix2 (rowAt t r) k) := by
  obtain ⟨-, -, e0, e1, -⟩ := idx_facts t
  unfold iblk14
  rw [View.read_apply]
  show V c main_v225 _ = V c main_v225 _
  congr 1
  funext a
  apply Fin.ext
  match a with
  | ⟨0, _⟩ => show win14_1.index t (0 : Fin 2) * 2000 + 1 * r.val = t.val * 2000 + r.val; rw [e0]; omega
  | ⟨1, _⟩ => show win14_1.index t (1 : Fin 2) * 128 + 1 * k.val = k.val; rw [e1]; omega

theorem blk2_eq (c : Dev nD) (t : Fin cfg14.N) :
    (iblk14 V c 2 t : Vec Ideal S128x64 .f32) = (V c main_arg23 : S128x64.Idx → Elt Ideal .f32) := by
  obtain ⟨-, -, -, -, e0, e1, -⟩ := idx_facts t
  unfold iblk14
  funext y
  rw [View.read_apply]
  show V c main_arg23 _ = V c main_arg23 y
  congr 1
  funext a
  apply Fin.ext
  match a with
  | ⟨0, _⟩ => show win14_2.index t (0 : Fin 2) * 128 + 1 * (y 0).val = (y 0).val; rw [e0]; omega
  | ⟨1, _⟩ => show win14_2.index t (1 : Fin 2) * 64 + 1 * (y 1).val = (y 1).val; rw [e1]; omega

theorem blk3_eq (c : Dev nD) (t : Fin cfg14.N) :
    (iblk14 V c 3 t : Vec Ideal S1x64 .f32) = (V c main_v244 : S1x64.Idx → Elt Ideal .f32) := by
  obtain ⟨-, -, -, -, -, -, e0, e1, -⟩ := idx_facts t
  unfold iblk14
  funext y
  rw [View.read_apply]
  show V c main_v244 _ = V c main_v244 y
  congr 1
  funext a
  apply Fin.ext
  match a with
  | ⟨0, _⟩ => show win14_3.index t (0 : Fin 2) * 1 + 1 * (y 0).val = (y 0).val; rw [e0]; omega
  | ⟨1, _⟩ => show win14_3.index t (1 : Fin 2) * 64 + 1 * (y 1).val = (y 1).val; rw [e1]; omega

theorem blk4_eq (c : Dev nD) (t : Fin cfg14.N) :
    (iblk14 V c 4 t : Vec Ideal S64x40 .f32) = (V c main_arg25 : S64x40.Idx → Elt Ideal .f32) := by
  obtain ⟨-, -, -, -, -, -, -, -, e0, e1, -⟩ := idx_facts t
  unfold iblk14
  funext y
  rw [View.read_apply]
  show V c main_arg25 _ = V c main_arg25 y
  congr 1
  funext a
  apply Fin.ext
  match a with
  | ⟨0, _⟩ => show win14_4.index t (0 : Fin 2) * 64 + 1 * (y 0).val = (y 0).val; rw [e0]; omega
  | ⟨1, _⟩ => show win14_4.index t (1 : Fin 2) * 40 + 1 * (y 1).val = (y 1).val; rw [e1]; omega

theorem blk5_eq (c : Dev nD) (t : Fin cfg14.N) :
    (iblk14 V c 5 t : Vec Ideal S1x40 .f32) = (V c main_v245 : S1x40.Idx → Elt Ideal .f32) := by
  obtain ⟨-, -, -, -, -, -, -, -, -, -, e0, e1, -⟩ := idx_facts t
  unfold iblk14
  funext y
  rw [View.read_apply]
  show V c main_v245 _ = V c main_v245 y
  congr 1
  funext a
  apply Fin.ext
  match a with
  | ⟨0, _⟩ => show win14_5.index t (0 : Fin 2) * 1 + 1 * (y 0).val = (y 0).val; rw [e0]; omega
  | ⟨1, _⟩ => show win14_5.index t (1 : Fin 2) * 40 + 1 * (y 1).val = (y 1).val; rw [e1]; omega

theorem blk6_emb (t : Fin cfg14.N) (r : Fin 2000) (cc : Fin 40) :
    ((cfg14.win 6).blk t).view.emb (ix2 r cc : S2000x40.Idx) = (ix2 (rowAt t r) cc : S100000x40.Idx) := by
  obtain ⟨-, -, -, -, -, -, -, -, -, -, -, -, e0, e1⟩ := idx_facts t
  funext a
  apply Fin.ext
  match a with
  | ⟨0, _⟩ => show win14_6.index t (0 : Fin 2) * 2000 + 1 * r.val = t.val * 2000 + r.val; rw [e0]; omega
  | ⟨1, _⟩ => show win14_6.index t (1 : Fin 2) * 40 + 1 * cc.val = cc.val; rw [e1]; omega

theorem flushed_eq (c : Dev nD) (zl zg : FVec Ideal S100000x128 .f32) (W1 : FVec Ideal S128x64 .f32) (b1 : FVec Ideal S64 .f32)
    (W2 : FVec Ideal S64x40 .f32) (b2 : FVec Ideal S40 .f32)
    (hzl : V c main_v222 = zl) (hzg : V c main_v225 = zg) (hW1 : V c main_arg23 = W1) (hb1 : V c main_v244 = shapeCast S1x64 b1 Facts₀.shapeCasts_S64_S1x64)
    (hW2 : V c main_arg25 = W2) (hb2 : V c main_v245 = shapeCast S1x40 b2 Facts₀.shapeCasts_S40_S1x40) (t : Fin cfg14.N) :
    (dat14 (F := Ideal) V c).flushed 6 t = ((cfg14.win 6).blk t).view.read (Elt Ideal) (Cert.Spec.nodePred zl zg W1 b1 W2 b2) := by
  show (cfg14.win 6).cut (grid14.coords t) ((dat14 V c).after 6 t) = _
  rw [after14_6]
  unfold out14_6
  rw [View.canon_unit_zero zero_offsets]
  simp only [View.ld_unit_zero (S := S2000x128) zero_offsets, View.ld_unit_zero (S := S128x64) zero_offsets,
    View.ld_unit_zero (S := S1x64) zero_offsets, View.ld_unit_zero (S := S64x40) zero_offsets,
    View.ld_unit_zero (S := S1x40) zero_offsets]
  rw [blk2_eq, blk3_eq, blk4_eq, blk5_eq, hW1, hb1, hW2, hb2]
  funext j
  obtain ⟨r, cc, rfl⟩ : ∃ (r : Fin 2000) (cc : Fin 40), j = ix2 r cc := ⟨j 0, j 1, eq_ix2 j⟩
  show k14_pay1 (F := Ideal) (iblk14 V c 0 t) (iblk14 V c 1 t) W1 (shapeCast S1x64 b1 Facts₀.shapeCasts_S64_S1x64) W2
      (shapeCast S1x40 b2 Facts₀.shapeCasts_S40_S1x40) (ix2 r cc)
    = Cert.Spec.nodePred zl zg W1 b1 W2 b2 (((cfg14.win 6).blk t).view.emb (ix2 r cc))
  have h0 : (fun k => (iblk14 V c 0 t : Vec Ideal S2000x128 .f32) (ix2 r k)) = fun k => zl (ix2 (rowAt t r) k) :=
    funext fun k => by rw [blk0_apply, hzl]
  have h1 : (fun k => (iblk14 V c 1 t : Vec Ideal S2000x128 .f32) (ix2 r k)) = fun k => zg (ix2 (rowAt t r) k) :=
    funext fun k => by rw [blk1_apply, hzg]
  rw [pay_apply, blk6_emb, spec_apply, h0, h1]

theorem mem_blk6 (t : Fin cfg14.N) (i : S100000x40.Idx) :
    i ∈ ((cfg14.win 6).blk t).view.set ↔ ∀ a : Fin 2, win14_6.index t a * S2000x40.size a ≤ (i a).val ∧ (i a).val < win14_6.index t a * S2000x40.size a + S2000x40.size a := by
  show i ∈ ((View.whole main_v246).slice (win14_6.rect t)).set ↔ _
  rw [View.set_slice_whole, Rect.mem_set_unit]
  exact Iff.rfl

theorem cover (i : S100000x40.Idx) : ∃ t : Fin cfg14.N, (cfg14.win 6).flush t = true ∧ i ∈ ((cfg14.win 6).blk t).view.set := by
  have hi0 : (i 0).val < 100000 := (i 0).isLt
  have hi1 : (i 1).val < 40 := (i 1).isLt
  obtain ⟨t, ht⟩ : ∃ t : Fin cfg14.N, t.val = (i 0).val / 2000 := ⟨⟨(i 0).val / 2000, by rw [grid_size]; omega⟩, rfl⟩
  obtain ⟨-, -, -, -, -, -, -, -, -, -, -, -, e0, e1⟩ := idx_facts t
  refine ⟨t, flush14_6 t, ?_⟩
  rw [mem_blk6]
  intro a
  match a with
  | ⟨0, _⟩ =>
    show win14_6.index t (0 : Fin 2) * 2000 ≤ (i 0).val ∧ (i 0).val < win14_6.index t (0 : Fin 2) * 2000 + 2000
    rw [e0, ht]; omega
  | ⟨1, _⟩ =>
    show win14_6.index t (1 : Fin 2) * 40 ≤ (i 1).val ∧ (i 1).val < win14_6.index t (1 : Fin 2) * 40 + 40
    rw [e1]; omega

theorem value (c : Dev nD) (zl zg : FVec Ideal S100000x128 .f32) (W1 : FVec Ideal S128x64 .f32) (b1 : FVec Ideal S64 .f32)
    (W2 : FVec Ideal S64x40 .f32) (b2 : FVec Ideal S40 .f32)
    (hzl : V c main_v222 = zl) (hzg : V c main_v225 = zg) (hW1 : V c main_arg23 = W1) (hb1 : V c main_v244 = shapeCast S1x64 b1 Facts₀.shapeCasts_S64_S1x64)
    (hW2 : V c main_arg25 = W2) (hb2 : V c main_v245 = shapeCast S1x40 b2 Facts₀.shapeCasts_S40_S1x40) :
    (dat14 (F := Ideal) V c).arrAt 6 cfg14.N = Cert.Spec.nodePred zl zg W1 b1 W2 b2 :=
  (dat14 (F := Ideal) V c).arrAt_eq_of_cover 6 (Cert.Spec.nodePred zl zg W1 b1 W2 b2)
    (fun t _ => flushed_eq V c zl zg W1 b1 W2 b2 hzl hzg hW1 hb1 hW2 hb2 t) cover

end Cert.KernelIdeal.Reg14

end
-- ==== Proof.Reg0.lean ====
-- Region 0 leaves x·W: grid point t writes back row block t of it, and the 50 row blocks cover the array.
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.LibPlainDot
import Idealize.ShloMosaic.Lib.Pipeline.Value

set_option maxRecDepth 16384

noncomputable section

namespace Cert.KernelIdeal.Reg0

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem blockPlain : Cert.PlainDot.IsPlain dot_S2000x256_S256x128_S2000x128_1_0_0_1_n_n := ⟨rfl, rfl, rfl, rfl, rfl, rfl⟩
theorem wholePlain : Cert.PlainDot.IsPlain Cert.ReferenceIdeal.dot_S100000x256_S256x128_S100000x128_1_0_0_1_n_n :=
  ⟨rfl, rfl, rfl, rfl, rfl, rfl⟩

theorem pay_apply (xb : Vec Ideal S2000x256 .f32) (wb : Vec Ideal S256x128 .f32) (j : S2000x128.Idx) :
    k0_pay1 xb wb j = ∑ k : Fin 256, xb (ix2 (j 0) k) * wb (ix2 k (j 1)) := by
  unfold k0_pay1
  exact Cert.PlainDot.matmul_zero_apply blockPlain none _ _ j

theorem point (x : FVec Ideal S100000x256 .f32) (w : FVec Ideal S256x128 .f32)
    (xb : Vec Ideal S2000x256 .f32) (wb : Vec Ideal S256x128 .f32) (j : S2000x128.Idx) (i : S100000x128.Idx)
    (hxb : ∀ k : Fin 256, xb (ix2 (j 0) k) = x (ix2 (i 0) k)) (hwb : ∀ k : Fin 256, wb (ix2 k (j 1)) = w (ix2 k (i 1))) :
    k0_pay1 xb wb j = Cert.Spec.proj256 x w i := by
  rw [pay_apply]
  unfold Cert.Spec.proj256
  rw [Cert.PlainDot.host_apply wholePlain]
  exact Finset.sum_congr rfl fun k _ => by rw [hxb k, hwb k]

theorem zeroOffsets : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed (c : Dev nD) (t : Fin cfg0.N) :
    (dat0 (F := Ideal) V c).flushed 2 t
      = ((cfg0.win 2).blk t).view.read (Elt Ideal) (Cert.Spec.proj256 (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  obtain ⟨e0, e1, e2, e3, e4, e5⟩ := idx_facts t
  funext j
  show k0_pay1 (iblk0 V c 0 t) (iblk0 V c 1 t) (fun a => ⟨(j a).val, (j a).isLt⟩)
    = Cert.Spec.proj256 (V c main_arg0) (V c main_arg3) (((cfg0.win 2).blk t).view.emb j)
  refine point _ _ _ _ _ _ (fun k => ?_) (fun k => ?_)
  · show V c main_arg0 (((cfg0.win 0).blk t).view.emb _) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; rw [e0, e4]
    | ⟨1, _⟩ => show win0_0.index t (1 : Fin 2) * 256 + 1 * k.val = k.val; rw [e1]; omega
  · show V c main_arg3 (((cfg0.win 1).blk t).view.emb _) = V c main_arg3 _
    refine congrArg (V c main_arg3) (funext fun a => Fin.ext ?_)
    match a with
    | ⟨0, _⟩ => show win0_1.index t (0 : Fin 2) * 256 + 1 * k.val = k.val; rw [e2]; omega
    | ⟨1, _⟩ => show win0_1.index t (1 : Fin 2) * 128 + 1 * (j 1).val = win0_2.index t (1 : Fin 2) * 128 + 1 * (j 1).val; rw [e3, e5]

theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v8).slice (win0_2.rect t)).set ↔ _
  rw [View.set_slice_whole, Rect.mem_set_unit]
  exact Iff.rfl

theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 2000 < cfg0.N := by show (i 0).val / 2000 < 50; omega
  obtain ⟨e0, e1, e2, e3, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

theorem value (c : Dev nD) (x : FVec Ideal S100000x256 .f32) (w : FVec Ideal S256x128 .f32)
    (hx : V c main_arg0 = x) (hw : V c main_arg3 = w) :
    (dat0 (F := Ideal) V c).arrAt 2 cfg0.N = Cert.Spec.proj256 x w := by
  subst hx hw
  exact (dat0 (F := Ideal) V c).arrAt_eq_of_cover 2 _ (fun t _ => flushed V c t) cover

end Cert.KernelIdeal.Reg0

end
-- ==== Proof.Reg1.lean ====
-- Region 1 leaves max(raw + b, 0), the bias a one-row array: grid point t writes back row block t, and the 50 row blocks cover the array.
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Reg1

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem pay_apply (x : Vec Ideal S2000x128 .f32) (y : Vec Ideal S1x128 .f32) (p : Fin 2000) (q : Fin 128) :
    k1_pay1 (F := Ideal) x y (ix2 p q)
      = max (x (ix2 p q) + y (ix2 (0 : Fin 1) q)) (Ideal.ofBits .f32 0x00000000#32) := by
  unfold k1_pay1
  rw [maximumf_apply, addf_apply, shapeCast_self, shapeCast_self, broadcastTo_1b_ab_apply, broadcast_apply]
  rfl

theorem spec_apply (raw : FVec Ideal S100000x128 .f32) (b : FVec Ideal S128 .f32) (r : Fin 100000) (q : Fin 128) :
    Cert.Spec.relu128 (Cert.Spec.addRow raw b) (ix2 r q)
      = max (raw (ix2 r q) + b (ix1 q)) (Ideal.ofBits .f32 0x00000000#32) := by
  unfold Cert.Spec.relu128 Cert.Spec.addRow Cert.Spec.rows128 Cert.Spec.row1
  rw [maximumf_apply, addf_apply, broadcastInDim_oneRow_apply, broadcastInDim_scalar_apply, constant_apply]
  congr 2
  refine broadcastInDim_apply _ _ b _ (ix1 q) fun a => ?_
  match a with
  | ⟨0, _⟩ => rfl

theorem row_apply (b : FVec Ideal S128 .f32) (q : Fin 128) :
    shapeCast S1x128 b Facts₀.shapeCasts_S128_S1x128 (ix2 (0 : Fin 1) q) = b (ix1 q) :=
  shapeCast_a_1a_apply b _ 0 q

theorem block_entry (x : Vec Ideal S2000x128 .f32) (y : Vec Ideal S1x128 .f32)
    (raw : FVec Ideal S100000x128 .f32) (b : FVec Ideal S128 .f32) (j : S2000x128.Idx) (i : S100000x128.Idx)
    (hx : x j = raw i) (hy : ∀ q : Fin 128, y (ix2 (0 : Fin 1) q) = b (ix1 q)) (hcol : (i 1).val = (j 1).val) :
    k1_pay1 (F := Ideal) x y j = Cert.Spec.relu128 (Cert.Spec.addRow raw b) i := by
  obtain ⟨p, q, rfl⟩ : ∃ p q, j = ix2 p q := ⟨j 0, j 1, eq_ix2 j⟩
  obtain ⟨r, s, rfl⟩ : ∃ r s, i = ix2 r s := ⟨i 0, i 1, eq_ix2 i⟩
  obtain rfl : s = q := Fin.ext hcol
  rw [pay_apply, spec_apply, hx, hy]

theorem zeros : (![0, 0] : Fin 2 → Nat) = fun _ => 0 := funext fun a => by
  match a with
  | ⟨0, _⟩ => rfl
  | ⟨1, _⟩ => rfl

theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v46).slice (win1_2.rect t)).set ↔ _
  rw [View.set_slice_whole, Rect.mem_set_unit]
  exact Iff.rfl

theorem cover (i : S100000x128.Idx) :
    ∃ t : Fin cfg1.N, (cfg1.win 2).flush t = true ∧ i ∈ ((cfg1.win 2).blk t).view.set := by
  have h0 : (i 0).val < 100000 := (i 0).isLt
  have h1 : (i 1).val < 128 := (i 1).isLt
  have hN : cfg1.N = 50 := N_1
  let t : Fin cfg1.N := ⟨(i 0).val / 2000, by rw [hN]; omega⟩
  obtain ⟨-, -, -, -, e0, e1⟩ := index_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem flushed (c : Dev nD) (raw : FVec Ideal S100000x128 .f32) (b : FVec Ideal S128 .f32)
    (hraw : V c main_v44 = raw) (hb : V c main_v45 = shapeCast S1x128 b Facts₀.shapeCasts_S128_S1x128) (t : Fin cfg1.N) :
    (dat1 (F := Ideal) V c).flushed 2 t
      = ((cfg1.win 2).blk t).view.read (Elt Ideal) (Cert.Spec.relu128 (Cert.Spec.addRow raw b)) := by
  show (cfg1.win 2).cut (grid1.coords t) ((dat1 V c).after 2 t) = _
  rw [after1_2]
  unfold out1_2
  rw [View.canon_unit_zero zeros]
  simp only [View.ld_unit_zero (S := S2000x128) zeros, View.ld_unit_zero (S := S1x128) zeros]
  obtain ⟨e0, e1, e2, e3, e4, e5⟩ := index_facts t
  funext j
  refine block_entry (iblk1 V c 0 t) (iblk1 V c 1 t) raw b j (((cfg1.win 2).blk t).view.emb j) ?_ ?_ ?_
  ·
    have hemb : ((cfg1.win 0).blk t).view.emb j = ((cfg1.win 2).blk t).view.emb j := by
      funext a; apply Fin.ext
      match a with
      | ⟨0, _⟩ => show win1_0.index t (0 : Fin 2) * 2000 + 1 * (j 0).val = win1_2.index t (0 : Fin 2) * 2000 + 1 * (j 0).val; omega
      | ⟨1, _⟩ => show win1_0.index t (1 : Fin 2) * 128 + 1 * (j 1).val = win1_2.index t (1 : Fin 2) * 128 + 1 * (j 1).val; omega
    show V c main_v44 (((cfg1.win 0).blk t).view.emb j) = raw (((cfg1.win 2).blk t).view.emb j)
    rw [hraw, hemb]
  ·
    intro q
    have hemb : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 128 + 1 * q.val = q.val; omega
    show V c main_v45 (((cfg1.win 1).blk t).view.emb (ix2 (0 : Fin 1) q)) = b (ix1 q)
    rw [hb, hemb, row_apply]
  · show win1_2.index t (1 : Fin 2) * 128 + 1 * (j 1).val = (j 1).val
    omega

theorem value (c : Dev nD) (raw : FVec Ideal S100000x128 .f32) (b : FVec Ideal S128 .f32)
    (hraw : V c main_v44 = raw) (hb : V c main_v45 = shapeCast S1x128 b Facts₀.shapeCasts_S128_S1x128) :
    (dat1 (F := Ideal) V c).arrAt 2 cfg1.N = Cert.Spec.relu128 (Cert.Spec.addRow raw b) :=
  (dat1 (F := Ideal) V c).arrAt_eq_of_cover 2 (Cert.Spec.relu128 (Cert.Spec.addRow raw b))
    (fun t _ => flushed V c raw b hraw hb t) cover

end Cert.KernelIdeal.Reg1

end
-- ==== Proof.Reg2.lean ====
-- Region 2 leaves g·(y − μ)·(v + ε)^(-1/2) + β, with μ, v, g, β read from one-row arrays: grid point t writes back row block t,
-- and the 50 row blocks cover the array.
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx

set_option maxRecDepth 16384

noncomputable section

namespace Cert.KernelIdeal.Reg2

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev epsR : EReal := Ideal.ofBits .f32 0x3727C5AC#32

theorem pay_at (x0 : Vec Ideal S2000x128 .f32) (xv xg xmu xbt : Vec Ideal S1x128 .f32) (j : S2000x128.Idx) (k : S1x128.Idx)
    (hk0 : (k 0).val = 0) (hk1 : (k 1).val = (j 1).val) :
    k2_pay1 x0 xv xg xmu xbt j = xg k * (x0 j - xmu k) * Ideal.rsqrt (xv k + epsR) + xbt k := by
  have hb : ∀ x : Vec Ideal S1x128 .f32, broadcastTo S2000x128 x Gen.broadcasts_S1x128_S2000x128 j = x k := fun x =>
    broadcastTo_apply x _ j k fun a => by
      match a with
      | ⟨0, _⟩ => exact hk0
      | ⟨1, _⟩ => exact hk1
  unfold k2_pay1
  simp only [shapeCast_self]
  rw [addf_apply, mulf_apply, mulf_apply, subf_apply, hb, hb, hb, hb]
  rfl

theorem row1_at (u : FVec Ideal S128 .f32) (k : S1x128.Idx) (l : S128.Idx) (hl : (l 0).val = (k 1).val) :
    Cert.Spec.row1 u k = u l := by
  unfold Cert.Spec.row1
  exact broadcastInDim_apply _ _ u k l fun a => by
    match a with
    | ⟨0, _⟩ => exact hl

theorem cast1_at (u : FVec Ideal S128 .f32) (k : S1x128.Idx) (l : S128.Idx) (hk0 : (k 0).val = 0) (hl : (l 0).val = (k 1).val) :
    shapeCast S1x128 u Facts₀.shapeCasts_S128_S1x128 k = u l := by
  refine shapeCast_apply u _ k l ?_
  rw [Shape.rowMajor_val_one, Shape.rowMajor_val_two, hl, hk0]
  show (k 1).val = 0 * 128 + (k 1).val
  omega

theorem rows128_at (u : FVec Ideal S128 .f32) (i : S100000x128.Idx) (k : S1x128.Idx) (l : S128.Idx)
    (hk0 : (k 0).val = 0) (hk1 : (k 1).val = (i 1).val) (hl : (l 0).val = (k 1).val) : Cert.Spec.rows128 u i = u l := by
  unfold Cert.Spec.rows128
  exact (broadcastInDim_apply _ _ (Cert.Spec.row1 u) i k fun a => by
    match a with
    | ⟨0, _⟩ => exact hk0
    | ⟨1, _⟩ => exact hk1).trans (row1_at u k l hl)

theorem bn_at (y : FVec Ideal S100000x128 .f32) (mu v g bt : FVec Ideal S128 .f32) (i : S100000x128.Idx) (k : S1x128.Idx) (l : S128.Idx)
    (hk0 : (k 0).val = 0) (hk1 : (k 1).val = (i 1).val) (hl : (l 0).val = (k 1).val) :
    Cert.Spec.bnWith y mu v g bt i = g l * (y i - mu l) * Ideal.rsqrt (v l + epsR) + bt l := by
  unfold Cert.Spec.bnWith Cert.Spec.center
  rw [addf_apply, mulf_apply, mulf_apply, subf_apply, rows128_at g i k l hk0 hk1 hl, rows128_at mu i k l hk0 hk1 hl,
    rows128_at _ i k l hk0 hk1 hl, rows128_at bt i k l hk0 hk1 hl]
  rfl

theorem point (y : FVec Ideal S100000x128 .f32) (mu v g bt : FVec Ideal S128 .f32)
    (x0 : Vec Ideal S2000x128 .f32) (xmu xv xg xbt : Vec Ideal S1x128 .f32)
    (j : S2000x128.Idx) (i : S100000x128.Idx) (k : S1x128.Idx) (l : S128.Idx)
    (hk0 : (k 0).val = 0) (hk1 : (k 1).val = (j 1).val) (hi1 : (i 1).val = (j 1).val) (hl : (l 0).val = (k 1).val)
    (e0 : x0 j = y i) (emu : xmu k = mu l) (ev : xv k = v l) (eg : xg k = g l) (ebt : xbt k = bt l) :
    k2_pay1 x0 xv xg xmu xbt j = Cert.Spec.bnWith y mu v g bt i := by
  rw [pay_at x0 xv xg xmu xbt j k hk0 hk1, bn_at y mu v g bt i k l hk0 (hk1.trans hi1.symm) hl, e0, emu, ev, eg, ebt]

theorem zero_off : (![0, 0] : Fin 2 → Nat) = fun _ => 0 := funext fun a => by
  match a with
  | ⟨0, _⟩ => rfl
  | ⟨1, _⟩ => rfl

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem big_read (c : Dev nD) (t : Fin cfg2.N) (j : S2000x128.Idx) :
    (iblk2 V c 0 t : Vec Ideal S2000x128 .f32) j
      = (V c main_v46 : S100000x128.Idx → Elt Ideal .f32) (((cfg2.win 5).blk t).view.emb j) := by
  obtain ⟨a0, a1, -, -, -, -, -, -, -, -, o0, o1⟩ := idx_facts t
  unfold iblk2
  rw [View.read_apply]
  show V c main_v46 (((cfg2.win 0).blk t).view.emb j) = V c main_v46 (((cfg2.win 5).blk t).view.emb j)
  refine congrArg (V c main_v46) (funext fun a => Fin.ext ?_)
  match a with
  | ⟨0, _⟩ =>
    show win2_0.index t (0 : Fin 2) * 2000 + 1 * (j 0).val = win2_5.index t (0 : Fin 2) * 2000 + 1 * (j 0).val
    rw [a0, o0]
  | ⟨1, _⟩ =>
    show win2_0.index t (1 : Fin 2) * 128 + 1 * (j 1).val = win2_5.index t (1 : Fin 2) * 128 + 1 * (j 1).val
    rw [a1, o1]

theorem lane_out (t : Fin cfg2.N) (j : S2000x128.Idx) : ((((cfg2.win 5).blk t).view.emb j) 1).val = (j 1).val := by
  obtain ⟨-, -, -, -, -, -, -, -, -, -, -, o1⟩ := idx_facts t
  show win2_5.index t (1 : Fin 2) * 128 + 1 * (j 1).val = (j 1).val
  rw [o1]
  omega

theorem mean_read (c : Dev nD) (t : Fin cfg2.N) (k : S1x128.Idx) :
    (iblk2 V c 1 t : Vec Ideal S1x128 .f32) k = (V c main_v50 : S1x128.Idx → Elt Ideal .f32) k := by
  obtain ⟨-, -, b0, b1, -, -, -, -, -, -, -, -⟩ := idx_facts t
  unfold iblk2
  rw [View.read_apply]
  show V c main_v50 (((cfg2.win 1).blk t).view.emb k) = V c main_v50 k
  refine congrArg (V c main_v50) (funext fun a => Fin.ext ?_)
  match a with
  | ⟨0, _⟩ => show win2_1.index t (0 : Fin 2) * 1 + 1 * (k 0).val = (k 0).val; rw [b0]; omega
  | ⟨1, _⟩ => show win2_1.index t (1 : Fin 2) * 128 + 1 * (k 1).val = (k 1).val; rw [b1]; omega

theorem var_read (c : Dev nD) (t : Fin cfg2.N) (k : S1x128.Idx) :
    (iblk2 V c 2 t : Vec Ideal S1x128 .f32) k = (V c main_v57 : S1x128.Idx → Elt Ideal .f32) k := by
  obtain ⟨-, -, -, -, b0, b1, -, -, -, -, -, -⟩ := idx_facts t
  unfold iblk2
  rw [View.read_apply]
  show V c main_v57 (((cfg2.win 2).blk t).view.emb k) = V c main_v57 k
  refine congrArg (V c main_v57) (funext fun a => Fin.ext ?_)
  match a with
  | ⟨0, _⟩ => show win2_2.index t (0 : Fin 2) * 1 + 1 * (k 0).val = (k 0).val; rw [b0]; omega
  | ⟨1, _⟩ => show win2_2.index t (1 : Fin 2) * 128 + 1 * (k 1).val = (k 1).val; rw [b1]; omega

theorem gain_read (c : Dev nD) (t : Fin cfg2.N) (k : S1x128.Idx) :
    (iblk2 V c 3 t : Vec Ideal S1x128 .f32) k = (V c main_v58 : S1x128.Idx → Elt Ideal .f32) k := by
  obtain ⟨-, -, -, -, -, -, b0, b1, -, -, -, -⟩ := idx_facts t
  unfold iblk2
  rw [View.read_apply]
  show V c main_v58 (((cfg2.win 3).blk t).view.emb k) = V c main_v58 k
  refine congrArg (V c main_v58) (funext fun a => Fin.ext ?_)
  match a with
  | ⟨0, _⟩ => show win2_3.index t (0 : Fin 2) * 1 + 1 * (k 0).val = (k 0).val; rw [b0]; omega
  | ⟨1, _⟩ => show win2_3.index t (1 : Fin 2) * 128 + 1 * (k 1).val = (k 1).val; rw [b1]; omega

theorem offset_read (c : Dev nD) (t : Fin cfg2.N) (k : S1x128.Idx) :
    (iblk2 V c 4 t : Vec Ideal S1x128 .f32) k = (V c main_v59 : S1x128.Idx → Elt Ideal .f32) k := by
  obtain ⟨-, -, -, -, -, -, -, -, b0, b1, -, -⟩ := idx_facts t
  unfold iblk2
  rw [View.read_apply]
  show V c main_v59 (((cfg2.win 4).blk t).view.emb k) = V c main_v59 k
  refine congrArg (V c main_v59) (funext fun a => Fin.ext ?_)
  match a with
  | ⟨0, _⟩ => show win2_4.index t (0 : Fin 2) * 1 + 1 * (k 0).val = (k 0).val; rw [b0]; omega
  | ⟨1, _⟩ => show win2_4.index t (1 : Fin 2) * 128 + 1 * (k 1).val = (k 1).val; rw [b1]; omega

theorem block_point (c : Dev nD) (y : FVec Ideal S100000x128 .f32) (mu v g bt : FVec Ideal S128 .f32)
    (hy : V c main_v46 = y) (hmu : V c main_v50 = Cert.Spec.row1 mu) (hv : V c main_v57 = Cert.Spec.row1 v)
    (hg : V c main_v58 = shapeCast S1x128 g Facts₀.shapeCasts_S128_S1x128) (hbt : V c main_v59 = shapeCast S1x128 bt Facts₀.shapeCasts_S128_S1x128)
    (t : Fin cfg2.N) (j : S2000x128.Idx) :
    k2_pay1 (iblk2 V c 0 t) (iblk2 V c 2 t) (iblk2 V c 3 t) (iblk2 V c 1 t) (iblk2 V c 4 t) j
      = Cert.Spec.bnWith y mu v g bt (((cfg2.win 5).blk t).view.emb j) :=
  point y mu v g bt (iblk2 V c 0 t) (iblk2 V c 1 t) (iblk2 V c 2 t) (iblk2 V c 3 t) (iblk2 V c 4 t) j
    (((cfg2.win 5).blk t).view.emb j) (ix2 (0 : Fin 1) (j 1 : Fin 128)) (ix1 (j 1 : Fin 128)) rfl rfl (lane_out t j) rfl
    ((big_read V c t j).trans (congrFun hy _))
    ((mean_read V c t _).trans ((congrFun hmu _).trans (row1_at mu _ _ rfl)))
    ((var_read V c t _).trans ((congrFun hv _).trans (row1_at v _ _ rfl)))
    ((gain_read V c t _).trans ((congrFun hg _).trans (cast1_at g _ _ rfl rfl)))
    ((offset_read V c t _).trans ((congrFun hbt _).trans (cast1_at bt _ _ rfl rfl)))

theorem flushed_eq (c : Dev nD) (y : FVec Ideal S100000x128 .f32) (mu v g bt : FVec Ideal S128 .f32)
    (hy : V c main_v46 = y) (hmu : V c main_v50 = Cert.Spec.row1 mu) (hv : V c main_v57 = Cert.Spec.row1 v)
    (hg : V c main_v58 = shapeCast S1x128 g Facts₀.shapeCasts_S128_S1x128) (hbt : V c main_v59 = shapeCast S1x128 bt Facts₀.shapeCasts_S128_S1x128)
    (t : Fin cfg2.N) :
    (dat2 (F := Ideal) V c).flushed 5 t = ((cfg2.win 5).blk t).view.read (Elt Ideal) (Cert.Spec.bnWith y mu v g bt) := by
  show (cfg2.win 5).cut (grid2.coords t) ((dat2 (F := Ideal) V c).after 5 t) = _
  rw [after2_5]
  unfold out2_5
  rw [View.canon_unit_zero zero_off]
  simp only [View.ld_unit_zero (S := S2000x128) zero_off, View.ld_unit_zero (S := S1x128) zero_off]
  funext j
  exact block_point V c y mu v g bt hy hmu hv hg hbt t j

theorem mem_blk (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v60).slice (win2_5.rect t)).set ↔ _
  rw [View.set_slice_whole, Rect.mem_set_unit]
  exact Iff.rfl

theorem cover (i : S100000x128.Idx) : ∃ t : Fin cfg2.N, (cfg2.win 5).flush t = true ∧ i ∈ ((cfg2.win 5).blk t).view.set := by
  have hr : (i 0).val < 100000 := (i 0).isLt
  have hq : (i 1).val < 128 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, -, -, -, -, -, o0, o1⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [o0, ht]
    omega
  | ⟨1, _⟩ =>
    show win2_5.index t (1 : Fin 2) * 128 ≤ (i 1).val ∧ (i 1).val < win2_5.index t (1 : Fin 2) * 128 + 128
    rw [o1]
    omega

theorem value (c : Dev nD) (y : FVec Ideal S100000x128 .f32) (mu v g bt : FVec Ideal S128 .f32)
    (hy : V c main_v46 = y) (hmu : V c main_v50 = Cert.Spec.row1 mu) (hv : V c main_v57 = Cert.Spec.row1 v)
    (hg : V c main_v58 = shapeCast S1x128 g Facts₀.shapeCasts_S128_S1x128) (hbt : V c main_v59 = shapeCast S1x128 bt Facts₀.shapeCasts_S128_S1x128) :
    (dat2 (F := Ideal) V c).arrAt 5 cfg2.N = Cert.Spec.bnWith y mu v g bt :=
  (dat2 (F := Ideal) V c).arrAt_eq_of_cover 5 (Cert.Spec.bnWith y mu v g bt)
    (fun t _ => flushed_eq V c y mu v g bt hy hmu hv hg hbt t) fun i => cover i

end Cert.KernelIdeal.Reg2

end
-- ==== Proof.Reg3.lean ====
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.LibPlainDot
import Idealize.ShloMosaic.Lib.Pipeline.Value

set_option maxRecDepth 16384

noncomputable section

namespace Cert.KernelIdeal.Reg3

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## The product of one block of rows

  The region multiplies the [100000, 128] array by the [128, 128] weights 2000 rows at a time: grid point t loads rows
  2000·t … 2000·t + 1999 and the whole weight array, and stores their product as rows 2000·t … of the result. Entry
  (p, q) of a block's product is the sum over k of block(p, k) · weights(k, q), and block(p, k) is entry
  (2000·t + p, k) of the array, so it is entry (2000·t + p, q) of the whole product. -/

/-- Both contractions are plain: rows × 128 times 128 × columns. -/
theorem blockPlain : Cert.PlainDot.IsPlain dot_S2000x128_S128x128_S2000x128_1_0_0_1_n_n := ⟨rfl, rfl, rfl, rfl, rfl, rfl⟩
theorem wholePlain : Cert.PlainDot.IsPlain Cert.ReferenceIdeal.dot_S100000x128_S128x128_S100000x128_1_0_0_1_n_n :=
  ⟨rfl, rfl, rfl, rfl, rfl, rfl⟩

/-- The body's payload at an entry: rounding to the narrower format is the identity on the extended reals and the
    accumulator is zero, so it is the plain sum of products. -/
theorem pay_apply (xb : Vec Ideal S2000x128 .f32) (wb : Vec Ideal S128x128 .f32) (j : S2000x128.Idx) :
    k3_pay1 xb wb j = ∑ k : Fin 128, xb (ix2 (j 0) k) * wb (ix2 k (j 1)) := by
  unfold k3_pay1
  simp only [shapeCast_self]
  exact Cert.PlainDot.matmul_zero_apply blockPlain none _ _ j

/-- An entry of a block's product is an entry of the whole product, when the block's row is the array's row and the
    weights are the same. -/
theorem point (x : FVec Ideal S100000x128 .f32) (w : FVec Ideal S128x128 .f32)
    (xb : Vec Ideal S2000x128 .f32) (wb : Vec Ideal S128x128 .f32) (j : S2000x128.Idx) (i : S100000x128.Idx)
    (hxb : ∀ k : Fin 128, xb (ix2 (j 0) k) = x (ix2 (i 0) k)) (hwb : ∀ k : Fin 128, wb (ix2 k (j 1)) = w (ix2 k (i 1))) :
    k3_pay1 xb wb j = Cert.Spec.proj128 x w i := by
  rw [pay_apply]
  unfold Cert.Spec.proj128
  rw [Cert.PlainDot.host_apply wholePlain]
  exact Finset.sum_congr rfl fun k _ => by rw [hxb k, hwb k]

/-! ## From the blocks to the array -/

theorem zeroOffsets : (![0, 0] : Fin 2 → Nat) = fun _ => 0 := funext fun a => by fin_cases a <;> rfl

/-- The index maps, decided over the 50 grid points: the row-block windows (the array read and the result) sit at
    block (t, 0), the weights at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is block t of the whole product of the arrays the region finds. -/
theorem flushed (c : Dev nD) (t : Fin cfg3.N) :
    (dat3 (F := Ideal) V c).flushed 2 t
      = ((cfg3.win 2).blk t).view.read (Elt Ideal) (Cert.Spec.proj128 (V c main_v60) (V c main_arg5)) := by
  show (cfg3.win 2).cut (grid3.coords t) ((dat3 V c).after 2 t) = _
  rw [after3_2]
  unfold out3_2
  rw [View.canon_unit_zero zeroOffsets]
  simp only [View.ld_unit_zero (S := S2000x128) zeroOffsets, View.ld_unit_zero (S := S128x128) zeroOffsets]
  obtain ⟨e0, e1, e2, e3, e4, e5⟩ := idx_facts t
  funext j
  show k3_pay1 (iblk3 V c 0 t) (iblk3 V c 1 t) (fun a => ⟨(j a).val, (j a).isLt⟩)
    = Cert.Spec.proj128 (V c main_v60) (V c main_arg5) (((cfg3.win 2).blk t).view.emb j)
  refine point _ _ _ _ _ _ (fun k => ?_) (fun k => ?_)
  · show V c main_v60 (((cfg3.win 0).blk t).view.emb _) = V c main_v60 _
    refine congrArg (V c main_v60) (funext fun a => Fin.ext ?_)
    match a with
    | ⟨0, _⟩ => show win3_0.index t (0 : Fin 2) * 2000 + 1 * (j 0).val = win3_2.index t (0 : Fin 2) * 2000 + 1 * (j 0).val; rw [e0, e4]
    | ⟨1, _⟩ => show win3_0.index t (1 : Fin 2) * 128 + 1 * k.val = k.val; rw [e1]; omega
  · show V c main_arg5 (((cfg3.win 1).blk t).view.emb _) = V c main_arg5 _
    refine congrArg (V c main_arg5) (funext fun a => Fin.ext ?_)
    match a with
    | ⟨0, _⟩ => show win3_1.index t (0 : Fin 2) * 128 + 1 * k.val = k.val; rw [e2]; omega
    | ⟨1, _⟩ => show win3_1.index t (1 : Fin 2) * 128 + 1 * (j 1).val = win3_2.index t (1 : Fin 2) * 128 + 1 * (j 1).val; rw [e3, e5]

/-- An index of the result is in point t's block iff each coordinate is in the block's range on its axis. -/
theorem mem_blk (t : Fin cfg3.N) (i : S100000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v61).slice (win3_2.rect t)).set ↔ _
  rw [View.set_slice_whole, Rect.mem_set_unit]
  exact Iff.rfl

/-- The 50 blocks of 2000 rows cover the 100000 rows: row r is in the block of point r / 2000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 2000 < cfg3.N := by show (i 0).val / 2000 < 50; omega
  obtain ⟨e0, e1, e2, e3, e4, e5⟩ := idx_facts ⟨(i 0).val / 2000, hlt⟩
  refine ⟨⟨(i 0).val / 2000, hlt⟩, flush3_2 _, ?_⟩
  rw [mem_blk]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hlt⟩ (1 : Fin 2) * 128 ≤ (i 1).val
      ∧ (i 1).val < win3_2.index ⟨(i 0).val / 2000, hlt⟩ (1 : Fin 2) * 128 + 128
    rw [e5]; omega

theorem value (c : Dev nD) (x : FVec Ideal S100000x128 .f32) (w : FVec Ideal S128x128 .f32)
    (hx : V c main_v60 = x) (hw : V c main_arg5 = w) :
    (dat3 (F := Ideal) V c).arrAt 2 cfg3.N = Cert.Spec.proj128 x w := by
  subst hx hw
  exact (dat3 (F := Ideal) V c).arrAt_eq_of_cover 2 _ (fun t _ => flushed V c t) cover

end Cert.KernelIdeal.Reg3

end
-- ==== Proof.Reg4.lean ====
-- Region 4 leaves raw + b, the bias a one-row array: grid point t writes back row block t, and the 50 row blocks cover the array.
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Reg4

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem pay_apply (x : Vec Ideal S2000x128 .f32) (y : Vec Ideal S1x128 .f32) (p : Fin 2000) (q : Fin 128) :
    k4_pay1 (F := Ideal) x y (ix2 p q) = x (ix2 p q) + y (ix2 (0 : Fin 1) q) := by
  unfold k4_pay1
  rw [addf_apply, shapeCast_self, shapeCast_self, broadcastTo_1b_ab_apply]

theorem spec_apply (raw : FVec Ideal S100000x128 .f32) (b : FVec Ideal S128 .f32) (r : Fin 100000) (q : Fin 128) :
    Cert.Spec.addRow raw b (ix2 r q) = raw (ix2 r q) + b (ix1 q) := by
  unfold Cert.Spec.addRow Cert.Spec.rows128 Cert.Spec.row1
  rw [addf_apply, broadcastInDim_oneRow_apply]
  congr 1
  refine broadcastInDim_apply _ _ b _ (ix1 q) fun a => ?_
  match a with
  | ⟨0, _⟩ => rfl

theorem row_apply (b : FVec Ideal S128 .f32) (q : Fin 128) :
    shapeCast S1x128 b Facts₀.shapeCasts_S128_S1x128 (ix2 (0 : Fin 1) q) = b (ix1 q) :=
  shapeCast_a_1a_apply b _ 0 q

theorem block_entry (x : Vec Ideal S2000x128 .f32) (y : Vec Ideal S1x128 .f32)
    (raw : FVec Ideal S100000x128 .f32) (b : FVec Ideal S128 .f32) (j : S2000x128.Idx) (i : S100000x128.Idx)
    (hx : x j = raw i) (hy : ∀ q : Fin 128, y (ix2 (0 : Fin 1) q) = b (ix1 q)) (hcol : (i 1).val = (j 1).val) :
    k4_pay1 (F := Ideal) x y j = Cert.Spec.addRow raw b i := by
  obtain ⟨p, q, rfl⟩ : ∃ p q, j = ix2 p q := ⟨j 0, j 1, eq_ix2 j⟩
  obtain ⟨r, s, rfl⟩ : ∃ r s, i = ix2 r s := ⟨i 0, i 1, eq_ix2 i⟩
  obtain rfl : s = q := Fin.ext hcol
  rw [pay_apply, spec_apply, hx, hy]

theorem zeros : (![0, 0] : Fin 2 → Nat) = fun _ => 0 := funext fun a => by
  match a with
  | ⟨0, _⟩ => rfl
  | ⟨1, _⟩ => rfl

theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem mem_blk (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v99).slice (win4_2.rect t)).set ↔ _
  rw [View.set_slice_whole, Rect.mem_set_unit]
  exact Iff.rfl

theorem cover (i : S100000x128.Idx) :
    ∃ t : Fin cfg4.N, (cfg4.win 2).flush t = true ∧ i ∈ ((cfg4.win 2).blk t).view.set := by
  have h0 : (i 0).val < 100000 := (i 0).isLt
  have h1 : (i 1).val < 128 := (i 1).isLt
  have hN : cfg4.N = 50 := N_4
  let t : Fin cfg4.N := ⟨(i 0).val / 2000, by rw [hN]; omega⟩
  obtain ⟨-, -, -, -, e0, e1⟩ := index_facts t
  have ht : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

theorem flushed (c : Dev nD) (raw : FVec Ideal S100000x128 .f32) (b : FVec Ideal S128 .f32)
    (hraw : V c main_v97 = raw) (hb : V c main_v98 = shapeCast S1x128 b Facts₀.shapeCasts_S128_S1x128) (t : Fin cfg4.N) :
    (dat4 (F := Ideal) V c).flushed 2 t
      = ((cfg4.win 2).blk t).view.read (Elt Ideal) (Cert.Spec.addRow raw b) := by
  show (cfg4.win 2).cut (grid4.coords t) ((dat4 V c).after 2 t) = _
  rw [after4_2]
  unfold out4_2
  rw [View.canon_unit_zero zeros]
  simp only [View.ld_unit_zero (S := S2000x128) zeros, View.ld_unit_zero (S := S1x128) zeros]
  obtain ⟨e0, e1, e2, e3, e4, e5⟩ := index_facts t
  funext j
  refine block_entry (iblk4 V c 0 t) (iblk4 V c 1 t) raw b j (((cfg4.win 2).blk t).view.emb j) ?_ ?_ ?_
  ·
    have hemb : ((cfg4.win 0).blk t).view.emb j = ((cfg4.win 2).blk t).view.emb j := by
      funext a; apply Fin.ext
      match a with
      | ⟨0, _⟩ => show win4_0.index t (0 : Fin 2) * 2000 + 1 * (j 0).val = win4_2.index t (0 : Fin 2) * 2000 + 1 * (j 0).val; omega
      | ⟨1, _⟩ => show win4_0.index t (1 : Fin 2) * 128 + 1 * (j 1).val = win4_2.index t (1 : Fin 2) * 128 + 1 * (j 1).val; omega
    show V c main_v97 (((cfg4.win 0).blk t).view.emb j) = raw (((cfg4.win 2).blk t).view.emb j)
    rw [hraw, hemb]
  ·
    intro q
    have hemb : ((cfg4.win 1).blk t).view.emb (ix2 (0 : Fin 1) q) = ix2 (0 : Fin 1) q := by
      funext a; apply Fin.ext
      match a with
      | ⟨0, _⟩ => show win4_1.index t (0 : Fin 2) * 1 + 1 * 0 = 0; omega
      | ⟨1, _⟩ => show win4_1.index t (1 : Fin 2) * 128 + 1 * q.val = q.val; omega
    show V c main_v98 (((cfg4.win 1).blk t).view.emb (ix2 (0 : Fin 1) q)) = b (ix1 q)
    rw [hb, hemb, row_apply]
  · show win4_2.index t (1 : Fin 2) * 128 + 1 * (j 1).val = (j 1).val
    omega

theorem value (c : Dev nD) (raw : FVec Ideal S100000x128 .f32) (b : FVec Ideal S128 .f32)
    (hraw : V c main_v97 = raw) (hb : V c main_v98 = shapeCast S1x128 b Facts₀.shapeCasts_S128_S1x128) :
    (dat4 (F := Ideal) V c).arrAt 2 cfg4.N = Cert.Spec.addRow raw b :=
  (dat4 (F := Ideal) V c).arrAt_eq_of_cover 2 (Cert.Spec.addRow raw b)
    (fun t _ => flushed V c raw b hraw hb t) cover

end Cert.KernelIdeal.Reg4

end
-- ==== Proof.Reg5.lean ====
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx

set_option maxRecDepth 16384

noncomputable section

namespace Cert.KernelIdeal.Reg5

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## One entry of the body's result, one entry of the reference's normalisation -/

/-- ε, the constant added to the variance before the inverse square root. -/
abbrev epsR : EReal := Ideal.ofBits .f32 0x3727C5AC#32

/-- The body's payload at `j`, with `k` the index of `j`'s lane in a one-row operand:
    gain·(y − mean)·(variance + ε)^(-1/2) + offset, the row operands read on `j`'s lane. -/
theorem pay_at (x0 : Vec Ideal S2000x128 .f32) (xv xg xmu xbt : Vec Ideal S1x128 .f32) (j : S2000x128.Idx) (k : S1x128.Idx)
    (hk0 : (k 0).val = 0) (hk1 : (k 1).val = (j 1).val) :
    k5_pay1 x0 xv xg xmu xbt j = xg k * (x0 j - xmu k) * Ideal.rsqrt (xv k + epsR) + xbt k := by
  have hb : ∀ x : Vec Ideal S1x128 .f32, broadcastTo S2000x128 x Gen.broadcasts_S1x128_S2000x128 j = x k := fun x =>
    broadcastTo_apply x _ j k fun a => by
      match a with
      | ⟨0, _⟩ => exact hk0
      | ⟨1, _⟩ => exact hk1
  unfold k5_pay1
  simp only [shapeCast_self]
  rw [addf_apply, mulf_apply, mulf_apply, subf_apply, hb, hb, hb, hb]
  rfl

/-- A 128-vector as one row, read at an index of its lane. -/
theorem row1_at (u : FVec Ideal S128 .f32) (k : S1x128.Idx) (l : S128.Idx) (hl : (l 0).val = (k 1).val) :
    Cert.Spec.row1 u k = u l := by
  unfold Cert.Spec.row1
  exact broadcastInDim_apply _ _ u k l fun a => by
    match a with
    | ⟨0, _⟩ => exact hl

/-- A 128-vector cast to one row, read at an index of its lane. -/
theorem cast1_at (u : FVec Ideal S128 .f32) (k : S1x128.Idx) (l : S128.Idx) (hk0 : (k 0).val = 0) (hl : (l 0).val = (k 1).val) :
    shapeCast S1x128 u Facts₀.shapeCasts_S128_S1x128 k = u l := by
  refine shapeCast_apply u _ k l ?_
  rw [Shape.rowMajor_val_one, Shape.rowMajor_val_two, hl, hk0]
  show (k 1).val = 0 * 128 + (k 1).val
  omega

/-- A 128-vector laid along every row, read at an index of its lane. -/
theorem rows128_at (u : FVec Ideal S128 .f32) (i : S100000x128.Idx) (k : S1x128.Idx) (l : S128.Idx)
    (hk0 : (k 0).val = 0) (hk1 : (k 1).val = (i 1).val) (hl : (l 0).val = (k 1).val) : Cert.Spec.rows128 u i = u l := by
  unfold Cert.Spec.rows128
  exact (broadcastInDim_apply _ _ (Cert.Spec.row1 u) i k fun a => by
    match a with
    | ⟨0, _⟩ => exact hk0
    | ⟨1, _⟩ => exact hk1).trans (row1_at u k l hl)

/-- The reference's normalisation at `i`, with `l` the index of `i`'s lane in a 128-vector. -/
theorem bn_at (y : FVec Ideal S100000x128 .f32) (mu v g bt : FVec Ideal S128 .f32) (i : S100000x128.Idx) (k : S1x128.Idx) (l : S128.Idx)
    (hk0 : (k 0).val = 0) (hk1 : (k 1).val = (i 1).val) (hl : (l 0).val = (k 1).val) :
    Cert.Spec.bnWith y mu v g bt i = g l * (y i - mu l) * Ideal.rsqrt (v l + epsR) + bt l := by
  unfold Cert.Spec.bnWith Cert.Spec.center
  rw [addf_apply, mulf_apply, mulf_apply, subf_apply, rows128_at g i k l hk0 hk1 hl, rows128_at mu i k l hk0 hk1 hl,
    rows128_at _ i k l hk0 hk1 hl, rows128_at bt i k l hk0 hk1 hl]
  rfl

/-- One entry of the body's result is the reference's entry, once the body's five operands are read off the
    reference's: the big block's entry at `j` is the array's at `i` on the same lane, and each one-row operand,
    on that lane, is its 128-vector's entry. -/
theorem point (y : FVec Ideal S100000x128 .f32) (mu v g bt : FVec Ideal S128 .f32)
    (x0 : Vec Ideal S2000x128 .f32) (xmu xv xg xbt : Vec Ideal S1x128 .f32)
    (j : S2000x128.Idx) (i : S100000x128.Idx) (k : S1x128.Idx) (l : S128.Idx)
    (hk0 : (k 0).val = 0) (hk1 : (k 1).val = (j 1).val) (hi1 : (i 1).val = (j 1).val) (hl : (l 0).val = (k 1).val)
    (e0 : x0 j = y i) (emu : xmu k = mu l) (ev : xv k = v l) (eg : xg k = g l) (ebt : xbt k = bt l) :
    k5_pay1 x0 xv xg xmu xbt j = Cert.Spec.bnWith y mu v g bt i := by
  rw [pay_at x0 xv xg xmu xbt j k hk0 hk1, bn_at y mu v g bt i k l hk0 (hk1.trans hi1.symm) hl, e0, emu, ev, eg, ebt]

/-! ## The windows' blocks, read off the arrays -/

theorem zero_off : (![0, 0] : Fin 2 → Nat) = fun _ => 0 := funext fun a => by
  match a with
  | ⟨0, _⟩ => rfl
  | ⟨1, _⟩ => rfl

/-- The printed index maps over the grid: the big input and the output take row block `t`, each one-row window
    its one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row block `t` of the big input, at `j`, is the array where the output's block `t` puts `j`. -/
theorem big_read (c : Dev nD) (t : Fin cfg5.N) (j : S2000x128.Idx) :
    (iblk5 V c 0 t : Vec Ideal S2000x128 .f32) j
      = (V c main_v99 : S100000x128.Idx → Elt Ideal .f32) (((cfg5.win 5).blk t).view.emb j) := by
  obtain ⟨a0, a1, -, -, -, -, -, -, -, -, o0, o1⟩ := idx_facts t
  unfold iblk5
  rw [View.read_apply]
  show V c main_v99 (((cfg5.win 0).blk t).view.emb j) = V c main_v99 (((cfg5.win 5).blk t).view.emb j)
  refine congrArg (V c main_v99) (funext fun a => Fin.ext ?_)
  match a with
  | ⟨0, _⟩ =>
    show win5_0.index t (0 : Fin 2) * 2000 + 1 * (j 0).val = win5_5.index t (0 : Fin 2) * 2000 + 1 * (j 0).val
    rw [a0, o0]
  | ⟨1, _⟩ =>
    show win5_0.index t (1 : Fin 2) * 128 + 1 * (j 1).val = win5_5.index t (1 : Fin 2) * 128 + 1 * (j 1).val
    rw [a1, o1]

/-- The output's block `t` keeps `j`'s lane. -/
theorem lane_out (t : Fin cfg5.N) (j : S2000x128.Idx) : ((((cfg5.win 5).blk t).view.emb j) 1).val = (j 1).val := by
  obtain ⟨-, -, -, -, -, -, -, -, -, -, -, o1⟩ := idx_facts t
  show win5_5.index t (1 : Fin 2) * 128 + 1 * (j 1).val = (j 1).val
  rw [o1]
  omega

/-- Each one-row window's block, at every point, is its whole array. -/
theorem mean_read (c : Dev nD) (t : Fin cfg5.N) (k : S1x128.Idx) :
    (iblk5 V c 1 t : Vec Ideal S1x128 .f32) k = (V c main_v103 : S1x128.Idx → Elt Ideal .f32) k := by
  obtain ⟨-, -, b0, b1, -, -, -, -, -, -, -, -⟩ := idx_facts t
  unfold iblk5
  rw [View.read_apply]
  show V c main_v103 (((cfg5.win 1).blk t).view.emb k) = V c main_v103 k
  refine congrArg (V c main_v103) (funext fun a => Fin.ext ?_)
  match a with
  | ⟨0, _⟩ => show win5_1.index t (0 : Fin 2) * 1 + 1 * (k 0).val = (k 0).val; rw [b0]; omega
  | ⟨1, _⟩ => show win5_1.index t (1 : Fin 2) * 128 + 1 * (k 1).val = (k 1).val; rw [b1]; omega

theorem var_read (c : Dev nD) (t : Fin cfg5.N) (k : S1x128.Idx) :
    (iblk5 V c 2 t : Vec Ideal S1x128 .f32) k = (V c main_v110 : S1x128.Idx → Elt Ideal .f32) k := by
  obtain ⟨-, -, -, -, b0, b1, -, -, -, -, -, -⟩ := idx_facts t
  unfold iblk5
  rw [View.read_apply]
  show V c main_v110 (((cfg5.win 2).blk t).view.emb k) = V c main_v110 k
  refine congrArg (V c main_v110) (funext fun a => Fin.ext ?_)
  match a with
  | ⟨0, _⟩ => show win5_2.index t (0 : Fin 2) * 1 + 1 * (k 0).val = (k 0).val; rw [b0]; omega
  | ⟨1, _⟩ => show win5_2.index t (1 : Fin 2) * 128 + 1 * (k 1).val = (k 1).val; rw [b1]; omega

theorem gain_read (c : Dev nD) (t : Fin cfg5.N) (k : S1x128.Idx) :
    (iblk5 V c 3 t : Vec Ideal S1x128 .f32) k = (V c main_v111 : S1x128.Idx → Elt Ideal .f32) k := by
  obtain ⟨-, -, -, -, -, -, b0, b1, -, -, -, -⟩ := idx_facts t
  unfold iblk5
  rw [View.read_apply]
  show V c main_v111 (((cfg5.win 3).blk t).view.emb k) = V c main_v111 k
  refine congrArg (V c main_v111) (funext fun a => Fin.ext ?_)
  match a with
  | ⟨0, _⟩ => show win5_3.index t (0 : Fin 2) * 1 + 1 * (k 0).val = (k 0).val; rw [b0]; omega
  | ⟨1, _⟩ => show win5_3.index t (1 : Fin 2) * 128 + 1 * (k 1).val = (k 1).val; rw [b1]; omega

theorem offset_read (c : Dev nD) (t : Fin cfg5.N) (k : S1x128.Idx) :
    (iblk5 V c 4 t : Vec Ideal S1x128 .f32) k = (V c main_v112 : S1x128.Idx → Elt Ideal .f32) k := by
  obtain ⟨-, -, -, -, -, -, -, -, b0, b1, -, -⟩ := idx_facts t
  unfold iblk5
  rw [View.read_apply]
  show V c main_v112 (((cfg5.win 4).blk t).view.emb k) = V c main_v112 k
  refine congrArg (V c main_v112) (funext fun a => Fin.ext ?_)
  match a with
  | ⟨0, _⟩ => show win5_4.index t (0 : Fin 2) * 1 + 1 * (k 0).val = (k 0).val; rw [b0]; omega
  | ⟨1, _⟩ => show win5_4.index t (1 : Fin 2) * 128 + 1 * (k 1).val = (k 1).val; rw [b1]; omega

/-! ## What a point writes back; the blocks cover the array -/

/-- The body's result on the blocks of point `t`, at `j`, is the reference's normalisation of the whole arrays where
    the output's block `t` puts `j`. -/
theorem block_point (c : Dev nD) (y : FVec Ideal S100000x128 .f32) (mu v g bt : FVec Ideal S128 .f32)
    (hy : V c main_v99 = y) (hmu : V c main_v103 = Cert.Spec.row1 mu) (hv : V c main_v110 = Cert.Spec.row1 v)
    (hg : V c main_v111 = shapeCast S1x128 g Facts₀.shapeCasts_S128_S1x128) (hbt : V c main_v112 = shapeCast S1x128 bt Facts₀.shapeCasts_S128_S1x128)
    (t : Fin cfg5.N) (j : S2000x128.Idx) :
    k5_pay1 (iblk5 V c 0 t) (iblk5 V c 2 t) (iblk5 V c 3 t) (iblk5 V c 1 t) (iblk5 V c 4 t) j
      = Cert.Spec.bnWith y mu v g bt (((cfg5.win 5).blk t).view.emb j) :=
  point y mu v g bt (iblk5 V c 0 t) (iblk5 V c 1 t) (iblk5 V c 2 t) (iblk5 V c 3 t) (iblk5 V c 4 t) j
    (((cfg5.win 5).blk t).view.emb j) (ix2 (0 : Fin 1) (j 1 : Fin 128)) (ix1 (j 1 : Fin 128)) rfl rfl (lane_out t j) rfl
    ((big_read V c t j).trans (congrFun hy _))
    ((mean_read V c t _).trans ((congrFun hmu _).trans (row1_at mu _ _ rfl)))
    ((var_read V c t _).trans ((congrFun hv _).trans (row1_at v _ _ rfl)))
    ((gain_read V c t _).trans ((congrFun hg _).trans (cast1_at g _ _ rfl rfl)))
    ((offset_read V c t _).trans ((congrFun hbt _).trans (cast1_at bt _ _ rfl rfl)))

/-- WHAT POINT `t` WRITES BACK is block `t` of the reference's normalisation of the whole arrays. -/
theorem flushed_eq (c : Dev nD) (y : FVec Ideal S100000x128 .f32) (mu v g bt : FVec Ideal S128 .f32)
    (hy : V c main_v99 = y) (hmu : V c main_v103 = Cert.Spec.row1 mu) (hv : V c main_v110 = Cert.Spec.row1 v)
    (hg : V c main_v111 = shapeCast S1x128 g Facts₀.shapeCasts_S128_S1x128) (hbt : V c main_v112 = shapeCast S1x128 bt Facts₀.shapeCasts_S128_S1x128)
    (t : Fin cfg5.N) :
    (dat5 (F := Ideal) V c).flushed 5 t = ((cfg5.win 5).blk t).view.read (Elt Ideal) (Cert.Spec.bnWith y mu v g bt) := by
  show (cfg5.win 5).cut (grid5.coords t) ((dat5 (F := Ideal) V c).after 5 t) = _
  rw [after5_5]
  unfold out5_5
  rw [View.canon_unit_zero zero_off]
  simp only [View.ld_unit_zero (S := S2000x128) zero_off, View.ld_unit_zero (S := S1x128) zero_off]
  funext j
  exact block_point V c y mu v g bt hy hmu hv hg hbt t j

/-- An index of the array is in point `t`'s block iff each coordinate is in the block's range on its axis. -/
theorem mem_blk (t : Fin cfg5.N) (i : S100000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v113).slice (win5_5.rect t)).set ↔ _
  rw [View.set_slice_whole, Rect.mem_set_unit]
  exact Iff.rfl

/-- Row `r` lies in the block of point `r / 2000`. -/
theorem cover (i : S100000x128.Idx) : ∃ t : Fin cfg5.N, (cfg5.win 5).flush t = true ∧ i ∈ ((cfg5.win 5).blk t).view.set := by
  have hr : (i 0).val < 100000 := (i 0).isLt
  have hq : (i 1).val < 128 := (i 1).isLt
  have hN : cfg5.N = 50 := N_5
  obtain ⟨t, ht⟩ : ∃ t : Fin cfg5.N, t.val = (i 0).val / 2000 := ⟨⟨(i 0).val / 2000, by omega⟩, rfl⟩
  obtain ⟨-, -, -, -, -, -, -, -, -, -, o0, o1⟩ := idx_facts t
  refine ⟨t, flush5_5 t, ?_⟩
  rw [mem_blk]
  intro a
  match a with
  | ⟨0, _⟩ =>
    show win5_5.index t (0 : Fin 2) * 2000 ≤ (i 0).val ∧ (i 0).val < win5_5.index t (0 : Fin 2) * 2000 + 2000
    rw [o0, ht]
    omega
  | ⟨1, _⟩ =>
    show win5_5.index t (1 : Fin 2) * 128 ≤ (i 1).val ∧ (i 1).val < win5_5.index t (1 : Fin 2) * 128 + 128
    rw [o1]
    omega

/-! ## The region's value -/

theorem value (c : Dev nD) (y : FVec Ideal S100000x128 .f32) (mu v g bt : FVec Ideal S128 .f32)
    (hy : V c main_v99 = y) (hmu : V c main_v103 = Cert.Spec.row1 mu) (hv : V c main_v110 = Cert.Spec.row1 v)
    (hg : V c main_v111 = shapeCast S1x128 g Facts₀.shapeCasts_S128_S1x128) (hbt : V c main_v112 = shapeCast S1x128 bt Facts₀.shapeCasts_S128_S1x128) :
    (dat5 (F := Ideal) V c).arrAt 5 cfg5.N = Cert.Spec.bnWith y mu v g bt :=
  (dat5 (F := Ideal) V c).arrAt_eq_of_cover 5 (Cert.Spec.bnWith y mu v g bt)
    (fun t _ => flushed_eq V c y mu v g bt hy hmu hv hg hbt t) fun i => cover i

end Cert.KernelIdeal.Reg5

end
-- ==== Proof.KStagesL.lean ====
-- The local encoder boundary by boundary: each host stretch and each region leaves Spec's function of what it reads, and a buffer
-- no later segment writes is read at the boundary that wrote it; after region 5 the encoder's output.
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.SpecLemmas
import proofs.«125188_j57878979281252_1_alg».proof.Proof.KVals
import proofs.«125188_j57878979281252_1_alg».proof.Proof.KPass
import proofs.«125188_j57878979281252_1_alg».proof.Proof.Reg0
import proofs.«125188_j57878979281252_1_alg».proof.Proof.Reg1
import proofs.«125188_j57878979281252_1_alg».proof.Proof.Reg2
import proofs.«125188_j57878979281252_1_alg».proof.Proof.Reg3
import proofs.«125188_j57878979281252_1_alg».proof.Proof.Reg4
import proofs.«125188_j57878979281252_1_alg».proof.Proof.Reg5
import Idealize.ShloMosaic.Lib.StableHlo.Run

set_option maxRecDepth 16384

noncomputable section

namespace Cert.KernelIdeal.KStagesL

open Cert.KernelIdeal Cert.KernelIdeal.Gen Cert.KernelIdeal.GenP Cert.KernelIdeal.Facts₀ Cert.KernelIdeal.KVals Cert.KernelIdeal.KPass
open Idealize.ShloMosaic Idealize.ShloMosaic.TcCoe Idealize.SL.Sem

variable (m : (ℓ : Loc nD τ sig) → Buf (Elt Ideal) ℓ) (ρ : Dev nD → PrngReg) (c : Dev nD)

theorem edges_src (V : Valuation τ sig (Elt Ideal)) (e : IVec S2x1000000 32) (h : V (Proc.devRef .tc main_arg1) = e) :
    StableHlo.after hostOps0 V (Proc.devRef .tc main_v1) = Cert.Spec.src e := by
  simp only [hostOps0]
  after_results
  rw [h]
  rfl

theorem edges_dst (V : Valuation τ sig (Elt Ideal)) (e : IVec S2x1000000 32) (h : V (Proc.devRef .tc main_arg1) = e) :
    StableHlo.after hostOps0 V (Proc.devRef .tc main_v3) = Cert.Spec.dst e := by
  simp only [hostOps0]
  after_results
  rw [h]
  rfl

theorem g1_cmp (V : Valuation τ sig (Elt Ideal)) (d : IVec S1000000 32) (h3 : V (Proc.devRef .tc main_v3) = d) :
    StableHlo.after hostOps1 V (Proc.devRef .tc main_v14) = cmpf .ogt (Cert.Spec.deg d) (broadcastInDim S100000 ![] Facts₀.bcast_S_S100000 (constant (F := Ideal) S_ .f32 0x00000000#32)) := by
  simp only [hostOps1]
  after_results
  rw [h3]
  rfl

theorem g1_rsqrt (V : Valuation τ sig (Elt Ideal)) (d : IVec S1000000 32) (h3 : V (Proc.devRef .tc main_v3) = d) :
    StableHlo.after hostOps1 V (Proc.devRef .tc main_v15) = Host.rsqrt (Cert.Spec.deg d) := by
  simp only [hostOps1]
  after_results
  rw [h3]
  rfl

theorem g1_zero (V : Valuation τ sig (Elt Ideal)) :
    StableHlo.after hostOps1 V (Proc.devRef .tc main_cst_2) = constant (F := Ideal) S_ .f32 0x00000000#32 := by
  simp only [hostOps1]
  after_results

theorem g1_dinv (V : Valuation τ sig (Elt Ideal)) (d : IVec S1000000 32)
    (hc : V (Proc.devRef .tc main_v14) = cmpf .ogt (Cert.Spec.deg d) (broadcastInDim S100000 ![] Facts₀.bcast_S_S100000 (constant (F := Ideal) S_ .f32 0x00000000#32)))
    (hr : V (Proc.devRef .tc main_v15) = Host.rsqrt (Cert.Spec.deg d))
    (hz : V (Proc.devRef .tc main_cst_2) = constant (F := Ideal) S_ .f32 0x00000000#32) :
    StableHlo.after hostOps1_1 V (Proc.devRef .tc main_v16) = Cert.Spec.dinv d := by
  simp only [hostOps1_1]
  after_results
  rw [hc, hr, hz]
  simp only [StableHlo.TRef.ofBuf, StableHlo.TRef.toBuf]
  repeat rw [cast_eq]
  rfl
set_option maxHeartbeats 1000000 in

theorem g1_agg (V : Valuation τ sig (Elt Ideal)) (x : FVec Ideal S100000x128 .f32) (s d : IVec S1000000 32)
    (hx : V (Proc.devRef .tc main_v8) = x) (h1 : V (Proc.devRef .tc main_v1) = s) (h3 : V (Proc.devRef .tc main_v3) = d)
    (hd : V (Proc.devRef .tc main_v16) = Cert.Spec.dinv d) :
    StableHlo.after hostOps1_2 V (Proc.devRef .tc main_v44) = Cert.Spec.agg x s d := by
  simp only [hostOps1_2]
  after_results_simp
  rw [hx, h1, h3, hd]
  rfl

theorem g1_bias (V : Valuation τ sig (Elt Ideal)) (b : FVec Ideal S128 .f32) (hb : V (Proc.devRef .tc main_arg4) = b) :
    StableHlo.after hostOps1_2 V (Proc.devRef .tc main_v45) = shapeCast S1x128 b Facts₀.shapeCasts_S128_S1x128 := by
  simp only [hostOps1_2]
  after_results_simp
  rw [hb]
  rfl

theorem g2_cmp (V : Valuation τ sig (Elt Ideal)) (d : IVec S1000000 32) (h3 : V (Proc.devRef .tc main_v3) = d) :
    StableHlo.after hostOps4 V (Proc.devRef .tc main_v67) = cmpf .ogt (Cert.Spec.deg d) (broadcastInDim S100000 ![] Facts₀.bcast_S_S100000 (constant (F := Ideal) S_ .f32 0x00000000#32)) := by
  simp only [hostOps4]
  after_results
  rw [h3]
  rfl

theorem g2_rsqrt (V : Valuation τ sig (Elt Ideal)) (d : IVec S1000000 32) (h3 : V (Proc.devRef .tc main_v3) = d) :
    StableHlo.after hostOps4 V (Proc.devRef .tc main_v68) = Host.rsqrt (Cert.Spec.deg d) := by
  simp only [hostOps4]
  after_results
  rw [h3]
  rfl

theorem g2_zero (V : Valuation τ sig (Elt Ideal)) :
    StableHlo.after hostOps4 V (Proc.devRef .tc main_cst_16) = constant (F := Ideal) S_ .f32 0x00000000#32 := by
  simp only [hostOps4]
  after_results

theorem g2_dinv (V : Valuation τ sig (Elt Ideal)) (d : IVec S1000000 32)
    (hc : V (Proc.devRef .tc main_v67) = cmpf .ogt (Cert.Spec.deg d) (broadcastInDim S100000 ![] Facts₀.bcast_S_S100000 (constant (F := Ideal) S_ .f32 0x00000000#32)))
    (hr : V (Proc.devRef .tc main_v68) = Host.rsqrt (Cert.Spec.deg d))
    (hz : V (Proc.devRef .tc main_cst_16) = constant (F := Ideal) S_ .f32 0x00000000#32) :
    StableHlo.after hostOps4_1 V (Proc.devRef .tc main_v69) = Cert.Spec.dinv d := by
  simp only [hostOps4_1]
  after_results
  rw [hc, hr, hz]
  simp only [StableHlo.TRef.ofBuf, StableHlo.TRef.toBuf]
  repeat rw [cast_eq]
  rfl
set_option maxHeartbeats 1000000 in

theorem g2_agg (V : Valuation τ sig (Elt Ideal)) (x : FVec Ideal S100000x128 .f32) (s d : IVec S1000000 32)
    (hx : V (Proc.devRef .tc main_v61) = x) (h1 : V (Proc.devRef .tc main_v1) = s) (h3 : V (Proc.devRef .tc main_v3) = d)
    (hd : V (Proc.devRef .tc main_v69) = Cert.Spec.dinv d) :
    StableHlo.after hostOps4_2 V (Proc.devRef .tc main_v97) = Cert.Spec.agg x s d := by
  simp only [hostOps4_2]
  after_results_simp
  rw [hx, h1, h3, hd]
  rfl

theorem g2_bias (V : Valuation τ sig (Elt Ideal)) (b : FVec Ideal S128 .f32) (hb : V (Proc.devRef .tc main_arg6) = b) :
    StableHlo.after hostOps4_2 V (Proc.devRef .tc main_v98) = shapeCast S1x128 b Facts₀.shapeCasts_S128_S1x128 := by
  simp only [hostOps4_2]
  after_results_simp
  rw [hb]
  rfl

theorem var_row (y : FVec Ideal S100000x128 .f32) :
    Host.divf (Cert.Spec.row1 (Cert.Spec.colsum (mulf (subf y (broadcastInDim S100000x128 ![0, 1] Facts₀.bcast_S1x128_S100000x128_0_1 (Host.divf (Cert.Spec.row1 (Cert.Spec.colsum y)) Cert.Spec.n1x128))) (subf y (broadcastInDim S100000x128 ![0, 1] Facts₀.bcast_S1x128_S100000x128_0_1 (Host.divf (Cert.Spec.row1 (Cert.Spec.colsum y)) Cert.Spec.n1x128)))))) Cert.Spec.n1x128
      = Cert.Spec.row1 (Cert.Spec.varAbout y (Cert.Spec.mean y)) := by
  rw [Cert.Spec.divf_row1 (Cert.Spec.colsum y)]
  exact Cert.Spec.divf_row1 _

theorem n1_mean (V : Valuation τ sig (Elt Ideal)) (y : FVec Ideal S100000x128 .f32) (hy : V (Proc.devRef .tc main_v46) = y) :
    StableHlo.after hostOps2 V (Proc.devRef .tc main_v50) = Cert.Spec.row1 (Cert.Spec.mean y) := by
  refine Eq.trans ?_ (Cert.Spec.divf_row1 (Cert.Spec.colsum y))
  simp only [hostOps2]
  after_results_simp
  rw [hy]
  rfl

theorem n1_var (V : Valuation τ sig (Elt Ideal)) (y : FVec Ideal S100000x128 .f32) (hy : V (Proc.devRef .tc main_v46) = y) :
    StableHlo.after hostOps2 V (Proc.devRef .tc main_v57) = Cert.Spec.row1 (Cert.Spec.varAbout y (Cert.Spec.mean y)) := by
  refine Eq.trans ?_ (var_row y)
  simp only [hostOps2]
  after_results_simp
  rw [hy]
  rfl

theorem n1_gain (V : Valuation τ sig (Elt Ideal)) (g : FVec Ideal S128 .f32) (hg : V (Proc.devRef .tc main_arg7) = g) :
    StableHlo.after hostOps2 V (Proc.devRef .tc main_v58) = shapeCast S1x128 g Facts₀.shapeCasts_S128_S1x128 := by
  simp only [hostOps2]
  after_results_simp
  rw [hg]
  rfl

theorem n1_offset (V : Valuation τ sig (Elt Ideal)) (bt : FVec Ideal S128 .f32) (hb : V (Proc.devRef .tc main_arg8) = bt) :
    StableHlo.after hostOps2 V (Proc.devRef .tc main_v59) = shapeCast S1x128 bt Facts₀.shapeCasts_S128_S1x128 := by
  simp only [hostOps2]
  after_results_simp
  rw [hb]
  rfl

theorem n2_mean (V : Valuation τ sig (Elt Ideal)) (y : FVec Ideal S100000x128 .f32) (hy : V (Proc.devRef .tc main_v99) = y) :
    StableHlo.after hostOps5 V (Proc.devRef .tc main_v103) = Cert.Spec.row1 (Cert.Spec.mean y) := by
  refine Eq.trans ?_ (Cert.Spec.divf_row1 (Cert.Spec.colsum y))
  simp only [hostOps5]
  after_results_simp
  rw [hy]
  rfl

theorem n2_var (V : Valuation τ sig (Elt Ideal)) (y : FVec Ideal S100000x128 .f32) (hy : V (Proc.devRef .tc main_v99) = y) :
    StableHlo.after hostOps5 V (Proc.devRef .tc main_v110) = Cert.Spec.row1 (Cert.Spec.varAbout y (Cert.Spec.mean y)) := by
  refine Eq.trans ?_ (var_row y)
  simp only [hostOps5]
  after_results_simp
  rw [hy]
  rfl

theorem n2_gain (V : Valuation τ sig (Elt Ideal)) (g : FVec Ideal S128 .f32) (hg : V (Proc.devRef .tc main_arg9) = g) :
    StableHlo.after hostOps5 V (Proc.devRef .tc main_v111) = shapeCast S1x128 g Facts₀.shapeCasts_S128_S1x128 := by
  simp only [hostOps5]
  after_results_simp
  rw [hg]
  rfl

theorem n2_offset (V : Valuation τ sig (Elt Ideal)) (bt : FVec Ideal S128 .f32) (hb : V (Proc.devRef .tc main_arg10) = bt) :
    StableHlo.after hostOps5 V (Proc.devRef .tc main_v112) = shapeCast S1x128 bt Facts₀.shapeCasts_S128_S1x128 := by
  simp only [hostOps5]
  after_results_simp
  rw [hb]
  rfl

theorem s1_v1 : W1 (F := Ideal) m ρ c (Proc.devRef .tc main_v1) = Cert.Spec.src (a1 m c) :=
  edges_src (W0 m ρ c) (a1 m c) rfl
theorem s1_v3 : W1 (F := Ideal) m ρ c (Proc.devRef .tc main_v3) = Cert.Spec.dst (a1 m c) :=
  edges_dst (W0 m ρ c) (a1 m c) rfl

theorem s2_v8 : W2 (F := Ideal) m ρ c (Proc.devRef .tc main_v8) = Cert.Spec.proj256 (a0 m c) (a3 m c) := by
  refine (W2_arr m ρ c 2).trans (Cert.KernelIdeal.Reg0.value (V1 m ρ) c (a0 m c) (a3 m c) ?_ ?_)
  · show W1 m ρ c (Proc.devRef .tc main_arg0) = _
    kpass <;> rfl
  · show W1 m ρ c (Proc.devRef .tc main_arg3) = _
    kpass <;> rfl

theorem s2_v3 : W2 (F := Ideal) m ρ c (Proc.devRef .tc main_v3) = Cert.Spec.dst (a1 m c) := by
  kpass; exact s1_v3 m ρ c

theorem s4_v16 : W4 (F := Ideal) m ρ c (Proc.devRef .tc main_v16) = Cert.Spec.dinv (Cert.Spec.dst (a1 m c)) :=
  g1_dinv (W3 m ρ c) _ (g1_cmp (W2 m ρ c) _ (s2_v3 m ρ c)) (g1_rsqrt (W2 m ρ c) _ (s2_v3 m ρ c)) (g1_zero (W2 m ρ c))
theorem s4_v8 : W4 (F := Ideal) m ρ c (Proc.devRef .tc main_v8) = Cert.Spec.proj256 (a0 m c) (a3 m c) := by
  kpass; exact s2_v8 m ρ c
theorem s4_v1 : W4 (F := Ideal) m ρ c (Proc.devRef .tc main_v1) = Cert.Spec.src (a1 m c) := by
  kpass; exact s1_v1 m ρ c
theorem s4_v3 : W4 (F := Ideal) m ρ c (Proc.devRef .tc main_v3) = Cert.Spec.dst (a1 m c) := by
  kpass; exact s1_v3 m ρ c
theorem s4_arg4 : W4 (F := Ideal) m ρ c (Proc.devRef .tc main_arg4) = a4 m c := by
  kpass <;> rfl

theorem s5_v44 : W5 (F := Ideal) m ρ c (Proc.devRef .tc main_v44) = Cert.Spec.agg (Cert.Spec.proj256 (a0 m c) (a3 m c)) (Cert.Spec.src (a1 m c)) (Cert.Spec.dst (a1 m c)) :=
  g1_agg (W4 m ρ c) _ _ _ (s4_v8 m ρ c) (s4_v1 m ρ c) (s4_v3 m ρ c) (s4_v16 m ρ c)
theorem s5_v45 : W5 (F := Ideal) m ρ c (Proc.devRef .tc main_v45) = shapeCast S1x128 (a4 m c) Facts₀.shapeCasts_S128_S1x128 :=
  g1_bias (W4 m ρ c) _ (s4_arg4 m ρ c)

theorem s6_v46 : W6 (F := Ideal) m ρ c (Proc.devRef .tc main_v46) = Cert.Spec.layer1 (a0 m c) (a1 m c) (a3 m c) (a4 m c) :=
  (W6_arr m ρ c 2).trans (Cert.KernelIdeal.Reg1.value (V5 m ρ) c _ (a4 m c) (s5_v44 m ρ c) (s5_v45 m ρ c))

theorem s6_arg7 : W6 (F := Ideal) m ρ c (Proc.devRef .tc main_arg7) = a7 m c := by
  kpass <;> rfl
theorem s6_arg8 : W6 (F := Ideal) m ρ c (Proc.devRef .tc main_arg8) = a8 m c := by
  kpass <;> rfl
theorem s7_v46 : W7 (F := Ideal) m ρ c (Proc.devRef .tc main_v46) = (Cert.Spec.layer1 (a0 m c) (a1 m c) (a3 m c) (a4 m c)) := by
  kpass; exact s6_v46 m ρ c

theorem s8_v60 : W8 (F := Ideal) m ρ c (Proc.devRef .tc main_v60) = Cert.Spec.bn (Cert.Spec.layer1 (a0 m c) (a1 m c) (a3 m c) (a4 m c)) (a7 m c) (a8 m c) :=
  (W8_arr m ρ c 5).trans (Cert.KernelIdeal.Reg2.value (V7 m ρ) c (Cert.Spec.layer1 (a0 m c) (a1 m c) (a3 m c) (a4 m c)) (Cert.Spec.mean (Cert.Spec.layer1 (a0 m c) (a1 m c) (a3 m c) (a4 m c))) (Cert.Spec.varAbout (Cert.Spec.layer1 (a0 m c) (a1 m c) (a3 m c) (a4 m c)) (Cert.Spec.mean (Cert.Spec.layer1 (a0 m c) (a1 m c) (a3 m c) (a4 m c)))) (a7 m c) (a8 m c)
    (s7_v46 m ρ c) (n1_mean (W6 m ρ c) _ (s6_v46 m ρ c)) (n1_var (W6 m ρ c) _ (s6_v46 m ρ c))
    (n1_gain (W6 m ρ c) _ (s6_arg7 m ρ c)) (n1_offset (W6 m ρ c) _ (s6_arg8 m ρ c)))

theorem s8_arg5 : W8 (F := Ideal) m ρ c (Proc.devRef .tc main_arg5) = a5 m c := by
  kpass <;> rfl

theorem s9_v61 : W9 (F := Ideal) m ρ c (Proc.devRef .tc main_v61) = Cert.Spec.proj128 (Cert.Spec.bn (Cert.Spec.layer1 (a0 m c) (a1 m c) (a3 m c) (a4 m c)) (a7 m c) (a8 m c)) (a5 m c) :=
  (W9_arr m ρ c 2).trans (Cert.KernelIdeal.Reg3.value (V8 m ρ) c _ (a5 m c) (s8_v60 m ρ c) (s8_arg5 m ρ c))

theorem s9_v3 : W9 (F := Ideal) m ρ c (Proc.devRef .tc main_v3) = Cert.Spec.dst (a1 m c) := by
  kpass; exact s1_v3 m ρ c
theorem s11_v69 : W11 (F := Ideal) m ρ c (Proc.devRef .tc main_v69) = Cert.Spec.dinv (Cert.Spec.dst (a1 m c)) :=
  g2_dinv (W10 m ρ c) _ (g2_cmp (W9 m ρ c) _ (s9_v3 m ρ c)) (g2_rsqrt (W9 m ρ c) _ (s9_v3 m ρ c)) (g2_zero (W9 m ρ c))
theorem s11_v61 : W11 (F := Ideal) m ρ c (Proc.devRef .tc main_v61) = (Cert.Spec.proj128 (Cert.Spec.bn (Cert.Spec.layer1 (a0 m c) (a1 m c) (a3 m c) (a4 m c)) (a7 m c) (a8 m c)) (a5 m c)) := by
  kpass; exact s9_v61 m ρ c
theorem s11_v1 : W11 (F := Ideal) m ρ c (Proc.devRef .tc main_v1) = Cert.Spec.src (a1 m c) := by
  kpass; exact s1_v1 m ρ c
theorem s11_v3 : W11 (F := Ideal) m ρ c (Proc.devRef .tc main_v3) = Cert.Spec.dst (a1 m c) := by
  kpass; exact s1_v3 m ρ c
theorem s11_arg6 : W11 (F := Ideal) m ρ c (Proc.devRef .tc main_arg6) = a6 m c := by
  kpass <;> rfl

theorem s12_v97 : W12 (F := Ideal) m ρ c (Proc.devRef .tc main_v97) = Cert.Spec.agg (Cert.Spec.proj128 (Cert.Spec.bn (Cert.Spec.layer1 (a0 m c) (a1 m c) (a3 m c) (a4 m c)) (a7 m c) (a8 m c)) (a5 m c)) (Cert.Spec.src (a1 m c)) (Cert.Spec.dst (a1 m c)) :=
  g2_agg (W11 m ρ c) _ _ _ (s11_v61 m ρ c) (s11_v1 m ρ c) (s11_v3 m ρ c) (s11_v69 m ρ c)
theorem s12_v98 : W12 (F := Ideal) m ρ c (Proc.devRef .tc main_v98) = shapeCast S1x128 (a6 m c) Facts₀.shapeCasts_S128_S1x128 :=
  g2_bias (W11 m ρ c) _ (s11_arg6 m ρ c)

theorem s13_v99 : W13 (F := Ideal) m ρ c (Proc.devRef .tc main_v99) = Cert.Spec.layer2 (Cert.Spec.bn (Cert.Spec.layer1 (a0 m c) (a1 m c) (a3 m c) (a4 m c)) (a7 m c) (a8 m c)) (a1 m c) (a5 m c) (a6 m c) :=
  (W13_arr m ρ c 2).trans (Cert.KernelIdeal.Reg4.value (V12 m ρ) c _ (a6 m c) (s12_v97 m ρ c) (s12_v98 m ρ c))

theorem s13_arg9 : W13 (F := Ideal) m ρ c (Proc.devRef .tc main_arg9) = a9 m c := by
  kpass <;> rfl
theorem s13_arg10 : W13 (F := Ideal) m ρ c (Proc.devRef .tc main_arg10) = a10 m c := by
  kpass <;> rfl
theorem s14_v99 : W14 (F := Ideal) m ρ c (Proc.devRef .tc main_v99) = (Cert.Spec.layer2 (Cert.Spec.bn (Cert.Spec.layer1 (a0 m c) (a1 m c) (a3 m c) (a4 m c)) (a7 m c) (a8 m c)) (a1 m c) (a5 m c) (a6 m c)) := by
  kpass; exact s13_v99 m ρ c

theorem s15_v113 : W15 (F := Ideal) m ρ c (Proc.devRef .tc main_v113) = encL m c :=
  (W15_arr m ρ c 5).trans (Cert.KernelIdeal.Reg5.value (V14 m ρ) c (Cert.Spec.layer2 (Cert.Spec.bn (Cert.Spec.layer1 (a0 m c) (a1 m c) (a3 m c) (a4 m c)) (a7 m c) (a8 m c)) (a1 m c) (a5 m c) (a6 m c)) (Cert.Spec.mean (Cert.Spec.layer2 (Cert.Spec.bn (Cert.Spec.layer1 (a0 m c) (a1 m c) (a3 m c) (a4 m c)) (a7 m c) (a8 m c)) (a1 m c) (a5 m c) (a6 m c))) (Cert.Spec.varAbout (Cert.Spec.layer2 (Cert.Spec.bn (Cert.Spec.layer1 (a0 m c) (a1 m c) (a3 m c) (a4 m c)) (a7 m c) (a8 m c)) (a1 m c) (a5 m c) (a6 m c)) (Cert.Spec.mean (Cert.Spec.layer2 (Cert.Spec.bn (Cert.Spec.layer1 (a0 m c) (a1 m c) (a3 m c) (a4 m c)) (a7 m c) (a8 m c)) (a1 m c) (a5 m c) (a6 m c)))) (a9 m c) (a10 m c)
    (s14_v99 m ρ c) (n2_mean (W13 m ρ c) _ (s13_v99 m ρ c)) (n2_var (W13 m ρ c) _ (s13_v99 m ρ c))
    (n2_gain (W13 m ρ c) _ (s13_arg9 m ρ c)) (n2_offset (W13 m ρ c) _ (s13_arg10 m ρ c)))

end Cert.KernelIdeal.KStagesL

end
-- ==== Proof.Reg6.lean ====
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.LibPlainDot
import Idealize.ShloMosaic.Lib.Pipeline.Value

set_option maxRecDepth 16384

noncomputable section

namespace Cert.KernelIdeal.Reg6

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## The product of one block of rows

  The region multiplies the [100000, 256] array by the [256, 128] weights 2000 rows at a time: grid point t loads rows
  2000·t … 2000·t + 1999 and the whole weight array, and stores their product as rows 2000·t … of the result. Entry
  (p, q) of a block's product is the sum over k of block(p, k) · weights(k, q), and block(p, k) is entry
  (2000·t + p, k) of the array, so it is entry (2000·t + p, q) of the whole product. -/

/-- Both contractions are plain: rows × 256 times 256 × columns. -/
theorem blockPlain : Cert.PlainDot.IsPlain dot_S2000x256_S256x128_S2000x128_1_0_0_1_n_n := ⟨rfl, rfl, rfl, rfl, rfl, rfl⟩
theorem wholePlain : Cert.PlainDot.IsPlain Cert.ReferenceIdeal.dot_S100000x256_S256x128_S100000x128_1_0_0_1_n_n :=
  ⟨rfl, rfl, rfl, rfl, rfl, rfl⟩

/-- The body's payload at an entry: rounding to the narrower format is the identity on the extended reals and the
    accumulator is zero, so it is the plain sum of products. -/
theorem pay_apply (xb : Vec Ideal S2000x256 .f32) (wb : Vec Ideal S256x128 .f32) (j : S2000x128.Idx) :
    k6_pay1 xb wb j = ∑ k : Fin 256, xb (ix2 (j 0) k) * wb (ix2 k (j 1)) := by
  unfold k6_pay1
  exact Cert.PlainDot.matmul_zero_apply blockPlain none _ _ j

/-- An entry of a block's product is an entry of the whole product, when the block's row is the array's row and the
    weights are the same. -/
theorem point (x : FVec Ideal S100000x256 .f32) (w : FVec Ideal S256x128 .f32)
    (xb : Vec Ideal S2000x256 .f32) (wb : Vec Ideal S256x128 .f32) (j : S2000x128.Idx) (i : S100000x128.Idx)
    (hxb : ∀ k : Fin 256, xb (ix2 (j 0) k) = x (ix2 (i 0) k)) (hwb : ∀ k : Fin 256, wb (ix2 k (j 1)) = w (ix2 k (i 1))) :
    k6_pay1 xb wb j = Cert.Spec.proj256 x w i := by
  rw [pay_apply]
  unfold Cert.Spec.proj256
  rw [Cert.PlainDot.host_apply wholePlain]
  exact Finset.sum_congr rfl fun k _ => by rw [hxb k, hwb k]

/-! ## From the blocks to the array -/

theorem zeroOffsets : (![0, 0] : Fin 2 → Nat) = fun _ => 0 := funext fun a => by fin_cases a <;> rfl

/-- The index maps, decided over the 50 grid points: the row-block windows (the array read and the result) sit at
    block (t, 0), the weights at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- WHAT POINT t WRITES BACK is block t of the whole product of the arrays the region finds. -/
theorem flushed (c : Dev nD) (t : Fin cfg6.N) :
    (dat6 (F := Ideal) V c).flushed 2 t
      = ((cfg6.win 2).blk t).view.read (Elt Ideal) (Cert.Spec.proj256 (V c main_arg0) (V c main_arg11)) := by
  show (cfg6.win 2).cut (grid6.coords t) ((dat6 V c).after 2 t) = _
  rw [after6_2]
  unfold out6_2
  rw [View.canon_unit_zero zeroOffsets]
  simp only [View.ld_unit_zero (S := S2000x256) zeroOffsets, View.ld_unit_zero (S := S256x128) zeroOffsets]
  obtain ⟨e0, e1, e2, e3, e4, e5⟩ := idx_facts t
  funext j
  show k6_pay1 (iblk6 V c 0 t) (iblk6 V c 1 t) (fun a => ⟨(j a).val, (j a).isLt⟩)
    = Cert.Spec.proj256 (V c main_arg0) (V c main_arg11) (((cfg6.win 2).blk t).view.emb j)
  refine point _ _ _ _ _ _ (fun k => ?_) (fun k => ?_)
  · show V c main_arg0 (((cfg6.win 0).blk t).view.emb _) = V c main_arg0 _
    refine congrArg (V c main_arg0) (funext fun a => Fin.ext ?_)
    match a with
    | ⟨0, _⟩ => show win6_0.index t (0 : Fin 2) * 2000 + 1 * (j 0).val = win6_2.index t (0 : Fin 2) * 2000 + 1 * (j 0).val; rw [e0, e4]
    | ⟨1, _⟩ => show win6_0.index t (1 : Fin 2) * 256 + 1 * k.val = k.val; rw [e1]; omega
  · show V c main_arg11 (((cfg6.win 1).blk t).view.emb _) = V c main_arg11 _
    refine congrArg (V c main_arg11) (funext fun a => Fin.ext ?_)
    match a with
    | ⟨0, _⟩ => show win6_1.index t (0 : Fin 2) * 256 + 1 * k.val = k.val; rw [e2]; omega
    | ⟨1, _⟩ => show win6_1.index t (1 : Fin 2) * 128 + 1 * (j 1).val = win6_2.index t (1 : Fin 2) * 128 + 1 * (j 1).val; rw [e3, e5]

/-- An index of the result is in point t's block iff each coordinate is in the block's range on its axis. -/
theorem mem_blk (t : Fin cfg6.N) (i : S100000x128.Idx) :
    i ∈ ((cfg6.win 2).blk t).view.set ↔ ∀ a : Fin 2, win6_2.index t a * S2000x128.size a ≤ (i a).val
      ∧ (i a).val < win6_2.index t a * S2000x128.size a + S2000x128.size a := by
  show i ∈ ((View.whole main_v114).slice (win6_2.rect t)).set ↔ _
  rw [View.set_slice_whole, Rect.mem_set_unit]
  exact Iff.rfl

/-- The 50 blocks of 2000 rows cover the 100000 rows: row r is in the block of point r / 2000. -/
theorem cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hlt : (i 0).val / 2000 < cfg6.N := by show (i 0).val / 2000 < 50; omega
  obtain ⟨e0, e1, e2, e3, e4, e5⟩ := idx_facts ⟨(i 0).val / 2000, hlt⟩
  refine ⟨⟨(i 0).val / 2000, hlt⟩, flush6_2 _, ?_⟩
  rw [mem_blk]
  intro a
  match a with
  | ⟨0, _⟩ =>
    show win6_2.index ⟨(i 0).val / 2000, hlt⟩ (0 : Fin 2) * 2000 ≤ (i 0).val
      ∧ (i 0).val < win6_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win6_2.index ⟨(i 0).val / 2000, hlt⟩ (1 : Fin 2) * 128 ≤ (i 1).val
      ∧ (i 1).val < win6_2.index ⟨(i 0).val / 2000, hlt⟩ (1 : Fin 2) * 128 + 128
    rw [e5]; omega

theorem value (c : Dev nD) (x : FVec Ideal S100000x256 .f32) (w : FVec Ideal S256x128 .f32)
    (hx : V c main_arg0 = x) (hw : V c main_arg11 = w) :
    (dat6 (F := Ideal) V c).arrAt 2 cfg6.N = Cert.Spec.proj256 x w := by
  subst hx hw
  exact (dat6 (F := Ideal) V c).arrAt_eq_of_cover 2 _ (fun t _ => flushed V c t) cover

end Cert.KernelIdeal.Reg6

end
-- ==== Proof.Reg7.lean ====
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Reg7

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## One entry of the stored block, and of relu(raw + b) -/

/-- One entry of the block the body stores: max(x(p, q) + y(0, q), 0). -/
theorem pay_apply (x : Vec Ideal S2000x128 .f32) (y : Vec Ideal S1x128 .f32) (p : Fin 2000) (q : Fin 128) :
    k7_pay1 (F := Ideal) x y (ix2 p q)
      = max (x (ix2 p q) + y (ix2 (0 : Fin 1) q)) (Ideal.ofBits .f32 0x00000000#32) := by
  unfold k7_pay1
  rw [maximumf_apply, addf_apply, shapeCast_self, shapeCast_self, broadcastTo_1b_ab_apply, broadcast_apply]
  rfl

/-- One entry of relu(raw + b): max(raw(r, q) + b(q), 0). -/
theorem spec_apply (raw : FVec Ideal S100000x128 .f32) (b : FVec Ideal S128 .f32) (r : Fin 100000) (q : Fin 128) :
    Cert.Spec.relu128 (Cert.Spec.addRow raw b) (ix2 r q)
      = max (raw (ix2 r q) + b (ix1 q)) (Ideal.ofBits .f32 0x00000000#32) := by
  unfold Cert.Spec.relu128 Cert.Spec.addRow Cert.Spec.rows128 Cert.Spec.row1
  rw [maximumf_apply, addf_apply, broadcastInDim_oneRow_apply, broadcastInDim_scalar_apply, constant_apply]
  congr 2
  refine broadcastInDim_apply _ _ b _ (ix1 q) fun a => ?_
  match a with
  | ⟨0, _⟩ => rfl

/-- The bias laid as one row, at column q. -/
theorem row_apply (b : FVec Ideal S128 .f32) (q : Fin 128) :
    shapeCast S1x128 b Facts₀.shapeCasts_S128_S1x128 (ix2 (0 : Fin 1) q) = b (ix1 q) :=
  shapeCast_a_1a_apply b _ 0 q

/-- An entry j of the stored block is the entry i of relu(raw + b) when the row block holds raw's entry i at j, the
    one-row block holds b, and i and j are in the same column. -/
theorem block_entry (x : Vec Ideal S2000x128 .f32) (y : Vec Ideal S1x128 .f32)
    (raw : FVec Ideal S100000x128 .f32) (b : FVec Ideal S128 .f32) (j : S2000x128.Idx) (i : S100000x128.Idx)
    (hx : x j = raw i) (hy : ∀ q : Fin 128, y (ix2 (0 : Fin 1) q) = b (ix1 q)) (hcol : (i 1).val = (j 1).val) :
    k7_pay1 (F := Ideal) x y j = Cert.Spec.relu128 (Cert.Spec.addRow raw b) i := by
  obtain ⟨p, q, rfl⟩ : ∃ p q, j = ix2 p q := ⟨j 0, j 1, eq_ix2 j⟩
  obtain ⟨r, s, rfl⟩ : ∃ r s, i = ix2 r s := ⟨i 0, i 1, eq_ix2 i⟩
  obtain rfl : s = q := Fin.ext hcol
  rw [pay_apply, spec_apply, hx, hy]

/-! ## The blocks of the grid -/

theorem zeros : (![0, 0] : Fin 2 → Nat) = fun _ => 0 := funext fun a => by
  match a with
  | ⟨0, _⟩ => rfl
  | ⟨1, _⟩ => rfl

/-- The printed index maps over the grid: the row windows take block t of the rows, the bias window its one block. -/
theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- An index of the [100000, 128] array is in point t's block iff each coordinate is in the block's range. -/
theorem mem_blk (t : Fin cfg7.N) (i : S100000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v152).slice (win7_2.rect t)).set ↔ _
  rw [View.set_slice_whole, Rect.mem_set_unit]
  exact Iff.rfl

/-- Row r lies in the block of point r / 2000. -/
theorem cover (i : S100000x128.Idx) :
    ∃ t : Fin cfg7.N, (cfg7.win 2).flush t = true ∧ i ∈ ((cfg7.win 2).blk t).view.set := by
  have h0 : (i 0).val < 100000 := (i 0).isLt
  have h1 : (i 1).val < 128 := (i 1).isLt
  have hN : cfg7.N = 50 := N_7
  let t : Fin cfg7.N := ⟨(i 0).val / 2000, by rw [hN]; omega⟩
  obtain ⟨-, -, -, -, e0, e1⟩ := index_facts t
  have ht : t.val = (i 0).val / 2000 := rfl
  refine ⟨t, flush7_2 t, ?_⟩
  rw [mem_blk]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-! ## What the region leaves -/

/-- What point t writes back is block t of relu(raw + b). -/
theorem flushed (c : Dev nD) (raw : FVec Ideal S100000x128 .f32) (b : FVec Ideal S128 .f32)
    (hraw : V c main_v150 = raw) (hb : V c main_v151 = shapeCast S1x128 b Facts₀.shapeCasts_S128_S1x128) (t : Fin cfg7.N) :
    (dat7 (F := Ideal) V c).flushed 2 t
      = ((cfg7.win 2).blk t).view.read (Elt Ideal) (Cert.Spec.relu128 (Cert.Spec.addRow raw b)) := by
  show (cfg7.win 2).cut (grid7.coords t) ((dat7 V c).after 2 t) = _
  rw [after7_2]
  unfold out7_2
  rw [View.canon_unit_zero zeros]
  simp only [View.ld_unit_zero (S := S2000x128) zeros, View.ld_unit_zero (S := S1x128) zeros]
  obtain ⟨e0, e1, e2, e3, e4, e5⟩ := index_facts t
  funext j
  refine block_entry (iblk7 V c 0 t) (iblk7 V c 1 t) raw b j (((cfg7.win 2).blk t).view.emb j) ?_ ?_ ?_
  · -- the row window's block and the output's block sit at the same rows
    have hemb : ((cfg7.win 0).blk t).view.emb j = ((cfg7.win 2).blk t).view.emb j := by
      funext a; apply Fin.ext
      match a with
      | ⟨0, _⟩ => show win7_0.index t (0 : Fin 2) * 2000 + 1 * (j 0).val = win7_2.index t (0 : Fin 2) * 2000 + 1 * (j 0).val; omega
      | ⟨1, _⟩ => show win7_0.index t (1 : Fin 2) * 128 + 1 * (j 1).val = win7_2.index t (1 : Fin 2) * 128 + 1 * (j 1).val; omega
    show V c main_v150 (((cfg7.win 0).blk t).view.emb j) = raw (((cfg7.win 2).blk t).view.emb j)
    rw [hraw, hemb]
  · -- the bias window's one block is the whole one-row array
    intro q
    have hemb : ((cfg7.win 1).blk t).view.emb (ix2 (0 : Fin 1) q) = ix2 (0 : Fin 1) q := by
      funext a; apply Fin.ext
      match a with
      | ⟨0, _⟩ => show win7_1.index t (0 : Fin 2) * 1 + 1 * 0 = 0; omega
      | ⟨1, _⟩ => show win7_1.index t (1 : Fin 2) * 128 + 1 * q.val = q.val; omega
    show V c main_v151 (((cfg7.win 1).blk t).view.emb (ix2 (0 : Fin 1) q)) = b (ix1 q)
    rw [hb, hemb, row_apply]
  · show win7_2.index t (1 : Fin 2) * 128 + 1 * (j 1).val = (j 1).val
    omega

theorem value (c : Dev nD) (raw : FVec Ideal S100000x128 .f32) (b : FVec Ideal S128 .f32)
    (hraw : V c main_v150 = raw) (hb : V c main_v151 = shapeCast S1x128 b Facts₀.shapeCasts_S128_S1x128) :
    (dat7 (F := Ideal) V c).arrAt 2 cfg7.N = Cert.Spec.relu128 (Cert.Spec.addRow raw b) :=
  (dat7 (F := Ideal) V c).arrAt_eq_of_cover 2 (Cert.Spec.relu128 (Cert.Spec.addRow raw b))
    (fun t _ => flushed V c raw b hraw hb t) cover

end Cert.KernelIdeal.Reg7

end
-- ==== Proof.Reg8.lean ====
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx

set_option maxRecDepth 16384

noncomputable section

namespace Cert.KernelIdeal.Reg8

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## One entry of the body's result, one entry of the reference's normalisation -/

/-- ε, the constant added to the variance before the inverse square root. -/
abbrev epsR : EReal := Ideal.ofBits .f32 0x3727C5AC#32

/-- The body's payload at `j`, with `k` the index of `j`'s lane in a one-row operand:
    gain·(y − mean)·(variance + ε)^(-1/2) + offset, the row operands read on `j`'s lane. -/
theorem pay_at (x0 : Vec Ideal S2000x128 .f32) (xv xg xmu xbt : Vec Ideal S1x128 .f32) (j : S2000x128.Idx) (k : S1x128.Idx)
    (hk0 : (k 0).val = 0) (hk1 : (k 1).val = (j 1).val) :
    k8_pay1 x0 xv xg xmu xbt j = xg k * (x0 j - xmu k) * Ideal.rsqrt (xv k + epsR) + xbt k := by
  have hb : ∀ x : Vec Ideal S1x128 .f32, broadcastTo S2000x128 x Gen.broadcasts_S1x128_S2000x128 j = x k := fun x =>
    broadcastTo_apply x _ j k fun a => by
      match a with
      | ⟨0, _⟩ => exact hk0
      | ⟨1, _⟩ => exact hk1
  unfold k8_pay1
  simp only [shapeCast_self]
  rw [addf_apply, mulf_apply, mulf_apply, subf_apply, hb, hb, hb, hb]
  rfl

/-- A 128-vector as one row, read at an index of its lane. -/
theorem row1_at (u : FVec Ideal S128 .f32) (k : S1x128.Idx) (l : S128.Idx) (hl : (l 0).val = (k 1).val) :
    Cert.Spec.row1 u k = u l := by
  unfold Cert.Spec.row1
  exact broadcastInDim_apply _ _ u k l fun a => by
    match a with
    | ⟨0, _⟩ => exact hl

/-- A 128-vector cast to one row, read at an index of its lane. -/
theorem cast1_at (u : FVec Ideal S128 .f32) (k : S1x128.Idx) (l : S128.Idx) (hk0 : (k 0).val = 0) (hl : (l 0).val = (k 1).val) :
    shapeCast S1x128 u Facts₀.shapeCasts_S128_S1x128 k = u l := by
  refine shapeCast_apply u _ k l ?_
  rw [Shape.rowMajor_val_one, Shape.rowMajor_val_two, hl, hk0]
  show (k 1).val = 0 * 128 + (k 1).val
  omega

/-- A 128-vector laid along every row, read at an index of its lane. -/
theorem rows128_at (u : FVec Ideal S128 .f32) (i : S100000x128.Idx) (k : S1x128.Idx) (l : S128.Idx)
    (hk0 : (k 0).val = 0) (hk1 : (k 1).val = (i 1).val) (hl : (l 0).val = (k 1).val) : Cert.Spec.rows128 u i = u l := by
  unfold Cert.Spec.rows128
  exact (broadcastInDim_apply _ _ (Cert.Spec.row1 u) i k fun a => by
    match a with
    | ⟨0, _⟩ => exact hk0
    | ⟨1, _⟩ => exact hk1).trans (row1_at u k l hl)

/-- The reference's normalisation at `i`, with `l` the index of `i`'s lane in a 128-vector. -/
theorem bn_at (y : FVec Ideal S100000x128 .f32) (mu v g bt : FVec Ideal S128 .f32) (i : S100000x128.Idx) (k : S1x128.Idx) (l : S128.Idx)
    (hk0 : (k 0).val = 0) (hk1 : (k 1).val = (i 1).val) (hl : (l 0).val = (k 1).val) :
    Cert.Spec.bnWith y mu v g bt i = g l * (y i - mu l) * Ideal.rsqrt (v l + epsR) + bt l := by
  unfold Cert.Spec.bnWith Cert.Spec.center
  rw [addf_apply, mulf_apply, mulf_apply, subf_apply, rows128_at g i k l hk0 hk1 hl, rows128_at mu i k l hk0 hk1 hl,
    rows128_at _ i k l hk0 hk1 hl, rows128_at bt i k l hk0 hk1 hl]
  rfl

/-- One entry of the body's result is the reference's entry, once the body's five operands are read off the
    reference's: the big block's entry at `j` is the array's at `i` on the same lane, and each one-row operand,
    on that lane, is its 128-vector's entry. -/
theorem point (y : FVec Ideal S100000x128 .f32) (mu v g bt : FVec Ideal S128 .f32)
    (x0 : Vec Ideal S2000x128 .f32) (xmu xv xg xbt : Vec Ideal S1x128 .f32)
    (j : S2000x128.Idx) (i : S100000x128.Idx) (k : S1x128.Idx) (l : S128.Idx)
    (hk0 : (k 0).val = 0) (hk1 : (k 1).val = (j 1).val) (hi1 : (i 1).val = (j 1).val) (hl : (l 0).val = (k 1).val)
    (e0 : x0 j = y i) (emu : xmu k = mu l) (ev : xv k = v l) (eg : xg k = g l) (ebt : xbt k = bt l) :
    k8_pay1 x0 xv xg xmu xbt j = Cert.Spec.bnWith y mu v g bt i := by
  rw [pay_at x0 xv xg xmu xbt j k hk0 hk1, bn_at y mu v g bt i k l hk0 (hk1.trans hi1.symm) hl, e0, emu, ev, eg, ebt]

/-! ## The windows' blocks, read off the arrays -/

theorem zero_off : (![0, 0] : Fin 2 → Nat) = fun _ => 0 := funext fun a => by
  match a with
  | ⟨0, _⟩ => rfl
  | ⟨1, _⟩ => rfl

/-- The printed index maps over the grid: the big input and the output take row block `t`, each one-row window
    its one block. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row block `t` of the big input, at `j`, is the array where the output's block `t` puts `j`. -/
theorem big_read (c : Dev nD) (t : Fin cfg8.N) (j : S2000x128.Idx) :
    (iblk8 V c 0 t : Vec Ideal S2000x128 .f32) j
      = (V c main_v152 : S100000x128.Idx → Elt Ideal .f32) (((cfg8.win 5).blk t).view.emb j) := by
  obtain ⟨a0, a1, -, -, -, -, -, -, -, -, o0, o1⟩ := idx_facts t
  unfold iblk8
  rw [View.read_apply]
  show V c main_v152 (((cfg8.win 0).blk t).view.emb j) = V c main_v152 (((cfg8.win 5).blk t).view.emb j)
  refine congrArg (V c main_v152) (funext fun a => Fin.ext ?_)
  match a with
  | ⟨0, _⟩ =>
    show win8_0.index t (0 : Fin 2) * 2000 + 1 * (j 0).val = win8_5.index t (0 : Fin 2) * 2000 + 1 * (j 0).val
    rw [a0, o0]
  | ⟨1, _⟩ =>
    show win8_0.index t (1 : Fin 2) * 128 + 1 * (j 1).val = win8_5.index t (1 : Fin 2) * 128 + 1 * (j 1).val
    rw [a1, o1]

/-- The output's block `t` keeps `j`'s lane. -/
theorem lane_out (t : Fin cfg8.N) (j : S2000x128.Idx) : ((((cfg8.win 5).blk t).view.emb j) 1).val = (j 1).val := by
  obtain ⟨-, -, -, -, -, -, -, -, -, -, -, o1⟩ := idx_facts t
  show win8_5.index t (1 : Fin 2) * 128 + 1 * (j 1).val = (j 1).val
  rw [o1]
  omega

/-- Each one-row window's block, at every point, is its whole array. -/
theorem mean_read (c : Dev nD) (t : Fin cfg8.N) (k : S1x128.Idx) :
    (iblk8 V c 1 t : Vec Ideal S1x128 .f32) k = (V c main_v156 : S1x128.Idx → Elt Ideal .f32) k := by
  obtain ⟨-, -, b0, b1, -, -, -, -, -, -, -, -⟩ := idx_facts t
  unfold iblk8
  rw [View.read_apply]
  show V c main_v156 (((cfg8.win 1).blk t).view.emb k) = V c main_v156 k
  refine congrArg (V c main_v156) (funext fun a => Fin.ext ?_)
  match a with
  | ⟨0, _⟩ => show win8_1.index t (0 : Fin 2) * 1 + 1 * (k 0).val = (k 0).val; rw [b0]; omega
  | ⟨1, _⟩ => show win8_1.index t (1 : Fin 2) * 128 + 1 * (k 1).val = (k 1).val; rw [b1]; omega

theorem var_read (c : Dev nD) (t : Fin cfg8.N) (k : S1x128.Idx) :
    (iblk8 V c 2 t : Vec Ideal S1x128 .f32) k = (V c main_v163 : S1x128.Idx → Elt Ideal .f32) k := by
  obtain ⟨-, -, -, -, b0, b1, -, -, -, -, -, -⟩ := idx_facts t
  unfold iblk8
  rw [View.read_apply]
  show V c main_v163 (((cfg8.win 2).blk t).view.emb k) = V c main_v163 k
  refine congrArg (V c main_v163) (funext fun a => Fin.ext ?_)
  match a with
  | ⟨0, _⟩ => show win8_2.index t (0 : Fin 2) * 1 + 1 * (k 0).val = (k 0).val; rw [b0]; omega
  | ⟨1, _⟩ => show win8_2.index t (1 : Fin 2) * 128 + 1 * (k 1).val = (k 1).val; rw [b1]; omega

theorem gain_read (c : Dev nD) (t : Fin cfg8.N) (k : S1x128.Idx) :
    (iblk8 V c 3 t : Vec Ideal S1x128 .f32) k = (V c main_v164 : S1x128.Idx → Elt Ideal .f32) k := by
  obtain ⟨-, -, -, -, -, -, b0, b1, -, -, -, -⟩ := idx_facts t
  unfold iblk8
  rw [View.read_apply]
  show V c main_v164 (((cfg8.win 3).blk t).view.emb k) = V c main_v164 k
  refine congrArg (V c main_v164) (funext fun a => Fin.ext ?_)
  match a with
  | ⟨0, _⟩ => show win8_3.index t (0 : Fin 2) * 1 + 1 * (k 0).val = (k 0).val; rw [b0]; omega
  | ⟨1, _⟩ => show win8_3.index t (1 : Fin 2) * 128 + 1 * (k 1).val = (k 1).val; rw [b1]; omega

theorem offset_read (c : Dev nD) (t : Fin cfg8.N) (k : S1x128.Idx) :
    (iblk8 V c 4 t : Vec Ideal S1x128 .f32) k = (V c main_v165 : S1x128.Idx → Elt Ideal .f32) k := by
  obtain ⟨-, -, -, -, -, -, -, -, b0, b1, -, -⟩ := idx_facts t
  unfold iblk8
  rw [View.read_apply]
  show V c main_v165 (((cfg8.win 4).blk t).view.emb k) = V c main_v165 k
  refine congrArg (V c main_v165) (funext fun a => Fin.ext ?_)
  match a with
  | ⟨0, _⟩ => show win8_4.index t (0 : Fin 2) * 1 + 1 * (k 0).val = (k 0).val; rw [b0]; omega
  | ⟨1, _⟩ => show win8_4.index t (1 : Fin 2) * 128 + 1 * (k 1).val = (k 1).val; rw [b1]; omega

/-! ## What a point writes back; the blocks cover the array -/

/-- The body's result on the blocks of point `t`, at `j`, is the reference's normalisation of the whole arrays where
    the output's block `t` puts `j`. -/
theorem block_point (c : Dev nD) (y : FVec Ideal S100000x128 .f32) (mu v g bt : FVec Ideal S128 .f32)
    (hy : V c main_v152 = y) (hmu : V c main_v156 = Cert.Spec.row1 mu) (hv : V c main_v163 = Cert.Spec.row1 v)
    (hg : V c main_v164 = shapeCast S1x128 g Facts₀.shapeCasts_S128_S1x128) (hbt : V c main_v165 = shapeCast S1x128 bt Facts₀.shapeCasts_S128_S1x128)
    (t : Fin cfg8.N) (j : S2000x128.Idx) :
    k8_pay1 (iblk8 V c 0 t) (iblk8 V c 2 t) (iblk8 V c 3 t) (iblk8 V c 1 t) (iblk8 V c 4 t) j
      = Cert.Spec.bnWith y mu v g bt (((cfg8.win 5).blk t).view.emb j) :=
  point y mu v g bt (iblk8 V c 0 t) (iblk8 V c 1 t) (iblk8 V c 2 t) (iblk8 V c 3 t) (iblk8 V c 4 t) j
    (((cfg8.win 5).blk t).view.emb j) (ix2 (0 : Fin 1) (j 1 : Fin 128)) (ix1 (j 1 : Fin 128)) rfl rfl (lane_out t j) rfl
    ((big_read V c t j).trans (congrFun hy _))
    ((mean_read V c t _).trans ((congrFun hmu _).trans (row1_at mu _ _ rfl)))
    ((var_read V c t _).trans ((congrFun hv _).trans (row1_at v _ _ rfl)))
    ((gain_read V c t _).trans ((congrFun hg _).trans (cast1_at g _ _ rfl rfl)))
    ((offset_read V c t _).trans ((congrFun hbt _).trans (cast1_at bt _ _ rfl rfl)))

/-- WHAT POINT `t` WRITES BACK is block `t` of the reference's normalisation of the whole arrays. -/
theorem flushed_eq (c : Dev nD) (y : FVec Ideal S100000x128 .f32) (mu v g bt : FVec Ideal S128 .f32)
    (hy : V c main_v152 = y) (hmu : V c main_v156 = Cert.Spec.row1 mu) (hv : V c main_v163 = Cert.Spec.row1 v)
    (hg : V c main_v164 = shapeCast S1x128 g Facts₀.shapeCasts_S128_S1x128) (hbt : V c main_v165 = shapeCast S1x128 bt Facts₀.shapeCasts_S128_S1x128)
    (t : Fin cfg8.N) :
    (dat8 (F := Ideal) V c).flushed 5 t = ((cfg8.win 5).blk t).view.read (Elt Ideal) (Cert.Spec.bnWith y mu v g bt) := by
  show (cfg8.win 5).cut (grid8.coords t) ((dat8 (F := Ideal) V c).after 5 t) = _
  rw [after8_5]
  unfold out8_5
  rw [View.canon_unit_zero zero_off]
  simp only [View.ld_unit_zero (S := S2000x128) zero_off, View.ld_unit_zero (S := S1x128) zero_off]
  funext j
  exact block_point V c y mu v g bt hy hmu hv hg hbt t j

/-- An index of the array is in point `t`'s block iff each coordinate is in the block's range on its axis. -/
theorem mem_blk (t : Fin cfg8.N) (i : S100000x128.Idx) :
    i ∈ ((cfg8.win 5).blk t).view.set ↔ ∀ a : Fin 2, win8_5.index t a * S2000x128.size a ≤ (i a).val
      ∧ (i a).val < win8_5.index t a * S2000x128.size a + S2000x128.size a := by
  show i ∈ ((View.whole main_v166).slice (win8_5.rect t)).set ↔ _
  rw [View.set_slice_whole, Rect.mem_set_unit]
  exact Iff.rfl

/-- Row `r` lies in the block of point `r / 2000`. -/
theorem cover (i : S100000x128.Idx) : ∃ t : Fin cfg8.N, (cfg8.win 5).flush t = true ∧ i ∈ ((cfg8.win 5).blk t).view.set := by
  have hr : (i 0).val < 100000 := (i 0).isLt
  have hq : (i 1).val < 128 := (i 1).isLt
  have hN : cfg8.N = 50 := N_8
  obtain ⟨t, ht⟩ : ∃ t : Fin cfg8.N, t.val = (i 0).val / 2000 := ⟨⟨(i 0).val / 2000, by omega⟩, rfl⟩
  obtain ⟨-, -, -, -, -, -, -, -, -, -, o0, o1⟩ := idx_facts t
  refine ⟨t, flush8_5 t, ?_⟩
  rw [mem_blk]
  intro a
  match a with
  | ⟨0, _⟩ =>
    show win8_5.index t (0 : Fin 2) * 2000 ≤ (i 0).val ∧ (i 0).val < win8_5.index t (0 : Fin 2) * 2000 + 2000
    rw [o0, ht]
    omega
  | ⟨1, _⟩ =>
    show win8_5.index t (1 : Fin 2) * 128 ≤ (i 1).val ∧ (i 1).val < win8_5.index t (1 : Fin 2) * 128 + 128
    rw [o1]
    omega

/-! ## The region's value -/

theorem value (c : Dev nD) (y : FVec Ideal S100000x128 .f32) (mu v g bt : FVec Ideal S128 .f32)
    (hy : V c main_v152 = y) (hmu : V c main_v156 = Cert.Spec.row1 mu) (hv : V c main_v163 = Cert.Spec.row1 v)
    (hg : V c main_v164 = shapeCast S1x128 g Facts₀.shapeCasts_S128_S1x128) (hbt : V c main_v165 = shapeCast S1x128 bt Facts₀.shapeCasts_S128_S1x128) :
    (dat8 (F := Ideal) V c).arrAt 5 cfg8.N = Cert.Spec.bnWith y mu v g bt :=
  (dat8 (F := Ideal) V c).arrAt_eq_of_cover 5 (Cert.Spec.bnWith y mu v g bt)
    (fun t _ => flushed_eq V c y mu v g bt hy hmu hv hg hbt t) fun i => cover i

end Cert.KernelIdeal.Reg8

end
-- ==== Proof.Reg9.lean ====
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.LibPlainDot
import Idealize.ShloMosaic.Lib.Pipeline.Value

set_option maxRecDepth 16384

noncomputable section

namespace Cert.KernelIdeal.Reg9

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## The product of one block of rows

  The region multiplies the [100000, 128] array by the [128, 128] weights 2000 rows at a time: grid point t loads rows
  2000·t … 2000·t + 1999 and the whole weight array, and stores their product as rows 2000·t … of the result. Entry
  (p, q) of a block's product is the sum over k of block(p, k) · weights(k, q), and block(p, k) is entry
  (2000·t + p, k) of the array, so it is entry (2000·t + p, q) of the whole product. -/

/-- Both contractions are plain: rows × 128 times 128 × columns. -/
theorem blockPlain : Cert.PlainDot.IsPlain dot_S2000x128_S128x128_S2000x128_1_0_0_1_n_n := ⟨rfl, rfl, rfl, rfl, rfl, rfl⟩
theorem wholePlain : Cert.PlainDot.IsPlain Cert.ReferenceIdeal.dot_S100000x128_S128x128_S100000x128_1_0_0_1_n_n :=
  ⟨rfl, rfl, rfl, rfl, rfl, rfl⟩

/-- The body's payload at an entry: rounding to the narrower format is the identity on the extended reals and the
    accumulator is zero, so it is the plain sum of products. -/
theorem pay_apply (xb : Vec Ideal S2000x128 .f32) (wb : Vec Ideal S128x128 .f32) (j : S2000x128.Idx) :
    k9_pay1 xb wb j = ∑ k : Fin 128, xb (ix2 (j 0) k) * wb (ix2 k (j 1)) := by
  unfold k9_pay1
  simp only [shapeCast_self]
  exact Cert.PlainDot.matmul_zero_apply blockPlain none _ _ j

/-- An entry of a block's product is an entry of the whole product, when the block's row is the array's row and the
    weights are the same. -/
theorem point (x : FVec Ideal S100000x128 .f32) (w : FVec Ideal S128x128 .f32)
    (xb : Vec Ideal S2000x128 .f32) (wb : Vec Ideal S128x128 .f32) (j : S2000x128.Idx) (i : S100000x128.Idx)
    (hxb : ∀ k : Fin 128, xb (ix2 (j 0) k) = x (ix2 (i 0) k)) (hwb : ∀ k : Fin 128, wb (ix2 k (j 1)) = w (ix2 k (i 1))) :
    k9_pay1 xb wb j = Cert.Spec.proj128 x w i := by
  rw [pay_apply]
  unfold Cert.Spec.proj128
  rw [Cert.PlainDot.host_apply wholePlain]
  exact Finset.sum_congr rfl fun k _ => by rw [hxb k, hwb k]

/-! ## From the blocks to the array -/

theorem zeroOffsets : (![0, 0] : Fin 2 → Nat) = fun _ => 0 := funext fun a => by fin_cases a <;> rfl

/-- The index maps, decided over the 50 grid points: the row-block windows (the array read and the result) sit at
    block (t, 0), the weights at block (0, 0). -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- WHAT POINT t WRITES BACK is block t of the whole product of the arrays the region finds. -/
theorem flushed (c : Dev nD) (t : Fin cfg9.N) :
    (dat9 (F := Ideal) V c).flushed 2 t
      = ((cfg9.win 2).blk t).view.read (Elt Ideal) (Cert.Spec.proj128 (V c main_v166) (V c main_arg13)) := by
  show (cfg9.win 2).cut (grid9.coords t) ((dat9 V c).after 2 t) = _
  rw [after9_2]
  unfold out9_2
  rw [View.canon_unit_zero zeroOffsets]
  simp only [View.ld_unit_zero (S := S2000x128) zeroOffsets, View.ld_unit_zero (S := S128x128) zeroOffsets]
  obtain ⟨e0, e1, e2, e3, e4, e5⟩ := idx_facts t
  funext j
  show k9_pay1 (iblk9 V c 0 t) (iblk9 V c 1 t) (fun a => ⟨(j a).val, (j a).isLt⟩)
    = Cert.Spec.proj128 (V c main_v166) (V c main_arg13) (((cfg9.win 2).blk t).view.emb j)
  refine point _ _ _ _ _ _ (fun k => ?_) (fun k => ?_)
  · show V c main_v166 (((cfg9.win 0).blk t).view.emb _) = V c main_v166 _
    refine congrArg (V c main_v166) (funext fun a => Fin.ext ?_)
    match a with
    | ⟨0, _⟩ => show win9_0.index t (0 : Fin 2) * 2000 + 1 * (j 0).val = win9_2.index t (0 : Fin 2) * 2000 + 1 * (j 0).val; rw [e0, e4]
    | ⟨1, _⟩ => show win9_0.index t (1 : Fin 2) * 128 + 1 * k.val = k.val; rw [e1]; omega
  · show V c main_arg13 (((cfg9.win 1).blk t).view.emb _) = V c main_arg13 _
    refine congrArg (V c main_arg13) (funext fun a => Fin.ext ?_)
    match a with
    | ⟨0, _⟩ => show win9_1.index t (0 : Fin 2) * 128 + 1 * k.val = k.val; rw [e2]; omega
    | ⟨1, _⟩ => show win9_1.index t (1 : Fin 2) * 128 + 1 * (j 1).val = win9_2.index t (1 : Fin 2) * 128 + 1 * (j 1).val; rw [e3, e5]

/-- An index of the result is in point t's block iff each coordinate is in the block's range on its axis. -/
theorem mem_blk (t : Fin cfg9.N) (i : S100000x128.Idx) :
    i ∈ ((cfg9.win 2).blk t).view.set ↔ ∀ a : Fin 2, win9_2.index t a * S2000x128.size a ≤ (i a).val
      ∧ (i a).val < win9_2.index t a * S2000x128.size a + S2000x128.size a := by
  show i ∈ ((View.whole main_v167).slice (win9_2.rect t)).set ↔ _
  rw [View.set_slice_whole, Rect.mem_set_unit]
  exact Iff.rfl

/-- The 50 blocks of 2000 rows cover the 100000 rows: row r is in the block of point r / 2000. -/
theorem cover (i : S100000x128.Idx) :
    ∃ t : Fin cfg9.N, (cfg9.win 2).flush t = true ∧ i ∈ ((cfg9.win 2).blk t).view.set := by
  have hi0 : (i 0).val < 100000 := (i 0).isLt
  have hi1 : (i 1).val < 128 := (i 1).isLt
  have hlt : (i 0).val / 2000 < cfg9.N := by show (i 0).val / 2000 < 50; omega
  obtain ⟨e0, e1, e2, e3, e4, e5⟩ := idx_facts ⟨(i 0).val / 2000, hlt⟩
  refine ⟨⟨(i 0).val / 2000, hlt⟩, flush9_2 _, ?_⟩
  rw [mem_blk]
  intro a
  match a with
  | ⟨0, _⟩ =>
    show win9_2.index ⟨(i 0).val / 2000, hlt⟩ (0 : Fin 2) * 2000 ≤ (i 0).val
      ∧ (i 0).val < win9_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win9_2.index ⟨(i 0).val / 2000, hlt⟩ (1 : Fin 2) * 128 ≤ (i 1).val
      ∧ (i 1).val < win9_2.index ⟨(i 0).val / 2000, hlt⟩ (1 : Fin 2) * 128 + 128
    rw [e5]; omega

theorem value (c : Dev nD) (x : FVec Ideal S100000x128 .f32) (w : FVec Ideal S128x128 .f32)
    (hx : V c main_v166 = x) (hw : V c main_arg13 = w) :
    (dat9 (F := Ideal) V c).arrAt 2 cfg9.N = Cert.Spec.proj128 x w := by
  subst hx hw
  exact (dat9 (F := Ideal) V c).arrAt_eq_of_cover 2 _ (fun t _ => flushed V c t) cover

end Cert.KernelIdeal.Reg9

end
-- ==== Proof.Reg10.lean ====
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Reg10

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## One entry of the stored block, and of raw + b -/

/-- One entry of the block the body stores: x(p, q) + y(0, q). -/
theorem pay_apply (x : Vec Ideal S2000x128 .f32) (y : Vec Ideal S1x128 .f32) (p : Fin 2000) (q : Fin 128) :
    k10_pay1 (F := Ideal) x y (ix2 p q) = x (ix2 p q) + y (ix2 (0 : Fin 1) q) := by
  unfold k10_pay1
  rw [addf_apply, shapeCast_self, shapeCast_self, broadcastTo_1b_ab_apply]

/-- One entry of raw + b: raw(r, q) + b(q). -/
theorem spec_apply (raw : FVec Ideal S100000x128 .f32) (b : FVec Ideal S128 .f32) (r : Fin 100000) (q : Fin 128) :
    Cert.Spec.addRow raw b (ix2 r q) = raw (ix2 r q) + b (ix1 q) := by
  unfold Cert.Spec.addRow Cert.Spec.rows128 Cert.Spec.row1
  rw [addf_apply, broadcastInDim_oneRow_apply]
  congr 1
  refine broadcastInDim_apply _ _ b _ (ix1 q) fun a => ?_
  match a with
  | ⟨0, _⟩ => rfl

/-- The bias laid as one row, at column q. -/
theorem row_apply (b : FVec Ideal S128 .f32) (q : Fin 128) :
    shapeCast S1x128 b Facts₀.shapeCasts_S128_S1x128 (ix2 (0 : Fin 1) q) = b (ix1 q) :=
  shapeCast_a_1a_apply b _ 0 q

/-- An entry j of the stored block is the entry i of raw + b when the row block holds raw's entry i at j, the
    one-row block holds b, and i and j are in the same column. -/
theorem block_entry (x : Vec Ideal S2000x128 .f32) (y : Vec Ideal S1x128 .f32)
    (raw : FVec Ideal S100000x128 .f32) (b : FVec Ideal S128 .f32) (j : S2000x128.Idx) (i : S100000x128.Idx)
    (hx : x j = raw i) (hy : ∀ q : Fin 128, y (ix2 (0 : Fin 1) q) = b (ix1 q)) (hcol : (i 1).val = (j 1).val) :
    k10_pay1 (F := Ideal) x y j = Cert.Spec.addRow raw b i := by
  obtain ⟨p, q, rfl⟩ : ∃ p q, j = ix2 p q := ⟨j 0, j 1, eq_ix2 j⟩
  obtain ⟨r, s, rfl⟩ : ∃ r s, i = ix2 r s := ⟨i 0, i 1, eq_ix2 i⟩
  obtain rfl : s = q := Fin.ext hcol
  rw [pay_apply, spec_apply, hx, hy]

/-! ## The blocks of the grid -/

theorem zeros : (![0, 0] : Fin 2 → Nat) = fun _ => 0 := funext fun a => by
  match a with
  | ⟨0, _⟩ => rfl
  | ⟨1, _⟩ => rfl

/-- The printed index maps over the grid: the row windows take block t of the rows, the bias window its one block. -/
theorem index_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- An index of the [100000, 128] array is in point t's block iff each coordinate is in the block's range. -/
theorem mem_blk (t : Fin cfg10.N) (i : S100000x128.Idx) :
    i ∈ ((cfg10.win 2).blk t).view.set ↔ ∀ a : Fin 2, win10_2.index t a * S2000x128.size a ≤ (i a).val ∧ (i a).val < win10_2.index t a * S2000x128.size a + S2000x128.size a := by
  show i ∈ ((View.whole main_v205).slice (win10_2.rect t)).set ↔ _
  rw [View.set_slice_whole, Rect.mem_set_unit]
  exact Iff.rfl

/-- Row r lies in the block of point r / 2000. -/
theorem cover (i : S100000x128.Idx) :
    ∃ t : Fin cfg10.N, (cfg10.win 2).flush t = true ∧ i ∈ ((cfg10.win 2).blk t).view.set := by
  have h0 : (i 0).val < 100000 := (i 0).isLt
  have h1 : (i 1).val < 128 := (i 1).isLt
  have hN : cfg10.N = 50 := N_10
  let t : Fin cfg10.N := ⟨(i 0).val / 2000, by rw [hN]; omega⟩
  obtain ⟨-, -, -, -, e0, e1⟩ := index_facts t
  have ht : t.val = (i 0).val / 2000 := rfl
  refine ⟨t, flush10_2 t, ?_⟩
  rw [mem_blk]
  intro a
  match a with
  | ⟨0, _⟩ => show win10_2.index t (0 : Fin 2) * 2000 ≤ (i 0).val ∧ (i 0).val < win10_2.index t (0 : Fin 2) * 2000 + 2000; omega
  | ⟨1, _⟩ => show win10_2.index t (1 : Fin 2) * 128 ≤ (i 1).val ∧ (i 1).val < win10_2.index t (1 : Fin 2) * 128 + 128; omega

/-! ## What the region leaves -/

/-- What point t writes back is block t of raw + b. -/
theorem flushed (c : Dev nD) (raw : FVec Ideal S100000x128 .f32) (b : FVec Ideal S128 .f32)
    (hraw : V c main_v203 = raw) (hb : V c main_v204 = shapeCast S1x128 b Facts₀.shapeCasts_S128_S1x128) (t : Fin cfg10.N) :
    (dat10 (F := Ideal) V c).flushed 2 t
      = ((cfg10.win 2).blk t).view.read (Elt Ideal) (Cert.Spec.addRow raw b) := by
  show (cfg10.win 2).cut (grid10.coords t) ((dat10 V c).after 2 t) = _
  rw [after10_2]
  unfold out10_2
  rw [View.canon_unit_zero zeros]
  simp only [View.ld_unit_zero (S := S2000x128) zeros, View.ld_unit_zero (S := S1x128) zeros]
  obtain ⟨e0, e1, e2, e3, e4, e5⟩ := index_facts t
  funext j
  refine block_entry (iblk10 V c 0 t) (iblk10 V c 1 t) raw b j (((cfg10.win 2).blk t).view.emb j) ?_ ?_ ?_
  · -- the row window's block and the output's block sit at the same rows
    have hemb : ((cfg10.win 0).blk t).view.emb j = ((cfg10.win 2).blk t).view.emb j := by
      funext a; apply Fin.ext
      match a with
      | ⟨0, _⟩ => show win10_0.index t (0 : Fin 2) * 2000 + 1 * (j 0).val = win10_2.index t (0 : Fin 2) * 2000 + 1 * (j 0).val; omega
      | ⟨1, _⟩ => show win10_0.index t (1 : Fin 2) * 128 + 1 * (j 1).val = win10_2.index t (1 : Fin 2) * 128 + 1 * (j 1).val; omega
    show V c main_v203 (((cfg10.win 0).blk t).view.emb j) = raw (((cfg10.win 2).blk t).view.emb j)
    rw [hraw, hemb]
  · -- the bias window's one block is the whole one-row array
    intro q
    have hemb : ((cfg10.win 1).blk t).view.emb (ix2 (0 : Fin 1) q) = ix2 (0 : Fin 1) q := by
      funext a; apply Fin.ext
      match a with
      | ⟨0, _⟩ => show win10_1.index t (0 : Fin 2) * 1 + 1 * 0 = 0; omega
      | ⟨1, _⟩ => show win10_1.index t (1 : Fin 2) * 128 + 1 * q.val = q.val; omega
    show V c main_v204 (((cfg10.win 1).blk t).view.emb (ix2 (0 : Fin 1) q)) = b (ix1 q)
    rw [hb, hemb, row_apply]
  · show win10_2.index t (1 : Fin 2) * 128 + 1 * (j 1).val = (j 1).val
    omega

theorem value (c : Dev nD) (raw : FVec Ideal S100000x128 .f32) (b : FVec Ideal S128 .f32)
    (hraw : V c main_v203 = raw) (hb : V c main_v204 = shapeCast S1x128 b Facts₀.shapeCasts_S128_S1x128) :
    (dat10 (F := Ideal) V c).arrAt 2 cfg10.N = Cert.Spec.addRow raw b :=
  (dat10 (F := Ideal) V c).arrAt_eq_of_cover 2 (Cert.Spec.addRow raw b)
    (fun t _ => flushed V c raw b hraw hb t) cover

end Cert.KernelIdeal.Reg10

end
-- ==== Proof.Reg11.lean ====
import proofs.«125188_j57878979281252_1_alg».proof.Proof.FrameKI
import proofs.«125188_j57878979281252_1_alg».proof.Proof.Gen.ReferenceIdeal
import proofs.«125188_j57878979281252_1_alg».proof.Proof.Spec
import Idealize.ShloMosaic.Lib.Pipeline.Value
import Idealize.ShloMosaic.Lib.ValueIdx

set_option maxRecDepth 16384

noncomputable section

namespace Cert.KernelIdeal.Reg11

open Cert.KernelIdeal Cert.KernelIdeal.Gen Cert.KernelIdeal.GenP Cert.KernelIdeal.Facts₀
open Idealize.ShloMosaic Idealize.ShloMosaic.TcCoe Idealize.SL.Sem
open Idealize.ShloMosaic.Pipeline (Dat)
open Idealize.ShloMosaic.ValueIdx

-- the buffer contents the region is entered from: any
variable (V : (c : Dev nD) → (b : Ref sig .tc) → Buf (Elt Ideal) ((c : Thread nD τ).loc b))

/-! ## One entry of the body's result, one entry of the reference's normalisation -/

/-- ε, the constant added to the variance before the inverse square root. -/
abbrev epsR : EReal := Ideal.ofBits .f32 0x3727C5AC#32

/-- The body's payload at `j`, with `k` the index of `j`'s lane in a one-row operand:
    gain·(y − mean)·(variance + ε)^(-1/2) + offset, the row operands read on `j`'s lane. -/
theorem pay_at (x0 : Vec Ideal S2000x128 .f32) (xv xg xmu xbt : Vec Ideal S1x128 .f32) (j : S2000x128.Idx) (k : S1x128.Idx)
    (hk0 : (k 0).val = 0) (hk1 : (k 1).val = (j 1).val) :
    k11_pay1 x0 xv xg xmu xbt j = xg k * (x0 j - xmu k) * Ideal.rsqrt (xv k + epsR) + xbt k := by
  have hb : ∀ x : Vec Ideal S1x128 .f32, broadcastTo S2000x128 x Gen.broadcasts_S1x128_S2000x128 j = x k := fun x =>
    broadcastTo_apply x _ j k fun a => by
      match a with
      | ⟨0, _⟩ => exact hk0
      | ⟨1, _⟩ => exact hk1
  unfold k11_pay1
  simp only [shapeCast_self]
  rw [addf_apply, mulf_apply, mulf_apply, subf_apply, hb, hb, hb, hb]
  rfl

/-- A 128-vector as one row, read at an index of its lane. -/
theorem row1_at (u : FVec Ideal S128 .f32) (k : S1x128.Idx) (l : S128.Idx) (hl : (l 0).val = (k 1).val) :
    Cert.Spec.row1 u k = u l := by
  unfold Cert.Spec.row1
  exact broadcastInDim_apply _ _ u k l fun a => by
    match a with
    | ⟨0, _⟩ => exact hl

/-- A 128-vector cast to one row, read at an index of its lane. -/
theorem cast1_at (u : FVec Ideal S128 .f32) (k : S1x128.Idx) (l : S128.Idx) (hk0 : (k 0).val = 0) (hl : (l 0).val = (k 1).val) :
    shapeCast S1x128 u Facts₀.shapeCasts_S128_S1x128 k = u l := by
  refine shapeCast_apply u _ k l ?_
  rw [Shape.rowMajor_val_one, Shape.rowMajor_val_two, hl, hk0]
  show (k 1).val = 0 * 128 + (k 1).val
  omega

/-- A 128-vector laid along every row, read at an index of its lane. -/
theorem rows128_at (u : FVec Ideal S128 .f32) (i : S100000x128.Idx) (k : S1x128.Idx) (l : S128.Idx)
    (hk0 : (k 0).val = 0) (hk1 : (k 1).val = (i 1).val) (hl : (l 0).val = (k 1).val) : Cert.Spec.rows128 u i = u l := by
  unfold Cert.Spec.rows128
  exact (broadcastInDim_apply _ _ (Cert.Spec.row1 u) i k fun a => by
    match a with
    | ⟨0, _⟩ => exact hk0
    | ⟨1, _⟩ => exact hk1).trans (row1_at u k l hl)

/-- The reference's normalisation at `i`, with `l` the index of `i`'s lane in a 128-vector. -/
theorem bn_at (y : FVec Ideal S100000x128 .f32) (mu v g bt : FVec Ideal S128 .f32) (i : S100000x128.Idx) (k : S1x128.Idx) (l : S128.Idx)
    (hk0 : (k 0).val = 0) (hk1 : (k 1).val = (i 1).val) (hl : (l 0).val = (k 1).val) :
    Cert.Spec.bnWith y mu v g bt i = g l * (y i - mu l) * Ideal.rsqrt (v l + epsR) + bt l := by
  unfold Cert.Spec.bnWith Cert.Spec.center
  rw [addf_apply, mulf_apply, mulf_apply, subf_apply, rows128_at g i k l hk0 hk1 hl, rows128_at mu i k l hk0 hk1 hl,
    rows128_at _ i k l hk0 hk1 hl, rows128_at bt i k l hk0 hk1 hl]
  rfl

/-- One entry of the body's result is the reference's entry, once the body's five operands are read off the
    reference's: the big block's entry at `j` is the array's at `i` on the same lane, and each one-row operand,
    on that lane, is its 128-vector's entry. -/
theorem point (y : FVec Ideal S100000x128 .f32) (mu v g bt : FVec Ideal S128 .f32)
    (x0 : Vec Ideal S2000x128 .f32) (xmu xv xg xbt : Vec Ideal S1x128 .f32)
    (j : S2000x128.Idx) (i : S100000x128.Idx) (k : S1x128.Idx) (l : S128.Idx)
    (hk0 : (k 0).val = 0) (hk1 : (k 1).val = (j 1).val) (hi1 : (i 1).val = (j 1).val) (hl : (l 0).val = (k 1).val)
    (e0 : x0 j = y i) (emu : xmu k = mu l) (ev : xv k = v l) (eg : xg k = g l) (ebt : xbt k = bt l) :
    k11_pay1 x0 xv xg xmu xbt j = Cert.Spec.bnWith y mu v g bt i := by
  rw [pay_at x0 xv xg xmu xbt j k hk0 hk1, bn_at y mu v g bt i k l hk0 (hk1.trans hi1.symm) hl, e0, emu, ev, eg, ebt]

/-! ## The windows' blocks, read off the arrays -/

theorem zero_off : (![0, 0] : Fin 2 → Nat) = fun _ => 0 := funext fun a => by
  match a with
  | ⟨0, _⟩ => rfl
  | ⟨1, _⟩ => rfl

/-- The printed index maps over the grid: the big input and the output take row block `t`, each one-row window
    its one block. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Row block `t` of the big input, at `j`, is the array where the output's block `t` puts `j`. -/
theorem big_read (c : Dev nD) (t : Fin cfg11.N) (j : S2000x128.Idx) :
    (iblk11 V c 0 t : Vec Ideal S2000x128 .f32) j
      = (V c main_v205 : S100000x128.Idx → Elt Ideal .f32) (((cfg11.win 5).blk t).view.emb j) := by
  obtain ⟨a0, a1, -, -, -, -, -, -, -, -, o0, o1⟩ := idx_facts t
  unfold iblk11
  rw [View.read_apply]
  show V c main_v205 (((cfg11.win 0).blk t).view.emb j) = V c main_v205 (((cfg11.win 5).blk t).view.emb j)
  refine congrArg (V c main_v205) (funext fun a => Fin.ext ?_)
  match a with
  | ⟨0, _⟩ =>
    show win11_0.index t (0 : Fin 2) * 2000 + 1 * (j 0).val = win11_5.index t (0 : Fin 2) * 2000 + 1 * (j 0).val
    rw [a0, o0]
  | ⟨1, _⟩ =>
    show win11_0.index t (1 : Fin 2) * 128 + 1 * (j 1).val = win11_5.index t (1 : Fin 2) * 128 + 1 * (j 1).val
    rw [a1, o1]

/-- The output's block `t` keeps `j`'s lane. -/
theorem lane_out (t : Fin cfg11.N) (j : S2000x128.Idx) : ((((cfg11.win 5).blk t).view.emb j) 1).val = (j 1).val := by
  obtain ⟨-, -, -, -, -, -, -, -, -, -, -, o1⟩ := idx_facts t
  show win11_5.index t (1 : Fin 2) * 128 + 1 * (j 1).val = (j 1).val
  rw [o1]
  omega

/-- Each one-row window's block, at every point, is its whole array. -/
theorem mean_read (c : Dev nD) (t : Fin cfg11.N) (k : S1x128.Idx) :
    (iblk11 V c 1 t : Vec Ideal S1x128 .f32) k = (V c main_v209 : S1x128.Idx → Elt Ideal .f32) k := by
  obtain ⟨-, -, b0, b1, -, -, -, -, -, -, -, -⟩ := idx_facts t
  unfold iblk11
  rw [View.read_apply]
  show V c main_v209 (((cfg11.win 1).blk t).view.emb k) = V c main_v209 k
  refine congrArg (V c main_v209) (funext fun a => Fin.ext ?_)
  match a with
  | ⟨0, _⟩ => show win11_1.index t (0 : Fin 2) * 1 + 1 * (k 0).val = (k 0).val; rw [b0]; omega
  | ⟨1, _⟩ => show win11_1.index t (1 : Fin 2) * 128 + 1 * (k 1).val = (k 1).val; rw [b1]; omega

theorem var_read (c : Dev nD) (t : Fin cfg11.N) (k : S1x128.Idx) :
    (iblk11 V c 2 t : Vec Ideal S1x128 .f32) k = (V c main_v216 : S1x128.Idx → Elt Ideal .f32) k := by
  obtain ⟨-, -, -, -, b0, b1, -, -, -, -, -, -⟩ := idx_facts t
  unfold iblk11
  rw [View.read_apply]
  show V c main_v216 (((cfg11.win 2).blk t).view.emb k) = V c main_v216 k
  refine congrArg (V c main_v216) (funext fun a => Fin.ext ?_)
  match a with
  | ⟨0, _⟩ => show win11_2.index t (0 : Fin 2) * 1 + 1 * (k 0).val = (k 0).val; rw [b0]; omega
  | ⟨1, _⟩ => show win11_2.index t (1 : Fin 2) * 128 + 1 * (k 1).val = (k 1).val; rw [b1]; omega

theorem gain_read (c : Dev nD) (t : Fin cfg11.N) (k : S1x128.Idx) :
    (iblk11 V c 3 t : Vec Ideal S1x128 .f32) k = (V c main_v217 : S1x128.Idx → Elt Ideal .f32) k := by
  obtain ⟨-, -, -, -, -, -, b0, b1, -, -, -, -⟩ := idx_facts t
  unfold iblk11
  rw [View.read_apply]
  show V c main_v217 (((cfg11.win 3).blk t).view.emb k) = V c main_v217 k
  refine congrArg (V c main_v217) (funext fun a => Fin.ext ?_)
  match a with
  | ⟨0, _⟩ => show win11_3.index t (0 : Fin 2) * 1 + 1 * (k 0).val = (k 0).val; rw [b0]; omega
  | ⟨1, _⟩ => show win11_3.index t (1 : Fin 2) * 128 + 1 * (k 1).val = (k 1).val; rw [b1]; omega

theorem offset_read (c : Dev nD) (t : Fin cfg11.N) (k : S1x128.Idx) :
    (iblk11 V c 4 t : Vec Ideal S1x128 .f32) k = (V c main_v218 : S1x128.Idx → Elt Ideal .f32) k := by
  obtain ⟨-, -, -, -, -, -, -, -, b0, b1, -, -⟩ := idx_facts t
  unfold iblk11
  rw [View.read_apply]
  show V c main_v218 (((cfg11.win 4).blk t).view.emb k) = V c main_v218 k
  refine congrArg (V c main_v218) (funext fun a => Fin.ext ?_)
  match a with
  | ⟨0, _⟩ => show win11_4.index t (0 : Fin 2) * 1 + 1 * (k 0).val = (k 0).val; rw [b0]; omega
  | ⟨1, _⟩ => show win11_4.index t (1 : Fin 2) * 128 + 1 * (k 1).val = (k 1).val; rw [b1]; omega

/-! ## What a point writes back; the blocks cover the array -/

/-- The body's result on the blocks of point `t`, at `j`, is the reference's normalisation of the whole arrays where
    the output's block `t` puts `j`. -/
theorem block_point (c : Dev nD) (y : FVec Ideal S100000x128 .f32) (mu v g bt : FVec Ideal S128 .f32)
    (hy : V c main_v205 = y) (hmu : V c main_v209 = Cert.Spec.row1 mu) (hv : V c main_v216 = Cert.Spec.row1 v)
    (hg : V c main_v217 = shapeCast S1x128 g Facts₀.shapeCasts_S128_S1x128) (hbt : V c main_v218 = shapeCast S1x128 bt Facts₀.shapeCasts_S128_S1x128)
    (t : Fin cfg11.N) (j : S2000x128.Idx) :
    k11_pay1 (iblk11 V c 0 t) (iblk11 V c 2 t) (iblk11 V c 3 t) (iblk11 V c 1 t) (iblk11 V c 4 t) j
      = Cert.Spec.bnWith y mu v g bt (((cfg11.win 5).blk t).view.emb j) :=
  point y mu v g bt (iblk11 V c 0 t) (iblk11 V c 1 t) (iblk11 V c 2 t) (iblk11 V c 3 t) (iblk11 V c 4 t) j
    (((cfg11.win 5).blk t).view.emb j) (ix2 (0 : Fin 1) (j 1 : Fin 128)) (ix1 (j 1 : Fin 128)) rfl rfl (lane_out t j) rfl
    ((big_read V c t j).trans (congrFun hy _))
    ((mean_read V c t _).trans ((congrFun hmu _).trans (row1_at mu _ _ rfl)))
    ((var_read V c t _).trans ((congrFun hv _).trans (row1_at v _ _ rfl)))
    ((gain_read V c t _).trans ((congrFun hg _).trans (cast1_at g _ _ rfl rfl)))
    ((offset_read V c t _).trans ((congrFun hbt _).trans (cast1_at bt _ _ rfl rfl)))

/-- WHAT POINT `t` WRITES BACK is block `t` of the reference's normalisation of the whole arrays. -/
theorem flushed_eq (c : Dev nD) (y : FVec Ideal S100000x128 .f32) (mu v g bt : FVec Ideal S128 .f32)
    (hy : V c main_v205 = y) (hmu : V c main_v209 = Cert.Spec.row1 mu) (hv : V c main_v216 = Cert.Spec.row1 v)
    (hg : V c main_v217 = shapeCast S1x128 g Facts₀.shapeCasts_S128_S1x128) (hbt : V c main_v218 = shapeCast S1x128 bt Facts₀.shapeCasts_S128_S1x128)
    (t : Fin cfg11.N) :
    (dat11 (F := Ideal) V c).flushed 5 t = ((cfg11.win 5).blk t).view.read (Elt Ideal) (Cert.Spec.bnWith y mu v g bt) := by
  show (cfg11.win 5).cut (grid11.coords t) ((dat11 (F := Ideal) V c).after 5 t) = _
  rw [after11_5]
  unfold out11_5
  rw [View.canon_unit_zero zero_off]
  simp only [View.ld_unit_zero (S := S2000x128) zero_off, View.ld_unit_zero (S := S1x128) zero_off]
  funext j
  exact block_point V c y mu v g bt hy hmu hv hg hbt t j

/-- An index of the array is in point `t`'s block iff each coordinate is in the block's range on its axis. -/
theorem mem_blk (t : Fin cfg11.N) (i : S100000x128.Idx) :
    i ∈ ((cfg11.win 5).blk t).view.set ↔ ∀ a : Fin 2, win11_5.index t a * S2000x128.size a ≤ (i a).val
      ∧ (i a).val < win11_5.index t a * S2000x128.size a + S2000x128.size a := by
  show i ∈ ((View.whole main_v219).slice (win11_5.rect t)).set ↔ _
  rw [View.set_slice_whole, Rect.mem_set_unit]
  exact Iff.rfl

/-- Row `r` lies in the block of point `r / 2000`. -/
theorem cover (i : S100000x128.Idx) : ∃ t : Fin cfg11.N, (cfg11.win 5).flush t = true ∧ i ∈ ((cfg11.win 5).blk t).view.set := by
  have hr : (i 0).val < 100000 := (i 0).isLt
  have hq : (i 1).val < 128 := (i 1).isLt
  have hN : cfg11.N = 50 := N_11
  obtain ⟨t, ht⟩ : ∃ t : Fin cfg11.N, t.val = (i 0).val / 2000 := ⟨⟨(i 0).val / 2000, by omega⟩, rfl⟩
  obtain ⟨-, -, -, -, -, -, -, -, -, -, o0, o1⟩ := idx_facts t
  refine ⟨t, flush11_5 t, ?_⟩
  rw [mem_blk]
  intro a
  match a with
  | ⟨0, _⟩ =>
    show win11_5.index t (0 : Fin 2) * 2000 ≤ (i 0).val ∧ (i 0).val < win11_5.index t (0 : Fin 2) * 2000 + 2000
    rw [o0, ht]
    omega
  | ⟨1, _⟩ =>
    show win11_5.index t (1 : Fin 2) * 128 ≤ (i 1).val ∧ (i 1).val < win11_5.index t (1 : Fin 2) * 128 + 128
    rw [o1]
    omega

/-! ## The region's value -/

theorem value (c : Dev nD) (y : FVec Ideal S100000x128 .f32) (mu v g bt : FVec Ideal S128 .f32)
    (hy : V c main_v205 = y) (hmu : V c main_v209 = Cert.Spec.row1 mu) (hv : V c main_v216 = Cert.Spec.row1 v)
    (hg : V c main_v217 = shapeCast S1x128 g Facts₀.shapeCasts_S128_S1x128) (hbt : V c main_v218 = shapeCast S1x128 bt Facts₀.shapeCasts_S128_S1x128) :
    (dat11 (F := Ideal) V c).arrAt 5 cfg11.N = Cert.Spec.bnWith y mu v g bt :=
  (dat11 (F := Ideal) V c).arrAt_eq_of_cover 5 (Cert.Spec.bnWith y mu v g bt)
    (fun t _ => flushed_eq V c y mu v g bt hy hmu hv hg hbt t) fun i => cover i

end Cert.KernelIdeal.Reg11

end
-- ==== Proof.KStagesG.lean ====
-- The global encoder boundary by boundary, as the local one: each host stretch and each region leaves Spec's function of what it reads,
-- and a buffer no later segment writes is read at the boundary that wrote it; after region 11 the encoder's output.
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.SpecLemmas
import proofs.«125188_j57878979281252_1_alg».proof.Proof.KVals
import proofs.«125188_j57878979281252_1_alg».proof.Proof.KPass
import proofs.«125188_j57878979281252_1_alg».proof.Proof.Reg6
import proofs.«125188_j57878979281252_1_alg».proof.Proof.Reg7
import proofs.«125188_j57878979281252_1_alg».proof.Proof.Reg8
import proofs.«125188_j57878979281252_1_alg».proof.Proof.Reg9
import proofs.«125188_j57878979281252_1_alg».proof.Proof.Reg10
import proofs.«125188_j57878979281252_1_alg».proof.Proof.Reg11
import Idealize.ShloMosaic.Lib.StableHlo.Run

set_option maxRecDepth 16384

noncomputable section

namespace Cert.KernelIdeal.KStagesG

open Cert.KernelIdeal Cert.KernelIdeal.Gen Cert.KernelIdeal.GenP Cert.KernelIdeal.Facts₀ Cert.KernelIdeal.KVals Cert.KernelIdeal.KPass
open Idealize.ShloMosaic Idealize.ShloMosaic.TcCoe Idealize.SL.Sem

variable (m : (ℓ : Loc nD τ sig) → Buf (Elt Ideal) ℓ) (ρ : Dev nD → PrngReg) (c : Dev nD)

theorem edges_src (V : Valuation τ sig (Elt Ideal)) (e : IVec S2x1000000 32) (h : V (Proc.devRef .tc main_arg2) = e) :
    StableHlo.after hostOps0 V (Proc.devRef .tc main_v5) = Cert.Spec.src e := by
  simp only [hostOps0]
  after_results
  rw [h]
  rfl

theorem edges_dst (V : Valuation τ sig (Elt Ideal)) (e : IVec S2x1000000 32) (h : V (Proc.devRef .tc main_arg2) = e) :
    StableHlo.after hostOps0 V (Proc.devRef .tc main_v7) = Cert.Spec.dst e := by
  simp only [hostOps0]
  after_results
  rw [h]
  rfl

theorem g1_cmp (V : Valuation τ sig (Elt Ideal)) (d : IVec S1000000 32) (h3 : V (Proc.devRef .tc main_v7) = d) :
    StableHlo.after hostOps7 V (Proc.devRef .tc main_v120) = cmpf .ogt (Cert.Spec.deg d) (broadcastInDim S100000 ![] Facts₀.bcast_S_S100000 (constant (F := Ideal) S_ .f32 0x00000000#32)) := by
  simp only [hostOps7]
  after_results
  rw [h3]
  rfl

theorem g1_rsqrt (V : Valuation τ sig (Elt Ideal)) (d : IVec S1000000 32) (h3 : V (Proc.devRef .tc main_v7) = d) :
    StableHlo.after hostOps7 V (Proc.devRef .tc main_v121) = Host.rsqrt (Cert.Spec.deg d) := by
  simp only [hostOps7]
  after_results
  rw [h3]
  rfl

theorem g1_zero (V : Valuation τ sig (Elt Ideal)) :
    StableHlo.after hostOps7 V (Proc.devRef .tc main_cst_31) = constant (F := Ideal) S_ .f32 0x00000000#32 := by
  simp only [hostOps7]
  after_results

theorem g1_dinv (V : Valuation τ sig (Elt Ideal)) (d : IVec S1000000 32)
    (hc : V (Proc.devRef .tc main_v120) = cmpf .ogt (Cert.Spec.deg d) (broadcastInDim S100000 ![] Facts₀.bcast_S_S100000 (constant (F := Ideal) S_ .f32 0x00000000#32)))
    (hr : V (Proc.devRef .tc main_v121) = Host.rsqrt (Cert.Spec.deg d))
    (hz : V (Proc.devRef .tc main_cst_31) = constant (F := Ideal) S_ .f32 0x00000000#32) :
    StableHlo.after hostOps7_1 V (Proc.devRef .tc main_v122) = Cert.Spec.dinv d := by
  simp only [hostOps7_1]
  after_results
  rw [hc, hr, hz]
  simp only [StableHlo.TRef.ofBuf, StableHlo.TRef.toBuf]
  repeat rw [cast_eq]
  rfl
set_option maxHeartbeats 1000000 in

theorem g1_agg (V : Valuation τ sig (Elt Ideal)) (x : FVec Ideal S100000x128 .f32) (s d : IVec S1000000 32)
    (hx : V (Proc.devRef .tc main_v114) = x) (h1 : V (Proc.devRef .tc main_v5) = s) (h3 : V (Proc.devRef .tc main_v7) = d)
    (hd : V (Proc.devRef .tc main_v122) = Cert.Spec.dinv d) :
    StableHlo.after hostOps7_2 V (Proc.devRef .tc main_v150) = Cert.Spec.agg x s d := by
  simp only [hostOps7_2]
  after_results_simp
  rw [hx, h1, h3, hd]
  rfl

theorem g1_bias (V : Valuation τ sig (Elt Ideal)) (b : FVec Ideal S128 .f32) (hb : V (Proc.devRef .tc main_arg12) = b) :
    StableHlo.after hostOps7_2 V (Proc.devRef .tc main_v151) = shapeCast S1x128 b Facts₀.shapeCasts_S128_S1x128 := by
  simp only [hostOps7_2]
  after_results_simp
  rw [hb]
  rfl

theorem g2_cmp (V : Valuation τ sig (Elt Ideal)) (d : IVec S1000000 32) (h3 : V (Proc.devRef .tc main_v7) = d) :
    StableHlo.after hostOps10 V (Proc.devRef .tc main_v173) = cmpf .ogt (Cert.Spec.deg d) (broadcastInDim S100000 ![] Facts₀.bcast_S_S100000 (constant (F := Ideal) S_ .f32 0x00000000#32)) := by
  simp only [hostOps10]
  after_results
  rw [h3]
  rfl

theorem g2_rsqrt (V : Valuation τ sig (Elt Ideal)) (d : IVec S1000000 32) (h3 : V (Proc.devRef .tc main_v7) = d) :
    StableHlo.after hostOps10 V (Proc.devRef .tc main_v174) = Host.rsqrt (Cert.Spec.deg d) := by
  simp only [hostOps10]
  after_results
  rw [h3]
  rfl

theorem g2_zero (V : Valuation τ sig (Elt Ideal)) :
    StableHlo.after hostOps10 V (Proc.devRef .tc main_cst_46) = constant (F := Ideal) S_ .f32 0x00000000#32 := by
  simp only [hostOps10]
  after_results

theorem g2_dinv (V : Valuation τ sig (Elt Ideal)) (d : IVec S1000000 32)
    (hc : V (Proc.devRef .tc main_v173) = cmpf .ogt (Cert.Spec.deg d) (broadcastInDim S100000 ![] Facts₀.bcast_S_S100000 (constant (F := Ideal) S_ .f32 0x00000000#32)))
    (hr : V (Proc.devRef .tc main_v174) = Host.rsqrt (Cert.Spec.deg d))
    (hz : V (Proc.devRef .tc main_cst_46) = constant (F := Ideal) S_ .f32 0x00000000#32) :
    StableHlo.after hostOps10_1 V (Proc.devRef .tc main_v175) = Cert.Spec.dinv d := by
  simp only [hostOps10_1]
  after_results
  rw [hc, hr, hz]
  simp only [StableHlo.TRef.ofBuf, StableHlo.TRef.toBuf]
  repeat rw [cast_eq]
  rfl
set_option maxHeartbeats 1000000 in

theorem g2_agg (V : Valuation τ sig (Elt Ideal)) (x : FVec Ideal S100000x128 .f32) (s d : IVec S1000000 32)
    (hx : V (Proc.devRef .tc main_v167) = x) (h1 : V (Proc.devRef .tc main_v5) = s) (h3 : V (Proc.devRef .tc main_v7) = d)
    (hd : V (Proc.devRef .tc main_v175) = Cert.Spec.dinv d) :
    StableHlo.after hostOps10_2 V (Proc.devRef .tc main_v203) = Cert.Spec.agg x s d := by
  simp only [hostOps10_2]
  after_results_simp
  rw [hx, h1, h3, hd]
  rfl

theorem g2_bias (V : Valuation τ sig (Elt Ideal)) (b : FVec Ideal S128 .f32) (hb : V (Proc.devRef .tc main_arg14) = b) :
    StableHlo.after hostOps10_2 V (Proc.devRef .tc main_v204) = shapeCast S1x128 b Facts₀.shapeCasts_S128_S1x128 := by
  simp only [hostOps10_2]
  after_results_simp
  rw [hb]
  rfl

theorem var_row (y : FVec Ideal S100000x128 .f32) :
    Host.divf (Cert.Spec.row1 (Cert.Spec.colsum (mulf (subf y (broadcastInDim S100000x128 ![0, 1] Facts₀.bcast_S1x128_S100000x128_0_1 (Host.divf (Cert.Spec.row1 (Cert.Spec.colsum y)) Cert.Spec.n1x128))) (subf y (broadcastInDim S100000x128 ![0, 1] Facts₀.bcast_S1x128_S100000x128_0_1 (Host.divf (Cert.Spec.row1 (Cert.Spec.colsum y)) Cert.Spec.n1x128)))))) Cert.Spec.n1x128
      = Cert.Spec.row1 (Cert.Spec.varAbout y (Cert.Spec.mean y)) := by
  rw [Cert.Spec.divf_row1 (Cert.Spec.colsum y)]
  exact Cert.Spec.divf_row1 _

theorem n1_mean (V : Valuation τ sig (Elt Ideal)) (y : FVec Ideal S100000x128 .f32) (hy : V (Proc.devRef .tc main_v152) = y) :
    StableHlo.after hostOps8 V (Proc.devRef .tc main_v156) = Cert.Spec.row1 (Cert.Spec.mean y) := by
  refine Eq.trans ?_ (Cert.Spec.divf_row1 (Cert.Spec.colsum y))
  simp only [hostOps8]
  after_results_simp
  rw [hy]
  rfl

theorem n1_var (V : Valuation τ sig (Elt Ideal)) (y : FVec Ideal S100000x128 .f32) (hy : V (Proc.devRef .tc main_v152) = y) :
    StableHlo.after hostOps8 V (Proc.devRef .tc main_v163) = Cert.Spec.row1 (Cert.Spec.varAbout y (Cert.Spec.mean y)) := by
  refine Eq.trans ?_ (var_row y)
  simp only [hostOps8]
  after_results_simp
  rw [hy]
  rfl

theorem n1_gain (V : Valuation τ sig (Elt Ideal)) (g : FVec Ideal S128 .f32) (hg : V (Proc.devRef .tc main_arg15) = g) :
    StableHlo.after hostOps8 V (Proc.devRef .tc main_v164) = shapeCast S1x128 g Facts₀.shapeCasts_S128_S1x128 := by
  simp only [hostOps8]
  after_results_simp
  rw [hg]
  rfl

theorem n1_offset (V : Valuation τ sig (Elt Ideal)) (bt : FVec Ideal S128 .f32) (hb : V (Proc.devRef .tc main_arg16) = bt) :
    StableHlo.after hostOps8 V (Proc.devRef .tc main_v165) = shapeCast S1x128 bt Facts₀.shapeCasts_S128_S1x128 := by
  simp only [hostOps8]
  after_results_simp
  rw [hb]
  rfl

theorem n2_mean (V : Valuation τ sig (Elt Ideal)) (y : FVec Ideal S100000x128 .f32) (hy : V (Proc.devRef .tc main_v205) = y) :
    StableHlo.after hostOps11 V (Proc.devRef .tc main_v209) = Cert.Spec.row1 (Cert.Spec.mean y) := by
  refine Eq.trans ?_ (Cert.Spec.divf_row1 (Cert.Spec.colsum y))
  simp only [hostOps11]
  after_results_simp
  rw [hy]
  rfl

theorem n2_var (V : Valuation τ sig (Elt Ideal)) (y : FVec Ideal S100000x128 .f32) (hy : V (Proc.devRef .tc main_v205) = y) :
    StableHlo.after hostOps11 V (Proc.devRef .tc main_v216) = Cert.Spec.row1 (Cert.Spec.varAbout y (Cert.Spec.mean y)) := by
  refine Eq.trans ?_ (var_row y)
  simp only [hostOps11]
  after_results_simp
  rw [hy]
  rfl

theorem n2_gain (V : Valuation τ sig (Elt Ideal)) (g : FVec Ideal S128 .f32) (hg : V (Proc.devRef .tc main_arg17) = g) :
    StableHlo.after hostOps11 V (Proc.devRef .tc main_v217) = shapeCast S1x128 g Facts₀.shapeCasts_S128_S1x128 := by
  simp only [hostOps11]
  after_results_simp
  rw [hg]
  rfl

theorem n2_offset (V : Valuation τ sig (Elt Ideal)) (bt : FVec Ideal S128 .f32) (hb : V (Proc.devRef .tc main_arg18) = bt) :
    StableHlo.after hostOps11 V (Proc.devRef .tc main_v218) = shapeCast S1x128 bt Facts₀.shapeCasts_S128_S1x128 := by
  simp only [hostOps11]
  after_results_simp
  rw [hb]
  rfl

theorem s1_v5 : W1 (F := Ideal) m ρ c (Proc.devRef .tc main_v5) = Cert.Spec.src (a2 m c) :=
  edges_src (W0 m ρ c) (a2 m c) rfl
theorem s1_v7 : W1 (F := Ideal) m ρ c (Proc.devRef .tc main_v7) = Cert.Spec.dst (a2 m c) :=
  edges_dst (W0 m ρ c) (a2 m c) rfl

theorem s16_v114 : W16 (F := Ideal) m ρ c (Proc.devRef .tc main_v114) = Cert.Spec.proj256 (a0 m c) (a11 m c) := by
  refine (W16_arr m ρ c 2).trans (Cert.KernelIdeal.Reg6.value (V15 m ρ) c (a0 m c) (a11 m c) ?_ ?_)
  · show W15 m ρ c (Proc.devRef .tc main_arg0) = _
    kpass <;> rfl
  · show W15 m ρ c (Proc.devRef .tc main_arg11) = _
    kpass <;> rfl

theorem s16_v7 : W16 (F := Ideal) m ρ c (Proc.devRef .tc main_v7) = Cert.Spec.dst (a2 m c) := by
  kpass; exact s1_v7 m ρ c

theorem s18_v122 : W18 (F := Ideal) m ρ c (Proc.devRef .tc main_v122) = Cert.Spec.dinv (Cert.Spec.dst (a2 m c)) :=
  g1_dinv (W17 m ρ c) _ (g1_cmp (W16 m ρ c) _ (s16_v7 m ρ c)) (g1_rsqrt (W16 m ρ c) _ (s16_v7 m ρ c)) (g1_zero (W16 m ρ c))
theorem s18_v114 : W18 (F := Ideal) m ρ c (Proc.devRef .tc main_v114) = Cert.Spec.proj256 (a0 m c) (a11 m c) := by
  kpass; exact s16_v114 m ρ c
theorem s18_v5 : W18 (F := Ideal) m ρ c (Proc.devRef .tc main_v5) = Cert.Spec.src (a2 m c) := by
  kpass; exact s1_v5 m ρ c
theorem s18_v7 : W18 (F := Ideal) m ρ c (Proc.devRef .tc main_v7) = Cert.Spec.dst (a2 m c) := by
  kpass; exact s1_v7 m ρ c
theorem s18_arg12 : W18 (F := Ideal) m ρ c (Proc.devRef .tc main_arg12) = a12 m c := by
  kpass <;> rfl

theorem s19_v150 : W19 (F := Ideal) m ρ c (Proc.devRef .tc main_v150) = Cert.Spec.agg (Cert.Spec.proj256 (a0 m c) (a11 m c)) (Cert.Spec.src (a2 m c)) (Cert.Spec.dst (a2 m c)) :=
  g1_agg (W18 m ρ c) _ _ _ (s18_v114 m ρ c) (s18_v5 m ρ c) (s18_v7 m ρ c) (s18_v122 m ρ c)
theorem s19_v151 : W19 (F := Ideal) m ρ c (Proc.devRef .tc main_v151) = shapeCast S1x128 (a12 m c) Facts₀.shapeCasts_S128_S1x128 :=
  g1_bias (W18 m ρ c) _ (s18_arg12 m ρ c)

theorem s20_v152 : W20 (F := Ideal) m ρ c (Proc.devRef .tc main_v152) = Cert.Spec.layer1 (a0 m c) (a2 m c) (a11 m c) (a12 m c) :=
  (W20_arr m ρ c 2).trans (Cert.KernelIdeal.Reg7.value (V19 m ρ) c _ (a12 m c) (s19_v150 m ρ c) (s19_v151 m ρ c))

theorem s20_arg15 : W20 (F := Ideal) m ρ c (Proc.devRef .tc main_arg15) = a15 m c := by
  kpass <;> rfl
theorem s20_arg16 : W20 (F := Ideal) m ρ c (Proc.devRef .tc main_arg16) = a16 m c := by
  kpass <;> rfl
theorem s21_v152 : W21 (F := Ideal) m ρ c (Proc.devRef .tc main_v152) = (Cert.Spec.layer1 (a0 m c) (a2 m c) (a11 m c) (a12 m c)) := by
  kpass; exact s20_v152 m ρ c

theorem s22_v166 : W22 (F := Ideal) m ρ c (Proc.devRef .tc main_v166) = Cert.Spec.bn (Cert.Spec.layer1 (a0 m c) (a2 m c) (a11 m c) (a12 m c)) (a15 m c) (a16 m c) :=
  (W22_arr m ρ c 5).trans (Cert.KernelIdeal.Reg8.value (V21 m ρ) c (Cert.Spec.layer1 (a0 m c) (a2 m c) (a11 m c) (a12 m c)) (Cert.Spec.mean (Cert.Spec.layer1 (a0 m c) (a2 m c) (a11 m c) (a12 m c))) (Cert.Spec.varAbout (Cert.Spec.layer1 (a0 m c) (a2 m c) (a11 m c) (a12 m c)) (Cert.Spec.mean (Cert.Spec.layer1 (a0 m c) (a2 m c) (a11 m c) (a12 m c)))) (a15 m c) (a16 m c)
    (s21_v152 m ρ c) (n1_mean (W20 m ρ c) _ (s20_v152 m ρ c)) (n1_var (W20 m ρ c) _ (s20_v152 m ρ c))
    (n1_gain (W20 m ρ c) _ (s20_arg15 m ρ c)) (n1_offset (W20 m ρ c) _ (s20_arg16 m ρ c)))

theorem s22_arg13 : W22 (F := Ideal) m ρ c (Proc.devRef .tc main_arg13) = a13 m c := by
  kpass <;> rfl

theorem s23_v167 : W23 (F := Ideal) m ρ c (Proc.devRef .tc main_v167) = Cert.Spec.proj128 (Cert.Spec.bn (Cert.Spec.layer1 (a0 m c) (a2 m c) (a11 m c) (a12 m c)) (a15 m c) (a16 m c)) (a13 m c) :=
  (W23_arr m ρ c 2).trans (Cert.KernelIdeal.Reg9.value (V22 m ρ) c _ (a13 m c) (s22_v166 m ρ c) (s22_arg13 m ρ c))

theorem s23_v7 : W23 (F := Ideal) m ρ c (Proc.devRef .tc main_v7) = Cert.Spec.dst (a2 m c) := by
  kpass; exact s1_v7 m ρ c
theorem s25_v175 : W25 (F := Ideal) m ρ c (Proc.devRef .tc main_v175) = Cert.Spec.dinv (Cert.Spec.dst (a2 m c)) :=
  g2_dinv (W24 m ρ c) _ (g2_cmp (W23 m ρ c) _ (s23_v7 m ρ c)) (g2_rsqrt (W23 m ρ c) _ (s23_v7 m ρ c)) (g2_zero (W23 m ρ c))
theorem s25_v167 : W25 (F := Ideal) m ρ c (Proc.devRef .tc main_v167) = (Cert.Spec.proj128 (Cert.Spec.bn (Cert.Spec.layer1 (a0 m c) (a2 m c) (a11 m c) (a12 m c)) (a15 m c) (a16 m c)) (a13 m c)) := by
  kpass; exact s23_v167 m ρ c
theorem s25_v5 : W25 (F := Ideal) m ρ c (Proc.devRef .tc main_v5) = Cert.Spec.src (a2 m c) := by
  kpass; exact s1_v5 m ρ c
theorem s25_v7 : W25 (F := Ideal) m ρ c (Proc.devRef .tc main_v7) = Cert.Spec.dst (a2 m c) := by
  kpass; exact s1_v7 m ρ c
theorem s25_arg14 : W25 (F := Ideal) m ρ c (Proc.devRef .tc main_arg14) = a14 m c := by
  kpass <;> rfl

theorem s26_v203 : W26 (F := Ideal) m ρ c (Proc.devRef .tc main_v203) = Cert.Spec.agg (Cert.Spec.proj128 (Cert.Spec.bn (Cert.Spec.layer1 (a0 m c) (a2 m c) (a11 m c) (a12 m c)) (a15 m c) (a16 m c)) (a13 m c)) (Cert.Spec.src (a2 m c)) (Cert.Spec.dst (a2 m c)) :=
  g2_agg (W25 m ρ c) _ _ _ (s25_v167 m ρ c) (s25_v5 m ρ c) (s25_v7 m ρ c) (s25_v175 m ρ c)
theorem s26_v204 : W26 (F := Ideal) m ρ c (Proc.devRef .tc main_v204) = shapeCast S1x128 (a14 m c) Facts₀.shapeCasts_S128_S1x128 :=
  g2_bias (W25 m ρ c) _ (s25_arg14 m ρ c)

theorem s27_v205 : W27 (F := Ideal) m ρ c (Proc.devRef .tc main_v205) = Cert.Spec.layer2 (Cert.Spec.bn (Cert.Spec.layer1 (a0 m c) (a2 m c) (a11 m c) (a12 m c)) (a15 m c) (a16 m c)) (a2 m c) (a13 m c) (a14 m c) :=
  (W27_arr m ρ c 2).trans (Cert.KernelIdeal.Reg10.value (V26 m ρ) c _ (a14 m c) (s26_v203 m ρ c) (s26_v204 m ρ c))

theorem s27_arg17 : W27 (F := Ideal) m ρ c (Proc.devRef .tc main_arg17) = a17 m c := by
  kpass <;> rfl
theorem s27_arg18 : W27 (F := Ideal) m ρ c (Proc.devRef .tc main_arg18) = a18 m c := by
  kpass <;> rfl
theorem s28_v205 : W28 (F := Ideal) m ρ c (Proc.devRef .tc main_v205) = (Cert.Spec.layer2 (Cert.Spec.bn (Cert.Spec.layer1 (a0 m c) (a2 m c) (a11 m c) (a12 m c)) (a15 m c) (a16 m c)) (a2 m c) (a13 m c) (a14 m c)) := by
  kpass; exact s27_v205 m ρ c

theorem s29_v219 : W29 (F := Ideal) m ρ c (Proc.devRef .tc main_v219) = encG m c :=
  (W29_arr m ρ c 5).trans (Cert.KernelIdeal.Reg11.value (V28 m ρ) c (Cert.Spec.layer2 (Cert.Spec.bn (Cert.Spec.layer1 (a0 m c) (a2 m c) (a11 m c) (a12 m c)) (a15 m c) (a16 m c)) (a2 m c) (a13 m c) (a14 m c)) (Cert.Spec.mean (Cert.Spec.layer2 (Cert.Spec.bn (Cert.Spec.layer1 (a0 m c) (a2 m c) (a11 m c) (a12 m c)) (a15 m c) (a16 m c)) (a2 m c) (a13 m c) (a14 m c))) (Cert.Spec.varAbout (Cert.Spec.layer2 (Cert.Spec.bn (Cert.Spec.layer1 (a0 m c) (a2 m c) (a11 m c) (a12 m c)) (a15 m c) (a16 m c)) (a2 m c) (a13 m c) (a14 m c)) (Cert.Spec.mean (Cert.Spec.layer2 (Cert.Spec.bn (Cert.Spec.layer1 (a0 m c) (a2 m c) (a11 m c) (a12 m c)) (a15 m c) (a16 m c)) (a2 m c) (a13 m c) (a14 m c)))) (a17 m c) (a18 m c)
    (s28_v205 m ρ c) (n2_mean (W27 m ρ c) _ (s27_v205 m ρ c)) (n2_var (W27 m ρ c) _ (s27_v205 m ρ c))
    (n2_gain (W27 m ρ c) _ (s27_arg17 m ρ c)) (n2_offset (W27 m ρ c) _ (s27_arg18 m ρ c)))

end Cert.KernelIdeal.KStagesG

end
-- ==== Proof.KStagesH.lean ====
-- The two perceptrons (regions 12, 13), the pooled rows (host operations) and the classifier (region 14), boundary by boundary;
-- at the last boundary the five result buffers hold zL, zG, gL, gG and np.
import proofs.«125188_j57878979281252_1_alg».proof.Proof.FrameKI
import proofs.«125188_j57878979281252_1_alg».proof.Proof.Gen.ReferenceIdeal
import proofs.«125188_j57878979281252_1_alg».proof.Proof.Spec
import proofs.«125188_j57878979281252_1_alg».proof.Proof.SpecLemmas
import proofs.«125188_j57878979281252_1_alg».proof.Proof.KVals
import proofs.«125188_j57878979281252_1_alg».proof.Proof.KPass
import proofs.«125188_j57878979281252_1_alg».proof.Proof.Reg12
import proofs.«125188_j57878979281252_1_alg».proof.Proof.Reg13
import proofs.«125188_j57878979281252_1_alg».proof.Proof.Reg14
import proofs.«125188_j57878979281252_1_alg».proof.Proof.KStagesL
import proofs.«125188_j57878979281252_1_alg».proof.Proof.KStagesG
import Idealize.ShloMosaic.Lib.StableHlo.Run

set_option maxRecDepth 16384

noncomputable section

namespace Cert.KernelIdeal.KStagesH

open Cert.KernelIdeal Cert.KernelIdeal.Gen Cert.KernelIdeal.GenP Cert.KernelIdeal.Facts₀ Cert.KernelIdeal.KVals Cert.KernelIdeal.KPass
open Idealize.ShloMosaic Idealize.ShloMosaic.TcCoe Idealize.SL.Sem

variable (m : (ℓ : Loc nD τ sig) → Buf (Elt Ideal) ℓ) (ρ : Dev nD → PrngReg) (c : Dev nD)

theorem h30_v220 : W30 (F := Ideal) m ρ c (Proc.devRef .tc main_v220) = shapeCast S1x128 (a20 m c) Facts₀.shapeCasts_S128_S1x128 := by
  show StableHlo.after hostOps12 (W29 (F := Ideal) m ρ c) (Proc.devRef .tc main_v220) = _
  simp only [hostOps12]
  after_results
  rw [(show W29 (F := Ideal) m ρ c (Proc.devRef .tc main_arg20) = a20 m c by kpass <;> rfl)]
  rfl
theorem h30_v221 : W30 (F := Ideal) m ρ c (Proc.devRef .tc main_v221) = shapeCast S1x128 (a22 m c) Facts₀.shapeCasts_S128_S1x128 := by
  show StableHlo.after hostOps12 (W29 (F := Ideal) m ρ c) (Proc.devRef .tc main_v221) = _
  simp only [hostOps12]
  after_results
  rw [(show W29 (F := Ideal) m ρ c (Proc.devRef .tc main_arg22) = a22 m c by kpass <;> rfl)]
  rfl

theorem h32_v223 : W32 (F := Ideal) m ρ c (Proc.devRef .tc main_v223) = shapeCast S1x128 (a20 m c) Facts₀.shapeCasts_S128_S1x128 := by
  show StableHlo.after hostOps13 (W31 (F := Ideal) m ρ c) (Proc.devRef .tc main_v223) = _
  simp only [hostOps13]
  after_results
  rw [(show W31 (F := Ideal) m ρ c (Proc.devRef .tc main_arg20) = a20 m c by kpass <;> rfl)]
  rfl
theorem h32_v224 : W32 (F := Ideal) m ρ c (Proc.devRef .tc main_v224) = shapeCast S1x128 (a22 m c) Facts₀.shapeCasts_S128_S1x128 := by
  show StableHlo.after hostOps13 (W31 (F := Ideal) m ρ c) (Proc.devRef .tc main_v224) = _
  simp only [hostOps13]
  after_results
  rw [(show W31 (F := Ideal) m ρ c (Proc.devRef .tc main_arg22) = a22 m c by kpass <;> rfl)]
  rfl

theorem s31_v222 : W31 (F := Ideal) m ρ c (Proc.devRef .tc main_v222) = zL m c := by
  refine (W31_arr (F := Ideal) m ρ c 5).trans ?_
  refine Cert.KernelIdeal.Reg12.value (V30 (F := Ideal) m ρ) c (encL m c) (a19 m c) (a21 m c) (a20 m c) (a22 m c) ?_ ?_ ?_ ?_ ?_
  · show W30 (F := Ideal) m ρ c (Proc.devRef .tc main_v113) = _
    kpass
    exact Cert.KernelIdeal.KStagesL.s15_v113 m ρ c
  · show W30 (F := Ideal) m ρ c (Proc.devRef .tc main_arg19) = _
    kpass <;> rfl
  · exact h30_v220 m ρ c
  · show W30 (F := Ideal) m ρ c (Proc.devRef .tc main_arg21) = _
    kpass <;> rfl
  · exact h30_v221 m ρ c

theorem s33_v225 : W33 (F := Ideal) m ρ c (Proc.devRef .tc main_v225) = zG m c := by
  refine (W33_arr (F := Ideal) m ρ c 5).trans ?_
  refine Cert.KernelIdeal.Reg13.value (V32 (F := Ideal) m ρ) c (encG m c) (a19 m c) (a21 m c) (a20 m c) (a22 m c) ?_ ?_ ?_ ?_ ?_
  · show W32 (F := Ideal) m ρ c (Proc.devRef .tc main_v219) = _
    kpass
    exact Cert.KernelIdeal.KStagesG.s29_v219 m ρ c
  · show W32 (F := Ideal) m ρ c (Proc.devRef .tc main_arg19) = _
    kpass <;> rfl
  · exact h32_v223 m ρ c
  · show W32 (F := Ideal) m ρ c (Proc.devRef .tc main_arg21) = _
    kpass <;> rfl
  · exact h32_v224 m ρ c

theorem h33_v222 : W33 (F := Ideal) m ρ c (Proc.devRef .tc main_v222) = zL m c := by
  kpass
  exact s31_v222 m ρ c

theorem p0_v232 (V : Valuation τ sig (Elt Ideal)) (z : FVec Ideal S100000x128 .f32) (w : FVec Ideal S128x128 .f32) (b : FVec Ideal S128 .f32)
    (hz : V (Proc.devRef .tc main_v222) = z) (hw : V (Proc.devRef .tc main_arg19) = w) (hb : V (Proc.devRef .tc main_arg20) = b) :
    StableHlo.after hostOps14 V (Proc.devRef .tc main_v232) =
      addf (Cert.Spec.dot1 (Cert.Spec.row1 (Cert.Spec.colsum z)) w) (Cert.Spec.row1 b) := by
  simp only [hostOps14]
  after_results
  rw [hz, hw, hb]
  rfl

theorem p0_v229 (V : Valuation τ sig (Elt Ideal)) (z : FVec Ideal S100000x128 .f32) (hz : V (Proc.devRef .tc main_v225) = z) :
    StableHlo.after hostOps14 V (Proc.devRef .tc main_v229) = Cert.Spec.row1 (Cert.Spec.colsum z) := by
  simp only [hostOps14]
  after_results
  rw [hz]
  rfl

theorem p1_v233 (V : Valuation τ sig (Elt Ideal)) (x : FVec Ideal S1x128 .f32) (hx : V (Proc.devRef .tc main_v232) = x) :
    StableHlo.after hostOps14_1 V (Proc.devRef .tc main_v233) = Cert.Spec.relu1 x := by
  simp only [hostOps14_1]
  after_results
  rw [hx]
  simp only [StableHlo.TRef.ofBuf, StableHlo.TRef.toBuf]
  repeat rw [cast_eq]
  rfl

theorem p2_v236 (V : Valuation τ sig (Elt Ideal)) (x : FVec Ideal S1x128 .f32) (w : FVec Ideal S128x128 .f32) (b : FVec Ideal S128 .f32)
    (hx : V (Proc.devRef .tc main_v233) = x) (hw : V (Proc.devRef .tc main_arg21) = w) (hb : V (Proc.devRef .tc main_arg22) = b) :
    StableHlo.after hostOps14_2 V (Proc.devRef .tc main_v236) = addf (Cert.Spec.dot1 x w) (Cert.Spec.row1 b) := by
  simp only [hostOps14_2]
  after_results
  rw [hx, hw, hb]
  rfl

theorem p2_v239 (V : Valuation τ sig (Elt Ideal)) (r : FVec Ideal S1x128 .f32) (w : FVec Ideal S128x128 .f32) (b : FVec Ideal S128 .f32)
    (hr : V (Proc.devRef .tc main_v229) = r) (hw : V (Proc.devRef .tc main_arg19) = w) (hb : V (Proc.devRef .tc main_arg20) = b) :
    StableHlo.after hostOps14_2 V (Proc.devRef .tc main_v239) = addf (Cert.Spec.dot1 r w) (Cert.Spec.row1 b) := by
  simp only [hostOps14_2]
  after_results
  rw [hr, hw, hb]
  rfl

theorem p3_v240 (V : Valuation τ sig (Elt Ideal)) (x : FVec Ideal S1x128 .f32) (hx : V (Proc.devRef .tc main_v239) = x) :
    StableHlo.after hostOps14_3 V (Proc.devRef .tc main_v240) = Cert.Spec.relu1 x := by
  simp only [hostOps14_3]
  after_results
  rw [hx]
  simp only [StableHlo.TRef.ofBuf, StableHlo.TRef.toBuf]
  repeat rw [cast_eq]
  rfl

theorem p4_v243 (V : Valuation τ sig (Elt Ideal)) (x : FVec Ideal S1x128 .f32) (w : FVec Ideal S128x128 .f32) (b : FVec Ideal S128 .f32)
    (hx : V (Proc.devRef .tc main_v240) = x) (hw : V (Proc.devRef .tc main_arg21) = w) (hb : V (Proc.devRef .tc main_arg22) = b) :
    StableHlo.after hostOps14_4 V (Proc.devRef .tc main_v243) = addf (Cert.Spec.dot1 x w) (Cert.Spec.row1 b) := by
  simp only [hostOps14_4]
  after_results
  rw [hx, hw, hb]
  rfl

theorem r33_arg19 : W33 (F := Ideal) m ρ c (Proc.devRef .tc main_arg19) = a19 m c := by
  kpass <;> rfl
theorem r33_arg20 : W33 (F := Ideal) m ρ c (Proc.devRef .tc main_arg20) = a20 m c := by
  kpass <;> rfl
theorem r35_arg19 : W35 (F := Ideal) m ρ c (Proc.devRef .tc main_arg19) = a19 m c := by
  kpass <;> rfl
theorem r35_arg20 : W35 (F := Ideal) m ρ c (Proc.devRef .tc main_arg20) = a20 m c := by
  kpass <;> rfl
theorem r35_arg21 : W35 (F := Ideal) m ρ c (Proc.devRef .tc main_arg21) = a21 m c := by
  kpass <;> rfl
theorem r35_arg22 : W35 (F := Ideal) m ρ c (Proc.devRef .tc main_arg22) = a22 m c := by
  kpass <;> rfl
theorem r37_arg21 : W37 (F := Ideal) m ρ c (Proc.devRef .tc main_arg21) = a21 m c := by
  kpass <;> rfl
theorem r37_arg22 : W37 (F := Ideal) m ρ c (Proc.devRef .tc main_arg22) = a22 m c := by
  kpass <;> rfl

theorem h34_v232 : W34 (F := Ideal) m ρ c (Proc.devRef .tc main_v232) = (addf (Cert.Spec.dot1 (Cert.Spec.row1 (Cert.Spec.colsum (zL m c))) (a19 m c)) (Cert.Spec.row1 (a20 m c))) :=
  p0_v232 (W33 m ρ c) _ _ _ (h33_v222 m ρ c) (r33_arg19 m ρ c) (r33_arg20 m ρ c)
theorem h35_v233 : W35 (F := Ideal) m ρ c (Proc.devRef .tc main_v233) = Cert.Spec.relu1 (addf (Cert.Spec.dot1 (Cert.Spec.row1 (Cert.Spec.colsum (zL m c))) (a19 m c)) (Cert.Spec.row1 (a20 m c))) :=
  p1_v233 (W34 m ρ c) _ (h34_v232 m ρ c)
theorem h36_v236 : W36 (F := Ideal) m ρ c (Proc.devRef .tc main_v236) = Cert.Spec.pooled (zL m c) (a19 m c) (a20 m c) (a21 m c) (a22 m c) :=
  p2_v236 (W35 m ρ c) _ _ _ (h35_v233 m ρ c) (r35_arg21 m ρ c) (r35_arg22 m ρ c)
theorem s38_v236 : W38 (F := Ideal) m ρ c (Proc.devRef .tc main_v236) = gL m c := by
  kpass
  exact h36_v236 m ρ c

theorem h34_v229 : W34 (F := Ideal) m ρ c (Proc.devRef .tc main_v229) = Cert.Spec.row1 (Cert.Spec.colsum (zG m c)) :=
  p0_v229 (W33 m ρ c) _ (s33_v225 m ρ c)
theorem h35_v229 : W35 (F := Ideal) m ρ c (Proc.devRef .tc main_v229) = Cert.Spec.row1 (Cert.Spec.colsum (zG m c)) := by
  kpass
  exact h34_v229 m ρ c
theorem h36_v239 : W36 (F := Ideal) m ρ c (Proc.devRef .tc main_v239) = (addf (Cert.Spec.dot1 (Cert.Spec.row1 (Cert.Spec.colsum (zG m c))) (a19 m c)) (Cert.Spec.row1 (a20 m c))) :=
  p2_v239 (W35 m ρ c) _ _ _ (h35_v229 m ρ c) (r35_arg19 m ρ c) (r35_arg20 m ρ c)
theorem h37_v240 : W37 (F := Ideal) m ρ c (Proc.devRef .tc main_v240) = Cert.Spec.relu1 (addf (Cert.Spec.dot1 (Cert.Spec.row1 (Cert.Spec.colsum (zG m c))) (a19 m c)) (Cert.Spec.row1 (a20 m c))) :=
  p3_v240 (W36 m ρ c) _ (h36_v239 m ρ c)
theorem s38_v243 : W38 (F := Ideal) m ρ c (Proc.devRef .tc main_v243) = gG m c :=
  p4_v243 (W37 m ρ c) _ _ _ (h37_v240 m ρ c) (r37_arg21 m ρ c) (r37_arg22 m ρ c)

theorem h38_v244 : W38 (F := Ideal) m ρ c (Proc.devRef .tc main_v244) = shapeCast S1x64 (a24 m c) Facts₀.shapeCasts_S64_S1x64 := by
  show StableHlo.after hostOps14_4 (W37 (F := Ideal) m ρ c) (Proc.devRef .tc main_v244) = _
  simp only [hostOps14_4]
  after_results
  rw [(show W33 (F := Ideal) m ρ c (Proc.devRef .tc main_arg24) = a24 m c by kpass <;> rfl)]
  rfl
theorem h38_v245 : W38 (F := Ideal) m ρ c (Proc.devRef .tc main_v245) = shapeCast S1x40 (a26 m c) Facts₀.shapeCasts_S40_S1x40 := by
  show StableHlo.after hostOps14_4 (W37 (F := Ideal) m ρ c) (Proc.devRef .tc main_v245) = _
  simp only [hostOps14_4]
  after_results
  rw [(show W33 (F := Ideal) m ρ c (Proc.devRef .tc main_arg26) = a26 m c by kpass <;> rfl)]
  rfl

theorem s39_v246 : W39 (F := Ideal) m ρ c (Proc.devRef .tc main_v246) = np m c := by
  refine (W39_arr (F := Ideal) m ρ c 6).trans ?_
  refine Cert.KernelIdeal.Reg14.value (V38 (F := Ideal) m ρ) c (zL m c) (zG m c) (a23 m c) (a24 m c) (a25 m c) (a26 m c) ?_ ?_ ?_ ?_ ?_ ?_
  · show W38 (F := Ideal) m ρ c (Proc.devRef .tc main_v222) = _
    kpass
    exact s31_v222 m ρ c
  · show W38 (F := Ideal) m ρ c (Proc.devRef .tc main_v225) = _
    kpass
    exact s33_v225 m ρ c
  · show W38 (F := Ideal) m ρ c (Proc.devRef .tc main_arg23) = _
    kpass <;> rfl
  · exact h38_v244 m ρ c
  · show W38 (F := Ideal) m ρ c (Proc.devRef .tc main_arg25) = _
    kpass <;> rfl
  · exact h38_v245 m ρ c

theorem fin_v222 : W39 (F := Ideal) m ρ c (Proc.devRef .tc main_v222) = zL m c := by
  kpass
  exact s31_v222 m ρ c
theorem fin_v225 : W39 (F := Ideal) m ρ c (Proc.devRef .tc main_v225) = zG m c := by
  kpass
  exact s33_v225 m ρ c
theorem fin_v236 : W39 (F := Ideal) m ρ c (Proc.devRef .tc main_v236) = gL m c := by
  kpass
  exact s38_v236 m ρ c
theorem fin_v243 : W39 (F := Ideal) m ρ c (Proc.devRef .tc main_v243) = gG m c := by
  kpass
  exact s38_v243 m ρ c
theorem fin_v246 : W39 (F := Ideal) m ρ c (Proc.devRef .tc main_v246) = np m c := s39_v246 m ρ c

end Cert.KernelIdeal.KStagesH

end
-- ==== Proof.RefChunk0.lean ====
-- Operations 1 to 32 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops0_W : List (Ref sig .tc) := [main_v0, main_v1, main_v2, main_v3, main_v4, main_cst, main_v5, main_cst_0, main_v6, main_v7, main_v8, main_cst_1, main_v9, main_v10, main_v11, main_cst_2, main_call0_v0, main_call0_v1, main_v12, main_c, main_v13, main_v14, main_c_3, main_v15, main_v16, main_v17, main_v18, main_v19, main_c_4, main_v20, main_v21, main_c_5]
private theorem w0 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops0_writes : (ops0 : List (HloOp τ sig (Elt Ideal))).Forall fun op => op.writes ⊆ (ops0_W.map (Proc.devRef (τ := τ) .tc)).toFinset := by
  simp only [List.Forall]; exact ⟨w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide), w0 (by decide)⟩

theorem keep0 (V : Valuation τ sig (Elt Ideal)) (r : Ref sig .tc) (h : r ∉ ops0_W) :
    after (ops0 (F := Ideal)) V (Proc.devRef .tc r) = V (Proc.devRef .tc r) :=
  after_of_writes_sub ops0 _ ops0_writes h

theorem opeq_main_call0_v0 : (TRef.unary (TRef.of (T := ⟨S_, .f32⟩) main_cst_2) (TRef.of (T := ⟨S_, .f32⟩) main_call0_v0) id : HloOp τ sig (Elt Ideal)) =
    unary main_cst_2 main_call0_v0 ((id) : (⟨S_, .f32⟩ : BufTy).Contents (Elt Ideal) → (⟨S_, .f32⟩ : BufTy).Contents (Elt Ideal)) := rfl
theorem opeq_main_call0_v1 : (TRef.unary (TRef.of (T := ⟨S_, .f32⟩) main_call0_v0) (TRef.of (T := ⟨S100000, .f32⟩) main_call0_v1) (broadcastInDim S100000 ![] bcast_S_S100000) : HloOp τ sig (Elt Ideal)) =
    unary main_call0_v0 main_call0_v1 (((broadcastInDim S100000 ![] bcast_S_S100000)) : (⟨S_, .f32⟩ : BufTy).Contents (Elt Ideal) → (⟨S100000, .f32⟩ : BufTy).Contents (Elt Ideal)) := rfl
theorem opeq_main_v12 : (TRef.ternary (TRef.of (T := ⟨S100000, .i1⟩) main_v10) (TRef.of (T := ⟨S100000, .f32⟩) main_v11) (TRef.of (T := ⟨S100000, .f32⟩) main_call0_v1) (TRef.of (T := ⟨S100000, .f32⟩) main_v12) select : HloOp τ sig (Elt Ideal)) =
    ternary main_v10 main_v11 main_call0_v1 main_v12 ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) := rfl

set_option maxHeartbeats 2000000 in
theorem c0_main_v1 (V : Valuation τ sig (Elt Ideal)) (x1 : (⟨S2x1000000, .i32⟩ : BufTy).Contents (Elt Ideal))
    (h_main_arg1 : V (Proc.devRef .tc main_arg1) = x1)
    : after (ops0 (F := Ideal)) V (Proc.devRef .tc main_v1) = val_main_v1 (F := Ideal) x1 := by
  simp only [ops0]
  after_results_simp
  rw [h_main_arg1]
  unfold val_main_v1 val_main_v0
  first | with_reducible rfl | rfl

set_option maxHeartbeats 2000000 in
theorem c0_main_v3 (V : Valuation τ sig (Elt Ideal)) (x1 : (⟨S2x1000000, .i32⟩ : BufTy).Contents (Elt Ideal))
    (h_main_arg1 : V (Proc.devRef .tc main_arg1) = x1)
    : after (ops0 (F := Ideal)) V (Proc.devRef .tc main_v3) = val_main_v3 (F := Ideal) x1 := by
  simp only [ops0]
  after_results_simp
  rw [h_main_arg1]
  unfold val_main_v3 val_main_v2
  first | with_reducible rfl | rfl

set_option maxHeartbeats 2000000 in
theorem c0_main_v4 (V : Valuation τ sig (Elt Ideal)) (x0 : (⟨S100000x256, .f32⟩ : BufTy).Contents (Elt Ideal)) (x3 : (⟨S256x128, .f32⟩ : BufTy).Contents (Elt Ideal))
    (h_main_arg0 : V (Proc.devRef .tc main_arg0) = x0)
    (h_main_arg3 : V (Proc.devRef .tc main_arg3) = x3)
    : after (ops0 (F := Ideal)) V (Proc.devRef .tc main_v4) = val_main_v4 (F := Ideal) x0 x3 := by
  simp only [ops0]
  after_results_simp
  rw [h_main_arg0, h_main_arg3]
  unfold val_main_v4
  first | with_reducible rfl | rfl

set_option maxHeartbeats 2000000 in
theorem c0_main_v12 (V : Valuation τ sig (Elt Ideal)) (x1 : (⟨S2x1000000, .i32⟩ : BufTy).Contents (Elt Ideal))
    (h_main_arg1 : V (Proc.devRef .tc main_arg1) = x1)
    : after (ops0 (F := Ideal)) V (Proc.devRef .tc main_v12) = val_main_v12 (F := Ideal) x1 := by
  simp only [ops0]
  simp only [opeq_main_call0_v0, opeq_main_call0_v1, opeq_main_v12]
  after_results_simp
  rw [h_main_arg1]
  unfold val_main_v12 val_main_call0_v1 val_main_call0_v0 val_main_cst_2 val_main_v11 val_main_v10 val_main_v9 val_main_cst_1 val_main_v8 val_main_v7 val_main_v6 val_main_cst_0 val_main_v5 val_main_cst val_main_v3 val_main_v2
  first | with_reducible rfl | rfl

set_option maxHeartbeats 2000000 in
theorem c0_main_v19 (V : Valuation τ sig (Elt Ideal)) (x1 : (⟨S2x1000000, .i32⟩ : BufTy).Contents (Elt Ideal))
    (h_main_arg1 : V (Proc.devRef .tc main_arg1) = x1)
    : after (ops0 (F := Ideal)) V (Proc.devRef .tc main_v19) = val_main_v19 (F := Ideal) x1 := by
  simp only [ops0]
  simp only [opeq_main_call0_v0, opeq_main_call0_v1, opeq_main_v12]
  after_results_simp
  rw [h_main_arg1]
  unfold val_main_v19 val_main_v18 val_main_v17 val_main_v16 val_main_v15 val_main_c_3 val_main_v14 val_main_v13 val_main_c val_main_v12 val_main_call0_v1 val_main_call0_v0 val_main_cst_2 val_main_v11 val_main_v10 val_main_v9 val_main_cst_1 val_main_v8 val_main_v7 val_main_v6 val_main_cst_0 val_main_v5 val_main_cst val_main_v3 val_main_v2 val_main_v1 val_main_v0
  first | with_reducible rfl | rfl

set_option maxHeartbeats 2000000 in
theorem c0_main_v21 (V : Valuation τ sig (Elt Ideal)) (x1 : (⟨S2x1000000, .i32⟩ : BufTy).Contents (Elt Ideal))
    (h_main_arg1 : V (Proc.devRef .tc main_arg1) = x1)
    : after (ops0 (F := Ideal)) V (Proc.devRef .tc main_v21) = val_main_v21 (F := Ideal) x1 := by
  simp only [ops0]
  after_results_simp
  rw [h_main_arg1]
  unfold val_main_v21 val_main_v20 val_main_c_4 val_main_v3 val_main_v2
  first | with_reducible rfl | rfl

set_option maxHeartbeats 2000000 in
theorem c0_main_c_5 (V : Valuation τ sig (Elt Ideal))
    : after (ops0 (F := Ideal)) V (Proc.devRef .tc main_c_5) = val_main_c_5 (F := Ideal) := by
  simp only [ops0]
  after_results_simp
  unfold val_main_c_5
  first | with_reducible rfl | rfl

end Cert.ReferenceIdeal.RefChain

end
-- ==== Proof.RefChunk1.lean ====
-- Operations 33 to 64 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops1_W : List (Ref sig .tc) := [main_v22, main_v23, main_v24, main_v25, main_v26, main_v27, main_c_6, main_v28, main_v29, main_c_7, main_v30, main_v31, main_v32, main_v33, main_v34, main_v35, main_v36, main_v37, main_cst_8, main_v38, main_v39, main_v40, main_v41, main_v42, main_v43, main_call1_cst, main_call1_v0, main_v44, main_cst_9, main_v45, main_cst_10, main_v46]
private theorem w1 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops1_writes : (ops1 : List (HloOp τ sig (Elt Ideal))).Forall fun op => op.writes ⊆ (ops1_W.map (Proc.devRef (τ := τ) .tc)).toFinset := by
  simp only [List.Forall]; exact ⟨w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide), w1 (by decide)⟩

theorem keep1 (V : Valuation τ sig (Elt Ideal)) (r : Ref sig .tc) (h : r ∉ ops1_W) :
    after (ops1 (F := Ideal)) V (Proc.devRef .tc r) = V (Proc.devRef .tc r) :=
  after_of_writes_sub ops1 _ ops1_writes h

theorem opeq_main_call1_cst : (TRef.nullary (TRef.of (T := ⟨S_, .f32⟩) main_call1_cst) (constant (F := Ideal) S_ .f32 0x00000000#32) : HloOp τ sig (Elt Ideal)) =
    nullary main_call1_cst (((constant (F := Ideal) S_ .f32 0x00000000#32)) : (⟨S_, .f32⟩ : BufTy).Contents (Elt Ideal)) := rfl
theorem opeq_main_call1_v0 : (TRef.unary (TRef.of (T := ⟨S_, .f32⟩) main_call1_cst) (TRef.of (T := ⟨S100000x128, .f32⟩) main_call1_v0) (broadcastInDim S100000x128 ![] bcast_S_S100000x128) : HloOp τ sig (Elt Ideal)) =
    unary main_call1_cst main_call1_v0 (((broadcastInDim S100000x128 ![] bcast_S_S100000x128)) : (⟨S_, .f32⟩ : BufTy).Contents (Elt Ideal) → (⟨S100000x128, .f32⟩ : BufTy).Contents (Elt Ideal)) := rfl
theorem opeq_main_v44 : (TRef.binary (TRef.of (T := ⟨S100000x128, .f32⟩) main_v43) (TRef.of (T := ⟨S100000x128, .f32⟩) main_call1_v0) (TRef.of (T := ⟨S100000x128, .f32⟩) main_v44) (maximumf (F := Ideal) (φ := .f32)) : HloOp τ sig (Elt Ideal)) =
    binary main_v43 main_call1_v0 main_v44 ((maximumf (F := Ideal) (φ := .f32)) : (⟨S100000x128, .f32⟩ : BufTy).Contents (Elt Ideal) → (⟨S100000x128, .f32⟩ : BufTy).Contents (Elt Ideal) → (⟨S100000x128, .f32⟩ : BufTy).Contents (Elt Ideal)) := rfl

set_option maxHeartbeats 2000000 in
theorem c1_main_v44 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal))
    (h_main_arg4 : V (Proc.devRef .tc main_arg4) = x4)
    (h_main_v1 : V (Proc.devRef .tc main_v1) = val_main_v1 (F := Ideal) x1)
    (h_main_v3 : V (Proc.devRef .tc main_v3) = val_main_v3 (F := Ideal) x1)
    (h_main_v4 : V (Proc.devRef .tc main_v4) = val_main_v4 (F := Ideal) x0 x3)
    (h_main_v12 : V (Proc.devRef .tc main_v12) = val_main_v12 (F := Ideal) x1)
    (h_main_v19 : V (Proc.devRef .tc main_v19) = val_main_v19 (F := Ideal) x1)
    (h_main_v21 : V (Proc.devRef .tc main_v21) = val_main_v21 (F := Ideal) x1)
    (h_main_c_5 : V (Proc.devRef .tc main_c_5) = val_main_c_5 (F := Ideal))
    : after (ops1 (F := Ideal)) V (Proc.devRef .tc main_v44) = val_main_v44 (F := Ideal) x0 x1 x3 x4 := by
  simp only [ops1]
  simp only [opeq_main_call1_cst, opeq_main_call1_v0, opeq_main_v44]
  after_results_simp
  rw [h_main_arg4, h_main_v1, h_main_v3, h_main_v4, h_main_v12, h_main_v19, h_main_v21, h_main_c_5]
  unfold val_main_v44 val_main_call1_v0 val_main_call1_cst val_main_v43 val_main_v42 val_main_v41 val_main_v40 val_main_v39 val_main_v38 val_main_cst_8 val_main_v37 val_main_v36 val_main_v35 val_main_v34 val_main_v33 val_main_v32 val_main_v31 val_main_v30 val_main_c_7 val_main_v29 val_main_v28 val_main_c_6 val_main_v27 val_main_v26 val_main_v25 val_main_v24 val_main_v23 val_main_v22
  first | with_reducible rfl | rfl

set_option maxHeartbeats 2000000 in
theorem c1_main_v45 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal))
    (h_main_arg4 : V (Proc.devRef .tc main_arg4) = x4)
    (h_main_v1 : V (Proc.devRef .tc main_v1) = val_main_v1 (F := Ideal) x1)
    (h_main_v3 : V (Proc.devRef .tc main_v3) = val_main_v3 (F := Ideal) x1)
    (h_main_v4 : V (Proc.devRef .tc main_v4) = val_main_v4 (F := Ideal) x0 x3)
    (h_main_v12 : V (Proc.devRef .tc main_v12) = val_main_v12 (F := Ideal) x1)
    (h_main_v19 : V (Proc.devRef .tc main_v19) = val_main_v19 (F := Ideal) x1)
    (h_main_v21 : V (Proc.devRef .tc main_v21) = val_main_v21 (F := Ideal) x1)
    (h_main_c_5 : V (Proc.devRef .tc main_c_5) = val_main_c_5 (F := Ideal))
    : after (ops1 (F := Ideal)) V (Proc.devRef .tc main_v45) = val_main_v45 (F := Ideal) x0 x1 x3 x4 := by
  simp only [ops1]
  simp only [opeq_main_call1_cst, opeq_main_call1_v0, opeq_main_v44]
  after_results_simp
  rw [h_main_arg4, h_main_v1, h_main_v3, h_main_v4, h_main_v12, h_main_v19, h_main_v21, h_main_c_5]
  unfold val_main_v45 val_main_cst_9 val_main_v44 val_main_call1_v0 val_main_call1_cst val_main_v43 val_main_v42 val_main_v41 val_main_v40 val_main_v39 val_main_v38 val_main_cst_8 val_main_v37 val_main_v36 val_main_v35 val_main_v34 val_main_v33 val_main_v32 val_main_v31 val_main_v30 val_main_c_7 val_main_v29 val_main_v28 val_main_c_6 val_main_v27 val_main_v26 val_main_v25 val_main_v24 val_main_v23 val_main_v22
  first | with_reducible rfl | rfl

set_option maxHeartbeats 2000000 in
theorem c1_main_v46 (V : Valuation τ sig (Elt Ideal))
    : after (ops1 (F := Ideal)) V (Proc.devRef .tc main_v46) = val_main_v46 (F := Ideal) := by
  simp only [ops1]
  after_results_simp
  unfold val_main_v46 val_main_cst_10
  first | with_reducible rfl | rfl

end Cert.ReferenceIdeal.RefChain

end
-- ==== Proof.RefChunk2.lean ====
-- Operations 65 to 95 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops2_W : List (Ref sig .tc) := [main_v47, main_v48, main_v49, main_v50, main_v51, main_cst_11, main_v52, main_cst_12, main_v53, main_v54, main_v55, main_v56, main_v57, main_v58, main_v59, main_v60, main_cst_13, main_v61, main_v62, main_v63, main_v64, main_v65, main_v66, main_v67, main_v68, main_v69, main_v70, main_cst_14, main_v71, main_cst_15, main_v72]
private theorem w2 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops2_writes : (ops2 : List (HloOp τ sig (Elt Ideal))).Forall fun op => op.writes ⊆ (ops2_W.map (Proc.devRef (τ := τ) .tc)).toFinset := by
  simp only [List.Forall]; exact ⟨w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide), w2 (by decide)⟩

theorem keep2 (V : Valuation τ sig (Elt Ideal)) (r : Ref sig .tc) (h : r ∉ ops2_W) :
    after (ops2 (F := Ideal)) V (Proc.devRef .tc r) = V (Proc.devRef .tc r) :=
  after_of_writes_sub ops2 _ ops2_writes h

set_option maxHeartbeats 2000000 in
theorem c2_main_v70 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x7 x8 : (⟨S128, .f32⟩ : BufTy).Contents (Elt Ideal))
    (h_main_arg5 : V (Proc.devRef .tc main_arg5) = x5)
    (h_main_arg7 : V (Proc.devRef .tc main_arg7) = x7)
    (h_main_arg8 : V (Proc.devRef .tc main_arg8) = x8)
    (h_main_v44 : V (Proc.devRef .tc main_v44) = val_main_v44 (F := Ideal) x0 x1 x3 x4)
    (h_main_v45 : V (Proc.devRef .tc main_v45) = val_main_v45 (F := Ideal) x0 x1 x3 x4)
    (h_main_v46 : V (Proc.devRef .tc main_v46) = val_main_v46 (F := Ideal))
    : after (ops2 (F := Ideal)) V (Proc.devRef .tc main_v70) = val_main_v70 (F := Ideal) x0 x1 x3 x4 x5 x7 x8 := by
  simp only [ops2]
  after_results_simp
  rw [h_main_arg5, h_main_arg7, h_main_arg8, h_main_v44, h_main_v45, h_main_v46]
  unfold val_main_v70 val_main_v69 val_main_v68 val_main_v67 val_main_v66 val_main_v65 val_main_v64 val_main_v63 val_main_v62 val_main_v61 val_main_cst_13 val_main_v60 val_main_v59 val_main_v58 val_main_v57 val_main_v56 val_main_v55 val_main_v54 val_main_v53 val_main_cst_12 val_main_v52 val_main_cst_11 val_main_v51 val_main_v50 val_main_v49 val_main_v48 val_main_v47
  first | with_reducible rfl | rfl

set_option maxHeartbeats 2000000 in
theorem c2_main_v71 (V : Valuation τ sig (Elt Ideal))
    : after (ops2 (F := Ideal)) V (Proc.devRef .tc main_v71) = val_main_v71 (F := Ideal) := by
  simp only [ops2]
  after_results_simp
  unfold val_main_v71 val_main_cst_14
  first | with_reducible rfl | rfl

set_option maxHeartbeats 2000000 in
theorem c2_main_v72 (V : Valuation τ sig (Elt Ideal))
    : after (ops2 (F := Ideal)) V (Proc.devRef .tc main_v72) = val_main_v72 (F := Ideal) := by
  simp only [ops2]
  after_results_simp
  unfold val_main_v72 val_main_cst_15
  first | with_reducible rfl | rfl

end Cert.ReferenceIdeal.RefChain

end
-- ==== Proof.RefChunk3.lean ====
-- Operations 96 to 126 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops3_W : List (Ref sig .tc) := [main_v73, main_v74, main_cst_16, main_v75, main_v76, main_v77, main_cst_17, main_call2_v0, main_call2_v1, main_v78, main_c_18, main_v79, main_v80, main_c_19, main_v81, main_v82, main_v83, main_v84, main_v85, main_c_20, main_v86, main_v87, main_c_21, main_v88, main_v89, main_v90, main_v91, main_v92, main_v93, main_c_22, main_v94]
private theorem w3 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops3_writes : (ops3 : List (HloOp τ sig (Elt Ideal))).Forall fun op => op.writes ⊆ (ops3_W.map (Proc.devRef (τ := τ) .tc)).toFinset := by
  simp only [List.Forall]; exact ⟨w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide), w3 (by decide)⟩

theorem keep3 (V : Valuation τ sig (Elt Ideal)) (r : Ref sig .tc) (h : r ∉ ops3_W) :
    after (ops3 (F := Ideal)) V (Proc.devRef .tc r) = V (Proc.devRef .tc r) :=
  after_of_writes_sub ops3 _ ops3_writes h

theorem opeq_main_call2_v0 : (TRef.unary (TRef.of (T := ⟨S_, .f32⟩) main_cst_17) (TRef.of (T := ⟨S_, .f32⟩) main_call2_v0) id : HloOp τ sig (Elt Ideal)) =
    unary main_cst_17 main_call2_v0 ((id) : (⟨S_, .f32⟩ : BufTy).Contents (Elt Ideal) → (⟨S_, .f32⟩ : BufTy).Contents (Elt Ideal)) := rfl
theorem opeq_main_call2_v1 : (TRef.unary (TRef.of (T := ⟨S_, .f32⟩) main_call2_v0) (TRef.of (T := ⟨S100000, .f32⟩) main_call2_v1) (broadcastInDim S100000 ![] bcast_S_S100000) : HloOp τ sig (Elt Ideal)) =
    unary main_call2_v0 main_call2_v1 (((broadcastInDim S100000 ![] bcast_S_S100000)) : (⟨S_, .f32⟩ : BufTy).Contents (Elt Ideal) → (⟨S100000, .f32⟩ : BufTy).Contents (Elt Ideal)) := rfl
theorem opeq_main_v78 : (TRef.ternary (TRef.of (T := ⟨S100000, .i1⟩) main_v76) (TRef.of (T := ⟨S100000, .f32⟩) main_v77) (TRef.of (T := ⟨S100000, .f32⟩) main_call2_v1) (TRef.of (T := ⟨S100000, .f32⟩) main_v78) select : HloOp τ sig (Elt Ideal)) =
    ternary main_v76 main_v77 main_call2_v1 main_v78 ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) := rfl

set_option maxHeartbeats 2000000 in
theorem c3_main_v93 (V : Valuation τ sig (Elt Ideal)) (x1 : (⟨S2x1000000, .i32⟩ : BufTy).Contents (Elt Ideal))
    (h_main_v1 : V (Proc.devRef .tc main_v1) = val_main_v1 (F := Ideal) x1)
    (h_main_v3 : V (Proc.devRef .tc main_v3) = val_main_v3 (F := Ideal) x1)
    (h_main_v71 : V (Proc.devRef .tc main_v71) = val_main_v71 (F := Ideal))
    (h_main_v72 : V (Proc.devRef .tc main_v72) = val_main_v72 (F := Ideal))
    : after (ops3 (F := Ideal)) V (Proc.devRef .tc main_v93) = val_main_v93 (F := Ideal) x1 := by
  simp only [ops3]
  simp only [opeq_main_call2_v0, opeq_main_call2_v1, opeq_main_v78]
  after_results_simp
  rw [h_main_v1, h_main_v3, h_main_v71, h_main_v72]
  unfold val_main_v93 val_main_v92 val_main_v91 val_main_v90 val_main_v89 val_main_v88 val_main_c_21 val_main_v87 val_main_v86 val_main_c_20 val_main_v85 val_main_v84 val_main_v83 val_main_v82 val_main_v81 val_main_c_19 val_main_v80 val_main_v79 val_main_c_18 val_main_v78 val_main_call2_v1 val_main_call2_v0 val_main_cst_17 val_main_v77 val_main_v76 val_main_v75 val_main_cst_16 val_main_v74 val_main_v73
  first | with_reducible rfl | rfl

set_option maxHeartbeats 2000000 in
theorem c3_main_v94 (V : Valuation τ sig (Elt Ideal))
    : after (ops3 (F := Ideal)) V (Proc.devRef .tc main_v94) = val_main_v94 (F := Ideal) := by
  simp only [ops3]
  after_results_simp
  unfold val_main_v94 val_main_c_22
  first | with_reducible rfl | rfl

end Cert.ReferenceIdeal.RefChain

end
-- ==== Proof.RefChunk4.lean ====
-- Operations 127 to 156 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops4_W : List (Ref sig .tc) := [main_v95, main_c_23, main_v96, main_v97, main_v98, main_v99, main_v100, main_v101, main_v102, main_v103, main_cst_24, main_v104, main_v105, main_v106, main_v107, main_v108, main_v109, main_cst_25, main_v110, main_cst_26, main_v111, main_v112, main_v113, main_v114, main_v115, main_v116, main_cst_27, main_v117, main_cst_28, main_v118]
private theorem w4 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops4_writes : (ops4 : List (HloOp τ sig (Elt Ideal))).Forall fun op => op.writes ⊆ (ops4_W.map (Proc.devRef (τ := τ) .tc)).toFinset := by
  simp only [List.Forall]; exact ⟨w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide), w4 (by decide)⟩

theorem keep4 (V : Valuation τ sig (Elt Ideal)) (r : Ref sig .tc) (h : r ∉ ops4_W) :
    after (ops4 (F := Ideal)) V (Proc.devRef .tc r) = V (Proc.devRef .tc r) :=
  after_of_writes_sub ops4 _ ops4_writes h

set_option maxHeartbeats 2000000 in
theorem c4_main_v109 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (h_main_arg6 : V (Proc.devRef .tc main_arg6) = x6)
    (h_main_v1 : V (Proc.devRef .tc main_v1) = val_main_v1 (F := Ideal) x1)
    (h_main_v3 : V (Proc.devRef .tc main_v3) = val_main_v3 (F := Ideal) x1)
    (h_main_v70 : V (Proc.devRef .tc main_v70) = val_main_v70 (F := Ideal) x0 x1 x3 x4 x5 x7 x8)
    (h_main_v93 : V (Proc.devRef .tc main_v93) = val_main_v93 (F := Ideal) x1)
    (h_main_v94 : V (Proc.devRef .tc main_v94) = val_main_v94 (F := Ideal))
    : after (ops4 (F := Ideal)) V (Proc.devRef .tc main_v109) = val_main_v109 (F := Ideal) x0 x1 x3 x4 x5 x6 x7 x8 := by
  simp only [ops4]
  after_results_simp
  rw [h_main_arg6, h_main_v1, h_main_v3, h_main_v70, h_main_v93, h_main_v94]
  unfold val_main_v109 val_main_v108 val_main_v107 val_main_v106 val_main_v105 val_main_v104 val_main_cst_24 val_main_v103 val_main_v102 val_main_v101 val_main_v100 val_main_v99 val_main_v98 val_main_v97 val_main_v96 val_main_c_23 val_main_v95
  first | with_reducible rfl | rfl

set_option maxHeartbeats 2000000 in
theorem c4_main_v112 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (h_main_arg6 : V (Proc.devRef .tc main_arg6) = x6)
    (h_main_v1 : V (Proc.devRef .tc main_v1) = val_main_v1 (F := Ideal) x1)
    (h_main_v3 : V (Proc.devRef .tc main_v3) = val_main_v3 (F := Ideal) x1)
    (h_main_v70 : V (Proc.devRef .tc main_v70) = val_main_v70 (F := Ideal) x0 x1 x3 x4 x5 x7 x8)
    (h_main_v93 : V (Proc.devRef .tc main_v93) = val_main_v93 (F := Ideal) x1)
    (h_main_v94 : V (Proc.devRef .tc main_v94) = val_main_v94 (F := Ideal))
    : after (ops4 (F := Ideal)) V (Proc.devRef .tc main_v112) = val_main_v112 (F := Ideal) x0 x1 x3 x4 x5 x6 x7 x8 := by
  simp only [ops4]
  after_results_simp
  rw [h_main_arg6, h_main_v1, h_main_v3, h_main_v70, h_main_v93, h_main_v94]
  unfold val_main_v112 val_main_v111 val_main_cst_26 val_main_v110 val_main_cst_25 val_main_v109 val_main_v108 val_main_v107 val_main_v106 val_main_v105 val_main_v104 val_main_cst_24 val_main_v103 val_main_v102 val_main_v101 val_main_v100 val_main_v99 val_main_v98 val_main_v97 val_main_v96 val_main_c_23 val_main_v95
  first | with_reducible rfl | rfl

set_option maxHeartbeats 2000000 in
theorem c4_main_v117 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (h_main_arg6 : V (Proc.devRef .tc main_arg6) = x6)
    (h_main_v1 : V (Proc.devRef .tc main_v1) = val_main_v1 (F := Ideal) x1)
    (h_main_v3 : V (Proc.devRef .tc main_v3) = val_main_v3 (F := Ideal) x1)
    (h_main_v70 : V (Proc.devRef .tc main_v70) = val_main_v70 (F := Ideal) x0 x1 x3 x4 x5 x7 x8)
    (h_main_v93 : V (Proc.devRef .tc main_v93) = val_main_v93 (F := Ideal) x1)
    (h_main_v94 : V (Proc.devRef .tc main_v94) = val_main_v94 (F := Ideal))
    : after (ops4 (F := Ideal)) V (Proc.devRef .tc main_v117) = val_main_v117 (F := Ideal) x0 x1 x3 x4 x5 x6 x7 x8 := by
  simp only [ops4]
  after_results_simp
  rw [h_main_arg6, h_main_v1, h_main_v3, h_main_v70, h_main_v93, h_main_v94]
  unfold val_main_v117 val_main_cst_27 val_main_v116 val_main_v115 val_main_v114 val_main_v113 val_main_v112 val_main_v111 val_main_cst_26 val_main_v110 val_main_cst_25 val_main_v109 val_main_v108 val_main_v107 val_main_v106 val_main_v105 val_main_v104 val_main_cst_24 val_main_v103 val_main_v102 val_main_v101 val_main_v100 val_main_v99 val_main_v98 val_main_v97 val_main_v96 val_main_c_23 val_main_v95
  first | with_reducible rfl | rfl

set_option maxHeartbeats 2000000 in
theorem c4_main_v118 (V : Valuation τ sig (Elt Ideal))
    : after (ops4 (F := Ideal)) V (Proc.devRef .tc main_v118) = val_main_v118 (F := Ideal) := by
  simp only [ops4]
  after_results_simp
  unfold val_main_v118 val_main_cst_28
  first | with_reducible rfl | rfl

end Cert.ReferenceIdeal.RefChain

end
-- ==== Proof.RefChunk5.lean ====
-- Operations 157 to 186 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops5_W : List (Ref sig .tc) := [main_v119, main_v120, main_v121, main_v122, main_v123, main_v124, main_v125, main_cst_29, main_v126, main_v127, main_v128, main_v129, main_v130, main_v131, main_v132, main_v133, main_v134, main_v135, main_v136, main_v137, main_v138, main_v139, main_cst_30, main_v140, main_cst_31, main_v141, main_v142, main_v143, main_cst_32, main_v144]
private theorem w5 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops5_writes : (ops5 : List (HloOp τ sig (Elt Ideal))).Forall fun op => op.writes ⊆ (ops5_W.map (Proc.devRef (τ := τ) .tc)).toFinset := by
  simp only [List.Forall]; exact ⟨w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide), w5 (by decide)⟩

theorem keep5 (V : Valuation τ sig (Elt Ideal)) (r : Ref sig .tc) (h : r ∉ ops5_W) :
    after (ops5 (F := Ideal)) V (Proc.devRef .tc r) = V (Proc.devRef .tc r) :=
  after_of_writes_sub ops5 _ ops5_writes h

set_option maxHeartbeats 2000000 in
theorem c5_main_v134 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 x9 x10 : (⟨S128, .f32⟩ : BufTy).Contents (Elt Ideal))
    (h_main_arg9 : V (Proc.devRef .tc main_arg9) = x9)
    (h_main_arg10 : V (Proc.devRef .tc main_arg10) = x10)
    (h_main_v109 : V (Proc.devRef .tc main_v109) = val_main_v109 (F := Ideal) x0 x1 x3 x4 x5 x6 x7 x8)
    (h_main_v112 : V (Proc.devRef .tc main_v112) = val_main_v112 (F := Ideal) x0 x1 x3 x4 x5 x6 x7 x8)
    (h_main_v117 : V (Proc.devRef .tc main_v117) = val_main_v117 (F := Ideal) x0 x1 x3 x4 x5 x6 x7 x8)
    (h_main_v118 : V (Proc.devRef .tc main_v118) = val_main_v118 (F := Ideal))
    : after (ops5 (F := Ideal)) V (Proc.devRef .tc main_v134) = val_main_v134 (F := Ideal) x0 x1 x3 x4 x5 x6 x7 x8 x9 x10 := by
  simp only [ops5]
  after_results_simp
  rw [h_main_arg9, h_main_arg10, h_main_v109, h_main_v112, h_main_v117, h_main_v118]
  unfold val_main_v134 val_main_v133 val_main_v132 val_main_v131 val_main_v130 val_main_v129 val_main_v128 val_main_v127 val_main_v126 val_main_cst_29 val_main_v125 val_main_v124 val_main_v123 val_main_v122 val_main_v121 val_main_v120 val_main_v119
  first | with_reducible rfl | rfl

set_option maxHeartbeats 2000000 in
theorem c5_main_v136 (V : Valuation τ sig (Elt Ideal)) (x2 : (⟨S2x1000000, .i32⟩ : BufTy).Contents (Elt Ideal))
    (h_main_arg2 : V (Proc.devRef .tc main_arg2) = x2)
    : after (ops5 (F := Ideal)) V (Proc.devRef .tc main_v136) = val_main_v136 (F := Ideal) x2 := by
  simp only [ops5]
  after_results_simp
  rw [h_main_arg2]
  unfold val_main_v136 val_main_v135
  first | with_reducible rfl | rfl

set_option maxHeartbeats 2000000 in
theorem c5_main_v138 (V : Valuation τ sig (Elt Ideal)) (x2 : (⟨S2x1000000, .i32⟩ : BufTy).Contents (Elt Ideal))
    (h_main_arg2 : V (Proc.devRef .tc main_arg2) = x2)
    : after (ops5 (F := Ideal)) V (Proc.devRef .tc main_v138) = val_main_v138 (F := Ideal) x2 := by
  simp only [ops5]
  after_results_simp
  rw [h_main_arg2]
  unfold val_main_v138 val_main_v137
  first | with_reducible rfl | rfl

set_option maxHeartbeats 2000000 in
theorem c5_main_v139 (V : Valuation τ sig (Elt Ideal)) (x0 : (⟨S100000x256, .f32⟩ : BufTy).Contents (Elt Ideal)) (x11 : (⟨S256x128, .f32⟩ : BufTy).Contents (Elt Ideal))
    (h_main_arg0 : V (Proc.devRef .tc main_arg0) = x0)
    (h_main_arg11 : V (Proc.devRef .tc main_arg11) = x11)
    : after (ops5 (F := Ideal)) V (Proc.devRef .tc main_v139) = val_main_v139 (F := Ideal) x0 x11 := by
  simp only [ops5]
  after_results_simp
  rw [h_main_arg0, h_main_arg11]
  unfold val_main_v139
  first | with_reducible rfl | rfl

set_option maxHeartbeats 2000000 in
theorem c5_main_v143 (V : Valuation τ sig (Elt Ideal)) (x2 : (⟨S2x1000000, .i32⟩ : BufTy).Contents (Elt Ideal))
    (h_main_arg2 : V (Proc.devRef .tc main_arg2) = x2)
    : after (ops5 (F := Ideal)) V (Proc.devRef .tc main_v143) = val_main_v143 (F := Ideal) x2 := by
  simp only [ops5]
  after_results_simp
  rw [h_main_arg2]
  unfold val_main_v143 val_main_v142 val_main_v141 val_main_cst_31 val_main_v140 val_main_cst_30 val_main_v138 val_main_v137
  first | with_reducible rfl | rfl

set_option maxHeartbeats 2000000 in
theorem c5_main_v144 (V : Valuation τ sig (Elt Ideal))
    : after (ops5 (F := Ideal)) V (Proc.devRef .tc main_v144) = val_main_v144 (F := Ideal) := by
  simp only [ops5]
  after_results_simp
  unfold val_main_v144 val_main_cst_32
  first | with_reducible rfl | rfl

end Cert.ReferenceIdeal.RefChain

end
-- ==== Proof.RefChunk6.lean ====
-- Operations 187 to 218 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops6_W : List (Ref sig .tc) := [main_v145, main_v146, main_cst_33, main_call3_v0, main_call3_v1, main_v147, main_c_34, main_v148, main_v149, main_c_35, main_v150, main_v151, main_v152, main_v153, main_v154, main_c_36, main_v155, main_v156, main_c_37, main_v157, main_v158, main_v159, main_v160, main_v161, main_v162, main_c_38, main_v163, main_v164, main_c_39, main_v165, main_v166, main_v167]
private theorem w6 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops6_writes : (ops6 : List (HloOp τ sig (Elt Ideal))).Forall fun op => op.writes ⊆ (ops6_W.map (Proc.devRef (τ := τ) .tc)).toFinset := by
  simp only [List.Forall]; exact ⟨w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide), w6 (by decide)⟩

theorem keep6 (V : Valuation τ sig (Elt Ideal)) (r : Ref sig .tc) (h : r ∉ ops6_W) :
    after (ops6 (F := Ideal)) V (Proc.devRef .tc r) = V (Proc.devRef .tc r) :=
  after_of_writes_sub ops6 _ ops6_writes h

theorem opeq_main_call3_v0 : (TRef.unary (TRef.of (T := ⟨S_, .f32⟩) main_cst_33) (TRef.of (T := ⟨S_, .f32⟩) main_call3_v0) id : HloOp τ sig (Elt Ideal)) =
    unary main_cst_33 main_call3_v0 ((id) : (⟨S_, .f32⟩ : BufTy).Contents (Elt Ideal) → (⟨S_, .f32⟩ : BufTy).Contents (Elt Ideal)) := rfl
theorem opeq_main_call3_v1 : (TRef.unary (TRef.of (T := ⟨S_, .f32⟩) main_call3_v0) (TRef.of (T := ⟨S100000, .f32⟩) main_call3_v1) (broadcastInDim S100000 ![] bcast_S_S100000) : HloOp τ sig (Elt Ideal)) =
    unary main_call3_v0 main_call3_v1 (((broadcastInDim S100000 ![] bcast_S_S100000)) : (⟨S_, .f32⟩ : BufTy).Contents (Elt Ideal) → (⟨S100000, .f32⟩ : BufTy).Contents (Elt Ideal)) := rfl
theorem opeq_main_v147 : (TRef.ternary (TRef.of (T := ⟨S100000, .i1⟩) main_v145) (TRef.of (T := ⟨S100000, .f32⟩) main_v146) (TRef.of (T := ⟨S100000, .f32⟩) main_call3_v1) (TRef.of (T := ⟨S100000, .f32⟩) main_v147) select : HloOp τ sig (Elt Ideal)) =
    ternary main_v145 main_v146 main_call3_v1 main_v147 ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) := rfl

set_option maxHeartbeats 2000000 in
theorem c6_main_v162 (V : Valuation τ sig (Elt Ideal)) (x2 : (⟨S2x1000000, .i32⟩ : BufTy).Contents (Elt Ideal))
    (h_main_v136 : V (Proc.devRef .tc main_v136) = val_main_v136 (F := Ideal) x2)
    (h_main_v138 : V (Proc.devRef .tc main_v138) = val_main_v138 (F := Ideal) x2)
    (h_main_v143 : V (Proc.devRef .tc main_v143) = val_main_v143 (F := Ideal) x2)
    (h_main_v144 : V (Proc.devRef .tc main_v144) = val_main_v144 (F := Ideal))
    : after (ops6 (F := Ideal)) V (Proc.devRef .tc main_v162) = val_main_v162 (F := Ideal) x2 := by
  simp only [ops6]
  simp only [opeq_main_call3_v0, opeq_main_call3_v1, opeq_main_v147]
  after_results_simp
  rw [h_main_v136, h_main_v138, h_main_v143, h_main_v144]
  unfold val_main_v162 val_main_v161 val_main_v160 val_main_v159 val_main_v158 val_main_v157 val_main_c_37 val_main_v156 val_main_v155 val_main_c_36 val_main_v154 val_main_v153 val_main_v152 val_main_v151 val_main_v150 val_main_c_35 val_main_v149 val_main_v148 val_main_c_34 val_main_v147 val_main_call3_v1 val_main_call3_v0 val_main_cst_33 val_main_v146 val_main_v145
  first | with_reducible rfl | rfl

set_option maxHeartbeats 2000000 in
theorem c6_main_v167 (V : Valuation τ sig (Elt Ideal)) (x2 : (⟨S2x1000000, .i32⟩ : BufTy).Contents (Elt Ideal))
    (h_main_v136 : V (Proc.devRef .tc main_v136) = val_main_v136 (F := Ideal) x2)
    : after (ops6 (F := Ideal)) V (Proc.devRef .tc main_v167) = val_main_v167 (F := Ideal) x2 := by
  simp only [ops6]
  after_results_simp
  rw [h_main_v136]
  unfold val_main_v167 val_main_v166 val_main_v165 val_main_c_39 val_main_v164 val_main_v163 val_main_c_38
  first | with_reducible rfl | rfl

end Cert.ReferenceIdeal.RefChain

end
-- ==== Proof.RefChunk7.lean ====
-- Operations 219 to 250 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops7_W : List (Ref sig .tc) := [main_v168, main_v169, main_v170, main_v171, main_v172, main_cst_40, main_v173, main_v174, main_v175, main_v176, main_v177, main_v178, main_call4_cst, main_call4_v0, main_v179, main_cst_41, main_v180, main_cst_42, main_v181, main_v182, main_v183, main_v184, main_v185, main_v186, main_cst_43, main_v187, main_cst_44, main_v188, main_v189, main_v190, main_v191, main_v192]

private theorem w7 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops7_writes : (ops7 : List (HloOp τ sig (Elt Ideal))).Forall fun op => op.writes ⊆ (ops7_W.map (Proc.devRef (τ := τ) .tc)).toFinset :=
  ⟨w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide), w7 (by decide)⟩

theorem keep7 (V : Valuation τ sig (Elt Ideal)) (r : Ref sig .tc) (h : r ∉ ops7_W) :
    after (ops7 (F := Ideal)) V (Proc.devRef .tc r) = V (Proc.devRef .tc r) :=
  after_of_writes_sub ops7 _ ops7_writes h

private theorem toBuf_self7 {Val : EltTy → Type} (r : Ref sig .tc) (hd) (hs) (v : r.ty.Contents Val) :
    (TRef.of (T := r.ty) r rfl hd hs).toBuf v = v := rfl
private theorem ofBuf_self7 {Val : EltTy → Type} (r : Ref sig .tc) (hd) (hs) (v : r.ty.Contents Val) :
    (TRef.of (T := r.ty) r rfl hd hs).ofBuf v = v := rfl

set_option maxHeartbeats 1000000 in
theorem c7_main_v189 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal))
    (h_main_arg12 : V (Proc.devRef .tc main_arg12) = x12)
    (h_main_v138 : V (Proc.devRef .tc main_v138) = val_main_v138 (F := Ideal) x2)
    (h_main_v139 : V (Proc.devRef .tc main_v139) = val_main_v139 (F := Ideal) x0 x11)
    (h_main_v162 : V (Proc.devRef .tc main_v162) = val_main_v162 (F := Ideal) x2)
    (h_main_v167 : V (Proc.devRef .tc main_v167) = val_main_v167 (F := Ideal) x2)
    : after (ops7 (F := Ideal)) V (Proc.devRef .tc main_v189) = val_main_v189 (F := Ideal) x0 x2 x11 x12 := by
  after_results_simp
  rw [h_main_arg12, h_main_v138, h_main_v139, h_main_v162, h_main_v167]
  unfold val_main_v189 val_main_v188 val_main_cst_44 val_main_v187 val_main_cst_43 val_main_v186 val_main_v185 val_main_v184 val_main_v183 val_main_v182 val_main_v181 val_main_cst_42 val_main_v180 val_main_cst_41 val_main_v179 val_main_call4_v0 val_main_call4_cst val_main_v178 val_main_v177 val_main_v176 val_main_v175 val_main_v174 val_main_v173 val_main_cst_40 val_main_v172 val_main_v171 val_main_v170 val_main_v169 val_main_v168
  repeat (first | rewrite [toBuf_self7] | rewrite [ofBuf_self7])
  rfl

set_option maxHeartbeats 1000000 in
theorem c7_main_v192 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal))
    (h_main_arg12 : V (Proc.devRef .tc main_arg12) = x12)
    (h_main_v138 : V (Proc.devRef .tc main_v138) = val_main_v138 (F := Ideal) x2)
    (h_main_v139 : V (Proc.devRef .tc main_v139) = val_main_v139 (F := Ideal) x0 x11)
    (h_main_v162 : V (Proc.devRef .tc main_v162) = val_main_v162 (F := Ideal) x2)
    (h_main_v167 : V (Proc.devRef .tc main_v167) = val_main_v167 (F := Ideal) x2)
    : after (ops7 (F := Ideal)) V (Proc.devRef .tc main_v192) = val_main_v192 (F := Ideal) x0 x2 x11 x12 := by
  after_results_simp
  rw [h_main_arg12, h_main_v138, h_main_v139, h_main_v162, h_main_v167]
  unfold val_main_v192 val_main_v191 val_main_v190 val_main_v182 val_main_v181 val_main_cst_42 val_main_v180 val_main_cst_41 val_main_v179 val_main_call4_v0 val_main_call4_cst val_main_v178 val_main_v177 val_main_v176 val_main_v175 val_main_v174 val_main_v173 val_main_cst_40 val_main_v172 val_main_v171 val_main_v170 val_main_v169 val_main_v168
  repeat (first | rewrite [toBuf_self7] | rewrite [ofBuf_self7])
  rfl

end Cert.ReferenceIdeal.RefChain

end
-- ==== Proof.RefChunk8.lean ====
-- Operations 251 to 281 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops8_W : List (Ref sig .tc) := [main_v193, main_v194, main_v195, main_cst_45, main_v196, main_v197, main_v198, main_v199, main_v200, main_v201, main_v202, main_v203, main_v204, main_v205, main_cst_46, main_v206, main_cst_47, main_v207, main_v208, main_v209, main_cst_48, main_v210, main_v211, main_v212, main_cst_49, main_call5_v0, main_call5_v1, main_v213, main_c_50, main_v214, main_v215]

private theorem w8 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops8_writes : (ops8 : List (HloOp τ sig (Elt Ideal))).Forall fun op => op.writes ⊆ (ops8_W.map (Proc.devRef (τ := τ) .tc)).toFinset :=
  ⟨w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide), w8 (by decide)⟩

theorem keep8 (V : Valuation τ sig (Elt Ideal)) (r : Ref sig .tc) (h : r ∉ ops8_W) :
    after (ops8 (F := Ideal)) V (Proc.devRef .tc r) = V (Proc.devRef .tc r) :=
  after_of_writes_sub ops8 _ ops8_writes h

private theorem toBuf_self8 {Val : EltTy → Type} (r : Ref sig .tc) (hd) (hs) (v : r.ty.Contents Val) :
    (TRef.of (T := r.ty) r rfl hd hs).toBuf v = v := rfl
private theorem ofBuf_self8 {Val : EltTy → Type} (r : Ref sig .tc) (hd) (hs) (v : r.ty.Contents Val) :
    (TRef.of (T := r.ty) r rfl hd hs).ofBuf v = v := rfl

set_option maxHeartbeats 1000000 in
theorem c8_main_v205 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x15 x16 : (⟨S128, .f32⟩ : BufTy).Contents (Elt Ideal))
    (h_main_arg13 : V (Proc.devRef .tc main_arg13) = x13)
    (h_main_arg15 : V (Proc.devRef .tc main_arg15) = x15)
    (h_main_arg16 : V (Proc.devRef .tc main_arg16) = x16)
    (h_main_v189 : V (Proc.devRef .tc main_v189) = val_main_v189 (F := Ideal) x0 x2 x11 x12)
    (h_main_v192 : V (Proc.devRef .tc main_v192) = val_main_v192 (F := Ideal) x0 x2 x11 x12)
    : after (ops8 (F := Ideal)) V (Proc.devRef .tc main_v205) = val_main_v205 (F := Ideal) x0 x2 x11 x12 x13 x15 x16 := by
  after_results_simp
  rw [h_main_arg13, h_main_arg15, h_main_arg16, h_main_v189, h_main_v192]
  unfold val_main_v205 val_main_v204 val_main_v203 val_main_v202 val_main_v201 val_main_v200 val_main_v199 val_main_v198 val_main_v197 val_main_v196 val_main_cst_45 val_main_v195 val_main_v194 val_main_v193
  repeat (first | rewrite [toBuf_self8] | rewrite [ofBuf_self8])
  rfl

set_option maxHeartbeats 1000000 in
theorem c8_main_v213 (V : Valuation τ sig (Elt Ideal)) (x2 : (⟨S2x1000000, .i32⟩ : BufTy).Contents (Elt Ideal))
    (h_main_v138 : V (Proc.devRef .tc main_v138) = val_main_v138 (F := Ideal) x2)
    : after (ops8 (F := Ideal)) V (Proc.devRef .tc main_v213) = val_main_v213 (F := Ideal) x2 := by
  after_results_simp
  rw [h_main_v138]
  unfold val_main_v213 val_main_call5_v1 val_main_call5_v0 val_main_cst_49 val_main_v212 val_main_v211 val_main_v210 val_main_cst_48 val_main_v209 val_main_v208 val_main_v207 val_main_cst_47 val_main_v206 val_main_cst_46
  repeat (first | rewrite [toBuf_self8] | rewrite [ofBuf_self8])
  rfl

set_option maxHeartbeats 1000000 in
theorem c8_main_v215 (V : Valuation τ sig (Elt Ideal)) (x2 : (⟨S2x1000000, .i32⟩ : BufTy).Contents (Elt Ideal))
    (h_main_v136 : V (Proc.devRef .tc main_v136) = val_main_v136 (F := Ideal) x2)
    : after (ops8 (F := Ideal)) V (Proc.devRef .tc main_v215) = val_main_v215 (F := Ideal) x2 := by
  after_results_simp
  rw [h_main_v136]
  unfold val_main_v215 val_main_v214 val_main_c_50
  repeat (first | rewrite [toBuf_self8] | rewrite [ofBuf_self8])
  rfl

end Cert.ReferenceIdeal.RefChain

end
-- ==== Proof.RefChunk9.lean ====
-- Operations 282 to 312 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops9_W : List (Ref sig .tc) := [main_c_51, main_v216, main_v217, main_v218, main_v219, main_v220, main_c_52, main_v221, main_v222, main_c_53, main_v223, main_v224, main_v225, main_v226, main_v227, main_v228, main_c_54, main_v229, main_v230, main_c_55, main_v231, main_v232, main_v233, main_v234, main_v235, main_v236, main_v237, main_v238, main_cst_56, main_v239, main_v240]

private theorem w9 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops9_writes : (ops9 : List (HloOp τ sig (Elt Ideal))).Forall fun op => op.writes ⊆ (ops9_W.map (Proc.devRef (τ := τ) .tc)).toFinset :=
  ⟨w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide), w9 (by decide)⟩

theorem keep9 (V : Valuation τ sig (Elt Ideal)) (r : Ref sig .tc) (h : r ∉ ops9_W) :
    after (ops9 (F := Ideal)) V (Proc.devRef .tc r) = V (Proc.devRef .tc r) :=
  after_of_writes_sub ops9 _ ops9_writes h

private theorem toBuf_self9 {Val : EltTy → Type} (r : Ref sig .tc) (hd) (hs) (v : r.ty.Contents Val) :
    (TRef.of (T := r.ty) r rfl hd hs).toBuf v = v := rfl
private theorem ofBuf_self9 {Val : EltTy → Type} (r : Ref sig .tc) (hd) (hs) (v : r.ty.Contents Val) :
    (TRef.of (T := r.ty) r rfl hd hs).ofBuf v = v := rfl

set_option maxHeartbeats 1000000 in
theorem c9_main_v238 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x15 x16 : (⟨S128, .f32⟩ : BufTy).Contents (Elt Ideal))
    (h_main_v136 : V (Proc.devRef .tc main_v136) = val_main_v136 (F := Ideal) x2)
    (h_main_v138 : V (Proc.devRef .tc main_v138) = val_main_v138 (F := Ideal) x2)
    (h_main_v205 : V (Proc.devRef .tc main_v205) = val_main_v205 (F := Ideal) x0 x2 x11 x12 x13 x15 x16)
    (h_main_v213 : V (Proc.devRef .tc main_v213) = val_main_v213 (F := Ideal) x2)
    (h_main_v215 : V (Proc.devRef .tc main_v215) = val_main_v215 (F := Ideal) x2)
    : after (ops9 (F := Ideal)) V (Proc.devRef .tc main_v238) = val_main_v238 (F := Ideal) x0 x2 x11 x12 x13 x15 x16 := by
  after_results_simp
  rw [h_main_v136, h_main_v138, h_main_v205, h_main_v213, h_main_v215]
  unfold val_main_v238 val_main_v237 val_main_v236 val_main_v235 val_main_v234 val_main_v233 val_main_v232 val_main_v231 val_main_c_55 val_main_v230 val_main_v229 val_main_c_54 val_main_v228 val_main_v227 val_main_v226 val_main_v225 val_main_v224 val_main_v223 val_main_c_53 val_main_v222 val_main_v221 val_main_c_52 val_main_v220 val_main_v219 val_main_v218 val_main_v217 val_main_v216 val_main_c_51
  repeat (first | rewrite [toBuf_self9] | rewrite [ofBuf_self9])
  rfl

set_option maxHeartbeats 1000000 in
theorem c9_main_v239 (V : Valuation τ sig (Elt Ideal))
    : after (ops9 (F := Ideal)) V (Proc.devRef .tc main_v239) = val_main_v239 (F := Ideal) := by
  after_results_simp
  unfold val_main_v239 val_main_cst_56
  repeat (first | rewrite [toBuf_self9] | rewrite [ofBuf_self9])
  rfl

set_option maxHeartbeats 1000000 in
theorem c9_main_v240 (V : Valuation τ sig (Elt Ideal)) (x2 : (⟨S2x1000000, .i32⟩ : BufTy).Contents (Elt Ideal))
    (h_main_v138 : V (Proc.devRef .tc main_v138) = val_main_v138 (F := Ideal) x2)
    : after (ops9 (F := Ideal)) V (Proc.devRef .tc main_v240) = val_main_v240 (F := Ideal) x2 := by
  after_results_simp
  rw [h_main_v138]
  unfold val_main_v240
  repeat (first | rewrite [toBuf_self9] | rewrite [ofBuf_self9])
  rfl

end Cert.ReferenceIdeal.RefChain

end
-- ==== Proof.RefChunk10.lean ====
-- Operations 313 to 345 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops10_W : List (Ref sig .tc) := [main_v241, main_v242, main_v243, main_v244, main_cst_57, main_v245, main_cst_58, main_v246, main_v247, main_v248, main_v249, main_v250, main_v251, main_cst_59, main_v252, main_cst_60, main_v253, main_v254, main_v255, main_v256, main_v257, main_v258, main_v259, main_v260, main_cst_61, main_v261, main_v262, main_v263, main_v264, main_v265, main_v266, main_v267, main_v268]

private theorem w10 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops10_writes : (ops10 : List (HloOp τ sig (Elt Ideal))).Forall fun op => op.writes ⊆ (ops10_W.map (Proc.devRef (τ := τ) .tc)).toFinset :=
  ⟨w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide), w10 (by decide)⟩

theorem keep10 (V : Valuation τ sig (Elt Ideal)) (r : Ref sig .tc) (h : r ∉ ops10_W) :
    after (ops10 (F := Ideal)) V (Proc.devRef .tc r) = V (Proc.devRef .tc r) :=
  after_of_writes_sub ops10 _ ops10_writes h

private theorem toBuf_self10 {Val : EltTy → Type} (r : Ref sig .tc) (hd) (hs) (v : r.ty.Contents Val) :
    (TRef.of (T := r.ty) r rfl hd hs).toBuf v = v := rfl
private theorem ofBuf_self10 {Val : EltTy → Type} (r : Ref sig .tc) (hd) (hs) (v : r.ty.Contents Val) :
    (TRef.of (T := r.ty) r rfl hd hs).ofBuf v = v := rfl

set_option maxHeartbeats 1000000 in
theorem c10_main_v266 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal))
    (h_main_arg14 : V (Proc.devRef .tc main_arg14) = x14)
    (h_main_arg17 : V (Proc.devRef .tc main_arg17) = x17)
    (h_main_v238 : V (Proc.devRef .tc main_v238) = val_main_v238 (F := Ideal) x0 x2 x11 x12 x13 x15 x16)
    (h_main_v239 : V (Proc.devRef .tc main_v239) = val_main_v239 (F := Ideal))
    (h_main_v240 : V (Proc.devRef .tc main_v240) = val_main_v240 (F := Ideal) x2)
    : after (ops10 (F := Ideal)) V (Proc.devRef .tc main_v266) = val_main_v266 (F := Ideal) x0 x2 x11 x12 x13 x14 x15 x16 x17 := by
  after_results_simp
  rw [h_main_arg14, h_main_arg17, h_main_v238, h_main_v239, h_main_v240]
  unfold val_main_v266 val_main_v265 val_main_v264 val_main_v263 val_main_v262 val_main_v261 val_main_cst_61 val_main_v260 val_main_v259 val_main_v258 val_main_v257 val_main_v256 val_main_v255 val_main_v254 val_main_v253 val_main_cst_60 val_main_v252 val_main_cst_59 val_main_v251 val_main_v250 val_main_v249 val_main_v248 val_main_v247 val_main_v246 val_main_cst_58 val_main_v245 val_main_cst_57 val_main_v244 val_main_v243 val_main_v242 val_main_v241
  repeat (first | rewrite [toBuf_self10] | rewrite [ofBuf_self10])
  rfl

set_option maxHeartbeats 1000000 in
theorem c10_main_v268 (V : Valuation τ sig (Elt Ideal)) (x18 : (⟨S128, .f32⟩ : BufTy).Contents (Elt Ideal))
    (h_main_arg18 : V (Proc.devRef .tc main_arg18) = x18)
    : after (ops10 (F := Ideal)) V (Proc.devRef .tc main_v268) = val_main_v268 (F := Ideal) x18 := by
  after_results_simp
  rw [h_main_arg18]
  unfold val_main_v268 val_main_v267
  repeat (first | rewrite [toBuf_self10] | rewrite [ofBuf_self10])
  rfl

end Cert.ReferenceIdeal.RefChain

end
-- ==== Proof.RefChunk11.lean ====
-- Operations 346 to 378 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops11_W : List (Ref sig .tc) := [main_v269, main_v270, main_v271, main_v272, main_v273, main_call6_cst, main_call6_v0, main_v274, main_v275, main_v276, main_v277, main_v278, main_v279, main_v280, main_v281, main_v282, main_call7_cst, main_call7_v0, main_v283, main_v284, main_v285, main_v286, main_v287, main_cst_62, main_v288, main_v289, main_v290, main_v291, main_v292, main_call8_cst, main_call8_v0, main_v293, main_v294]

private theorem w11 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops11_writes : (ops11 : List (HloOp τ sig (Elt Ideal))).Forall fun op => op.writes ⊆ (ops11_W.map (Proc.devRef (τ := τ) .tc)).toFinset :=
  ⟨w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide), w11 (by decide)⟩

theorem keep11 (V : Valuation τ sig (Elt Ideal)) (r : Ref sig .tc) (h : r ∉ ops11_W) :
    after (ops11 (F := Ideal)) V (Proc.devRef .tc r) = V (Proc.devRef .tc r) :=
  after_of_writes_sub ops11 _ ops11_writes h

private theorem toBuf_self11 {Val : EltTy → Type} (r : Ref sig .tc) (hd) (hs) (v : r.ty.Contents Val) :
    (TRef.of (T := r.ty) r rfl hd hs).toBuf v = v := rfl
private theorem ofBuf_self11 {Val : EltTy → Type} (r : Ref sig .tc) (hd) (hs) (v : r.ty.Contents Val) :
    (TRef.of (T := r.ty) r rfl hd hs).ofBuf v = v := rfl

set_option maxHeartbeats 1000000 in
theorem c11_main_v278 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 x9 x10 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))
    (h_main_arg19 : V (Proc.devRef .tc main_arg19) = x19)
    (h_main_arg20 : V (Proc.devRef .tc main_arg20) = x20)
    (h_main_arg21 : V (Proc.devRef .tc main_arg21) = x21)
    (h_main_arg22 : V (Proc.devRef .tc main_arg22) = x22)
    (h_main_v134 : V (Proc.devRef .tc main_v134) = val_main_v134 (F := Ideal) x0 x1 x3 x4 x5 x6 x7 x8 x9 x10)
    : after (ops11 (F := Ideal)) V (Proc.devRef .tc main_v278) = val_main_v278 (F := Ideal) x0 x1 x3 x4 x5 x6 x7 x8 x9 x10 x19 x20 x21 x22 := by
  after_results_simp
  rw [h_main_arg19, h_main_arg20, h_main_arg21, h_main_arg22, h_main_v134]
  unfold val_main_v278 val_main_v277 val_main_v276 val_main_v275 val_main_v274 val_main_call6_v0 val_main_call6_cst val_main_v273 val_main_v272 val_main_v271 val_main_v270
  repeat (first | rewrite [toBuf_self11] | rewrite [ofBuf_self11])
  rfl

set_option maxHeartbeats 1000000 in
theorem c11_main_v287 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 x15 x16 x17 x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))
    (h_main_arg19 : V (Proc.devRef .tc main_arg19) = x19)
    (h_main_arg20 : V (Proc.devRef .tc main_arg20) = x20)
    (h_main_arg21 : V (Proc.devRef .tc main_arg21) = x21)
    (h_main_arg22 : V (Proc.devRef .tc main_arg22) = x22)
    (h_main_v266 : V (Proc.devRef .tc main_v266) = val_main_v266 (F := Ideal) x0 x2 x11 x12 x13 x14 x15 x16 x17)
    (h_main_v268 : V (Proc.devRef .tc main_v268) = val_main_v268 (F := Ideal) x18)
    : after (ops11 (F := Ideal)) V (Proc.devRef .tc main_v287) = val_main_v287 (F := Ideal) x0 x2 x11 x12 x13 x14 x15 x16 x17 x18 x19 x20 x21 x22 := by
  after_results_simp
  rw [h_main_arg19, h_main_arg20, h_main_arg21, h_main_arg22, h_main_v266, h_main_v268]
  unfold val_main_v287 val_main_v286 val_main_v285 val_main_v284 val_main_v283 val_main_call7_v0 val_main_call7_cst val_main_v282 val_main_v281 val_main_v280 val_main_v279 val_main_v269
  repeat (first | rewrite [toBuf_self11] | rewrite [ofBuf_self11])
  rfl

set_option maxHeartbeats 1000000 in
theorem c11_main_v294 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 x9 x10 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))
    (h_main_arg19 : V (Proc.devRef .tc main_arg19) = x19)
    (h_main_arg20 : V (Proc.devRef .tc main_arg20) = x20)
    (h_main_arg21 : V (Proc.devRef .tc main_arg21) = x21)
    (h_main_arg22 : V (Proc.devRef .tc main_arg22) = x22)
    (h_main_v134 : V (Proc.devRef .tc main_v134) = val_main_v134 (F := Ideal) x0 x1 x3 x4 x5 x6 x7 x8 x9 x10)
    : after (ops11 (F := Ideal)) V (Proc.devRef .tc main_v294) = val_main_v294 (F := Ideal) x0 x1 x3 x4 x5 x6 x7 x8 x9 x10 x19 x20 x21 x22 := by
  after_results_simp
  rw [h_main_arg19, h_main_arg20, h_main_arg21, h_main_arg22, h_main_v134]
  unfold val_main_v294 val_main_v293 val_main_call8_v0 val_main_call8_cst val_main_v292 val_main_v291 val_main_v290 val_main_v289 val_main_v288 val_main_cst_62 val_main_v278 val_main_v277 val_main_v276 val_main_v275 val_main_v274 val_main_call6_v0 val_main_call6_cst val_main_v273 val_main_v272 val_main_v271 val_main_v270
  repeat (first | rewrite [toBuf_self11] | rewrite [ofBuf_self11])
  rfl

end Cert.ReferenceIdeal.RefChain

end
-- ==== Proof.RefChunk12.lean ====
-- Operations 379 to 404 of the reference: from contents at which the buffers they read hold their stage functions' values, each buffer
-- they write holds its own stage function's value, and a buffer they do not write keeps its contents.
import proofs.«125188_j57878979281252_1_alg».proof.Proof.RefOps
import proofs.«125188_j57878979281252_1_alg».proof.Proof.RefStages
import Idealize.ShloMosaic.Lib.StableHlo.Run

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

abbrev ops12_W : List (Ref sig .tc) := [main_v295, main_v296, main_cst_63, main_v297, main_v298, main_v299, main_v300, main_v301, main_call9_cst, main_call9_v0, main_v302, main_v303, main_v304, main_v305, main_v306, main_v307, main_v308, main_v309, main_v310, main_call10_cst, main_call10_v0, main_v311, main_v312, main_v313, main_v314, main_v315]

private theorem w12 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))
theorem ops12_writes : (ops12 : List (HloOp τ sig (Elt Ideal))).Forall fun op => op.writes ⊆ (ops12_W.map (Proc.devRef (τ := τ) .tc)).toFinset :=
  ⟨w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide), w12 (by decide)⟩

theorem keep12 (V : Valuation τ sig (Elt Ideal)) (r : Ref sig .tc) (h : r ∉ ops12_W) :
    after (ops12 (F := Ideal)) V (Proc.devRef .tc r) = V (Proc.devRef .tc r) :=
  after_of_writes_sub ops12 _ ops12_writes h

private theorem toBuf_self12 {Val : EltTy → Type} (r : Ref sig .tc) (hd) (hs) (v : r.ty.Contents Val) :
    (TRef.of (T := r.ty) r rfl hd hs).toBuf v = v := rfl
private theorem ofBuf_self12 {Val : EltTy → Type} (r : Ref sig .tc) (hd) (hs) (v : r.ty.Contents Val) :
    (TRef.of (T := r.ty) r rfl hd hs).ofBuf v = v := rfl

set_option maxHeartbeats 1000000 in
theorem c12_main_v296 (V : Valuation τ sig (Elt Ideal)) (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 x9 x10 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))
    (h_main_arg22 : V (Proc.devRef .tc main_arg22) = x22)
    (h_main_v294 : V (Proc.devRef .tc main_v294) = val_main_v294 (F := Ideal) x0 x1 x3 x4 x5 x6 x7 x8 x9 x10 x19 x20 x21 x22)
    : after (ops12 (F := Ideal)) V (Proc.devRef .tc main_v296) = val_main_v296 (F := Ideal) x0 x1 x3 x4 x5 x6 x7 x8 x9 x10 x19 x20 x21 x22 := by
  after_results_simp
  rw [h_main_arg22, h_main_v294]
  unfold val_main_v296 val_main_v295
  repeat (first | rewrite [toBuf_self12] | rewrite [ofBuf_self12])
  rfl

set_option maxHeartbeats 1000000 in
theorem c12_main_v305 (V : Valuation τ sig (Elt Ideal)) (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 x15 x16 x17 x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal))
    (h_main_arg19 : V (Proc.devRef .tc main_arg19) = x19)
    (h_main_arg20 : V (Proc.devRef .tc main_arg20) = x20)
    (h_main_arg21 : V (Proc.devRef .tc main_arg21) = x21)
    (h_main_arg22 : V (Proc.devRef .tc main_arg22) = x22)
    (h_main_v287 : V (Proc.devRef .tc main_v287) = val_main_v287 (F := Ideal) x0 x2 x11 x12 x13 x14 x15 x16 x17 x18 x19 x20 x21 x22)
    : after (ops12 (F := Ideal)) V (Proc.devRef .tc main_v305) = val_main_v305 (F := Ideal) x0 x2 x11 x12 x13 x14 x15 x16 x17 x18 x19 x20 x21 x22 := by
  after_results_simp
  rw [h_main_arg19, h_main_arg20, h_main_arg21, h_main_arg22, h_main_v287]
  unfold val_main_v305 val_main_v304 val_main_v303 val_main_v302 val_main_call9_v0 val_main_call9_cst val_main_v301 val_main_v300 val_main_v299 val_main_v298 val_main_v297 val_main_cst_63
  repeat (first | rewrite [toBuf_self12] | rewrite [ofBuf_self12])
  rfl

set_option maxHeartbeats 1000000 in
theorem c12_main_v315 (V : Valuation τ sig (Elt Ideal)) (x0 : (⟨S100000x256, .f32⟩ : BufTy).Contents (Elt Ideal)) (x1 x2 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 x7 x8 x9 x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 x15 x16 x17 x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x64, .f32⟩ : BufTy).Contents (Elt Ideal)) (x24 : (⟨S64, .f32⟩ : BufTy).Contents (Elt Ideal)) (x25 : (⟨S64x40, .f32⟩ : BufTy).Contents (Elt Ideal)) (x26 : (⟨S40, .f32⟩ : BufTy).Contents (Elt Ideal))
    (h_main_arg23 : V (Proc.devRef .tc main_arg23) = x23)
    (h_main_arg24 : V (Proc.devRef .tc main_arg24) = x24)
    (h_main_arg25 : V (Proc.devRef .tc main_arg25) = x25)
    (h_main_arg26 : V (Proc.devRef .tc main_arg26) = x26)
    (h_main_v278 : V (Proc.devRef .tc main_v278) = val_main_v278 (F := Ideal) x0 x1 x3 x4 x5 x6 x7 x8 x9 x10 x19 x20 x21 x22)
    (h_main_v287 : V (Proc.devRef .tc main_v287) = val_main_v287 (F := Ideal) x0 x2 x11 x12 x13 x14 x15 x16 x17 x18 x19 x20 x21 x22)
    : after (ops12 (F := Ideal)) V (Proc.devRef .tc main_v315) = val_main_v315 (F := Ideal) x0 x1 x2 x3 x4 x5 x6 x7 x8 x9 x10 x11 x12 x13 x14 x15 x16 x17 x18 x19 x20 x21 x22 x23 x24 x25 x26 := by
  after_results_simp
  rw [h_main_arg23, h_main_arg24, h_main_arg25, h_main_arg26, h_main_v278, h_main_v287]
  unfold val_main_v315 val_main_v314 val_main_v313 val_main_v312 val_main_v311 val_main_call10_v0 val_main_call10_cst val_main_v310 val_main_v309 val_main_v308 val_main_v307 val_main_v306
  repeat (first | rewrite [toBuf_self12] | rewrite [ofBuf_self12])
  rfl

end Cert.ReferenceIdeal.RefChain

end
-- ==== Proof.RefChain.lean ====
-- The reference's run joined at the chunks' boundaries: B0 is a core's launch contents and B(k+1) what chunk k leaves from Bk. At every
-- boundary each buffer a later chunk reads holds its stage function's value of the arguments: after the chunk that writes it by that
-- chunk's lemma, later because the chunks between do not write it.
import proofs.«125188_j57878979281252_1_alg».proof.Proof.RefOps
import proofs.«125188_j57878979281252_1_alg».proof.Proof.RefStages
import proofs.«125188_j57878979281252_1_alg».proof.Proof.RefChunk0
import proofs.«125188_j57878979281252_1_alg».proof.Proof.RefChunk1
import proofs.«125188_j57878979281252_1_alg».proof.Proof.RefChunk2
import proofs.«125188_j57878979281252_1_alg».proof.Proof.RefChunk3
import proofs.«125188_j57878979281252_1_alg».proof.Proof.RefChunk4
import proofs.«125188_j57878979281252_1_alg».proof.Proof.RefChunk5
import proofs.«125188_j57878979281252_1_alg».proof.Proof.RefChunk6
import proofs.«125188_j57878979281252_1_alg».proof.Proof.RefChunk7
import proofs.«125188_j57878979281252_1_alg».proof.Proof.RefChunk8
import proofs.«125188_j57878979281252_1_alg».proof.Proof.RefChunk9
import proofs.«125188_j57878979281252_1_alg».proof.Proof.RefChunk10
import proofs.«125188_j57878979281252_1_alg».proof.Proof.RefChunk11
import proofs.«125188_j57878979281252_1_alg».proof.Proof.RefChunk12
import Idealize.ShloMosaic.Lib.StableHlo.Run
import Idealize.ShloMosaic.Lib.Pipeline.Frame

set_option maxRecDepth 16384

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.ReadS

variable (m : (ℓ : Loc nD τ sig) → Buf (Elt Ideal) ℓ) (d : Dev nD)

def B0 : Valuation τ sig (Elt Ideal) := launchContents m d

def B1 : Valuation τ sig (Elt Ideal) := after (ops0 (F := Ideal)) (B0 m d)

def B2 : Valuation τ sig (Elt Ideal) := after (ops1 (F := Ideal)) (B1 m d)

def B3 : Valuation τ sig (Elt Ideal) := after (ops2 (F := Ideal)) (B2 m d)

def B4 : Valuation τ sig (Elt Ideal) := after (ops3 (F := Ideal)) (B3 m d)

def B5 : Valuation τ sig (Elt Ideal) := after (ops4 (F := Ideal)) (B4 m d)

def B6 : Valuation τ sig (Elt Ideal) := after (ops5 (F := Ideal)) (B5 m d)

def B7 : Valuation τ sig (Elt Ideal) := after (ops6 (F := Ideal)) (B6 m d)

def B8 : Valuation τ sig (Elt Ideal) := after (ops7 (F := Ideal)) (B7 m d)

def B9 : Valuation τ sig (Elt Ideal) := after (ops8 (F := Ideal)) (B8 m d)

def B10 : Valuation τ sig (Elt Ideal) := after (ops9 (F := Ideal)) (B9 m d)

def B11 : Valuation τ sig (Elt Ideal) := after (ops10 (F := Ideal)) (B10 m d)

def B12 : Valuation τ sig (Elt Ideal) := after (ops11 (F := Ideal)) (B11 m d)

def B13 : Valuation τ sig (Elt Ideal) := after (ops12 (F := Ideal)) (B12 m d)

theorem after_ops : after (ops (F := Ideal)) (launchContents m d) = B13 m d := by
  simp only [ops, StableHlo.after_append]
  rfl

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]
macro "args_not_in" : tactic =>
  `(tactic| (intro r hr; simp only [args, List.mem_cons, List.not_mem_nil, or_false] at hr; rcases hr with h | h | h | h | h | h | h | h | h | h | h | h | h | h | h | h | h | h | h | h | h | h | h | h | h | h | h <;> subst h <;> decide))
theorem argAt0 (b : Ref sig .tc) (hb : b ∈ args) : B0 m d (Proc.devRef .tc b) = m ((d.tc : Thread nD τ).loc b) := rfl
theorem argAt1 (b : Ref sig .tc) (hb : b ∈ args) : B1 m d (Proc.devRef .tc b) = m ((d.tc : Thread nD τ).loc b) :=
  (keep0 (B0 m d) b ((by args_not_in : ∀ r ∈ args, r ∉ ops0_W) b hb)).trans (argAt0 m d b hb)
theorem argAt2 (b : Ref sig .tc) (hb : b ∈ args) : B2 m d (Proc.devRef .tc b) = m ((d.tc : Thread nD τ).loc b) :=
  (keep1 (B1 m d) b ((by args_not_in : ∀ r ∈ args, r ∉ ops1_W) b hb)).trans (argAt1 m d b hb)
theorem argAt3 (b : Ref sig .tc) (hb : b ∈ args) : B3 m d (Proc.devRef .tc b) = m ((d.tc : Thread nD τ).loc b) :=
  (keep2 (B2 m d) b ((by args_not_in : ∀ r ∈ args, r ∉ ops2_W) b hb)).trans (argAt2 m d b hb)
theorem argAt4 (b : Ref sig .tc) (hb : b ∈ args) : B4 m d (Proc.devRef .tc b) = m ((d.tc : Thread nD τ).loc b) :=
  (keep3 (B3 m d) b ((by args_not_in : ∀ r ∈ args, r ∉ ops3_W) b hb)).trans (argAt3 m d b hb)
theorem argAt5 (b : Ref sig .tc) (hb : b ∈ args) : B5 m d (Proc.devRef .tc b) = m ((d.tc : Thread nD τ).loc b) :=
  (keep4 (B4 m d) b ((by args_not_in : ∀ r ∈ args, r ∉ ops4_W) b hb)).trans (argAt4 m d b hb)
theorem argAt6 (b : Ref sig .tc) (hb : b ∈ args) : B6 m d (Proc.devRef .tc b) = m ((d.tc : Thread nD τ).loc b) :=
  (keep5 (B5 m d) b ((by args_not_in : ∀ r ∈ args, r ∉ ops5_W) b hb)).trans (argAt5 m d b hb)
theorem argAt7 (b : Ref sig .tc) (hb : b ∈ args) : B7 m d (Proc.devRef .tc b) = m ((d.tc : Thread nD τ).loc b) :=
  (keep6 (B6 m d) b ((by args_not_in : ∀ r ∈ args, r ∉ ops6_W) b hb)).trans (argAt6 m d b hb)
theorem argAt8 (b : Ref sig .tc) (hb : b ∈ args) : B8 m d (Proc.devRef .tc b) = m ((d.tc : Thread nD τ).loc b) :=
  (keep7 (B7 m d) b ((by args_not_in : ∀ r ∈ args, r ∉ ops7_W) b hb)).trans (argAt7 m d b hb)
theorem argAt9 (b : Ref sig .tc) (hb : b ∈ args) : B9 m d (Proc.devRef .tc b) = m ((d.tc : Thread nD τ).loc b) :=
  (keep8 (B8 m d) b ((by args_not_in : ∀ r ∈ args, r ∉ ops8_W) b hb)).trans (argAt8 m d b hb)
theorem argAt10 (b : Ref sig .tc) (hb : b ∈ args) : B10 m d (Proc.devRef .tc b) = m ((d.tc : Thread nD τ).loc b) :=
  (keep9 (B9 m d) b ((by args_not_in : ∀ r ∈ args, r ∉ ops9_W) b hb)).trans (argAt9 m d b hb)
theorem argAt11 (b : Ref sig .tc) (hb : b ∈ args) : B11 m d (Proc.devRef .tc b) = m ((d.tc : Thread nD τ).loc b) :=
  (keep10 (B10 m d) b ((by args_not_in : ∀ r ∈ args, r ∉ ops10_W) b hb)).trans (argAt10 m d b hb)
theorem argAt12 (b : Ref sig .tc) (hb : b ∈ args) : B12 m d (Proc.devRef .tc b) = m ((d.tc : Thread nD τ).loc b) :=
  (keep11 (B11 m d) b ((by args_not_in : ∀ r ∈ args, r ∉ ops11_W) b hb)).trans (argAt11 m d b hb)
theorem argAt13 (b : Ref sig .tc) (hb : b ∈ args) : B13 m d (Proc.devRef .tc b) = m ((d.tc : Thread nD τ).loc b) :=
  (keep12 (B12 m d) b ((by args_not_in : ∀ r ∈ args, r ∉ ops12_W) b hb)).trans (argAt12 m d b hb)

theorem at1_main_v1 : B1 m d (Proc.devRef .tc main_v1) = val_main_v1 (F := Ideal) (m ((d.tc : Thread nD τ).loc main_arg1)) :=
  c0_main_v1 (V := B0 m d) (x1 := m ((d.tc : Thread nD τ).loc main_arg1)) (h_main_arg1 := argAt0 m d main_arg1 (by decide))
theorem at1_main_v3 : B1 m d (Proc.devRef .tc main_v3) = val_main_v3 (F := Ideal) (m ((d.tc : Thread nD τ).loc main_arg1)) :=
  c0_main_v3 (V := B0 m d) (x1 := m ((d.tc : Thread nD τ).loc main_arg1)) (h_main_arg1 := argAt0 m d main_arg1 (by decide))
theorem at1_main_v4 : B1 m d (Proc.devRef .tc main_v4) = val_main_v4 (F := Ideal) (m ((d.tc : Thread nD τ).loc main_arg0)) (m ((d.tc : Thread nD τ).loc main_arg3)) :=
  c0_main_v4 (V := B0 m d) (x0 := m ((d.tc : Thread nD τ).loc main_arg0)) (x3 := m ((d.tc : Thread nD τ).loc main_arg3)) (h_main_arg0 := argAt0 m d main_arg0 (by decide)) (h_main_arg3 := argAt0 m d main_arg3 (by decide))
theorem at1_main_v12 : B1 m d (Proc.devRef .tc main_v12) = val_main_v12 (F := Ideal) (m ((d.tc : Thread nD τ).loc main_arg1)) :=
  c0_main_v12 (V := B0 m d) (x1 := m ((d.tc : Thread nD τ).loc main_arg1)) (h_main_arg1 := argAt0 m d main_arg1 (by decide))
theorem at1_main_v19 : B1 m d (Proc.devRef .tc main_v19) = val_main_v19 (F := Ideal) (m ((d.tc : Thread nD τ).loc main_arg1)) :=
  c0_main_v19 (V := B0 m d) (x1 := m ((d.tc : Thread nD τ).loc main_arg1)) (h_main_arg1 := argAt0 m d main_arg1 (by decide))
theorem at1_main_v21 : B1 m d (Proc.devRef .tc main_v21) = val_main_v21 (F := Ideal) (m ((d.tc : Thread nD τ).loc main_arg1)) :=
  c0_main_v21 (V := B0 m d) (x1 := m ((d.tc : Thread nD τ).loc main_arg1)) (h_main_arg1 := argAt0 m d main_arg1 (by decide))
theorem at1_main_c_5 : B1 m d (Proc.devRef .tc main_c_5) = val_main_c_5 (F := Ideal) :=
  c0_main_c_5 (V := B0 m d)

theorem at2_main_v1 : B2 m d (Proc.devRef .tc main_v1) = val_main_v1 (F := Ideal) (m ((d.tc : Thread nD τ).loc main_arg1)) :=
  (keep1 (B1 m d) main_v1 (by decide)).trans (at1_main_v1 m d)
theorem at2_main_v3 : B2 m d (Proc.devRef .tc main_v3) = val_main_v3 (F := Ideal) (m ((d.tc : Thread nD τ).loc main_arg1)) :=
  (keep1 (B1 m d) main_v3 (by decide)).trans (at1_main_v3 m d)
theorem at2_main_v44 : B2 m d (Proc.devRef .tc main_v44) = val_main_v44 (F := Ideal) (m ((d.tc : Thread nD τ).loc main_arg0)) (m ((d.tc : Thread nD τ).loc main_arg1)) (m ((d.tc : Thread nD τ).loc main_arg3)) (m ((d.tc : Thread nD τ).loc main_arg4)) :=
  c1_main_v44 (V := B1 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (h_main_arg4 := argAt1 m d main_arg4 (by decide)) (h_main_v1 := at1_main_v1 m d) (h_main_v3 := at1_main_v3 m d) (h_main_v4 := at1_main_v4 m d) (h_main_v12 := at1_main_v12 m d) (h_main_v19 := at1_main_v19 m d) (h_main_v21 := at1_main_v21 m d) (h_main_c_5 := at1_main_c_5 m d)
theorem at2_main_v45 : B2 m d (Proc.devRef .tc main_v45) = val_main_v45 (F := Ideal) (m ((d.tc : Thread nD τ).loc main_arg0)) (m ((d.tc : Thread nD τ).loc main_arg1)) (m ((d.tc : Thread nD τ).loc main_arg3)) (m ((d.tc : Thread nD τ).loc main_arg4)) :=
  c1_main_v45 (V := B1 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (h_main_arg4 := argAt1 m d main_arg4 (by decide)) (h_main_v1 := at1_main_v1 m d) (h_main_v3 := at1_main_v3 m d) (h_main_v4 := at1_main_v4 m d) (h_main_v12 := at1_main_v12 m d) (h_main_v19 := at1_main_v19 m d) (h_main_v21 := at1_main_v21 m d) (h_main_c_5 := at1_main_c_5 m d)
theorem at2_main_v46 : B2 m d (Proc.devRef .tc main_v46) = val_main_v46 (F := Ideal) :=
  c1_main_v46 (V := B1 m d)

theorem at3_main_v1 : B3 m d (Proc.devRef .tc main_v1) = val_main_v1 (F := Ideal) (m ((d.tc : Thread nD τ).loc main_arg1)) :=
  (keep2 (B2 m d) main_v1 (by decide)).trans (at2_main_v1 m d)
theorem at3_main_v3 : B3 m d (Proc.devRef .tc main_v3) = val_main_v3 (F := Ideal) (m ((d.tc : Thread nD τ).loc main_arg1)) :=
  (keep2 (B2 m d) main_v3 (by decide)).trans (at2_main_v3 m d)
theorem at3_main_v70 : B3 m d (Proc.devRef .tc main_v70) = val_main_v70 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg7)) (m ((d.tc : Thread nD τ).loc main_arg8)) :=
  c2_main_v70 (V := B2 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x7 := m ((d.tc : Thread nD τ).loc main_arg7)) (x8 := m ((d.tc : Thread nD τ).loc main_arg8)) (h_main_arg5 := argAt2 m d main_arg5 (by decide)) (h_main_arg7 := argAt2 m d main_arg7 (by decide)) (h_main_arg8 := argAt2 m d main_arg8 (by decide)) (h_main_v44 := at2_main_v44 m d) (h_main_v45 := at2_main_v45 m d) (h_main_v46 := at2_main_v46 m d)
theorem at3_main_v71 : B3 m d (Proc.devRef .tc main_v71) = val_main_v71 (F := Ideal) :=
  c2_main_v71 (V := B2 m d)
theorem at3_main_v72 : B3 m d (Proc.devRef .tc main_v72) = val_main_v72 (F := Ideal) :=
  c2_main_v72 (V := B2 m d)

theorem at4_main_v1 : B4 m d (Proc.devRef .tc main_v1) = val_main_v1 (F := Ideal) (m ((d.tc : Thread nD τ).loc main_arg1)) :=
  (keep3 (B3 m d) main_v1 (by decide)).trans (at3_main_v1 m d)
theorem at4_main_v3 : B4 m d (Proc.devRef .tc main_v3) = val_main_v3 (F := Ideal) (m ((d.tc : Thread nD τ).loc main_arg1)) :=
  (keep3 (B3 m d) main_v3 (by decide)).trans (at3_main_v3 m d)
theorem at4_main_v70 : B4 m d (Proc.devRef .tc main_v70) = val_main_v70 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg7)) (m ((d.tc : Thread nD τ).loc main_arg8)) :=
  (keep3 (B3 m d) main_v70 (by decide)).trans (at3_main_v70 m d)
theorem at4_main_v93 : B4 m d (Proc.devRef .tc main_v93) = val_main_v93 (F := Ideal) (m ((d.tc : Thread nD τ).loc main_arg1)) :=
  c3_main_v93 (V := B3 m d) (x1 := m ((d.tc : Thread nD τ).loc main_arg1)) (h_main_v1 := at3_main_v1 m d) (h_main_v3 := at3_main_v3 m d) (h_main_v71 := at3_main_v71 m d) (h_main_v72 := at3_main_v72 m d)
theorem at4_main_v94 : B4 m d (Proc.devRef .tc main_v94) = val_main_v94 (F := Ideal) :=
  c3_main_v94 (V := B3 m d)

theorem at5_main_v109 : B5 m d (Proc.devRef .tc main_v109) = val_main_v109 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  c4_main_v109 (V := B4 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (h_main_arg6 := argAt4 m d main_arg6 (by decide)) (h_main_v1 := at4_main_v1 m d) (h_main_v3 := at4_main_v3 m d) (h_main_v70 := at4_main_v70 m d) (h_main_v93 := at4_main_v93 m d) (h_main_v94 := at4_main_v94 m d)
theorem at5_main_v112 : B5 m d (Proc.devRef .tc main_v112) = val_main_v112 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  c4_main_v112 (V := B4 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (h_main_arg6 := argAt4 m d main_arg6 (by decide)) (h_main_v1 := at4_main_v1 m d) (h_main_v3 := at4_main_v3 m d) (h_main_v70 := at4_main_v70 m d) (h_main_v93 := at4_main_v93 m d) (h_main_v94 := at4_main_v94 m d)
theorem at5_main_v117 : B5 m d (Proc.devRef .tc main_v117) = val_main_v117 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  c4_main_v117 (V := B4 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (h_main_arg6 := argAt4 m d main_arg6 (by decide)) (h_main_v1 := at4_main_v1 m d) (h_main_v3 := at4_main_v3 m d) (h_main_v70 := at4_main_v70 m d) (h_main_v93 := at4_main_v93 m d) (h_main_v94 := at4_main_v94 m d)
theorem at5_main_v118 : B5 m d (Proc.devRef .tc main_v118) = val_main_v118 (F := Ideal) :=
  c4_main_v118 (V := B4 m d)

theorem at6_main_v134 : B6 m d (Proc.devRef .tc main_v134) = val_main_v134 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  c5_main_v134 (V := B5 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (x9 := m ((d.tc : Thread nD τ).loc main_arg9)) (x10 := m ((d.tc : Thread nD τ).loc main_arg10)) (h_main_arg9 := argAt5 m d main_arg9 (by decide)) (h_main_arg10 := argAt5 m d main_arg10 (by decide)) (h_main_v109 := at5_main_v109 m d) (h_main_v112 := at5_main_v112 m d) (h_main_v117 := at5_main_v117 m d) (h_main_v118 := at5_main_v118 m d)
theorem at6_main_v136 : B6 m d (Proc.devRef .tc main_v136) = val_main_v136 (F := Ideal) (m ((d.tc : Thread nD τ).loc main_arg2)) :=
  c5_main_v136 (V := B5 m d) (x2 := m ((d.tc : Thread nD τ).loc main_arg2)) (h_main_arg2 := argAt5 m d main_arg2 (by decide))
theorem at6_main_v138 : B6 m d (Proc.devRef .tc main_v138) = val_main_v138 (F := Ideal) (m ((d.tc : Thread nD τ).loc main_arg2)) :=
  c5_main_v138 (V := B5 m d) (x2 := m ((d.tc : Thread nD τ).loc main_arg2)) (h_main_arg2 := argAt5 m d main_arg2 (by decide))
theorem at6_main_v139 : B6 m d (Proc.devRef .tc main_v139) = val_main_v139 (F := Ideal) (m ((d.tc : Thread nD τ).loc main_arg0)) (m ((d.tc : Thread nD τ).loc main_arg11)) :=
  c5_main_v139 (V := B5 m d) (x0 := m ((d.tc : Thread nD τ).loc main_arg0)) (x11 := m ((d.tc : Thread nD τ).loc main_arg11)) (h_main_arg0 := argAt5 m d main_arg0 (by decide)) (h_main_arg11 := argAt5 m d main_arg11 (by decide))
theorem at6_main_v143 : B6 m d (Proc.devRef .tc main_v143) = val_main_v143 (F := Ideal) (m ((d.tc : Thread nD τ).loc main_arg2)) :=
  c5_main_v143 (V := B5 m d) (x2 := m ((d.tc : Thread nD τ).loc main_arg2)) (h_main_arg2 := argAt5 m d main_arg2 (by decide))
theorem at6_main_v144 : B6 m d (Proc.devRef .tc main_v144) = val_main_v144 (F := Ideal) :=
  c5_main_v144 (V := B5 m d)

theorem at7_main_v134 : B7 m d (Proc.devRef .tc main_v134) = val_main_v134 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  (keep6 (B6 m d) main_v134 (by decide)).trans (at6_main_v134 m d)
theorem at7_main_v136 : B7 m d (Proc.devRef .tc main_v136) = val_main_v136 (F := Ideal) (m ((d.tc : Thread nD τ).loc main_arg2)) :=
  (keep6 (B6 m d) main_v136 (by decide)).trans (at6_main_v136 m d)
theorem at7_main_v138 : B7 m d (Proc.devRef .tc main_v138) = val_main_v138 (F := Ideal) (m ((d.tc : Thread nD τ).loc main_arg2)) :=
  (keep6 (B6 m d) main_v138 (by decide)).trans (at6_main_v138 m d)
theorem at7_main_v139 : B7 m d (Proc.devRef .tc main_v139) = val_main_v139 (F := Ideal) (m ((d.tc : Thread nD τ).loc main_arg0)) (m ((d.tc : Thread nD τ).loc main_arg11)) :=
  (keep6 (B6 m d) main_v139 (by decide)).trans (at6_main_v139 m d)
theorem at7_main_v162 : B7 m d (Proc.devRef .tc main_v162) = val_main_v162 (F := Ideal) (m ((d.tc : Thread nD τ).loc main_arg2)) :=
  c6_main_v162 (V := B6 m d) (x2 := m ((d.tc : Thread nD τ).loc main_arg2)) (h_main_v136 := at6_main_v136 m d) (h_main_v138 := at6_main_v138 m d) (h_main_v143 := at6_main_v143 m d) (h_main_v144 := at6_main_v144 m d)
theorem at7_main_v167 : B7 m d (Proc.devRef .tc main_v167) = val_main_v167 (F := Ideal) (m ((d.tc : Thread nD τ).loc main_arg2)) :=
  c6_main_v167 (V := B6 m d) (x2 := m ((d.tc : Thread nD τ).loc main_arg2)) (h_main_v136 := at6_main_v136 m d)

theorem at8_main_v134 : B8 m d (Proc.devRef .tc main_v134) = val_main_v134 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  (keep7 (B7 m d) main_v134 (by decide)).trans (at7_main_v134 m d)
theorem at8_main_v136 : B8 m d (Proc.devRef .tc main_v136) = val_main_v136 (F := Ideal) (m ((d.tc : Thread nD τ).loc main_arg2)) :=
  (keep7 (B7 m d) main_v136 (by decide)).trans (at7_main_v136 m d)
theorem at8_main_v138 : B8 m d (Proc.devRef .tc main_v138) = val_main_v138 (F := Ideal) (m ((d.tc : Thread nD τ).loc main_arg2)) :=
  (keep7 (B7 m d) main_v138 (by decide)).trans (at7_main_v138 m d)
theorem at8_main_v189 : B8 m d (Proc.devRef .tc main_v189) = val_main_v189 (F := Ideal) (m ((d.tc : Thread nD τ).loc main_arg0)) (m ((d.tc : Thread nD τ).loc main_arg2)) (m ((d.tc : Thread nD τ).loc main_arg11)) (m ((d.tc : Thread nD τ).loc main_arg12)) :=
  c7_main_v189 (V := B7 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (h_main_arg12 := argAt7 m d main_arg12 (by decide)) (h_main_v138 := at7_main_v138 m d) (h_main_v139 := at7_main_v139 m d) (h_main_v162 := at7_main_v162 m d) (h_main_v167 := at7_main_v167 m d)
theorem at8_main_v192 : B8 m d (Proc.devRef .tc main_v192) = val_main_v192 (F := Ideal) (m ((d.tc : Thread nD τ).loc main_arg0)) (m ((d.tc : Thread nD τ).loc main_arg2)) (m ((d.tc : Thread nD τ).loc main_arg11)) (m ((d.tc : Thread nD τ).loc main_arg12)) :=
  c7_main_v192 (V := B7 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (h_main_arg12 := argAt7 m d main_arg12 (by decide)) (h_main_v138 := at7_main_v138 m d) (h_main_v139 := at7_main_v139 m d) (h_main_v162 := at7_main_v162 m d) (h_main_v167 := at7_main_v167 m d)

theorem at9_main_v134 : B9 m d (Proc.devRef .tc main_v134) = val_main_v134 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  (keep8 (B8 m d) main_v134 (by decide)).trans (at8_main_v134 m d)
theorem at9_main_v136 : B9 m d (Proc.devRef .tc main_v136) = val_main_v136 (F := Ideal) (m ((d.tc : Thread nD τ).loc main_arg2)) :=
  (keep8 (B8 m d) main_v136 (by decide)).trans (at8_main_v136 m d)
theorem at9_main_v138 : B9 m d (Proc.devRef .tc main_v138) = val_main_v138 (F := Ideal) (m ((d.tc : Thread nD τ).loc main_arg2)) :=
  (keep8 (B8 m d) main_v138 (by decide)).trans (at8_main_v138 m d)
theorem at9_main_v205 : B9 m d (Proc.devRef .tc main_v205) = val_main_v205 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg15)) (m ((d.tc : Thread nD τ).loc main_arg16)) :=
  c8_main_v205 (V := B8 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (x13 := m ((d.tc : Thread nD τ).loc main_arg13)) (x15 := m ((d.tc : Thread nD τ).loc main_arg15)) (x16 := m ((d.tc : Thread nD τ).loc main_arg16)) (h_main_arg13 := argAt8 m d main_arg13 (by decide)) (h_main_arg15 := argAt8 m d main_arg15 (by decide)) (h_main_arg16 := argAt8 m d main_arg16 (by decide)) (h_main_v189 := at8_main_v189 m d) (h_main_v192 := at8_main_v192 m d)
theorem at9_main_v213 : B9 m d (Proc.devRef .tc main_v213) = val_main_v213 (F := Ideal) (m ((d.tc : Thread nD τ).loc main_arg2)) :=
  c8_main_v213 (V := B8 m d) (x2 := m ((d.tc : Thread nD τ).loc main_arg2)) (h_main_v138 := at8_main_v138 m d)
theorem at9_main_v215 : B9 m d (Proc.devRef .tc main_v215) = val_main_v215 (F := Ideal) (m ((d.tc : Thread nD τ).loc main_arg2)) :=
  c8_main_v215 (V := B8 m d) (x2 := m ((d.tc : Thread nD τ).loc main_arg2)) (h_main_v136 := at8_main_v136 m d)

theorem at10_main_v134 : B10 m d (Proc.devRef .tc main_v134) = val_main_v134 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  (keep9 (B9 m d) main_v134 (by decide)).trans (at9_main_v134 m d)
theorem at10_main_v238 : B10 m d (Proc.devRef .tc main_v238) = val_main_v238 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg15)) (m ((d.tc : Thread nD τ).loc main_arg16)) :=
  c9_main_v238 (V := B9 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (x13 := m ((d.tc : Thread nD τ).loc main_arg13)) (x15 := m ((d.tc : Thread nD τ).loc main_arg15)) (x16 := m ((d.tc : Thread nD τ).loc main_arg16)) (h_main_v136 := at9_main_v136 m d) (h_main_v138 := at9_main_v138 m d) (h_main_v205 := at9_main_v205 m d) (h_main_v213 := at9_main_v213 m d) (h_main_v215 := at9_main_v215 m d)
theorem at10_main_v239 : B10 m d (Proc.devRef .tc main_v239) = val_main_v239 (F := Ideal) :=
  c9_main_v239 (V := B9 m d)
theorem at10_main_v240 : B10 m d (Proc.devRef .tc main_v240) = val_main_v240 (F := Ideal) (m ((d.tc : Thread nD τ).loc main_arg2)) :=
  c9_main_v240 (V := B9 m d) (x2 := m ((d.tc : Thread nD τ).loc main_arg2)) (h_main_v138 := at9_main_v138 m d)

theorem at11_main_v134 : B11 m d (Proc.devRef .tc main_v134) = val_main_v134 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) :=
  (keep10 (B10 m d) main_v134 (by decide)).trans (at10_main_v134 m d)
theorem at11_main_v266 : B11 m d (Proc.devRef .tc main_v266) = val_main_v266 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) :=
  c10_main_v266 (V := B10 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (x13 := m ((d.tc : Thread nD τ).loc main_arg13)) (x14 := m ((d.tc : Thread nD τ).loc main_arg14)) (x15 := m ((d.tc : Thread nD τ).loc main_arg15)) (x16 := m ((d.tc : Thread nD τ).loc main_arg16)) (x17 := m ((d.tc : Thread nD τ).loc main_arg17)) (h_main_arg14 := argAt10 m d main_arg14 (by decide)) (h_main_arg17 := argAt10 m d main_arg17 (by decide)) (h_main_v238 := at10_main_v238 m d) (h_main_v239 := at10_main_v239 m d) (h_main_v240 := at10_main_v240 m d)
theorem at11_main_v268 : B11 m d (Proc.devRef .tc main_v268) = val_main_v268 (F := Ideal) (m ((d.tc : Thread nD τ).loc main_arg18)) :=
  c10_main_v268 (V := B10 m d) (x18 := m ((d.tc : Thread nD τ).loc main_arg18)) (h_main_arg18 := argAt10 m d main_arg18 (by decide))

theorem at12_main_v278 : B12 m d (Proc.devRef .tc main_v278) = val_main_v278 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg19)) (m ((d.tc : Thread nD τ).loc main_arg20)) (m ((d.tc : Thread nD τ).loc main_arg21)) (m ((d.tc : Thread nD τ).loc main_arg22)) :=
  c11_main_v278 (V := B11 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (x9 := m ((d.tc : Thread nD τ).loc main_arg9)) (x10 := m ((d.tc : Thread nD τ).loc main_arg10)) (x19 := m ((d.tc : Thread nD τ).loc main_arg19)) (x20 := m ((d.tc : Thread nD τ).loc main_arg20)) (x21 := m ((d.tc : Thread nD τ).loc main_arg21)) (x22 := m ((d.tc : Thread nD τ).loc main_arg22)) (h_main_arg19 := argAt11 m d main_arg19 (by decide)) (h_main_arg20 := argAt11 m d main_arg20 (by decide)) (h_main_arg21 := argAt11 m d main_arg21 (by decide)) (h_main_arg22 := argAt11 m d main_arg22 (by decide)) (h_main_v134 := at11_main_v134 m d)
theorem at12_main_v287 : B12 m d (Proc.devRef .tc main_v287) = val_main_v287 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) :=
  c11_main_v287 (V := B11 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (x13 := m ((d.tc : Thread nD τ).loc main_arg13)) (x14 := m ((d.tc : Thread nD τ).loc main_arg14)) (x15 := m ((d.tc : Thread nD τ).loc main_arg15)) (x16 := m ((d.tc : Thread nD τ).loc main_arg16)) (x17 := m ((d.tc : Thread nD τ).loc main_arg17)) (x18 := m ((d.tc : Thread nD τ).loc main_arg18)) (x19 := m ((d.tc : Thread nD τ).loc main_arg19)) (x20 := m ((d.tc : Thread nD τ).loc main_arg20)) (x21 := m ((d.tc : Thread nD τ).loc main_arg21)) (x22 := m ((d.tc : Thread nD τ).loc main_arg22)) (h_main_arg19 := argAt11 m d main_arg19 (by decide)) (h_main_arg20 := argAt11 m d main_arg20 (by decide)) (h_main_arg21 := argAt11 m d main_arg21 (by decide)) (h_main_arg22 := argAt11 m d main_arg22 (by decide)) (h_main_v266 := at11_main_v266 m d) (h_main_v268 := at11_main_v268 m d)
theorem at12_main_v294 : B12 m d (Proc.devRef .tc main_v294) = val_main_v294 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg19)) (m ((d.tc : Thread nD τ).loc main_arg20)) (m ((d.tc : Thread nD τ).loc main_arg21)) (m ((d.tc : Thread nD τ).loc main_arg22)) :=
  c11_main_v294 (V := B11 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (x9 := m ((d.tc : Thread nD τ).loc main_arg9)) (x10 := m ((d.tc : Thread nD τ).loc main_arg10)) (x19 := m ((d.tc : Thread nD τ).loc main_arg19)) (x20 := m ((d.tc : Thread nD τ).loc main_arg20)) (x21 := m ((d.tc : Thread nD τ).loc main_arg21)) (x22 := m ((d.tc : Thread nD τ).loc main_arg22)) (h_main_arg19 := argAt11 m d main_arg19 (by decide)) (h_main_arg20 := argAt11 m d main_arg20 (by decide)) (h_main_arg21 := argAt11 m d main_arg21 (by decide)) (h_main_arg22 := argAt11 m d main_arg22 (by decide)) (h_main_v134 := at11_main_v134 m d)

theorem at13_main_v278 : B13 m d (Proc.devRef .tc main_v278) = val_main_v278 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg19)) (m ((d.tc : Thread nD τ).loc main_arg20)) (m ((d.tc : Thread nD τ).loc main_arg21)) (m ((d.tc : Thread nD τ).loc main_arg22)) :=
  (keep12 (B12 m d) main_v278 (by decide)).trans (at12_main_v278 m d)
theorem at13_main_v287 : B13 m d (Proc.devRef .tc main_v287) = val_main_v287 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) :=
  (keep12 (B12 m d) main_v287 (by decide)).trans (at12_main_v287 m d)
theorem at13_main_v296 : B13 m d (Proc.devRef .tc main_v296) = val_main_v296 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg19)) (m ((d.tc : Thread nD τ).loc main_arg20)) (m ((d.tc : Thread nD τ).loc main_arg21)) (m ((d.tc : Thread nD τ).loc main_arg22)) :=
  c12_main_v296 (V := B12 m d) (x0 := m ((d.tc : Thread nD τ).loc main_arg0)) (x1 := m ((d.tc : Thread nD τ).loc main_arg1)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (x9 := m ((d.tc : Thread nD τ).loc main_arg9)) (x10 := m ((d.tc : Thread nD τ).loc main_arg10)) (x19 := m ((d.tc : Thread nD τ).loc main_arg19)) (x20 := m ((d.tc : Thread nD τ).loc main_arg20)) (x21 := m ((d.tc : Thread nD τ).loc main_arg21)) (x22 := m ((d.tc : Thread nD τ).loc main_arg22)) (h_main_arg22 := argAt12 m d main_arg22 (by decide)) (h_main_v294 := at12_main_v294 m d)
theorem at13_main_v305 : B13 m d (Proc.devRef .tc main_v305) = val_main_v305 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) :=
  c12_main_v305 (V := B12 m d) (x0 := m ((d.tc : Thread nD τ).loc main_arg0)) (x2 := m ((d.tc : Thread nD τ).loc main_arg2)) (x11 := m ((d.tc : Thread nD τ).loc main_arg11)) (x12 := m ((d.tc : Thread nD τ).loc main_arg12)) (x13 := m ((d.tc : Thread nD τ).loc main_arg13)) (x14 := m ((d.tc : Thread nD τ).loc main_arg14)) (x15 := m ((d.tc : Thread nD τ).loc main_arg15)) (x16 := m ((d.tc : Thread nD τ).loc main_arg16)) (x17 := m ((d.tc : Thread nD τ).loc main_arg17)) (x18 := m ((d.tc : Thread nD τ).loc main_arg18)) (x19 := m ((d.tc : Thread nD τ).loc main_arg19)) (x20 := m ((d.tc : Thread nD τ).loc main_arg20)) (x21 := m ((d.tc : Thread nD τ).loc main_arg21)) (x22 := m ((d.tc : Thread nD τ).loc main_arg22)) (h_main_arg19 := argAt12 m d main_arg19 (by decide)) (h_main_arg20 := argAt12 m d main_arg20 (by decide)) (h_main_arg21 := argAt12 m d main_arg21 (by decide)) (h_main_arg22 := argAt12 m d main_arg22 (by decide)) (h_main_v287 := at12_main_v287 m d)
theorem at13_main_v315 : B13 m d (Proc.devRef .tc main_v315) = val_main_v315 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) :=
  c12_main_v315 (V := B12 m d) (x0 := m ((d.tc : Thread nD τ).loc main_arg0)) (x1 := m ((d.tc : Thread nD τ).loc main_arg1)) (x2 := m ((d.tc : Thread nD τ).loc main_arg2)) (x3 := m ((d.tc : Thread nD τ).loc main_arg3)) (x4 := m ((d.tc : Thread nD τ).loc main_arg4)) (x5 := m ((d.tc : Thread nD τ).loc main_arg5)) (x6 := m ((d.tc : Thread nD τ).loc main_arg6)) (x7 := m ((d.tc : Thread nD τ).loc main_arg7)) (x8 := m ((d.tc : Thread nD τ).loc main_arg8)) (x9 := m ((d.tc : Thread nD τ).loc main_arg9)) (x10 := m ((d.tc : Thread nD τ).loc main_arg10)) (x11 := m ((d.tc : Thread nD τ).loc main_arg11)) (x12 := m ((d.tc : Thread nD τ).loc main_arg12)) (x13 := m ((d.tc : Thread nD τ).loc main_arg13)) (x14 := m ((d.tc : Thread nD τ).loc main_arg14)) (x15 := m ((d.tc : Thread nD τ).loc main_arg15)) (x16 := m ((d.tc : Thread nD τ).loc main_arg16)) (x17 := m ((d.tc : Thread nD τ).loc main_arg17)) (x18 := m ((d.tc : Thread nD τ).loc main_arg18)) (x19 := m ((d.tc : Thread nD τ).loc main_arg19)) (x20 := m ((d.tc : Thread nD τ).loc main_arg20)) (x21 := m ((d.tc : Thread nD τ).loc main_arg21)) (x22 := m ((d.tc : Thread nD τ).loc main_arg22)) (x23 := m ((d.tc : Thread nD τ).loc main_arg23)) (x24 := m ((d.tc : Thread nD τ).loc main_arg24)) (x25 := m ((d.tc : Thread nD τ).loc main_arg25)) (x26 := m ((d.tc : Thread nD τ).loc main_arg26)) (h_main_arg23 := argAt12 m d main_arg23 (by decide)) (h_main_arg24 := argAt12 m d main_arg24 (by decide)) (h_main_arg25 := argAt12 m d main_arg25 (by decide)) (h_main_arg26 := argAt12 m d main_arg26 (by decide)) (h_main_v278 := at12_main_v278 m d) (h_main_v287 := at12_main_v287 m d)

theorem res0 : StableHlo.after (Cert.ReferenceIdeal.RefRun.ops (F := Ideal)) (StableHlo.launchContents m d) (Proc.devRef .tc main_v278) = Cert.ReferenceIdeal.ReadS.val_main_v278 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg19)) (m ((d.tc : Thread nD τ).loc main_arg20)) (m ((d.tc : Thread nD τ).loc main_arg21)) (m ((d.tc : Thread nD τ).loc main_arg22)) := by
  rw [after_ops]; exact at13_main_v278 m d
theorem res1 : StableHlo.after (Cert.ReferenceIdeal.RefRun.ops (F := Ideal)) (StableHlo.launchContents m d) (Proc.devRef .tc main_v287) = Cert.ReferenceIdeal.ReadS.val_main_v287 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  rw [after_ops]; exact at13_main_v287 m d
theorem res2 : StableHlo.after (Cert.ReferenceIdeal.RefRun.ops (F := Ideal)) (StableHlo.launchContents m d) (Proc.devRef .tc main_v296) = Cert.ReferenceIdeal.ReadS.val_main_v296 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg19)) (m ((d.tc : Thread nD τ).loc main_arg20)) (m ((d.tc : Thread nD τ).loc main_arg21)) (m ((d.tc : Thread nD τ).loc main_arg22)) := by
  rw [after_ops]; exact at13_main_v296 m d
theorem res3 : StableHlo.after (Cert.ReferenceIdeal.RefRun.ops (F := Ideal)) (StableHlo.launchContents m d) (Proc.devRef .tc main_v305) = Cert.ReferenceIdeal.ReadS.val_main_v305 (F := Ideal) (m ((d.tc : Thread nD τ).loc main_arg0)) (m ((d.tc : Thread nD τ).loc main_arg2)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  rw [after_ops]; exact at13_main_v305 m d
theorem res4 : StableHlo.after (Cert.ReferenceIdeal.RefRun.ops (F := Ideal)) (StableHlo.launchContents m d) (Proc.devRef .tc main_v315) = Cert.ReferenceIdeal.ReadS.val_main_v315 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) := by
  rw [after_ops]; exact at13_main_v315 m d

theorem arg0 : StableHlo.after (Cert.ReferenceIdeal.RefRun.ops (F := Ideal)) (StableHlo.launchContents m d) (Proc.devRef .tc main_arg0) = (m ((d.tc : Thread nD τ).loc main_arg0)) := by
  rw [after_ops]; exact argAt13 m d main_arg0 (by decide)
theorem arg1 : StableHlo.after (Cert.ReferenceIdeal.RefRun.ops (F := Ideal)) (StableHlo.launchContents m d) (Proc.devRef .tc main_arg1) = (m ((d.tc : Thread nD τ).loc main_arg1)) := by
  rw [after_ops]; exact argAt13 m d main_arg1 (by decide)
theorem arg2 : StableHlo.after (Cert.ReferenceIdeal.RefRun.ops (F := Ideal)) (StableHlo.launchContents m d) (Proc.devRef .tc main_arg2) = (m ((d.tc : Thread nD τ).loc main_arg2)) := by
  rw [after_ops]; exact argAt13 m d main_arg2 (by decide)
theorem arg3 : StableHlo.after (Cert.ReferenceIdeal.RefRun.ops (F := Ideal)) (StableHlo.launchContents m d) (Proc.devRef .tc main_arg3) = (m ((d.tc : Thread nD τ).loc main_arg3)) := by
  rw [after_ops]; exact argAt13 m d main_arg3 (by decide)
theorem arg4 : StableHlo.after (Cert.ReferenceIdeal.RefRun.ops (F := Ideal)) (StableHlo.launchContents m d) (Proc.devRef .tc main_arg4) = (m ((d.tc : Thread nD τ).loc main_arg4)) := by
  rw [after_ops]; exact argAt13 m d main_arg4 (by decide)
theorem arg5 : StableHlo.after (Cert.ReferenceIdeal.RefRun.ops (F := Ideal)) (StableHlo.launchContents m d) (Proc.devRef .tc main_arg5) = (m ((d.tc : Thread nD τ).loc main_arg5)) := by
  rw [after_ops]; exact argAt13 m d main_arg5 (by decide)
theorem arg6 : StableHlo.after (Cert.ReferenceIdeal.RefRun.ops (F := Ideal)) (StableHlo.launchContents m d) (Proc.devRef .tc main_arg6) = (m ((d.tc : Thread nD τ).loc main_arg6)) := by
  rw [after_ops]; exact argAt13 m d main_arg6 (by decide)
theorem arg7 : StableHlo.after (Cert.ReferenceIdeal.RefRun.ops (F := Ideal)) (StableHlo.launchContents m d) (Proc.devRef .tc main_arg7) = (m ((d.tc : Thread nD τ).loc main_arg7)) := by
  rw [after_ops]; exact argAt13 m d main_arg7 (by decide)
theorem arg8 : StableHlo.after (Cert.ReferenceIdeal.RefRun.ops (F := Ideal)) (StableHlo.launchContents m d) (Proc.devRef .tc main_arg8) = (m ((d.tc : Thread nD τ).loc main_arg8)) := by
  rw [after_ops]; exact argAt13 m d main_arg8 (by decide)
theorem arg9 : StableHlo.after (Cert.ReferenceIdeal.RefRun.ops (F := Ideal)) (StableHlo.launchContents m d) (Proc.devRef .tc main_arg9) = (m ((d.tc : Thread nD τ).loc main_arg9)) := by
  rw [after_ops]; exact argAt13 m d main_arg9 (by decide)
theorem arg10 : StableHlo.after (Cert.ReferenceIdeal.RefRun.ops (F := Ideal)) (StableHlo.launchContents m d) (Proc.devRef .tc main_arg10) = (m ((d.tc : Thread nD τ).loc main_arg10)) := by
  rw [after_ops]; exact argAt13 m d main_arg10 (by decide)
theorem arg11 : StableHlo.after (Cert.ReferenceIdeal.RefRun.ops (F := Ideal)) (StableHlo.launchContents m d) (Proc.devRef .tc main_arg11) = (m ((d.tc : Thread nD τ).loc main_arg11)) := by
  rw [after_ops]; exact argAt13 m d main_arg11 (by decide)
theorem arg12 : StableHlo.after (Cert.ReferenceIdeal.RefRun.ops (F := Ideal)) (StableHlo.launchContents m d) (Proc.devRef .tc main_arg12) = (m ((d.tc : Thread nD τ).loc main_arg12)) := by
  rw [after_ops]; exact argAt13 m d main_arg12 (by decide)
theorem arg13 : StableHlo.after (Cert.ReferenceIdeal.RefRun.ops (F := Ideal)) (StableHlo.launchContents m d) (Proc.devRef .tc main_arg13) = (m ((d.tc : Thread nD τ).loc main_arg13)) := by
  rw [after_ops]; exact argAt13 m d main_arg13 (by decide)
theorem arg14 : StableHlo.after (Cert.ReferenceIdeal.RefRun.ops (F := Ideal)) (StableHlo.launchContents m d) (Proc.devRef .tc main_arg14) = (m ((d.tc : Thread nD τ).loc main_arg14)) := by
  rw [after_ops]; exact argAt13 m d main_arg14 (by decide)
theorem arg15 : StableHlo.after (Cert.ReferenceIdeal.RefRun.ops (F := Ideal)) (StableHlo.launchContents m d) (Proc.devRef .tc main_arg15) = (m ((d.tc : Thread nD τ).loc main_arg15)) := by
  rw [after_ops]; exact argAt13 m d main_arg15 (by decide)
theorem arg16 : StableHlo.after (Cert.ReferenceIdeal.RefRun.ops (F := Ideal)) (StableHlo.launchContents m d) (Proc.devRef .tc main_arg16) = (m ((d.tc : Thread nD τ).loc main_arg16)) := by
  rw [after_ops]; exact argAt13 m d main_arg16 (by decide)
theorem arg17 : StableHlo.after (Cert.ReferenceIdeal.RefRun.ops (F := Ideal)) (StableHlo.launchContents m d) (Proc.devRef .tc main_arg17) = (m ((d.tc : Thread nD τ).loc main_arg17)) := by
  rw [after_ops]; exact argAt13 m d main_arg17 (by decide)
theorem arg18 : StableHlo.after (Cert.ReferenceIdeal.RefRun.ops (F := Ideal)) (StableHlo.launchContents m d) (Proc.devRef .tc main_arg18) = (m ((d.tc : Thread nD τ).loc main_arg18)) := by
  rw [after_ops]; exact argAt13 m d main_arg18 (by decide)
theorem arg19 : StableHlo.after (Cert.ReferenceIdeal.RefRun.ops (F := Ideal)) (StableHlo.launchContents m d) (Proc.devRef .tc main_arg19) = (m ((d.tc : Thread nD τ).loc main_arg19)) := by
  rw [after_ops]; exact argAt13 m d main_arg19 (by decide)
theorem arg20 : StableHlo.after (Cert.ReferenceIdeal.RefRun.ops (F := Ideal)) (StableHlo.launchContents m d) (Proc.devRef .tc main_arg20) = (m ((d.tc : Thread nD τ).loc main_arg20)) := by
  rw [after_ops]; exact argAt13 m d main_arg20 (by decide)
theorem arg21 : StableHlo.after (Cert.ReferenceIdeal.RefRun.ops (F := Ideal)) (StableHlo.launchContents m d) (Proc.devRef .tc main_arg21) = (m ((d.tc : Thread nD τ).loc main_arg21)) := by
  rw [after_ops]; exact argAt13 m d main_arg21 (by decide)
theorem arg22 : StableHlo.after (Cert.ReferenceIdeal.RefRun.ops (F := Ideal)) (StableHlo.launchContents m d) (Proc.devRef .tc main_arg22) = (m ((d.tc : Thread nD τ).loc main_arg22)) := by
  rw [after_ops]; exact argAt13 m d main_arg22 (by decide)
theorem arg23 : StableHlo.after (Cert.ReferenceIdeal.RefRun.ops (F := Ideal)) (StableHlo.launchContents m d) (Proc.devRef .tc main_arg23) = (m ((d.tc : Thread nD τ).loc main_arg23)) := by
  rw [after_ops]; exact argAt13 m d main_arg23 (by decide)
theorem arg24 : StableHlo.after (Cert.ReferenceIdeal.RefRun.ops (F := Ideal)) (StableHlo.launchContents m d) (Proc.devRef .tc main_arg24) = (m ((d.tc : Thread nD τ).loc main_arg24)) := by
  rw [after_ops]; exact argAt13 m d main_arg24 (by decide)
theorem arg25 : StableHlo.after (Cert.ReferenceIdeal.RefRun.ops (F := Ideal)) (StableHlo.launchContents m d) (Proc.devRef .tc main_arg25) = (m ((d.tc : Thread nD τ).loc main_arg25)) := by
  rw [after_ops]; exact argAt13 m d main_arg25 (by decide)
theorem arg26 : StableHlo.after (Cert.ReferenceIdeal.RefRun.ops (F := Ideal)) (StableHlo.launchContents m d) (Proc.devRef .tc main_arg26) = (m ((d.tc : Thread nD τ).loc main_arg26)) := by
  rw [after_ops]; exact argAt13 m d main_arg26 (by decide)

end Cert.ReferenceIdeal.RefChain

end
-- ==== Proof.RefFold.lean ====
-- The reference's stages (one per host operation) folded, a group at a time, into Spec's functions of the reference's arguments:
-- both sides are the same host operations, so every step unfolds definitions.
import proofs.«125188_j57878979281252_1_alg».proof.Proof.RefStages
import proofs.«125188_j57878979281252_1_alg».proof.Proof.Spec

noncomputable section

namespace Cert.ReferenceIdeal.RefFold

open Cert.ReferenceIdeal Idealize.ShloMosaic Idealize.ShloMosaic.TcCoe Idealize.SL.Sem

section Fold
open Cert.ReferenceIdeal.ReadS

set_option maxHeartbeats 400000 in
theorem fold_srcL (x1 : (⟨S2x1000000, .i32⟩ : BufTy).Contents (Elt Ideal)) :
    val_main_v1 (F := Ideal) x1 = Cert.Spec.src x1 := by
  unfold val_main_v1 val_main_v0
  rfl

set_option maxHeartbeats 400000 in
theorem fold_dstL (x1 : (⟨S2x1000000, .i32⟩ : BufTy).Contents (Elt Ideal)) :
    val_main_v3 (F := Ideal) x1 = Cert.Spec.dst x1 := by
  unfold val_main_v3 val_main_v2
  rfl

set_option maxHeartbeats 400000 in
theorem fold_p256L (x0 : (⟨S100000x256, .f32⟩ : BufTy).Contents (Elt Ideal)) (x3 : (⟨S256x128, .f32⟩ : BufTy).Contents (Elt Ideal)) :
    val_main_v4 (F := Ideal) x0 x3 = Cert.Spec.proj256 x0 x3 := by
  unfold val_main_v4
  rfl

set_option maxHeartbeats 400000 in
theorem fold_deg1L (x1 : (⟨S2x1000000, .i32⟩ : BufTy).Contents (Elt Ideal)) :
    val_main_v8 (F := Ideal) x1 = Cert.Spec.deg (Cert.Spec.dst x1) := by
  unfold val_main_v8 val_main_v7 val_main_v6 val_main_cst_0 val_main_v5 val_main_cst
  rewrite [fold_dstL]
  rfl

set_option maxHeartbeats 400000 in
theorem fold_dinv1L (x1 : (⟨S2x1000000, .i32⟩ : BufTy).Contents (Elt Ideal)) :
    val_main_v12 (F := Ideal) x1 = Cert.Spec.dinv (Cert.Spec.dst x1) := by
  unfold val_main_v12 val_main_call0_v1 val_main_call0_v0 val_main_cst_2 val_main_v11 val_main_v10 val_main_v9 val_main_cst_1
  rewrite [fold_deg1L]
  rfl

set_option maxHeartbeats 400000 in
theorem fold_wrapS1aL (x1 : (⟨S2x1000000, .i32⟩ : BufTy).Contents (Elt Ideal)) :
    val_main_v17 (F := Ideal) x1 = Cert.Spec.wrap (Cert.Spec.src x1) := by
  unfold val_main_v17 val_main_v16 val_main_v15 val_main_c_3 val_main_v14 val_main_v13 val_main_c
  rewrite [fold_srcL]
  rfl

set_option maxHeartbeats 400000 in
theorem fold_wrapD1L (x1 : (⟨S2x1000000, .i32⟩ : BufTy).Contents (Elt Ideal)) :
    val_main_v24 (F := Ideal) x1 = Cert.Spec.wrap (Cert.Spec.dst x1) := by
  unfold val_main_v24 val_main_v23 val_main_v22 val_main_c_5 val_main_v21 val_main_v20 val_main_c_4
  rewrite [fold_dstL]
  rfl

set_option maxHeartbeats 400000 in
theorem fold_norm1L (x1 : (⟨S2x1000000, .i32⟩ : BufTy).Contents (Elt Ideal)) :
    val_main_v27 (F := Ideal) x1 = Cert.Spec.norm (Cert.Spec.src x1) (Cert.Spec.dst x1) := by
  unfold val_main_v27 val_main_v26 val_main_v25 val_main_v19 val_main_v18
  rewrite [fold_dinv1L, fold_wrapS1aL, fold_wrapD1L]
  rfl

set_option maxHeartbeats 400000 in
theorem fold_wrapS1bL (x1 : (⟨S2x1000000, .i32⟩ : BufTy).Contents (Elt Ideal)) :
    val_main_v32 (F := Ideal) x1 = Cert.Spec.wrap (Cert.Spec.src x1) := by
  unfold val_main_v32 val_main_v31 val_main_v30 val_main_c_7 val_main_v29 val_main_v28 val_main_c_6
  rewrite [fold_srcL]
  rfl

set_option maxHeartbeats 400000 in
theorem fold_agg1L (x0 : (⟨S100000x256, .f32⟩ : BufTy).Contents (Elt Ideal)) (x1 : (⟨S2x1000000, .i32⟩ : BufTy).Contents (Elt Ideal)) (x3 : (⟨S256x128, .f32⟩ : BufTy).Contents (Elt Ideal)) :
    val_main_v40 (F := Ideal) x0 x1 x3 = Cert.Spec.agg (Cert.Spec.proj256 x0 x3) (Cert.Spec.src x1) (Cert.Spec.dst x1) := by
  unfold val_main_v40 val_main_v39 val_main_v38 val_main_cst_8 val_main_v37 val_main_v36 val_main_v35 val_main_v34 val_main_v33
  rewrite [fold_p256L, fold_wrapS1bL, fold_norm1L, fold_dstL]
  rfl

set_option maxHeartbeats 400000 in
theorem fold_layer1L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) :
    val_main_v44 (F := Ideal) x0 x1 x3 x4 = Cert.Spec.layer1 x0 x1 x3 x4 := by
  unfold val_main_v44 val_main_call1_v0 val_main_call1_cst val_main_v43 val_main_v42 val_main_v41
  rewrite [fold_agg1L]
  rfl

set_option maxHeartbeats 400000 in
theorem fold_mean1L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) :
    val_main_v47 (F := Ideal) x0 x1 x3 x4 = Cert.Spec.mean (Cert.Spec.layer1 x0 x1 x3 x4) := by
  unfold val_main_v47 val_main_v46 val_main_cst_10 val_main_v45 val_main_cst_9
  rewrite [fold_layer1L]
  rfl

set_option maxHeartbeats 400000 in
theorem fold_var1L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) :
    val_main_v54 (F := Ideal) x0 x1 x3 x4 = Cert.Spec.varAbout (Cert.Spec.layer1 x0 x1 x3 x4) (Cert.Spec.mean (Cert.Spec.layer1 x0 x1 x3 x4)) := by
  unfold val_main_v54 val_main_v53 val_main_cst_12 val_main_v52 val_main_cst_11 val_main_v51 val_main_v50 val_main_v49 val_main_v48
  rewrite [fold_layer1L, fold_mean1L]
  rfl

set_option maxHeartbeats 400000 in
theorem fold_bn1L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x7 : (⟨S128, .f32⟩ : BufTy).Contents (Elt Ideal)) (x8 : (⟨S128, .f32⟩ : BufTy).Contents (Elt Ideal)) :
    val_main_v69 (F := Ideal) x0 x1 x3 x4 x7 x8 = Cert.Spec.bn (Cert.Spec.layer1 x0 x1 x3 x4) x7 x8 := by
  unfold val_main_v69 val_main_v68 val_main_v67 val_main_v66 val_main_v65 val_main_v64 val_main_v63 val_main_v62 val_main_v61 val_main_cst_13 val_main_v60 val_main_v59 val_main_v58 val_main_v57 val_main_v56 val_main_v55
  rewrite [fold_layer1L, fold_mean1L, fold_var1L]
  rfl

set_option maxHeartbeats 400000 in
theorem fold_p128L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x7 : (⟨S128, .f32⟩ : BufTy).Contents (Elt Ideal)) (x8 : (⟨S128, .f32⟩ : BufTy).Contents (Elt Ideal)) :
    val_main_v70 (F := Ideal) x0 x1 x3 x4 x5 x7 x8 = Cert.Spec.proj128 (Cert.Spec.bn (Cert.Spec.layer1 x0 x1 x3 x4) x7 x8) x5 := by
  unfold val_main_v70
  rewrite [fold_bn1L]
  rfl

set_option maxHeartbeats 400000 in
theorem fold_deg2L (x1 : (⟨S2x1000000, .i32⟩ : BufTy).Contents (Elt Ideal)) :
    val_main_v74 (F := Ideal) x1 = Cert.Spec.deg (Cert.Spec.dst x1) := by
  unfold val_main_v74 val_main_v73 val_main_v72 val_main_cst_15 val_main_v71 val_main_cst_14
  rewrite [fold_dstL]
  rfl

set_option maxHeartbeats 400000 in
theorem fold_dinv2L (x1 : (⟨S2x1000000, .i32⟩ : BufTy).Contents (Elt Ideal)) :
    val_main_v78 (F := Ideal) x1 = Cert.Spec.dinv (Cert.Spec.dst x1) := by
  unfold val_main_v78 val_main_call2_v1 val_main_call2_v0 val_main_cst_17 val_main_v77 val_main_v76 val_main_v75 val_main_cst_16
  rewrite [fold_deg2L]
  rfl

set_option maxHeartbeats 400000 in
theorem fold_wrapS2aL (x1 : (⟨S2x1000000, .i32⟩ : BufTy).Contents (Elt Ideal)) :
    val_main_v83 (F := Ideal) x1 = Cert.Spec.wrap (Cert.Spec.src x1) := by
  unfold val_main_v83 val_main_v82 val_main_v81 val_main_c_19 val_main_v80 val_main_v79 val_main_c_18
  rewrite [fold_srcL]
  rfl

set_option maxHeartbeats 400000 in
theorem fold_wrapD2L (x1 : (⟨S2x1000000, .i32⟩ : BufTy).Contents (Elt Ideal)) :
    val_main_v90 (F := Ideal) x1 = Cert.Spec.wrap (Cert.Spec.dst x1) := by
  unfold val_main_v90 val_main_v89 val_main_v88 val_main_c_21 val_main_v87 val_main_v86 val_main_c_20
  rewrite [fold_dstL]
  rfl

set_option maxHeartbeats 400000 in
theorem fold_norm2L (x1 : (⟨S2x1000000, .i32⟩ : BufTy).Contents (Elt Ideal)) :
    val_main_v93 (F := Ideal) x1 = Cert.Spec.norm (Cert.Spec.src x1) (Cert.Spec.dst x1) := by
  unfold val_main_v93 val_main_v92 val_main_v91 val_main_v85 val_main_v84
  rewrite [fold_dinv2L, fold_wrapS2aL, fold_wrapD2L]
  rfl

set_option maxHeartbeats 400000 in
theorem fold_wrapS2bL (x1 : (⟨S2x1000000, .i32⟩ : BufTy).Contents (Elt Ideal)) :
    val_main_v98 (F := Ideal) x1 = Cert.Spec.wrap (Cert.Spec.src x1) := by
  unfold val_main_v98 val_main_v97 val_main_v96 val_main_c_23 val_main_v95 val_main_v94 val_main_c_22
  rewrite [fold_srcL]
  rfl

set_option maxHeartbeats 400000 in
theorem fold_agg2L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x7 : (⟨S128, .f32⟩ : BufTy).Contents (Elt Ideal)) (x8 : (⟨S128, .f32⟩ : BufTy).Contents (Elt Ideal)) :
    val_main_v106 (F := Ideal) x0 x1 x3 x4 x5 x7 x8 = Cert.Spec.agg (Cert.Spec.proj128 (Cert.Spec.bn (Cert.Spec.layer1 x0 x1 x3 x4) x7 x8) x5) (Cert.Spec.src x1) (Cert.Spec.dst x1) := by
  unfold val_main_v106 val_main_v105 val_main_v104 val_main_cst_24 val_main_v103 val_main_v102 val_main_v101 val_main_v100 val_main_v99
  rewrite [fold_p128L, fold_wrapS2bL, fold_norm2L, fold_dstL]
  rfl

set_option maxHeartbeats 400000 in
theorem fold_layer2L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v109 (F := Ideal) x0 x1 x3 x4 x5 x6 x7 x8 = Cert.Spec.layer2 (Cert.Spec.bn (Cert.Spec.layer1 x0 x1 x3 x4) x7 x8) x1 x5 x6 := by
  unfold val_main_v109 val_main_v108 val_main_v107
  rewrite [fold_agg2L]
  rfl

set_option maxHeartbeats 400000 in
theorem fold_mean2L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v112 (F := Ideal) x0 x1 x3 x4 x5 x6 x7 x8 = Cert.Spec.mean (Cert.Spec.layer2 (Cert.Spec.bn (Cert.Spec.layer1 x0 x1 x3 x4) x7 x8) x1 x5 x6) := by
  unfold val_main_v112 val_main_v111 val_main_cst_26 val_main_v110 val_main_cst_25
  rewrite [fold_layer2L]
  rfl

set_option maxHeartbeats 400000 in
theorem fold_var2L (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) :
    val_main_v119 (F := Ideal) x0 x1 x3 x4 x5 x6 x7 x8 = Cert.Spec.varAbout (Cert.Spec.layer2 (Cert.Spec.bn (Cert.Spec.layer1 x0 x1 x3 x4) x7 x8) x1 x5 x6) (Cert.Spec.mean (Cert.Spec.layer2 (Cert.Spec.bn (Cert.Spec.layer1 x0 x1 x3 x4) x7 x8) x1 x5 x6)) := by
  unfold val_main_v119 val_main_v118 val_main_cst_28 val_main_v117 val_main_cst_27 val_main_v116 val_main_v115 val_main_v114 val_main_v113
  rewrite [fold_layer2L, fold_mean2L]
  rfl

set_option maxHeartbeats 400000 in
theorem fold_encL (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) :
    val_main_v134 (F := Ideal) x0 x1 x3 x4 x5 x6 x7 x8 x9 x10 = Cert.Spec.encoder x0 x1 x3 x4 x5 x6 x7 x8 x9 x10 := by
  unfold val_main_v134 val_main_v133 val_main_v132 val_main_v131 val_main_v130 val_main_v129 val_main_v128 val_main_v127 val_main_v126 val_main_cst_29 val_main_v125 val_main_v124 val_main_v123 val_main_v122 val_main_v121 val_main_v120
  rewrite [fold_layer2L, fold_mean2L, fold_var2L]
  rfl

set_option maxHeartbeats 400000 in
theorem fold_srcG (x2 : (⟨S2x1000000, .i32⟩ : BufTy).Contents (Elt Ideal)) :
    val_main_v136 (F := Ideal) x2 = Cert.Spec.src x2 := by
  unfold val_main_v136 val_main_v135
  rfl

set_option maxHeartbeats 400000 in
theorem fold_dstG (x2 : (⟨S2x1000000, .i32⟩ : BufTy).Contents (Elt Ideal)) :
    val_main_v138 (F := Ideal) x2 = Cert.Spec.dst x2 := by
  unfold val_main_v138 val_main_v137
  rfl

set_option maxHeartbeats 400000 in
theorem fold_p256G (x0 : (⟨S100000x256, .f32⟩ : BufTy).Contents (Elt Ideal)) (x11 : (⟨S256x128, .f32⟩ : BufTy).Contents (Elt Ideal)) :
    val_main_v139 (F := Ideal) x0 x11 = Cert.Spec.proj256 x0 x11 := by
  unfold val_main_v139
  rfl

set_option maxHeartbeats 400000 in
theorem fold_deg1G (x2 : (⟨S2x1000000, .i32⟩ : BufTy).Contents (Elt Ideal)) :
    val_main_v143 (F := Ideal) x2 = Cert.Spec.deg (Cert.Spec.dst x2) := by
  unfold val_main_v143 val_main_v142 val_main_v141 val_main_cst_31 val_main_v140 val_main_cst_30
  rewrite [fold_dstG]
  rfl

set_option maxHeartbeats 400000 in
theorem fold_dinv1G (x2 : (⟨S2x1000000, .i32⟩ : BufTy).Contents (Elt Ideal)) :
    val_main_v147 (F := Ideal) x2 = Cert.Spec.dinv (Cert.Spec.dst x2) := by
  unfold val_main_v147 val_main_call3_v1 val_main_call3_v0 val_main_cst_33 val_main_v146 val_main_v145 val_main_v144 val_main_cst_32
  rewrite [fold_deg1G]
  rfl

set_option maxHeartbeats 400000 in
theorem fold_wrapS1aG (x2 : (⟨S2x1000000, .i32⟩ : BufTy).Contents (Elt Ideal)) :
    val_main_v152 (F := Ideal) x2 = Cert.Spec.wrap (Cert.Spec.src x2) := by
  unfold val_main_v152 val_main_v151 val_main_v150 val_main_c_35 val_main_v149 val_main_v148 val_main_c_34
  rewrite [fold_srcG]
  rfl

set_option maxHeartbeats 400000 in
theorem fold_wrapD1G (x2 : (⟨S2x1000000, .i32⟩ : BufTy).Contents (Elt Ideal)) :
    val_main_v159 (F := Ideal) x2 = Cert.Spec.wrap (Cert.Spec.dst x2) := by
  unfold val_main_v159 val_main_v158 val_main_v157 val_main_c_37 val_main_v156 val_main_v155 val_main_c_36
  rewrite [fold_dstG]
  rfl

set_option maxHeartbeats 400000 in
theorem fold_norm1G (x2 : (⟨S2x1000000, .i32⟩ : BufTy).Contents (Elt Ideal)) :
    val_main_v162 (F := Ideal) x2 = Cert.Spec.norm (Cert.Spec.src x2) (Cert.Spec.dst x2) := by
  unfold val_main_v162 val_main_v161 val_main_v160 val_main_v154 val_main_v153
  rewrite [fold_dinv1G, fold_wrapS1aG, fold_wrapD1G]
  rfl

set_option maxHeartbeats 400000 in
theorem fold_wrapS1bG (x2 : (⟨S2x1000000, .i32⟩ : BufTy).Contents (Elt Ideal)) :
    val_main_v167 (F := Ideal) x2 = Cert.Spec.wrap (Cert.Spec.src x2) := by
  unfold val_main_v167 val_main_v166 val_main_v165 val_main_c_39 val_main_v164 val_main_v163 val_main_c_38
  rewrite [fold_srcG]
  rfl

set_option maxHeartbeats 400000 in
theorem fold_agg1G (x0 : (⟨S100000x256, .f32⟩ : BufTy).Contents (Elt Ideal)) (x2 : (⟨S2x1000000, .i32⟩ : BufTy).Contents (Elt Ideal)) (x11 : (⟨S256x128, .f32⟩ : BufTy).Contents (Elt Ideal)) :
    val_main_v175 (F := Ideal) x0 x2 x11 = Cert.Spec.agg (Cert.Spec.proj256 x0 x11) (Cert.Spec.src x2) (Cert.Spec.dst x2) := by
  unfold val_main_v175 val_main_v174 val_main_v173 val_main_cst_40 val_main_v172 val_main_v171 val_main_v170 val_main_v169 val_main_v168
  rewrite [fold_p256G, fold_wrapS1bG, fold_norm1G, fold_dstG]
  rfl

set_option maxHeartbeats 400000 in
theorem fold_layer1G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) :
    val_main_v179 (F := Ideal) x0 x2 x11 x12 = Cert.Spec.layer1 x0 x2 x11 x12 := by
  unfold val_main_v179 val_main_call4_v0 val_main_call4_cst val_main_v178 val_main_v177 val_main_v176
  rewrite [fold_agg1G]
  rfl

set_option maxHeartbeats 400000 in
theorem fold_mean1G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) :
    val_main_v182 (F := Ideal) x0 x2 x11 x12 = Cert.Spec.mean (Cert.Spec.layer1 x0 x2 x11 x12) := by
  unfold val_main_v182 val_main_v181 val_main_cst_42 val_main_v180 val_main_cst_41
  rewrite [fold_layer1G]
  rfl

set_option maxHeartbeats 400000 in
theorem fold_var1G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) :
    val_main_v189 (F := Ideal) x0 x2 x11 x12 = Cert.Spec.varAbout (Cert.Spec.layer1 x0 x2 x11 x12) (Cert.Spec.mean (Cert.Spec.layer1 x0 x2 x11 x12)) := by
  unfold val_main_v189 val_main_v188 val_main_cst_44 val_main_v187 val_main_cst_43 val_main_v186 val_main_v185 val_main_v184 val_main_v183
  rewrite [fold_layer1G, fold_mean1G]
  rfl

set_option maxHeartbeats 400000 in
theorem fold_bn1G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x15 : (⟨S128, .f32⟩ : BufTy).Contents (Elt Ideal)) (x16 : (⟨S128, .f32⟩ : BufTy).Contents (Elt Ideal)) :
    val_main_v204 (F := Ideal) x0 x2 x11 x12 x15 x16 = Cert.Spec.bn (Cert.Spec.layer1 x0 x2 x11 x12) x15 x16 := by
  unfold val_main_v204 val_main_v203 val_main_v202 val_main_v201 val_main_v200 val_main_v199 val_main_v198 val_main_v197 val_main_v196 val_main_cst_45 val_main_v195 val_main_v194 val_main_v193 val_main_v192 val_main_v191 val_main_v190
  rewrite [fold_layer1G, fold_mean1G, fold_var1G]
  rfl

set_option maxHeartbeats 400000 in
theorem fold_p128G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x15 : (⟨S128, .f32⟩ : BufTy).Contents (Elt Ideal)) (x16 : (⟨S128, .f32⟩ : BufTy).Contents (Elt Ideal)) :
    val_main_v205 (F := Ideal) x0 x2 x11 x12 x13 x15 x16 = Cert.Spec.proj128 (Cert.Spec.bn (Cert.Spec.layer1 x0 x2 x11 x12) x15 x16) x13 := by
  unfold val_main_v205
  rewrite [fold_bn1G]
  rfl

set_option maxHeartbeats 400000 in
theorem fold_deg2G (x2 : (⟨S2x1000000, .i32⟩ : BufTy).Contents (Elt Ideal)) :
    val_main_v209 (F := Ideal) x2 = Cert.Spec.deg (Cert.Spec.dst x2) := by
  unfold val_main_v209 val_main_v208 val_main_v207 val_main_cst_47 val_main_v206 val_main_cst_46
  rewrite [fold_dstG]
  rfl

set_option maxHeartbeats 400000 in
theorem fold_dinv2G (x2 : (⟨S2x1000000, .i32⟩ : BufTy).Contents (Elt Ideal)) :
    val_main_v213 (F := Ideal) x2 = Cert.Spec.dinv (Cert.Spec.dst x2) := by
  unfold val_main_v213 val_main_call5_v1 val_main_call5_v0 val_main_cst_49 val_main_v212 val_main_v211 val_main_v210 val_main_cst_48
  rewrite [fold_deg2G]
  rfl

set_option maxHeartbeats 400000 in
theorem fold_wrapS2aG (x2 : (⟨S2x1000000, .i32⟩ : BufTy).Contents (Elt Ideal)) :
    val_main_v218 (F := Ideal) x2 = Cert.Spec.wrap (Cert.Spec.src x2) := by
  unfold val_main_v218 val_main_v217 val_main_v216 val_main_c_51 val_main_v215 val_main_v214 val_main_c_50
  rewrite [fold_srcG]
  rfl

set_option maxHeartbeats 400000 in
theorem fold_wrapD2G (x2 : (⟨S2x1000000, .i32⟩ : BufTy).Contents (Elt Ideal)) :
    val_main_v225 (F := Ideal) x2 = Cert.Spec.wrap (Cert.Spec.dst x2) := by
  unfold val_main_v225 val_main_v224 val_main_v223 val_main_c_53 val_main_v222 val_main_v221 val_main_c_52
  rewrite [fold_dstG]
  rfl

set_option maxHeartbeats 400000 in
theorem fold_norm2G (x2 : (⟨S2x1000000, .i32⟩ : BufTy).Contents (Elt Ideal)) :
    val_main_v228 (F := Ideal) x2 = Cert.Spec.norm (Cert.Spec.src x2) (Cert.Spec.dst x2) := by
  unfold val_main_v228 val_main_v227 val_main_v226 val_main_v220 val_main_v219
  rewrite [fold_dinv2G, fold_wrapS2aG, fold_wrapD2G]
  rfl

set_option maxHeartbeats 400000 in
theorem fold_wrapS2bG (x2 : (⟨S2x1000000, .i32⟩ : BufTy).Contents (Elt Ideal)) :
    val_main_v233 (F := Ideal) x2 = Cert.Spec.wrap (Cert.Spec.src x2) := by
  unfold val_main_v233 val_main_v232 val_main_v231 val_main_c_55 val_main_v230 val_main_v229 val_main_c_54
  rewrite [fold_srcG]
  rfl

set_option maxHeartbeats 400000 in
theorem fold_agg2G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x15 : (⟨S128, .f32⟩ : BufTy).Contents (Elt Ideal)) (x16 : (⟨S128, .f32⟩ : BufTy).Contents (Elt Ideal)) :
    val_main_v241 (F := Ideal) x0 x2 x11 x12 x13 x15 x16 = Cert.Spec.agg (Cert.Spec.proj128 (Cert.Spec.bn (Cert.Spec.layer1 x0 x2 x11 x12) x15 x16) x13) (Cert.Spec.src x2) (Cert.Spec.dst x2) := by
  unfold val_main_v241 val_main_v240 val_main_v239 val_main_cst_56 val_main_v238 val_main_v237 val_main_v236 val_main_v235 val_main_v234
  rewrite [fold_p128G, fold_wrapS2bG, fold_norm2G, fold_dstG]
  rfl

set_option maxHeartbeats 400000 in
theorem fold_layer2G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) :
    val_main_v244 (F := Ideal) x0 x2 x11 x12 x13 x14 x15 x16 = Cert.Spec.layer2 (Cert.Spec.bn (Cert.Spec.layer1 x0 x2 x11 x12) x15 x16) x2 x13 x14 := by
  unfold val_main_v244 val_main_v243 val_main_v242
  rewrite [fold_agg2G]
  rfl

set_option maxHeartbeats 400000 in
theorem fold_mean2G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) :
    val_main_v247 (F := Ideal) x0 x2 x11 x12 x13 x14 x15 x16 = Cert.Spec.mean (Cert.Spec.layer2 (Cert.Spec.bn (Cert.Spec.layer1 x0 x2 x11 x12) x15 x16) x2 x13 x14) := by
  unfold val_main_v247 val_main_v246 val_main_cst_58 val_main_v245 val_main_cst_57
  rewrite [fold_layer2G]
  rfl

set_option maxHeartbeats 400000 in
theorem fold_var2G (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) :
    val_main_v254 (F := Ideal) x0 x2 x11 x12 x13 x14 x15 x16 = Cert.Spec.varAbout (Cert.Spec.layer2 (Cert.Spec.bn (Cert.Spec.layer1 x0 x2 x11 x12) x15 x16) x2 x13 x14) (Cert.Spec.mean (Cert.Spec.layer2 (Cert.Spec.bn (Cert.Spec.layer1 x0 x2 x11 x12) x15 x16) x2 x13 x14)) := by
  unfold val_main_v254 val_main_v253 val_main_cst_60 val_main_v252 val_main_cst_59 val_main_v251 val_main_v250 val_main_v249 val_main_v248
  rewrite [fold_layer2G, fold_mean2G]
  rfl

set_option maxHeartbeats 400000 in
theorem fold_encG (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) :
    val_main_v269 (F := Ideal) x0 x2 x11 x12 x13 x14 x15 x16 x17 x18 = Cert.Spec.encoder x0 x2 x11 x12 x13 x14 x15 x16 x17 x18 := by
  unfold val_main_v269 val_main_v268 val_main_v267 val_main_v266 val_main_v265 val_main_v264 val_main_v263 val_main_v262 val_main_v261 val_main_cst_61 val_main_v260 val_main_v259 val_main_v258 val_main_v257 val_main_v256 val_main_v255
  rewrite [fold_layer2G, fold_mean2G, fold_var2G]
  rfl

set_option maxHeartbeats 400000 in
theorem fold_mlpL (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) :
    val_main_v278 (F := Ideal) x0 x1 x3 x4 x5 x6 x7 x8 x9 x10 x19 x20 x21 x22 = Cert.Spec.mlp (Cert.Spec.encoder x0 x1 x3 x4 x5 x6 x7 x8 x9 x10) x19 x20 x21 x22 := by
  unfold val_main_v278 val_main_v277 val_main_v276 val_main_v275 val_main_v274 val_main_call6_v0 val_main_call6_cst val_main_v273 val_main_v272 val_main_v271 val_main_v270
  rewrite [fold_encL]
  rfl

set_option maxHeartbeats 400000 in
theorem fold_mlpG (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) :
    val_main_v287 (F := Ideal) x0 x2 x11 x12 x13 x14 x15 x16 x17 x18 x19 x20 x21 x22 = Cert.Spec.mlp (Cert.Spec.encoder x0 x2 x11 x12 x13 x14 x15 x16 x17 x18) x19 x20 x21 x22 := by
  unfold val_main_v287 val_main_v286 val_main_v285 val_main_v284 val_main_v283 val_main_call7_v0 val_main_call7_cst val_main_v282 val_main_v281 val_main_v280 val_main_v279
  rewrite [fold_encG]
  rfl

set_option maxHeartbeats 400000 in
theorem fold_pooledL (x0 : (⟨S100000x256, .f32⟩ : BufTy).Contents (Elt Ideal)) (x1 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) :
    val_main_v296 (F := Ideal) x0 x1 x3 x4 x5 x6 x7 x8 x9 x10 x19 x20 x21 x22 = Cert.Spec.pooled (Cert.Spec.mlp (Cert.Spec.encoder x0 x1 x3 x4 x5 x6 x7 x8 x9 x10) x19 x20 x21 x22) x19 x20 x21 x22 := by
  unfold val_main_v296 val_main_v295 val_main_v294 val_main_v293 val_main_call8_v0 val_main_call8_cst val_main_v292 val_main_v291 val_main_v290 val_main_v289 val_main_v288 val_main_cst_62
  rewrite [fold_mlpL]
  rfl

set_option maxHeartbeats 400000 in
theorem fold_pooledG (x0 : (⟨S100000x256, .f32⟩ : BufTy).Contents (Elt Ideal)) (x2 : (⟨S2x1000000, .i32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) :
    val_main_v305 (F := Ideal) x0 x2 x11 x12 x13 x14 x15 x16 x17 x18 x19 x20 x21 x22 = Cert.Spec.pooled (Cert.Spec.mlp (Cert.Spec.encoder x0 x2 x11 x12 x13 x14 x15 x16 x17 x18) x19 x20 x21 x22) x19 x20 x21 x22 := by
  unfold val_main_v305 val_main_v304 val_main_v303 val_main_v302 val_main_call9_v0 val_main_call9_cst val_main_v301 val_main_v300 val_main_v299 val_main_v298 val_main_v297 val_main_cst_63
  rewrite [fold_mlpG]
  rfl

set_option maxHeartbeats 400000 in
theorem fold_npLG (x0 : (⟨S100000x256, .f32⟩ : BufTy).Contents (Elt Ideal)) (x1 : (⟨S2x1000000, .i32⟩ : BufTy).Contents (Elt Ideal)) (x2 : (⟨S2x1000000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x64, .f32⟩ : BufTy).Contents (Elt Ideal)) (x24 : (⟨S64, .f32⟩ : BufTy).Contents (Elt Ideal)) (x25 : (⟨S64x40, .f32⟩ : BufTy).Contents (Elt Ideal)) (x26 : (⟨S40, .f32⟩ : BufTy).Contents (Elt Ideal)) :
    val_main_v315 (F := Ideal) x0 x1 x2 x3 x4 x5 x6 x7 x8 x9 x10 x11 x12 x13 x14 x15 x16 x17 x18 x19 x20 x21 x22 x23 x24 x25 x26 = Cert.Spec.nodePred (Cert.Spec.mlp (Cert.Spec.encoder x0 x1 x3 x4 x5 x6 x7 x8 x9 x10) x19 x20 x21 x22) (Cert.Spec.mlp (Cert.Spec.encoder x0 x2 x11 x12 x13 x14 x15 x16 x17 x18) x19 x20 x21 x22) x23 x24 x25 x26 := by
  unfold val_main_v315 val_main_v314 val_main_v313 val_main_v312 val_main_v311 val_main_call10_v0 val_main_call10_cst val_main_v310 val_main_v309 val_main_v308 val_main_v307 val_main_v306
  rewrite [fold_mlpL, fold_mlpG]
  rfl

end Fold

variable (m : (ℓ : Loc nD τ sig) → Buf (Elt Ideal) ℓ) (c : Dev nD)

abbrev r0 : FVec Ideal S100000x256 .f32 := m ((c.tc : Thread nD τ).loc main_arg0)
abbrev r1 : IVec S2x1000000 32 := m ((c.tc : Thread nD τ).loc main_arg1)
abbrev r2 : IVec S2x1000000 32 := m ((c.tc : Thread nD τ).loc main_arg2)
abbrev r3 : FVec Ideal S256x128 .f32 := m ((c.tc : Thread nD τ).loc main_arg3)
abbrev r4 : FVec Ideal S128 .f32 := m ((c.tc : Thread nD τ).loc main_arg4)
abbrev r5 : FVec Ideal S128x128 .f32 := m ((c.tc : Thread nD τ).loc main_arg5)
abbrev r6 : FVec Ideal S128 .f32 := m ((c.tc : Thread nD τ).loc main_arg6)
abbrev r7 : FVec Ideal S128 .f32 := m ((c.tc : Thread nD τ).loc main_arg7)
abbrev r8 : FVec Ideal S128 .f32 := m ((c.tc : Thread nD τ).loc main_arg8)
abbrev r9 : FVec Ideal S128 .f32 := m ((c.tc : Thread nD τ).loc main_arg9)
abbrev r10 : FVec Ideal S128 .f32 := m ((c.tc : Thread nD τ).loc main_arg10)
abbrev r11 : FVec Ideal S256x128 .f32 := m ((c.tc : Thread nD τ).loc main_arg11)
abbrev r12 : FVec Ideal S128 .f32 := m ((c.tc : Thread nD τ).loc main_arg12)
abbrev r13 : FVec Ideal S128x128 .f32 := m ((c.tc : Thread nD τ).loc main_arg13)
abbrev r14 : FVec Ideal S128 .f32 := m ((c.tc : Thread nD τ).loc main_arg14)
abbrev r15 : FVec Ideal S128 .f32 := m ((c.tc : Thread nD τ).loc main_arg15)
abbrev r16 : FVec Ideal S128 .f32 := m ((c.tc : Thread nD τ).loc main_arg16)
abbrev r17 : FVec Ideal S128 .f32 := m ((c.tc : Thread nD τ).loc main_arg17)
abbrev r18 : FVec Ideal S128 .f32 := m ((c.tc : Thread nD τ).loc main_arg18)
abbrev r19 : FVec Ideal S128x128 .f32 := m ((c.tc : Thread nD τ).loc main_arg19)
abbrev r20 : FVec Ideal S128 .f32 := m ((c.tc : Thread nD τ).loc main_arg20)
abbrev r21 : FVec Ideal S128x128 .f32 := m ((c.tc : Thread nD τ).loc main_arg21)
abbrev r22 : FVec Ideal S128 .f32 := m ((c.tc : Thread nD τ).loc main_arg22)
abbrev r23 : FVec Ideal S128x64 .f32 := m ((c.tc : Thread nD τ).loc main_arg23)
abbrev r24 : FVec Ideal S64 .f32 := m ((c.tc : Thread nD τ).loc main_arg24)
abbrev r25 : FVec Ideal S64x40 .f32 := m ((c.tc : Thread nD τ).loc main_arg25)
abbrev r26 : FVec Ideal S40 .f32 := m ((c.tc : Thread nD τ).loc main_arg26)

def encL : FVec Ideal S100000x128 .f32 := Cert.Spec.encoder (r0 m c) (r1 m c) (r3 m c) (r4 m c) (r5 m c) (r6 m c) (r7 m c) (r8 m c) (r9 m c) (r10 m c)
def encG : FVec Ideal S100000x128 .f32 := Cert.Spec.encoder (r0 m c) (r2 m c) (r11 m c) (r12 m c) (r13 m c) (r14 m c) (r15 m c) (r16 m c) (r17 m c) (r18 m c)
def zL : FVec Ideal S100000x128 .f32 := Cert.Spec.mlp (encL m c) (r19 m c) (r20 m c) (r21 m c) (r22 m c)
def zG : FVec Ideal S100000x128 .f32 := Cert.Spec.mlp (encG m c) (r19 m c) (r20 m c) (r21 m c) (r22 m c)
def gL : FVec Ideal S1x128 .f32 := Cert.Spec.pooled (zL m c) (r19 m c) (r20 m c) (r21 m c) (r22 m c)
def gG : FVec Ideal S1x128 .f32 := Cert.Spec.pooled (zG m c) (r19 m c) (r20 m c) (r21 m c) (r22 m c)
def np : FVec Ideal S100000x40 .f32 := Cert.Spec.nodePred (zL m c) (zG m c) (r23 m c) (r24 m c) (r25 m c) (r26 m c)

theorem fold_out0 : Cert.ReferenceIdeal.ReadS.val_main_v278 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) = zL m c :=
  fold_mlpL _ _ _ _ _ _ _ _ _ _ _ _ _ _

theorem fold_out1 : Cert.ReferenceIdeal.ReadS.val_main_v287 (F := Ideal) (m ((c.tc : Thread nD τ).loc main_arg0)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) = zG m c :=
  fold_mlpG _ _ _ _ _ _ _ _ _ _ _ _ _ _

theorem fold_out2 : Cert.ReferenceIdeal.ReadS.val_main_v296 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22)) = gL m c :=
  fold_pooledL _ _ _ _ _ _ _ _ _ _ _ _ _ _

theorem fold_out3 : Cert.ReferenceIdeal.ReadS.val_main_v305 (F := Ideal) (m ((c.tc : Thread nD τ).loc main_arg0)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) = gG m c :=
  fold_pooledG _ _ _ _ _ _ _ _ _ _ _ _ _ _

theorem fold_out4 : Cert.ReferenceIdeal.ReadS.val_main_v315 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) = np m c :=
  fold_npLG _ _ _ _ _ _ _ _ _ _ _ _ _ _ _ _ _ _ _ _ _ _ _ _ _ _ _

end Cert.ReferenceIdeal.RefFold

end
-- ==== Proof.RefRunValue.lean ====
-- The reference's run with its five results at Spec's functions of its arguments: the run over the operation list, its fold read
-- chunk by chunk as the stage functions, the stage functions folded into Spec.
import proofs.«125188_j57878979281252_1_alg».proof.Proof.RefOps
import proofs.«125188_j57878979281252_1_alg».proof.Proof.RefChain
import proofs.«125188_j57878979281252_1_alg».proof.Proof.RefFold

noncomputable section

namespace Cert.ReferenceIdeal.RefRunValue

open Cert.ReferenceIdeal Cert.ReferenceIdeal.RefFold Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v278) = zL m c
      ∧ r.2.mem ((c.tc : Thread nD τ).loc main_v287) = zG m c
      ∧ r.2.mem ((c.tc : Thread nD τ).loc main_v296) = gL m c
      ∧ r.2.mem ((c.tc : Thread nD τ).loc main_v305) = gG m c
      ∧ r.2.mem ((c.tc : Thread nD τ).loc main_v315) = np m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c =>
    ⟨(h c main_v278).trans ((Cert.ReferenceIdeal.RefChain.res0 m c).trans (fold_out0 m c)),
     (h c main_v287).trans ((Cert.ReferenceIdeal.RefChain.res1 m c).trans (fold_out1 m c)),
     (h c main_v296).trans ((Cert.ReferenceIdeal.RefChain.res2 m c).trans (fold_out2 m c)),
     (h c main_v305).trans ((Cert.ReferenceIdeal.RefChain.res3 m c).trans (fold_out3 m c)),
     (h c main_v315).trans ((Cert.ReferenceIdeal.RefChain.res4 m c).trans (fold_out4 m c)),
     (h c main_arg0).trans (Cert.ReferenceIdeal.RefChain.arg0 m c),
     (h c main_arg1).trans (Cert.ReferenceIdeal.RefChain.arg1 m c),
     (h c main_arg2).trans (Cert.ReferenceIdeal.RefChain.arg2 m c),
     (h c main_arg3).trans (Cert.ReferenceIdeal.RefChain.arg3 m c),
     (h c main_arg4).trans (Cert.ReferenceIdeal.RefChain.arg4 m c),
     (h c main_arg5).trans (Cert.ReferenceIdeal.RefChain.arg5 m c),
     (h c main_arg6).trans (Cert.ReferenceIdeal.RefChain.arg6 m c),
     (h c main_arg7).trans (Cert.ReferenceIdeal.RefChain.arg7 m c),
     (h c main_arg8).trans (Cert.ReferenceIdeal.RefChain.arg8 m c),
     (h c main_arg9).trans (Cert.ReferenceIdeal.RefChain.arg9 m c),
     (h c main_arg10).trans (Cert.ReferenceIdeal.RefChain.arg10 m c),
     (h c main_arg11).trans (Cert.ReferenceIdeal.RefChain.arg11 m c),
     (h c main_arg12).trans (Cert.ReferenceIdeal.RefChain.arg12 m c),
     (h c main_arg13).trans (Cert.ReferenceIdeal.RefChain.arg13 m c),
     (h c main_arg14).trans (Cert.ReferenceIdeal.RefChain.arg14 m c),
     (h c main_arg15).trans (Cert.ReferenceIdeal.RefChain.arg15 m c),
     (h c main_arg16).trans (Cert.ReferenceIdeal.RefChain.arg16 m c),
     (h c main_arg17).trans (Cert.ReferenceIdeal.RefChain.arg17 m c),
     (h c main_arg18).trans (Cert.ReferenceIdeal.RefChain.arg18 m c),
     (h c main_arg19).trans (Cert.ReferenceIdeal.RefChain.arg19 m c),
     (h c main_arg20).trans (Cert.ReferenceIdeal.RefChain.arg20 m c),
     (h c main_arg21).trans (Cert.ReferenceIdeal.RefChain.arg21 m c),
     (h c main_arg22).trans (Cert.ReferenceIdeal.RefChain.arg22 m c),
     (h c main_arg23).trans (Cert.ReferenceIdeal.RefChain.arg23 m c),
     (h c main_arg24).trans (Cert.ReferenceIdeal.RefChain.arg24 m c),
     (h c main_arg25).trans (Cert.ReferenceIdeal.RefChain.arg25 m c),
     (h c main_arg26).trans (Cert.ReferenceIdeal.RefChain.arg26 m c)⟩)
    (Cert.ReferenceIdeal.RefRun.run_mem (F := Ideal) m ρ)

end Cert.ReferenceIdeal.RefRunValue

end
-- ==== Proof.lean ====
-- Both programs compute one network (Spec): two graph-convolution encoders, a shared perceptron on the node embeddings and on
-- their column sums, a classifier on the embeddings' sum. Each run ends at Spec's functions of its own arguments, and the arguments agree.
import proofs.«125188_j57878979281252_1_alg».proof.Defs
import proofs.«125188_j57878979281252_1_alg».proof.Proof.Gen.Kernel
import proofs.«125188_j57878979281252_1_alg».proof.Proof.Gen.Kernel.Skeleton
import proofs.«125188_j57878979281252_1_alg».proof.Proof.Gen.Kernel.Launch
import proofs.«125188_j57878979281252_1_alg».proof.Proof.Gen.Kernel.Points
import proofs.«125188_j57878979281252_1_alg».proof.Proof.FrameK
import proofs.«125188_j57878979281252_1_alg».proof.Proof.Gen.KernelIdeal
import proofs.«125188_j57878979281252_1_alg».proof.Proof.Gen.KernelIdeal.Skeleton
import proofs.«125188_j57878979281252_1_alg».proof.Proof.Gen.KernelIdeal.Launch
import proofs.«125188_j57878979281252_1_alg».proof.Proof.Gen.KernelIdeal.Points
import proofs.«125188_j57878979281252_1_alg».proof.Proof.FrameKI
import proofs.«125188_j57878979281252_1_alg».proof.Proof.Gen.ReferenceIdeal
import proofs.«125188_j57878979281252_1_alg».proof.Proof.Gen.Pre_finite_inputs
import proofs.«125188_j57878979281252_1_alg».proof.Proof.KernelRun
import proofs.«125188_j57878979281252_1_alg».proof.Proof.KStagesH
import proofs.«125188_j57878979281252_1_alg».proof.Proof.RefRunValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2.2.2) (Cert.ReferenceIdeal.RefRunValue.run m ρ)

theorem preserves : Cert.preserves_Kernel_KernelIdeal := trivial

open Cert.KernelIdeal.KVals in
open Cert.KernelIdeal.RunAll in

theorem algebraic : Cert.algebraic_KernelIdeal_ReferenceIdeal := by
  intro m ρ m' ρ' _ hagree
  refine ⟨fun c => zL m c, fun c => zG m c, fun c => gL m c, fun c => gG m c, fun c => np m c, ?_, ?_⟩
  · refine (θ_run Cert.KernelIdeal.defs _ _).mono (fun r h c => ?_) (run_all (F := Ideal) m ρ)
    exact ⟨(mem_eq m ρ r h c Cert.KernelIdeal.main_v222 (by decide)).trans (Cert.KernelIdeal.KStagesH.fin_v222 m ρ c),
      (mem_eq m ρ r h c Cert.KernelIdeal.main_v225 (by decide)).trans (Cert.KernelIdeal.KStagesH.fin_v225 m ρ c),
      (mem_eq m ρ r h c Cert.KernelIdeal.main_v236 (by decide)).trans (Cert.KernelIdeal.KStagesH.fin_v236 m ρ c),
      (mem_eq m ρ r h c Cert.KernelIdeal.main_v243 (by decide)).trans (Cert.KernelIdeal.KStagesH.fin_v243 m ρ c),
      (mem_eq m ρ r h c Cert.KernelIdeal.main_v246 (by decide)).trans (Cert.KernelIdeal.KStagesH.fin_v246 m ρ c),
      (mem_eq m ρ r h c Cert.KernelIdeal.main_arg0 (by decide)).trans (Cert.KernelIdeal.GenP.W39_main_arg0 m ρ c),
      (mem_eq m ρ r h c Cert.KernelIdeal.main_arg1 (by decide)).trans (Cert.KernelIdeal.GenP.W39_main_arg1 m ρ c),
      (mem_eq m ρ r h c Cert.KernelIdeal.main_arg2 (by decide)).trans (Cert.KernelIdeal.GenP.W39_main_arg2 m ρ c),
      (mem_eq m ρ r h c Cert.KernelIdeal.main_arg3 (by decide)).trans (Cert.KernelIdeal.GenP.W39_main_arg3 m ρ c),
      (mem_eq m ρ r h c Cert.KernelIdeal.main_arg4 (by decide)).trans (Cert.KernelIdeal.GenP.W39_main_arg4 m ρ c),
      (mem_eq m ρ r h c Cert.KernelIdeal.main_arg5 (by decide)).trans (Cert.KernelIdeal.GenP.W39_main_arg5 m ρ c),
      (mem_eq m ρ r h c Cert.KernelIdeal.main_arg6 (by decide)).trans (Cert.KernelIdeal.GenP.W39_main_arg6 m ρ c),
      (mem_eq m ρ r h c Cert.KernelIdeal.main_arg7 (by decide)).trans (Cert.KernelIdeal.GenP.W39_main_arg7 m ρ c),
      (mem_eq m ρ r h c Cert.KernelIdeal.main_arg8 (by decide)).trans (Cert.KernelIdeal.GenP.W39_main_arg8 m ρ c),
      (mem_eq m ρ r h c Cert.KernelIdeal.main_arg9 (by decide)).trans (Cert.KernelIdeal.GenP.W39_main_arg9 m ρ c),
      (mem_eq m ρ r h c Cert.KernelIdeal.main_arg10 (by decide)).trans (Cert.KernelIdeal.GenP.W39_main_arg10 m ρ c),
      (mem_eq m ρ r h c Cert.KernelIdeal.main_arg11 (by decide)).trans (Cert.KernelIdeal.GenP.W39_main_arg11 m ρ c),
      (mem_eq m ρ r h c Cert.KernelIdeal.main_arg12 (by decide)).trans (Cert.KernelIdeal.GenP.W39_main_arg12 m ρ c),
      (mem_eq m ρ r h c Cert.KernelIdeal.main_arg13 (by decide)).trans (Cert.KernelIdeal.GenP.W39_main_arg13 m ρ c),
      (mem_eq m ρ r h c Cert.KernelIdeal.main_arg14 (by decide)).trans (Cert.KernelIdeal.GenP.W39_main_arg14 m ρ c),
      (mem_eq m ρ r h c Cert.KernelIdeal.main_arg15 (by decide)).trans (Cert.KernelIdeal.GenP.W39_main_arg15 m ρ c),
      (mem_eq m ρ r h c Cert.KernelIdeal.main_arg16 (by decide)).trans (Cert.KernelIdeal.GenP.W39_main_arg16 m ρ c),
      (mem_eq m ρ r h c Cert.KernelIdeal.main_arg17 (by decide)).trans (Cert.KernelIdeal.GenP.W39_main_arg17 m ρ c),
      (mem_eq m ρ r h c Cert.KernelIdeal.main_arg18 (by decide)).trans (Cert.KernelIdeal.GenP.W39_main_arg18 m ρ c),
      (mem_eq m ρ r h c Cert.KernelIdeal.main_arg19 (by decide)).trans (Cert.KernelIdeal.GenP.W39_main_arg19 m ρ c),
      (mem_eq m ρ r h c Cert.KernelIdeal.main_arg20 (by decide)).trans (Cert.KernelIdeal.GenP.W39_main_arg20 m ρ c),
      (mem_eq m ρ r h c Cert.KernelIdeal.main_arg21 (by decide)).trans (Cert.KernelIdeal.GenP.W39_main_arg21 m ρ c),
      (mem_eq m ρ r h c Cert.KernelIdeal.main_arg22 (by decide)).trans (Cert.KernelIdeal.GenP.W39_main_arg22 m ρ c),
      (mem_eq m ρ r h c Cert.KernelIdeal.main_arg23 (by decide)).trans (Cert.KernelIdeal.GenP.W39_main_arg23 m ρ c),
      (mem_eq m ρ r h c Cert.KernelIdeal.main_arg24 (by decide)).trans (Cert.KernelIdeal.GenP.W39_main_arg24 m ρ c),
      (mem_eq m ρ r h c Cert.KernelIdeal.main_arg25 (by decide)).trans (Cert.KernelIdeal.GenP.W39_main_arg25 m ρ c),
      (mem_eq m ρ r h c Cert.KernelIdeal.main_arg26 (by decide)).trans (Cert.KernelIdeal.GenP.W39_main_arg26 m ρ c)⟩
  · refine (θ_run Cert.ReferenceIdeal.defs _ _).mono (fun r h c => ?_) (Cert.ReferenceIdeal.RefRunValue.run m' ρ')
    obtain ⟨e0, e1, e2, e3, e4, e5, e6, e7, e8, e9, e10, e11, e12, e13, e14, e15, e16, e17, e18, e19, e20, e21, e22, e23, e24, e25, e26⟩ := hagree c
    obtain ⟨h0, h1, h2, h3, h4, hargs⟩ := h c

    have ag : Cert.ReferenceIdeal.RefFold.zL m' c = zL m c ∧ Cert.ReferenceIdeal.RefFold.zG m' c = zG m c
        ∧ Cert.ReferenceIdeal.RefFold.gL m' c = gL m c ∧ Cert.ReferenceIdeal.RefFold.gG m' c = gG m c
        ∧ Cert.ReferenceIdeal.RefFold.np m' c = np m c := by
      refine ⟨?_, ?_, ?_, ?_, ?_⟩ <;>
        (simp only [Cert.ReferenceIdeal.RefFold.zL, Cert.ReferenceIdeal.RefFold.zG, Cert.ReferenceIdeal.RefFold.gL,
          Cert.ReferenceIdeal.RefFold.gG, Cert.ReferenceIdeal.RefFold.np, Cert.ReferenceIdeal.RefFold.encL,
          Cert.ReferenceIdeal.RefFold.encG, Cert.ReferenceIdeal.RefFold.r0, Cert.ReferenceIdeal.RefFold.r1, Cert.ReferenceIdeal.RefFold.r2, Cert.ReferenceIdeal.RefFold.r3, Cert.ReferenceIdeal.RefFold.r4, Cert.ReferenceIdeal.RefFold.r5, Cert.ReferenceIdeal.RefFold.r6, Cert.ReferenceIdeal.RefFold.r7, Cert.ReferenceIdeal.RefFold.r8, Cert.ReferenceIdeal.RefFold.r9, Cert.ReferenceIdeal.RefFold.r10, Cert.ReferenceIdeal.RefFold.r11, Cert.ReferenceIdeal.RefFold.r12, Cert.ReferenceIdeal.RefFold.r13, Cert.ReferenceIdeal.RefFold.r14, Cert.ReferenceIdeal.RefFold.r15, Cert.ReferenceIdeal.RefFold.r16, Cert.ReferenceIdeal.RefFold.r17, Cert.ReferenceIdeal.RefFold.r18, Cert.ReferenceIdeal.RefFold.r19, Cert.ReferenceIdeal.RefFold.r20, Cert.ReferenceIdeal.RefFold.r21, Cert.ReferenceIdeal.RefFold.r22, Cert.ReferenceIdeal.RefFold.r23, Cert.ReferenceIdeal.RefFold.r24, Cert.ReferenceIdeal.RefFold.r25, Cert.ReferenceIdeal.RefFold.r26,
          zL, zG, gL, gG, np, encL, encG, a0, a1, a2, a3, a4, a5, a6, a7, a8, a9, a10, a11, a12, a13, a14, a15, a16, a17, a18, a19, a20, a21, a22, a23, a24, a25, a26,
          e0, e1, e2, e3, e4, e5, e6, e7, e8, e9, e10, e11, e12, e13, e14, e15, e16, e17, e18, e19, e20, e21, e22, e23, e24, e25, e26]) <;> rfl
    exact ⟨h0.trans ag.1, h1.trans ag.2.1, h2.trans ag.2.2.1, h3.trans ag.2.2.2.1, h4.trans ag.2.2.2.2, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
